-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v59) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x1024 : Shape := ⟨3, ![1, 512, 1024]⟩
abbrev S1024x1024 : Shape := ⟨2, ![1024, 1024]⟩
abbrev S1x2048x16x128 : Shape := ⟨4, ![1, 2048, 16, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_

variable [Facts]

def fn_part1 {F : FTy → Type} [FloatOps F] (main_arg4 : FVec F S1x2048x16x128 .f32) (main_v13 : IVec S_ 1) (main_v16 : IVec S1x2048x16x128 1) : IVec S_ 1 :=
  let main_c_5 : IVec S_ 1 := constantI S_ 1 1#1
  let main_v17 : IVec S_ 1 := (fun x v => Host.reduce IntOp.andi x v reducesTo_S1x2048x16x128_S_d0_1_2_3 h_S_) main_v16 main_c_5
  let main_v18 : IVec S_ 1 := andi main_v13 main_v17
  let main_v19 : FVec F S1x2048x16x128 .f32 := Host.absf main_arg4
  let main_cst_6 : FVec F S_ .f32 := constant S_ .f32 0x7F800000#32
  let main_v20 : FVec F S1x2048x16x128 .f32 := broadcastInDim S1x2048x16x128 ![] bcast_S_S1x2048x16x128 main_cst_6
  let main_v21 : IVec S1x2048x16x128 1 := cmpf .olt main_v19 main_v20
  let main_c_7 : IVec S_ 1 := constantI S_ 1 1#1
  let main_v22 : IVec S_ 1 := (fun x v => Host.reduce IntOp.andi x v reducesTo_S1x2048x16x128_S_d0_1_2_3 h_S_) main_v21 main_c_7
  let main_v23 : IVec S_ 1 := andi main_v18 main_v22
  main_v23

def fn {F : FTy → Type} [FloatOps F] (main_arg0 : FVec F S1x512x1024 .f32) (main_arg1 : FVec F S1024x1024 .f32) (main_arg2 : FVec F S1024x1024 .f32) (main_arg3 : FVec F S1x2048x16x128 .f32) (main_arg4 : FVec F S1x2048x16x128 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x2048x16x128 .f32 := Host.absf main_arg3
  let main_cst_4 : FVec F S_ .f32 := constant S_ .f32 0x7F800000#32
  let main_v15 : FVec F S1x2048x16x128 .f32 := broadcastInDim S1x2048x16x128 ![] bcast_S_S1x2048x16x128 main_cst_4
  let main_v16 : IVec S1x2048x16x128 1 := cmpf .olt main_v14 main_v15
  fn_part1 (F := F) main_arg4 main_v13 main_v16
-- ==== Pre_finite_inputs_ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S1x2048x16x128 : Shape := ⟨4, ![1, 2048, 16, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_

variable [Facts]

def fn_part1 {F : FTy → Type} [FloatOps F] (main_arg4 : FVec F S1x2048x16x128 .f32) (main_v13 : IVec S_ 1) (main_v16 : IVec S1x2048x16x128 1) : IVec S_ 1 :=
  let main_c_5 : IVec S_ 1 := constantI S_ 1 1#1
  let main_v17 : IVec S_ 1 := (fun x v => Host.reduce IntOp.andi x v reducesTo_S1x2048x16x128_S_d0_1_2_3 h_S_) main_v16 main_c_5
  let main_v18 : IVec S_ 1 := andi main_v13 main_v17
  let main_v19 : FVec F S1x2048x16x128 .f32 := Host.absf main_arg4
  let main_cst_6 : FVec F S_ .f32 := constant S_ .f32 0x7F800000#32
  let main_v20 : FVec F S1x2048x16x128 .f32 := broadcastInDim S1x2048x16x128 ![] bcast_S_S1x2048x16x128 main_cst_6
  let main_v21 : IVec S1x2048x16x128 1 := cmpf .olt main_v19 main_v20
  let main_c_7 : IVec S_ 1 := constantI S_ 1 1#1
  let main_v22 : IVec S_ 1 := (fun x v => Host.reduce IntOp.andi x v reducesTo_S1x2048x16x128_S_d0_1_2_3 h_S_) main_v21 main_c_7
  let main_v23 : IVec S_ 1 := andi main_v18 main_v22
  main_v23

def fn {F : FTy → Type} [FloatOps F] (main_arg0 : FVec F S1x512x1024 .f32) (main_arg1 : FVec F S1024x8192 .f32) (main_arg2 : FVec F S8192x1024 .f32) (main_arg3 : FVec F S1x2048x16x128 .f32) (main_arg4 : FVec F S1x2048x16x128 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1x2048x16x128 .f32 := Host.absf main_arg3
  let main_cst_4 : FVec F S_ .f32 := constant S_ .f32 0x7F800000#32
  let main_v15 : FVec F S1x2048x16x128 .f32 := broadcastInDim S1x2048x16x128 ![] bcast_S_S1x2048x16x128 main_cst_4
  let main_v16 : IVec S1x2048x16x128 1 := cmpf .olt main_v14 main_v15
  fn_part1 (F := F) main_arg4 main_v13 main_v16
-- ==== Kernel.lean ====
abbrev S1x512x1024 : Shape := ⟨3, ![1, 512, 1024]⟩
abbrev S1024x1024 : Shape := ⟨2, ![1024, 1024]⟩
abbrev S1x2048x16x128 : Shape := ⟨4, ![1, 2048, 16, 128]⟩
abbrev S2x2x2048x128 : Shape := ⟨4, ![2, 2, 2048, 128]⟩
abbrev S512x1024 : Shape := ⟨2, ![512, 1024]⟩
abbrev S4x64x1024 : Shape := ⟨3, ![4, 64, 1024]⟩
abbrev S3x64x1024 : Shape := ⟨3, ![3, 64, 1024]⟩
abbrev S64x1024 : Shape := ⟨2, ![64, 1024]⟩
abbrev S7x64x1024 : Shape := ⟨3, ![7, 64, 1024]⟩
abbrev S4 : Shape := ⟨1, ![4]⟩
abbrev S3 : Shape := ⟨1, ![3]⟩
abbrev S7 : Shape := ⟨1, ![7]⟩
abbrev S1 : Shape := ⟨1, ![1]⟩
abbrev S_ : Shape := ⟨0, ![]⟩
abbrev S1x1x2048x128 : Shape := ⟨4, ![1, 1, 2048, 128]⟩
abbrev S2048x128 : Shape := ⟨2, ![2048, 128]⟩
abbrev S1x2048x1x128 : Shape := ⟨4, ![1, 2048, 1, 128]⟩
abbrev S64x512 : Shape := ⟨2, ![64, 512]⟩
abbrev S64x4x128 : Shape := ⟨3, ![64, 4, 128]⟩
abbrev S4x64x128 : Shape := ⟨3, ![4, 64, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S1x64x1024 : Shape := ⟨3, ![1, 64, 1024]⟩

abbrev nBuf : Space → Nat
  | .hbm => 6
  | .vmem => 15
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1x2048x16x128, .f32⟩
  | .hbm, ⟨4, _⟩ => ⟨S1x2048x16x128, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x512x1024, .f32⟩
  | .local _ .vmem, ⟨4, _⟩ => ⟨S2x2x2048x128, .f32⟩
  | .local _ .vmem, ⟨5, _⟩ => ⟨S1024x1024, .bf16⟩
  | .local _ .vmem, ⟨6, _⟩ => ⟨S1024x1024, .bf16⟩
  | .local _ .vmem, ⟨7, _⟩ => ⟨S2x2x2048x128, .bf16⟩
  | .local _ .vmem, ⟨8, _⟩ => ⟨S512x1024, .bf16⟩
  | .local _ .vmem, ⟨9, _⟩ => ⟨S4x64x1024, .bf16⟩
  | .local _ .vmem, ⟨10, _⟩ => ⟨S4x64x1024, .bf16⟩
  | .local _ .vmem, ⟨11, _⟩ => ⟨S3x64x1024, .bf16⟩
  | .local _ .vmem, ⟨12, _⟩ => ⟨S3x64x1024, .bf16⟩
  | .local _ .vmem, ⟨13, _⟩ => ⟨S64x1024, .bf16⟩
  | .local _ .vmem, ⟨14, _⟩ => ⟨S7x64x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c0_i32_5 : BitVec 32 := 0#32
  let c0_i32_11 : BitVec 32 := 0#32
  let c2_i32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.muli c2_i32 v2
  let v9 : BitVec 32 := Scalar.addi v8 c0_i32
  let c0_i32_12 : BitVec 32 := 0#32
  ![0, 0, v9.toNat, 0]
def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_43 : BitVec 32 := 1#32
  let v41 : BitVec 32 := Scalar.muli v7 c1_i32_43
  let v42 : BitVec 32 := Scalar.addi c0_i32_44 v41
  v42.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_46 : BitVec 32 := 1#32
  let v43 : BitVec 32 := Scalar.muli v4 c1_i32_46
  let v44 : BitVec 32 := Scalar.addi c0_i32_47 v43
  v44.toNat
def k0_off2 (d0 : Dev nD) (c4_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : BitVec 32 := Scalar.addi v2 c4_i32
  let c16_i32 : BitVec 32 := 16#32
  let v98 : BitVec 32 := Scalar.addi v97 c16_i32
  let c8_i32_104 : BitVec 32 := 8#32
  let v99 : BitVec 32 := Scalar.remsi v98 c8_i32_104
  let c64_i32 : BitVec 32 := 64#32
  let v100 : BitVec 32 := Scalar.muli v99 c64_i32
  let v101 : Index := Scalar.indexCast v100
  let c0_105 : Index := 0#32
  ![v101.toNat, 0]
def k0_off3 (d0 : Dev nD) (c4_i32 : BitVec 32) : Fin 3 → Nat :=
  let c0_132 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v97 : BitVec 32 := Scalar.addi v2 c4_i32
  let c16_i32 : BitVec 32 := 16#32
  let v98 : BitVec 32 := Scalar.addi v97 c16_i32
  let c8_i32_104 : BitVec 32 := 8#32
  let v99 : BitVec 32 := Scalar.remsi v98 c8_i32_104
  let c64_i32 : BitVec 32 := 64#32
  let v100 : BitVec 32 := Scalar.muli v99 c64_i32
  let v150 : Index := Scalar.indexCast v100
  let c0_133 : Index := 0#32
  ![0, v150.toNat, 0]
def k0_off4 (d0 : Dev nD) (c3_i32_134 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : BitVec 32 := Scalar.subi v2 c3_i32_134
  let c16_i32_135 : BitVec 32 := 16#32
  let v155 : BitVec 32 := Scalar.addi v154 c16_i32_135
  let c8_i32_136 : BitVec 32 := 8#32
  let v156 : BitVec 32 := Scalar.remsi v155 c8_i32_136
  let c64_i32_137 : BitVec 32 := 64#32
  let v157 : BitVec 32 := Scalar.muli v156 c64_i32_137
  let v158 : Index := Scalar.indexCast v157
  let c0_138 : Index := 0#32
  ![v158.toNat, 0]
def k0_off5 (d0 : Dev nD) (c3_i32_134 : BitVec 32) : Fin 3 → Nat :=
  let c0_166 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : BitVec 32 := Scalar.subi v2 c3_i32_134
  let c16_i32_135 : BitVec 32 := 16#32
  let v155 : BitVec 32 := Scalar.addi v154 c16_i32_135
  let c8_i32_136 : BitVec 32 := 8#32
  let v156 : BitVec 32 := Scalar.remsi v155 c8_i32_136
  let c64_i32_137 : BitVec 32 := 64#32
  let v157 : BitVec 32 := Scalar.muli v156 c64_i32_137
  let v207 : Index := Scalar.indexCast v157
  let c0_167 : Index := 0#32
  ![0, v207.toNat, 0]
def k0_off6 (d0 : Dev nD) (c0_i32_169 : BitVec 32) : Fin 3 → Nat :=
  let c0_173 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_168 : BitVec 32 := 4#32
  let v211 : BitVec 32 := Scalar.addi v2 c4_i32_168
  let v212 : BitVec 32 := Scalar.subi v211 c0_i32_169
  let c16_i32_170 : BitVec 32 := 16#32
  let v213 : BitVec 32 := Scalar.addi v212 c16_i32_170
  let c8_i32_171 : BitVec 32 := 8#32
  let v214 : BitVec 32 := Scalar.remsi v213 c8_i32_171
  let c64_i32_172 : BitVec 32 := 64#32
  let v215 : BitVec 32 := Scalar.muli v214 c64_i32_172
  let v216 : Index := Scalar.indexCast v215
  let c0_174 : Index := 0#32
  ![0, v216.toNat, 0]
def k0_dev3 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_182 : BitVec 32 := 1#32
  let v223 : BitVec 32 := Scalar.muli v4 c1_i32_182
  let v224 : BitVec 32 := Scalar.addi c0_i32_183 v223
  v224.toNat
def k0_off7 (d0 : Dev nD) (c0_i32_189 : BitVec 32) : Fin 3 → Nat :=
  let c0_193 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_188 : BitVec 32 := 3#32
  let v233 : BitVec 32 := Scalar.subi v2 c3_i32_188
  let v234 : BitVec 32 := Scalar.addi v233 c0_i32_189
  let c16_i32_190 : BitVec 32 := 16#32
  let v235 : BitVec 32 := Scalar.addi v234 c16_i32_190
  let c8_i32_191 : BitVec 32 := 8#32
  let v236 : BitVec 32 := Scalar.remsi v235 c8_i32_191
  let c64_i32_192 : BitVec 32 := 64#32
  let v237 : BitVec 32 := Scalar.muli v236 c64_i32_192
  let v238 : Index := Scalar.indexCast v237
  let c0_194 : Index := 0#32
  ![0, v238.toNat, 0]
def k0_dev4 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_202 : BitVec 32 := 1#32
  let v245 : BitVec 32 := Scalar.muli v7 c1_i32_202
  let v246 : BitVec 32 := Scalar.addi c0_i32_203 v245
  v246.toNat
def k0_dev5 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_331 : BitVec 32 := 1#32
  let v413 : BitVec 32 := Scalar.muli v4 c1_i32_331
  let v414 : BitVec 32 := Scalar.addi c0_i32_332 v413
  v414.toNat
def k0_dev6 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_354 : BitVec 32 := 1#32
  let v439 : BitVec 32 := Scalar.muli v7 c1_i32_354
  let v440 : BitVec 32 := Scalar.addi c0_i32_355 v439
  v440.toNat
def k0_dev7 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_482 : BitVec 32 := 1#32
  let v607 : BitVec 32 := Scalar.muli v4 c1_i32_482
  let v608 : BitVec 32 := Scalar.addi c0_i32_483 v607
  v608.toNat
def k0_dev8 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_505 : BitVec 32 := 1#32
  let v633 : BitVec 32 := Scalar.muli v7 c1_i32_505
  let v634 : BitVec 32 := Scalar.addi c0_i32_506 v633
  v634.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_545 : BitVec 32 := 16#32
  let v700 : BitVec 32 := Scalar.addi v2 c16_i32_545
  let c8_i32_546 : BitVec 32 := 8#32
  let v701 : BitVec 32 := Scalar.remsi v700 c8_i32_546
  let c64_i32_547 : BitVec 32 := 64#32
  let v702 : BitVec 32 := Scalar.muli v701 c64_i32_547
  let v703 : Index := Scalar.indexCast v702
  let c0_548 : Index := 0#32
  ![v703.toNat, 0]
def k0_off9 (d0 : Dev nD) : Fin 3 → Nat :=
  let c0_576 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_545 : BitVec 32 := 16#32
  let v700 : BitVec 32 := Scalar.addi v2 c16_i32_545
  let c8_i32_546 : BitVec 32 := 8#32
  let v701 : BitVec 32 := Scalar.remsi v700 c8_i32_546
  let c64_i32_547 : BitVec 32 := 64#32
  let v702 : BitVec 32 := Scalar.muli v701 c64_i32_547
  let v752 : Index := Scalar.indexCast v702
  let c0_577 : Index := 0#32
  ![0, v752.toNat, 0]
def k0_dev9 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_632 : BitVec 32 := 1#32
  let v800 : BitVec 32 := Scalar.muli v4 c1_i32_632
  let v801 : BitVec 32 := Scalar.addi c0_i32_633 v800
  v801.toNat
def k0_dev10 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_677 : BitVec 32 := 1#32
  let v852 : BitVec 32 := Scalar.addi v2 c1_i32_677
  let c8_i32_678 : BitVec 32 := 8#32
  let v853 : BitVec 32 := Scalar.remsi v852 c8_i32_678
  let c1_i32_682 : BitVec 32 := 1#32
  let v854 : BitVec 32 := Scalar.muli v853 c1_i32_682
  let v855 : BitVec 32 := Scalar.addi c0_i32_683 v854
  v855.toNat
def k0_dev11 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_686 : BitVec 32 := 2#32
  let v862 : BitVec 32 := Scalar.addi v2 c2_i32_686
  let c8_i32_687 : BitVec 32 := 8#32
  let v863 : BitVec 32 := Scalar.remsi v862 c8_i32_687
  let c1_i32_691 : BitVec 32 := 1#32
  let v864 : BitVec 32 := Scalar.muli v863 c1_i32_691
  let v865 : BitVec 32 := Scalar.addi c0_i32_692 v864
  v865.toNat
def k0_dev12 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_695 : BitVec 32 := 3#32
  let v872 : BitVec 32 := Scalar.addi v2 c3_i32_695
  let c8_i32_696 : BitVec 32 := 8#32
  let v873 : BitVec 32 := Scalar.remsi v872 c8_i32_696
  let c1_i32_700 : BitVec 32 := 1#32
  let v874 : BitVec 32 := Scalar.muli v873 c1_i32_700
  let v875 : BitVec 32 := Scalar.addi c0_i32_701 v874
  v875.toNat
def k0_dev13 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_704 : BitVec 32 := 4#32
  let v882 : BitVec 32 := Scalar.addi v2 c4_i32_704
  let c8_i32_705 : BitVec 32 := 8#32
  let v883 : BitVec 32 := Scalar.remsi v882 c8_i32_705
  let c1_i32_709 : BitVec 32 := 1#32
  let v884 : BitVec 32 := Scalar.muli v883 c1_i32_709
  let v885 : BitVec 32 := Scalar.addi c0_i32_710 v884
  v885.toNat
def k0_dev14 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v892 : BitVec 32 := Scalar.addi v2 c5_i32
  let c8_i32_713 : BitVec 32 := 8#32
  let v893 : BitVec 32 := Scalar.remsi v892 c8_i32_713
  let c1_i32_717 : BitVec 32 := 1#32
  let v894 : BitVec 32 := Scalar.muli v893 c1_i32_717
  let v895 : BitVec 32 := Scalar.addi c0_i32_718 v894
  v895.toNat
def k0_dev15 (d0 : Dev nD) : Nat :=
  let c0_i32_726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v902 : BitVec 32 := Scalar.addi v2 c6_i32
  let c8_i32_721 : BitVec 32 := 8#32
  let v903 : BitVec 32 := Scalar.remsi v902 c8_i32_721
  let c1_i32_725 : BitVec 32 := 1#32
  let v904 : BitVec 32 := Scalar.muli v903 c1_i32_725
  let v905 : BitVec 32 := Scalar.addi c0_i32_726 v904
  v905.toNat
def k0_dev16 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v912 : BitVec 32 := Scalar.addi v2 c7_i32
  let c8_i32_729 : BitVec 32 := 8#32
  let v913 : BitVec 32 := Scalar.remsi v912 c8_i32_729
  let c1_i32_733 : BitVec 32 := 1#32
  let v914 : BitVec 32 := Scalar.muli v913 c1_i32_733
  let v915 : BitVec 32 := Scalar.addi c0_i32_734 v914
  v915.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  inb_S4_S1_0 : ∀ a, (![0] : Fin 1 → Nat) a + S1.size a ≤ S4.size a
  squeezes_S1_S_ : S1.Squeezes S_
  inb_S2x2x2048x128_S1x1x2048x128_0_0_0_0 : ∀ a, (![0, 0, 0, 0] : Fin 4 → Nat) a + S1x1x2048x128.size a ≤ S2x2x2048x128.size a
  squeezes_S1x1x2048x128_S2048x128 : S1x1x2048x128.Squeezes S2048x128
  squeezes_S1x2048x1x128_S2048x128 : S1x2048x1x128.Squeezes S2048x128
  inb_S4_S1_1 : ∀ a, (![1] : Fin 1 → Nat) a + S1.size a ≤ S4.size a
  inb_S2x2x2048x128_S1x1x2048x128_0_1_0_0 : ∀ a, (![0, 1, 0, 0] : Fin 4 → Nat) a + S1x1x2048x128.size a ≤ S2x2x2048x128.size a
  inb_S4_S1_2 : ∀ a, (![2] : Fin 1 → Nat) a + S1.size a ≤ S4.size a
  inb_S2x2x2048x128_S1x1x2048x128_1_0_0_0 : ∀ a, (![1, 0, 0, 0] : Fin 4 → Nat) a + S1x1x2048x128.size a ≤ S2x2x2048x128.size a
  inb_S4_S1_3 : ∀ a, (![3] : Fin 1 → Nat) a + S1.size a ≤ S4.size a
  inb_S2x2x2048x128_S1x1x2048x128_1_1_0_0 : ∀ a, (![1, 1, 0, 0] : Fin 4 → Nat) a + S1x1x2048x128.size a ≤ S2x2x2048x128.size a
  hamt_1 : (1#32 : BitVec 32).msb = false
  hamt_2 : (2#32 : BitVec 32).msb = false
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S2x2x2048x128_S2x2x2048x128_0_0_0_0 : ∀ a, (![0, 0, 0, 0] : Fin 4 → Nat) a + S2x2x2048x128.size a ≤ S2x2x2048x128.size a
  h_S2x2x2048x128 : 0 < S2x2x2048x128.numel
  shapeCasts_S2x2x2048x128_S2x2x2048x128 : S2x2x2048x128.ShapeCasts S2x2x2048x128
  packedbf16_S2x2x2048x128_S2x2x2048x128_0_0_0_0 : (Rect.unit (s := S2x2x2048x128) ![0, 0, 0, 0] S2x2x2048x128.size inb_S2x2x2048x128_S2x2x2048x128_0_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  h_S64x1024 : 0 < S64x1024.numel
  slices_S64x1024_o0_0_S64x512 : S64x1024.Slices ![0, 0] S64x512
  shapeCasts_S64x512_S64x4x128 : S64x512.ShapeCasts S64x4x128
  transposes_S64x4x128_p1_0_2_S4x64x128 : S64x4x128.Transposes [1, 0, 2] S4x64x128
  shapeCasts_S4x64x128_S256x128 : S4x64x128.ShapeCasts S256x128
  h_S1x1x2048x128 : 0 < S1x1x2048x128.numel
  shapeCasts_S1x1x2048x128_S2048x128 : S1x1x2048x128.ShapeCasts S2048x128
  reduces_S256x2048_S256 : S256x2048.Reduces [1] S256
  shapeCasts_S256_S256x1 : S256.ShapeCasts S256x1
  broadcasts_S256x1_S256x128 : S256x1.Broadcasts S256x128
  shapeCasts_S256x128_S4x64x128 : S256x128.ShapeCasts S4x64x128
  transposes_S4x64x128_p1_0_2_S64x4x128 : S4x64x128.Transposes [1, 0, 2] S64x4x128
  shapeCasts_S64x4x128_S64x512 : S64x4x128.ShapeCasts S64x512
  slices_S64x1024_o0_512_S64x512 : S64x1024.Slices ![0, 512] S64x512
  concatenates_S64x512_S64x512_S64x1024_d1 : Shape.Concatenates [S64x512, S64x512] S64x1024 1
  h_S1x64x1024 : 0 < S1x64x1024.numel
  shapeCasts_S1x64x1024_S64x1024 : S1x64x1024.ShapeCasts S64x1024
  shapeCasts_S64x1024_S1x64x1024 : S64x1024.ShapeCasts S1x64x1024
  inb_S4x64x1024_S1x64x1024_0_0_0 : ∀ a, (![0, 0, 0] : Fin 3 → Nat) a + S1x64x1024.size a ≤ S4x64x1024.size a
  packedbf16_S4x64x1024_S1x64x1024_0_0_0 : (Rect.unit (s := S4x64x1024) ![0, 0, 0] S1x64x1024.size inb_S4x64x1024_S1x64x1024_0_0_0).PackedRows (EltTy.packing .bf16)
  squeezes_S1x64x1024_S64x1024 : S1x64x1024.Squeezes S64x1024
  wordsbf16_S4x64x1024_S1x64x1024_0_0_0 : (Rect.unit (s := S4x64x1024) ![0, 0, 0] S1x64x1024.size inb_S4x64x1024_S1x64x1024_0_0_0).WholeWords (EltTy.packing .bf16)
  inb_S3x64x1024_S1x64x1024_0_0_0 : ∀ a, (![0, 0, 0] : Fin 3 → Nat) a + S1x64x1024.size a ≤ S3x64x1024.size a
  packedbf16_S3x64x1024_S1x64x1024_0_0_0 : (Rect.unit (s := S3x64x1024) ![0, 0, 0] S1x64x1024.size inb_S3x64x1024_S1x64x1024_0_0_0).PackedRows (EltTy.packing .bf16)
  inb_S3_S1_0 : ∀ a, (![0] : Fin 1 → Nat) a + S1.size a ≤ S3.size a
  wordsbf16_S3x64x1024_S1x64x1024_0_0_0 : (Rect.unit (s := S3x64x1024) ![0, 0, 0] S1x64x1024.size inb_S3x64x1024_S1x64x1024_0_0_0).WholeWords (EltTy.packing .bf16)
  inb_S4x64x1024_S1x64x1024_1_0_0 : ∀ a, (![1, 0, 0] : Fin 3 → Nat) a + S1x64x1024.size a ≤ S4x64x1024.size a
  packedbf16_S4x64x1024_S1x64x1024_1_0_0 : (Rect.unit (s := S4x64x1024) ![1, 0, 0] S1x64x1024.size inb_S4x64x1024_S1x64x1024_1_0_0).PackedRows (EltTy.packing .bf16)
  wordsbf16_S4x64x1024_S1x64x1024_1_0_0 : (Rect.unit (s := S4x64x1024) ![1, 0, 0] S1x64x1024.size inb_S4x64x1024_S1x64x1024_1_0_0).WholeWords (EltTy.packing .bf16)
  inb_S3x64x1024_S1x64x1024_1_0_0 : ∀ a, (![1, 0, 0] : Fin 3 → Nat) a + S1x64x1024.size a ≤ S3x64x1024.size a
  packedbf16_S3x64x1024_S1x64x1024_1_0_0 : (Rect.unit (s := S3x64x1024) ![1, 0, 0] S1x64x1024.size inb_S3x64x1024_S1x64x1024_1_0_0).PackedRows (EltTy.packing .bf16)
  inb_S3_S1_1 : ∀ a, (![1] : Fin 1 → Nat) a + S1.size a ≤ S3.size a
  wordsbf16_S3x64x1024_S1x64x1024_1_0_0 : (Rect.unit (s := S3x64x1024) ![1, 0, 0] S1x64x1024.size inb_S3x64x1024_S1x64x1024_1_0_0).WholeWords (EltTy.packing .bf16)
  inb_S4x64x1024_S1x64x1024_2_0_0 : ∀ a, (![2, 0, 0] : Fin 3 → Nat) a + S1x64x1024.size a ≤ S4x64x1024.size a
  packedbf16_S4x64x1024_S1x64x1024_2_0_0 : (Rect.unit (s := S4x64x1024) ![2, 0, 0] S1x64x1024.size inb_S4x64x1024_S1x64x1024_2_0_0).PackedRows (EltTy.packing .bf16)
  wordsbf16_S4x64x1024_S1x64x1024_2_0_0 : (Rect.unit (s := S4x64x1024) ![2, 0, 0] S1x64x1024.size inb_S4x64x1024_S1x64x1024_2_0_0).WholeWords (EltTy.packing .bf16)
  inb_S3x64x1024_S1x64x1024_2_0_0 : ∀ a, (![2, 0, 0] : Fin 3 → Nat) a + S1x64x1024.size a ≤ S3x64x1024.size a
  packedbf16_S3x64x1024_S1x64x1024_2_0_0 : (Rect.unit (s := S3x64x1024) ![2, 0, 0] S1x64x1024.size inb_S3x64x1024_S1x64x1024_2_0_0).PackedRows (EltTy.packing .bf16)
  inb_S3_S1_2 : ∀ a, (![2] : Fin 1 → Nat) a + S1.size a ≤ S3.size a
  wordsbf16_S3x64x1024_S1x64x1024_2_0_0 : (Rect.unit (s := S3x64x1024) ![2, 0, 0] S1x64x1024.size inb_S3x64x1024_S1x64x1024_2_0_0).WholeWords (EltTy.packing .bf16)
  inb_S4x64x1024_S1x64x1024_3_0_0 : ∀ a, (![3, 0, 0] : Fin 3 → Nat) a + S1x64x1024.size a ≤ S4x64x1024.size a
  packedbf16_S4x64x1024_S1x64x1024_3_0_0 : (Rect.unit (s := S4x64x1024) ![3, 0, 0] S1x64x1024.size inb_S4x64x1024_S1x64x1024_3_0_0).PackedRows (EltTy.packing .bf16)
  wordsbf16_S4x64x1024_S1x64x1024_3_0_0 : (Rect.unit (s := S4x64x1024) ![3, 0, 0] S1x64x1024.size inb_S4x64x1024_S1x64x1024_3_0_0).WholeWords (EltTy.packing .bf16)
  inb_S64x1024_S64x1024_0_0 : ∀ a, (![0, 0] : Fin 2 → Nat) a + S64x1024.size a ≤ S64x1024.size a
  shapeCasts_S64x1024_S64x1024 : S64x1024.ShapeCasts S64x1024
  packedbf16_S64x1024_S64x1024_0_0 : (Rect.unit (s := S64x1024) ![0, 0] S64x1024.size inb_S64x1024_S64x1024_0_0).PackedRows (EltTy.packing .bf16)
  inb_S7_S1_0 : ∀ a, (![0] : Fin 1 → Nat) a + S1.size a ≤ S7.size a
  inb_S7x64x1024_S1x64x1024_0_0_0 : ∀ a, (![0, 0, 0] : Fin 3 → Nat) a + S1x64x1024.size a ≤ S7x64x1024.size a
  wordsbf16_S7x64x1024_S1x64x1024_0_0_0 : (Rect.unit (s := S7x64x1024) ![0, 0, 0] S1x64x1024.size inb_S7x64x1024_S1x64x1024_0_0_0).WholeWords (EltTy.packing .bf16)
  inb_S7_S1_1 : ∀ a, (![1] : Fin 1 → Nat) a + S1.size a ≤ S7.size a
  inb_S7x64x1024_S1x64x1024_1_0_0 : ∀ a, (![1, 0, 0] : Fin 3 → Nat) a + S1x64x1024.size a ≤ S7x64x1024.size a
  wordsbf16_S7x64x1024_S1x64x1024_1_0_0 : (Rect.unit (s := S7x64x1024) ![1, 0, 0] S1x64x1024.size inb_S7x64x1024_S1x64x1024_1_0_0).WholeWords (EltTy.packing .bf16)
  inb_S7_S1_2 : ∀ a, (![2] : Fin 1 → Nat) a + S1.size a ≤ S7.size a
  inb_S7x64x1024_S1x64x1024_2_0_0 : ∀ a, (![2, 0, 0] : Fin 3 → Nat) a + S1x64x1024.size a ≤ S7x64x1024.size a
  wordsbf16_S7x64x1024_S1x64x1024_2_0_0 : (Rect.unit (s := S7x64x1024) ![2, 0, 0] S1x64x1024.size inb_S7x64x1024_S1x64x1024_2_0_0).WholeWords (EltTy.packing .bf16)
  inb_S7_S1_3 : ∀ a, (![3] : Fin 1 → Nat) a + S1.size a ≤ S7.size a
  inb_S7x64x1024_S1x64x1024_3_0_0 : ∀ a, (![3, 0, 0] : Fin 3 → Nat) a + S1x64x1024.size a ≤ S7x64x1024.size a
  wordsbf16_S7x64x1024_S1x64x1024_3_0_0 : (Rect.unit (s := S7x64x1024) ![3, 0, 0] S1x64x1024.size inb_S7x64x1024_S1x64x1024_3_0_0).WholeWords (EltTy.packing .bf16)
  inb_S7_S1_4 : ∀ a, (![4] : Fin 1 → Nat) a + S1.size a ≤ S7.size a
  inb_S7x64x1024_S1x64x1024_4_0_0 : ∀ a, (![4, 0, 0] : Fin 3 → Nat) a + S1x64x1024.size a ≤ S7x64x1024.size a
  wordsbf16_S7x64x1024_S1x64x1024_4_0_0 : (Rect.unit (s := S7x64x1024) ![4, 0, 0] S1x64x1024.size inb_S7x64x1024_S1x64x1024_4_0_0).WholeWords (EltTy.packing .bf16)
  inb_S7_S1_5 : ∀ a, (![5] : Fin 1 → Nat) a + S1.size a ≤ S7.size a
  inb_S7x64x1024_S1x64x1024_5_0_0 : ∀ a, (![5, 0, 0] : Fin 3 → Nat) a + S1x64x1024.size a ≤ S7x64x1024.size a
  wordsbf16_S7x64x1024_S1x64x1024_5_0_0 : (Rect.unit (s := S7x64x1024) ![5, 0, 0] S1x64x1024.size inb_S7x64x1024_S1x64x1024_5_0_0).WholeWords (EltTy.packing .bf16)
  inb_S7_S1_6 : ∀ a, (![6] : Fin 1 → Nat) a + S1.size a ≤ S7.size a
  inb_S7x64x1024_S1x64x1024_6_0_0 : ∀ a, (![6, 0, 0] : Fin 3 → Nat) a + S1x64x1024.size a ≤ S7x64x1024.size a
  wordsbf16_S7x64x1024_S1x64x1024_6_0_0 : (Rect.unit (s := S7x64x1024) ![6, 0, 0] S1x64x1024.size inb_S7x64x1024_S1x64x1024_6_0_0).WholeWords (EltTy.packing .bf16)
  dot_S512x1024_S1024x1024_S512x1024_1_0_0_1_n_n_wf : DotDims.WF S512x1024 S1024x1024 S512x1024 [1] [0] [0] [1] [] []
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  dot_S64x1024_S1024x1024_S64x1024_1_0_0_1_n_n_wf : DotDims.WF S64x1024 S1024x1024 S64x1024 [1] [0] [0] [1] [] []
  hcc0_scratch11 : 4 + S4.numel ≤ 36
  hcc0_scratch12 : 8 + S4.numel ≤ 36
  hcc0_scratch13 : 12 + S4.numel ≤ 36
  hcc0_scratch14 : 16 + S3.numel ≤ 36
  hcc0_scratch15 : 19 + S3.numel ≤ 36
  hcc0_scratch16 : 22 + S7.numel ≤ 36
  hcc0_scratch17 : 29 + S7.numel ≤ 36
  k0_off1_inb : ∀ d0 : Dev nD, ∀ (r : Fin 2), ∀ a, (k0_off1 d0 (BitVec.ofNat 32 r.val)) a + S1x2048x1x128.size a ≤ S1x2048x16x128.size a
  k0_dev1_lt : ∀ d0 : Dev nD, (k0_dev1 d0) < nD
  k0_dev2_lt : ∀ d0 : Dev nD, (k0_dev2 d0) < nD
  k0_off2_inb : ∀ d0 : Dev nD, ∀ (r : Fin 4), ∀ a, (k0_off2 d0 (BitVec.ofNat 32 (1 + r.val))) a + S64x1024.size a ≤ S512x1024.size a
  k0_off3_inb : ∀ d0 : Dev nD, ∀ (r : Fin 4), ∀ a, (k0_off3 d0 (BitVec.ofNat 32 (1 + r.val))) a + S1x64x1024.size a ≤ S1x512x1024.size a
  k0_off4_inb : ∀ d0 : Dev nD, ∀ (r : Fin 3), ∀ a, (k0_off4 d0 (BitVec.ofNat 32 (1 + r.val))) a + S64x1024.size a ≤ S512x1024.size a
  k0_off5_inb : ∀ d0 : Dev nD, ∀ (r : Fin 7), ∀ a, (k0_off5 d0 (BitVec.ofNat 32 (1 + r.val))) a + S1x64x1024.size a ≤ S1x512x1024.size a
  k0_off6_inb : ∀ d0 : Dev nD, ∀ (r : Fin 4), ∀ a, (k0_off6 d0 (BitVec.ofNat 32 r.val)) a + S1x64x1024.size a ≤ S1x512x1024.size a
  k0_dev3_lt : ∀ d0 : Dev nD, (k0_dev3 d0) < nD
  k0_off7_inb : ∀ d0 : Dev nD, ∀ (r : Fin 3), ∀ a, (k0_off7 d0 (BitVec.ofNat 32 r.val)) a + S1x64x1024.size a ≤ S1x512x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off8_inb : ∀ d0 : Dev nD, ∀ a, (k0_off8 d0) a + S64x1024.size a ≤ S512x1024.size a
  k0_off9_inb : ∀ d0 : Dev nD, ∀ a, (k0_off9 d0) a + S1x64x1024.size a ≤ S1x512x1024.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch11 : DmaSems sig S4 := SemArray.consecutive 4 S4 hcc0_scratch11
abbrev cc0_scratch12 : DmaSems sig S4 := SemArray.consecutive 8 S4 hcc0_scratch12
abbrev cc0_scratch13 : DmaSems sig S4 := SemArray.consecutive 12 S4 hcc0_scratch13
abbrev cc0_scratch14 : DmaSems sig S3 := SemArray.consecutive 16 S3 hcc0_scratch14
abbrev cc0_scratch15 : DmaSems sig S3 := SemArray.consecutive 19 S3 hcc0_scratch15
abbrev cc0_scratch16 : DmaSems sig S7 := SemArray.consecutive 22 S7 hcc0_scratch16
abbrev cc0_scratch17 : DmaSems sig S7 := SemArray.consecutive 29 S7 hcc0_scratch17
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x512x1024 : Shape := ⟨3, ![1, 512, 1024]⟩
abbrev S1024x8192 : Shape := ⟨2, ![1024, 8192]⟩
abbrev S8192x1024 : Shape := ⟨2, ![8192, 1024]⟩
abbrev S1x2048x16x128 : Shape := ⟨4, ![1, 2048, 16, 128]⟩
abbrev S1x512x8192 : Shape := ⟨3, ![1, 512, 8192]⟩
abbrev S1x512x64x128 : Shape := ⟨4, ![1, 512, 64, 128]⟩
abbrev S1x2048x16x4x128 : Shape := ⟨5, ![1, 2048, 16, 4, 128]⟩
abbrev S1x2048x64x128 : Shape := ⟨4, ![1, 2048, 64, 128]⟩
abbrev S_ : Shape := ⟨0, ![]⟩
abbrev S1x64x512x1 : Shape := ⟨4, ![1, 64, 512, 1]⟩
abbrev S1x1024x64x128 : Shape := ⟨4, ![1, 1024, 64, 128]⟩
abbrev S1x64x512x1024 : Shape := ⟨4, ![1, 64, 512, 1024]⟩
abbrev S1x64x512 : Shape := ⟨3, ![1, 64, 512]⟩
abbrev S1x512x64x1 : Shape := ⟨4, ![1, 512, 64, 1]⟩
abbrev S1x64x128x512 : Shape := ⟨4, ![1, 64, 128, 512]⟩

abbrev nBuf : Space → Nat
  | .hbm => 74
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x8192, .f32⟩
  | .hbm, ⟨2, _⟩ => ⟨S8192x1024, .f32⟩
  | .hbm, ⟨3, _⟩ => ⟨S1x2048x16x128, .f32⟩
  | .hbm, ⟨4, _⟩ => ⟨S1x2048x16x128, .f32⟩
  | .hbm, ⟨5, _⟩ => ⟨S1x512x8192, .f32⟩
  | .hbm, ⟨6, _⟩ => ⟨S1x512x64x128, .f32⟩
  | .hbm, ⟨7, _⟩ => ⟨S1x2048x16x4x128, .f32⟩
  | .hbm, ⟨8, _⟩ => ⟨S1x2048x64x128, .f32⟩
  | .hbm, ⟨9, _⟩ => ⟨S1x2048x16x4x128, .f32⟩
  | .hbm, ⟨10, _⟩ => ⟨S1x2048x64x128, .f32⟩
  | .hbm, ⟨11, _⟩ => ⟨S_, .f32⟩
  | .hbm, ⟨12, _⟩ => ⟨S1x512x64x128, .f32⟩
  | .hbm, ⟨13, _⟩ => ⟨S_, .f32⟩
  | .hbm, ⟨14, _⟩ => ⟨S1x64x512x1, .f32⟩
  | .hbm, ⟨15, _⟩ => ⟨S_, .f32⟩
  | .hbm, ⟨16, _⟩ => ⟨S1x64x512x1, .f32⟩
  | .hbm, ⟨17, _⟩ => ⟨S1x1024x64x128, .f32⟩
  | .hbm, ⟨18, _⟩ => ⟨S1x1024x64x128, .f32⟩
  | .hbm, ⟨19, _⟩ => ⟨S1x64x512x1024, .f32⟩
  | .hbm, ⟨20, _⟩ => ⟨S_, .f32⟩
  | .hbm, ⟨21, _⟩ => ⟨S1x64x512x1024, .f32⟩
  | .hbm, ⟨22, _⟩ => ⟨S1x64x512x1024, .f32⟩
  | .hbm, ⟨23, _⟩ => ⟨S_, .f32⟩
  | .hbm, ⟨24, _⟩ => ⟨S1x64x512, .f32⟩
  | .hbm, ⟨25, _⟩ => ⟨S1x64x512x1, .f32⟩
  | .hbm, ⟨26, _⟩ => ⟨S1x64x512x1, .f32⟩
  | .hbm, ⟨27, _⟩ => ⟨S1x64x512x1, .f32⟩
  | .hbm, ⟨28, _⟩ => ⟨S1x64x512x1, .f32⟩
  | .hbm, ⟨29, _⟩ => ⟨S1x64x512x1024, .f32⟩
  | .hbm, ⟨30, _⟩ => ⟨S1x64x512x1024, .f32⟩
  | .hbm, ⟨31, _⟩ => ⟨S1x64x512x1024, .f32⟩
  | .hbm, ⟨32, _⟩ => ⟨S1x64x512x1, .f32⟩
  | .hbm, ⟨33, _⟩ => ⟨S_, .f32⟩
  | .hbm, ⟨34, _⟩ => ⟨S1x64x512, .f32⟩
  | .hbm, ⟨35, _⟩ => ⟨S1x64x512x1, .f32⟩
  | .hbm, ⟨36, _⟩ => ⟨S1x64x512x1, .f32⟩
  | .hbm, ⟨37, _⟩ => ⟨S1x512x64x1, .f32⟩
  | .hbm, ⟨38, _⟩ => ⟨S1x512x64x128, .f32⟩
  | .hbm, ⟨39, _⟩ => ⟨S1x512x64x128, .f32⟩
  | .hbm, ⟨40, _⟩ => ⟨S1x64x128x512, .f32⟩
  | .hbm, ⟨41, _⟩ => ⟨S1x512x64x128, .f32⟩
  | .hbm, ⟨42, _⟩ => ⟨S1x512x64x128, .f32⟩
  | .hbm, ⟨43, _⟩ => ⟨S1x1024x64x128, .f32⟩
  | .hbm, ⟨44, _⟩ => ⟨S1x1024x64x128, .f32⟩
  | .hbm, ⟨45, _⟩ => ⟨S1x64x512x1024, .f32⟩
  | .hbm, ⟨46, _⟩ => ⟨S_, .f32⟩
  | .hbm, ⟨47, _⟩ => ⟨S1x64x512x1024, .f32⟩
  | .hbm, ⟨48, _⟩ => ⟨S1x64x512x1024, .f32⟩
  | .hbm, ⟨49, _⟩ => ⟨S_, .f32⟩
  | .hbm, ⟨50, _⟩ => ⟨S1x64x512, .f32⟩
  | .hbm, ⟨51, _⟩ => ⟨S1x64x512x1, .f32⟩
  | .hbm, ⟨52, _⟩ => ⟨S1x64x512x1, .f32⟩
  | .hbm, ⟨53, _⟩ => ⟨S1x64x512x1, .f32⟩
  | .hbm, ⟨54, _⟩ => ⟨S1x64x512x1, .f32⟩
  | .hbm, ⟨55, _⟩ => ⟨S1x64x512x1024, .f32⟩
  | .hbm, ⟨56, _⟩ => ⟨S1x64x512x1024, .f32⟩
  | .hbm, ⟨57, _⟩ => ⟨S1x64x512x1024, .f32⟩
  | .hbm, ⟨58, _⟩ => ⟨S1x64x512x1, .f32⟩
  | .hbm, ⟨59, _⟩ => ⟨S_, .f32⟩
  | .hbm, ⟨60, _⟩ => ⟨S1x64x512, .f32⟩
  | .hbm, ⟨61, _⟩ => ⟨S1x64x512x1, .f32⟩
  | .hbm, ⟨62, _⟩ => ⟨S1x64x512x1, .f32⟩
  | .hbm, ⟨63, _⟩ => ⟨S1x512x64x1, .f32⟩
  | .hbm, ⟨64, _⟩ => ⟨S1x512x64x128, .f32⟩
  | .hbm, ⟨65, _⟩ => ⟨S1x512x64x128, .f32⟩
  | .hbm, ⟨66, _⟩ => ⟨S1x64x128x512, .f32⟩
  | .hbm, ⟨67, _⟩ => ⟨S1x512x64x128, .f32⟩
  | .hbm, ⟨68, _⟩ => ⟨S1x512x64x128, .f32⟩
  | .hbm, ⟨69, _⟩ => ⟨S1x512x64x1, .f32⟩
  | .hbm, ⟨70, _⟩ => ⟨S1x512x64x128, .f32⟩
  | .hbm, ⟨71, _⟩ => ⟨S1x512x64x128, .f32⟩
  | .hbm, ⟨72, _⟩ => ⟨S1x512x8192, .f32⟩
  | .hbm, ⟨73, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]

class Facts₀ : Prop where
  shapeCasts_S1x512x8192_S1x512x64x128 : S1x512x8192.ShapeCasts S1x512x64x128
  bcast_S1x2048x16x128_S1x2048x16x4x128_0_1_2_4 : S1x2048x16x128.BroadcastsInDim S1x2048x16x4x128 (![0, 1, 2, 4] : Fin 4 → Fin S1x2048x16x4x128.rank)
  shapeCasts_S1x2048x16x4x128_S1x2048x64x128 : S1x2048x16x4x128.ShapeCasts S1x2048x64x128
  bcast_S_S1x512x64x128 : S_.BroadcastsInDim S1x512x64x128 (![] : Fin 0 → Fin S1x512x64x128.rank)
  bcast_S_S1x64x512x1 : S_.BroadcastsInDim S1x64x512x1 (![] : Fin 0 → Fin S1x64x512x1.rank)
  slices_S1x2048x64x128_S1x1024x64x128_0_0_0_0 : S1x2048x64x128.Slices ![0, 0, 0, 0] S1x1024x64x128
  bcast_S_S1x64x512x1024 : S_.BroadcastsInDim S1x64x512x1024 (![] : Fin 0 → Fin S1x64x512x1024.rank)
  reducesTo_S1x64x512x1024_S1x64x512_d3 : S1x64x512x1024.ReducesTo [3] S1x64x512
  h_S_ : 0 < S_.numel
  bcast_S1x64x512_S1x64x512x1_0_1_2 : S1x64x512.BroadcastsInDim S1x64x512x1 (![0, 1, 2] : Fin 3 → Fin S1x64x512x1.rank)
  bcast_S1x64x512x1_S1x64x512x1024_0_1_2_3 : S1x64x512x1.BroadcastsInDim S1x64x512x1024 (![0, 1, 2, 3] : Fin 4 → Fin S1x64x512x1024.rank)
  transposes_S1x64x512x1_S1x512x64x1_0_2_1_3 : S1x64x512x1.Transposes [0, 2, 1, 3] S1x512x64x1
  bcast_S1x512x64x1_S1x512x64x128_0_1_2_3 : S1x512x64x1.BroadcastsInDim S1x512x64x128 (![0, 1, 2, 3] : Fin 4 → Fin S1x512x64x128.rank)
  transposes_S1x64x128x512_S1x512x64x128_0_3_1_2 : S1x64x128x512.Transposes [0, 3, 1, 2] S1x512x64x128
  slices_S1x2048x64x128_S1x1024x64x128_0_1024_0_0 : S1x2048x64x128.Slices ![0, 1024, 0, 0] S1x1024x64x128
  shapeCasts_S1x512x64x128_S1x512x8192 : S1x512x64x128.ShapeCasts S1x512x8192
  dot_S1x512x1024_S1024x8192_S1x512x8192_2_0_01_1_n_n_wf : DotDims.WF S1x512x1024 S1024x8192 S1x512x8192 [2] [0] [0, 1] [1] [] []
  dot_S1x512x64x128_S1x1024x64x128_S1x64x512x1024_3_3_1_1_02_02_wf : DotDims.WF S1x512x64x128 S1x1024x64x128 S1x64x512x1024 [3] [3] [1] [1] [0, 2] [0, 2]
  dot_S1x1024x64x128_S1x64x512x1024_S1x64x128x512_1_3_3_2_02_01_wf : DotDims.WF S1x1024x64x128 S1x64x512x1024 S1x64x128x512 [1] [3] [3] [2] [0, 2] [0, 1]
  dot_S1x512x8192_S8192x1024_S1x512x1024_2_0_01_1_n_n_wf : DotDims.WF S1x512x8192 S8192x1024 S1x512x1024 [2] [0] [0, 1] [1] [] []

variable [Facts₀]

def dot_S1x512x1024_S1024x8192_S1x512x8192_2_0_01_1_n_n : DotDims S1x512x1024 S1024x8192 S1x512x8192 where
  lhsContracting := [2]
  rhsContracting := [0]
  lhsNonContracting := [0, 1]
  rhsNonContracting := [1]
  lhsBatch := []
  rhsBatch := []
  wf := dot_S1x512x1024_S1024x8192_S1x512x8192_2_0_01_1_n_n_wf
def dot_S1x512x64x128_S1x1024x64x128_S1x64x512x1024_3_3_1_1_02_02 : DotDims S1x512x64x128 S1x1024x64x128 S1x64x512x1024 where
  lhsContracting := [3]
  rhsContracting := [3]
  lhsNonContracting := [1]
  rhsNonContracting := [1]
  lhsBatch := [0, 2]
  rhsBatch := [0, 2]
  wf := dot_S1x512x64x128_S1x1024x64x128_S1x64x512x1024_3_3_1_1_02_02_wf
def dot_S1x1024x64x128_S1x64x512x1024_S1x64x128x512_1_3_3_2_02_01 : DotDims S1x1024x64x128 S1x64x512x1024 S1x64x128x512 where
  lhsContracting := [1]
  rhsContracting := [3]
  lhsNonContracting := [3]
  rhsNonContracting := [2]
  lhsBatch := [0, 2]
  rhsBatch := [0, 1]
  wf := dot_S1x1024x64x128_S1x64x512x1024_S1x64x128x512_1_3_3_2_02_01_wf
def dot_S1x512x8192_S8192x1024_S1x512x1024_2_0_01_1_n_n : DotDims S1x512x8192 S8192x1024 S1x512x1024 where
  lhsContracting := [2]
  rhsContracting := [0]
  lhsNonContracting := [0, 1]
  rhsNonContracting := [1]
  lhsBatch := []
  rhsBatch := []
  wf := dot_S1x512x8192_S8192x1024_S1x512x1024_2_0_01_1_n_n_wf

class Facts : Prop extends Facts₀ where

variable [Facts]
-- ==== Proof.Names.lean ====
import proofs.«900750_g7700000000000751_dist_attn_cross_gqa_kvrep_htp_b1_sq512_skv2048_d1024_hq8_dh128_v7x_i8_bf16_1_alg».proof.Proof.Gen.KernelIdeal
import proofs.«900750_g7700000000000751_dist_attn_cross_gqa_kvrep_htp_b1_sq512_skv2048_d1024_hq8_dh128_v7x_i8_bf16_1_alg».proof.Proof.Gen.KernelIdeal.Skeleton
import proofs.«900750_g7700000000000751_dist_attn_cross_gqa_kvrep_htp_b1_sq512_skv2048_d1024_hq8_dh128_v7x_i8_bf16_1_alg».proof.Proof.Gen.KernelIdeal.Launch

noncomputable section

namespace Cert.KernelIdeal.Hand

open Cert.KernelIdeal Cert.KernelIdeal.Gen
open Idealize.ShloMosaic Idealize.ShloMosaic.TcCoe

variable {F : FTy → Type} [FloatOps F]

def sh (k : ℕ) (c : Dev nD) : Dev nD := ⟨(c.val + k) % 8, Nat.mod_lt _ (by decide)⟩

theorem sh_zero (c : Dev nD) : sh 0 c = c := by revert c; decide
theorem sh_ne (k : ℕ) (hk : k % 8 ≠ 0) (c : Dev nD) : sh k c ≠ c := by
  intro h; have := congrArg Fin.val h; have hc := c.isLt; simp only [sh] at this; omega

theorem dev1_eq (c : Dev nD) : (⟨k0_dev1 c, k0_dev1_lt c⟩ : Dev nD) = sh 7 c := Fin.ext (k0_dev1_eq c)
theorem dev2_eq (c : Dev nD) : (⟨k0_dev2 c, k0_dev2_lt c⟩ : Dev nD) = sh 1 c := Fin.ext (k0_dev2_eq c)
theorem dev3_eq (c : Dev nD) : (⟨k0_dev3 c, k0_dev3_lt c⟩ : Dev nD) = sh 1 c := Fin.ext (k0_dev3_eq c)
theorem dev4_eq (c : Dev nD) : (⟨k0_dev4 c, k0_dev4_lt c⟩ : Dev nD) = sh 7 c := Fin.ext (k0_dev4_eq c)
theorem dev5_eq (c : Dev nD) : (⟨k0_dev5 c, k0_dev5_lt c⟩ : Dev nD) = sh 1 c := Fin.ext (k0_dev5_eq c)
theorem dev6_eq (c : Dev nD) : (⟨k0_dev6 c, k0_dev6_lt c⟩ : Dev nD) = sh 7 c := Fin.ext (k0_dev6_eq c)
theorem dev7_eq (c : Dev nD) : (⟨k0_dev7 c, k0_dev7_lt c⟩ : Dev nD) = sh 1 c := Fin.ext (k0_dev7_eq c)
theorem dev8_eq (c : Dev nD) : (⟨k0_dev8 c, k0_dev8_lt c⟩ : Dev nD) = sh 7 c := Fin.ext (k0_dev8_eq c)
theorem dev9_eq (c : Dev nD) : (⟨k0_dev9 c, k0_dev9_lt c⟩ : Dev nD) = sh 1 c := Fin.ext (k0_dev9_eq c)
theorem dev10_eq (c : Dev nD) : (⟨k0_dev10 c, k0_dev10_lt c⟩ : Dev nD) = sh 1 c := Fin.ext (k0_dev10_eq c)
theorem dev11_eq (c : Dev nD) : (⟨k0_dev11 c, k0_dev11_lt c⟩ : Dev nD) = sh 2 c := Fin.ext (k0_dev11_eq c)
theorem dev12_eq (c : Dev nD) : (⟨k0_dev12 c, k0_dev12_lt c⟩ : Dev nD) = sh 3 c := Fin.ext (k0_dev12_eq c)
theorem dev13_eq (c : Dev nD) : (⟨k0_dev13 c, k0_dev13_lt c⟩ : Dev nD) = sh 4 c := Fin.ext (k0_dev13_eq c)
theorem dev14_eq (c : Dev nD) : (⟨k0_dev14 c, k0_dev14_lt c⟩ : Dev nD) = sh 5 c := Fin.ext (k0_dev14_eq c)
theorem dev15_eq (c : Dev nD) : (⟨k0_dev15 c, k0_dev15_lt c⟩ : Dev nD) = sh 6 c := Fin.ext (k0_dev15_eq c)
theorem dev16_eq (c : Dev nD) : (⟨k0_dev16 c, k0_dev16_lt c⟩ : Dev nD) = sh 7 c := Fin.ext (k0_dev16_eq c)

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x512x1024 .f32 := Memref.whole cc0_stg3_0

abbrev kM : Memref sig .tc .hbm S1x2048x16x128 .f32 := Memref.whole main_arg3
abbrev vM : Memref sig .tc .hbm S1x2048x16x128 .f32 := Memref.whole main_arg4

abbrev kvM : Memref sig .tc .vmem S2x2x2048x128 .f32 := Memref.whole cc0_scratch0
abbrev wqbM : Memref sig .tc .vmem S1024x1024 .bf16 := Memref.whole cc0_scratch1
abbrev wobM : Memref sig .tc .vmem S1024x1024 .bf16 := Memref.whole cc0_scratch2
abbrev kvbM : Memref sig .tc .vmem S2x2x2048x128 .bf16 := Memref.whole cc0_scratch3
abbrev qM : Memref sig .tc .vmem S512x1024 .bf16 := Memref.whole cc0_scratch4

abbrev rlandM : Memref sig .tc .vmem S4x64x1024 .bf16 := Memref.whole cc0_scratch5
abbrev rstageM : Memref sig .tc .vmem S4x64x1024 .bf16 := Memref.whole cc0_scratch6

abbrev llandM : Memref sig .tc .vmem S3x64x1024 .bf16 := Memref.whole cc0_scratch7
abbrev lstageM : Memref sig .tc .vmem S3x64x1024 .bf16 := Memref.whole cc0_scratch8

abbrev ownM : Memref sig .tc .vmem S64x1024 .bf16 := Memref.whole cc0_scratch9
abbrev aglandM : Memref sig .tc .vmem S7x64x1024 .bf16 := Memref.whole cc0_scratch10

abbrev dq (n : ℕ) (h : n < 36 := by decide) : DmaSem sig := ⟨n, h⟩
abbrev barS : Sem sig := (SemArray.scalar (sig.barrier 0 rfl) : Sems sig S_).sem

abbrev barCell (c : Dev nD) : GSem nD τ sig := ((c : Thread nD τ), .reg barS)
abbrev dcell (c : Dev nD) (n : ℕ) (h : n < 36 := by decide) : GSem nD τ sig := ((c : Thread nD τ), .dma (dq n h))

end Cert.KernelIdeal.Hand

end
-- ==== Proof.Slots.lean ====
import proofs.«900750_g7700000000000751_dist_attn_cross_gqa_kvrep_htp_b1_sq512_skv2048_d1024_hq8_dh128_v7x_i8_bf16_1_alg».proof.Proof.Names

noncomputable section

namespace Cert.KernelIdeal.Hand

open Cert.KernelIdeal Cert.KernelIdeal.Gen
open Idealize.ShloMosaic Idealize.ShloMosaic.TcCoe

abbrev slot4 (M : Memref sig .tc .vmem S4x64x1024 .bf16) : Fin 4 → Memref sig .tc .vmem S64x1024 .bf16
  | 0 => (M.slice (Rect.unit (s := S4x64x1024) ![0, 0, 0] S1x64x1024.size inb_S4x64x1024_S1x64x1024_0_0_0) (fun _ => rfl)).squeeze S64x1024 squeezes_S1x64x1024_S64x1024
  | 1 => (M.slice (Rect.unit (s := S4x64x1024) ![1, 0, 0] S1x64x1024.size inb_S4x64x1024_S1x64x1024_1_0_0) (fun _ => rfl)).squeeze S64x1024 squeezes_S1x64x1024_S64x1024
  | 2 => (M.slice (Rect.unit (s := S4x64x1024) ![2, 0, 0] S1x64x1024.size inb_S4x64x1024_S1x64x1024_2_0_0) (fun _ => rfl)).squeeze S64x1024 squeezes_S1x64x1024_S64x1024
  | 3 => (M.slice (Rect.unit (s := S4x64x1024) ![3, 0, 0] S1x64x1024.size inb_S4x64x1024_S1x64x1024_3_0_0) (fun _ => rfl)).squeeze S64x1024 squeezes_S1x64x1024_S64x1024

abbrev slot3 (M : Memref sig .tc .vmem S3x64x1024 .bf16) : Fin 3 → Memref sig .tc .vmem S64x1024 .bf16
  | 0 => (M.slice (Rect.unit (s := S3x64x1024) ![0, 0, 0] S1x64x1024.size inb_S3x64x1024_S1x64x1024_0_0_0) (fun _ => rfl)).squeeze S64x1024 squeezes_S1x64x1024_S64x1024
  | 1 => (M.slice (Rect.unit (s := S3x64x1024) ![1, 0, 0] S1x64x1024.size inb_S3x64x1024_S1x64x1024_1_0_0) (fun _ => rfl)).squeeze S64x1024 squeezes_S1x64x1024_S64x1024
  | 2 => (M.slice (Rect.unit (s := S3x64x1024) ![2, 0, 0] S1x64x1024.size inb_S3x64x1024_S1x64x1024_2_0_0) (fun _ => rfl)).squeeze S64x1024 squeezes_S1x64x1024_S64x1024

abbrev slot7 (M : Memref sig .tc .vmem S7x64x1024 .bf16) : Fin 7 → Memref sig .tc .vmem S64x1024 .bf16
  | 0 => (M.slice (Rect.unit (s := S7x64x1024) ![0, 0, 0] S1x64x1024.size inb_S7x64x1024_S1x64x1024_0_0_0) (fun _ => rfl)).squeeze S64x1024 squeezes_S1x64x1024_S64x1024
  | 1 => (M.slice (Rect.unit (s := S7x64x1024) ![1, 0, 0] S1x64x1024.size inb_S7x64x1024_S1x64x1024_1_0_0) (fun _ => rfl)).squeeze S64x1024 squeezes_S1x64x1024_S64x1024
  | 2 => (M.slice (Rect.unit (s := S7x64x1024) ![2, 0, 0] S1x64x1024.size inb_S7x64x1024_S1x64x1024_2_0_0) (fun _ => rfl)).squeeze S64x1024 squeezes_S1x64x1024_S64x1024
  | 3 => (M.slice (Rect.unit (s := S7x64x1024) ![3, 0, 0] S1x64x1024.size inb_S7x64x1024_S1x64x1024_3_0_0) (fun _ => rfl)).squeeze S64x1024 squeezes_S1x64x1024_S64x1024
  | 4 => (M.slice (Rect.unit (s := S7x64x1024) ![4, 0, 0] S1x64x1024.size inb_S7x64x1024_S1x64x1024_4_0_0) (fun _ => rfl)).squeeze S64x1024 squeezes_S1x64x1024_S64x1024
  | 5 => (M.slice (Rect.unit (s := S7x64x1024) ![5, 0, 0] S1x64x1024.size inb_S7x64x1024_S1x64x1024_5_0_0) (fun _ => rfl)).squeeze S64x1024 squeezes_S1x64x1024_S64x1024
  | 6 => (M.slice (Rect.unit (s := S7x64x1024) ![6, 0, 0] S1x64x1024.size inb_S7x64x1024_S1x64x1024_6_0_0) (fun _ => rfl)).squeeze S64x1024 squeezes_S1x64x1024_S64x1024

abbrev rect4 : Fin 4 → Rect S4x64x1024
  | 0 => Rect.unit (s := S4x64x1024) ![0, 0, 0] S1x64x1024.size inb_S4x64x1024_S1x64x1024_0_0_0
  | 1 => Rect.unit (s := S4x64x1024) ![1, 0, 0] S1x64x1024.size inb_S4x64x1024_S1x64x1024_1_0_0
  | 2 => Rect.unit (s := S4x64x1024) ![2, 0, 0] S1x64x1024.size inb_S4x64x1024_S1x64x1024_2_0_0
  | 3 => Rect.unit (s := S4x64x1024) ![3, 0, 0] S1x64x1024.size inb_S4x64x1024_S1x64x1024_3_0_0
abbrev rect3 : Fin 3 → Rect S3x64x1024
  | 0 => Rect.unit (s := S3x64x1024) ![0, 0, 0] S1x64x1024.size inb_S3x64x1024_S1x64x1024_0_0_0
  | 1 => Rect.unit (s := S3x64x1024) ![1, 0, 0] S1x64x1024.size inb_S3x64x1024_S1x64x1024_1_0_0
  | 2 => Rect.unit (s := S3x64x1024) ![2, 0, 0] S1x64x1024.size inb_S3x64x1024_S1x64x1024_2_0_0
abbrev rect7 : Fin 7 → Rect S7x64x1024
  | 0 => Rect.unit (s := S7x64x1024) ![0, 0, 0] S1x64x1024.size inb_S7x64x1024_S1x64x1024_0_0_0
  | 1 => Rect.unit (s := S7x64x1024) ![1, 0, 0] S1x64x1024.size inb_S7x64x1024_S1x64x1024_1_0_0
  | 2 => Rect.unit (s := S7x64x1024) ![2, 0, 0] S1x64x1024.size inb_S7x64x1024_S1x64x1024_2_0_0
  | 3 => Rect.unit (s := S7x64x1024) ![3, 0, 0] S1x64x1024.size inb_S7x64x1024_S1x64x1024_3_0_0
  | 4 => Rect.unit (s := S7x64x1024) ![4, 0, 0] S1x64x1024.size inb_S7x64x1024_S1x64x1024_4_0_0
  | 5 => Rect.unit (s := S7x64x1024) ![5, 0, 0] S1x64x1024.size inb_S7x64x1024_S1x64x1024_5_0_0
  | 6 => Rect.unit (s := S7x64x1024) ![6, 0, 0] S1x64x1024.size inb_S7x64x1024_S1x64x1024_6_0_0

abbrev sem4 (A : DmaSems sig S4) : Fin 4 → DmaSem sig
  | 0 => ((A.slice (Rect.unit (s := S4) ![0] S1.size inb_S4_S1_0)).squeeze S_ squeezes_S1_S_).sem
  | 1 => ((A.slice (Rect.unit (s := S4) ![1] S1.size inb_S4_S1_1)).squeeze S_ squeezes_S1_S_).sem
  | 2 => ((A.slice (Rect.unit (s := S4) ![2] S1.size inb_S4_S1_2)).squeeze S_ squeezes_S1_S_).sem
  | 3 => ((A.slice (Rect.unit (s := S4) ![3] S1.size inb_S4_S1_3)).squeeze S_ squeezes_S1_S_).sem
abbrev sem3 (A : DmaSems sig S3) : Fin 3 → DmaSem sig
  | 0 => ((A.slice (Rect.unit (s := S3) ![0] S1.size inb_S3_S1_0)).squeeze S_ squeezes_S1_S_).sem
  | 1 => ((A.slice (Rect.unit (s := S3) ![1] S1.size inb_S3_S1_1)).squeeze S_ squeezes_S1_S_).sem
  | 2 => ((A.slice (Rect.unit (s := S3) ![2] S1.size inb_S3_S1_2)).squeeze S_ squeezes_S1_S_).sem
abbrev sem7 (A : DmaSems sig S7) : Fin 7 → DmaSem sig
  | 0 => ((A.slice (Rect.unit (s := S7) ![0] S1.size inb_S7_S1_0)).squeeze S_ squeezes_S1_S_).sem
  | 1 => ((A.slice (Rect.unit (s := S7) ![1] S1.size inb_S7_S1_1)).squeeze S_ squeezes_S1_S_).sem
  | 2 => ((A.slice (Rect.unit (s := S7) ![2] S1.size inb_S7_S1_2)).squeeze S_ squeezes_S1_S_).sem
  | 3 => ((A.slice (Rect.unit (s := S7) ![3] S1.size inb_S7_S1_3)).squeeze S_ squeezes_S1_S_).sem
  | 4 => ((A.slice (Rect.unit (s := S7) ![4] S1.size inb_S7_S1_4)).squeeze S_ squeezes_S1_S_).sem
  | 5 => ((A.slice (Rect.unit (s := S7) ![5] S1.size inb_S7_S1_5)).squeeze S_ squeezes_S1_S_).sem
  | 6 => ((A.slice (Rect.unit (s := S7) ![6] S1.size inb_S7_S1_6)).squeeze S_ squeezes_S1_S_).sem

end Cert.KernelIdeal.Hand

end
-- ==== Proof.Alg.lean ====
import proofs.«900750_g7700000000000751_dist_attn_cross_gqa_kvrep_htp_b1_sq512_skv2048_d1024_hq8_dh128_v7x_i8_bf16_1_alg».proof.Proof.Slots
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open Idealize.ShloMosaic.Rounds

abbrev UB : Type := URounds (GSem nD τ sig) Bool
abbrev UU : Type := UR sig nD τ × (UB × Counters)

variable {F : FTy → Type}

abbrev EP : Emb (UR sig nD τ) (MT nD τ sig Unit (Elt F) ℕ UU ℕ) := embL

abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by unfold ER; infer_instance

abbrev 𝒱₀ : Variants := Variants.none

abbrev N : ℕ := (slot4 rlandM 0).view.dmaCredit
theorem N_pos : 0 < N := View.dmaCredit_pos _ (by decide)

end Cert.KernelIdeal.Hand

end
-- ==== Proof.Contents.lean ====
import proofs.«900750_g7700000000000751_dist_attn_cross_gqa_kvrep_htp_b1_sq512_skv2048_d1024_hq8_dh128_v7x_i8_bf16_1_alg».proof.Proof.Names
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

section Ring
variable (P : Dev nD → Dev nD → Vec F S1x64x1024 .f32)

def rst0 (c : Dev nD) : FVec F S1x64x1024 .bf16 := k0_pay12 (P c (sh 4 c))
def rst1 (c : Dev nD) : FVec F S1x64x1024 .bf16 := k0_pay21 (P c (sh 3 c)) (rst0 P (sh 7 c))
def rst2 (c : Dev nD) : FVec F S1x64x1024 .bf16 := k0_pay30 (P c (sh 2 c)) (rst1 P (sh 7 c))
def rst3 (c : Dev nD) : FVec F S1x64x1024 .bf16 := k0_pay39 (P c (sh 1 c)) (rst2 P (sh 7 c))

def lst0 (c : Dev nD) : FVec F S1x64x1024 .bf16 := k0_pay13 (P c (sh 5 c))
def lst1 (c : Dev nD) : FVec F S1x64x1024 .bf16 := k0_pay22 (P c (sh 6 c)) (lst0 P (sh 1 c))
def lst2 (c : Dev nD) : FVec F S1x64x1024 .bf16 := k0_pay31 (P c (sh 7 c)) (lst1 P (sh 1 c))

def rst (s : Fin 4) (c : Dev nD) : FVec F S1x64x1024 .bf16 :=
  match s with | 0 => rst0 P c | 1 => rst1 P c | 2 => rst2 P c | 3 => rst3 P c
def lst (s : Fin 3) (c : Dev nD) : FVec F S1x64x1024 .bf16 :=
  match s with | 0 => lst0 P c | 1 => lst1 P c | 2 => lst2 P c

def red (c : Dev nD) : FVec F S1x64x1024 .f32 := k0_pay41 (k0_pay40 (P c c)) (rst3 P (sh 7 c)) (lst2 P (sh 1 c))

def own (c : Dev nD) : FVec F S64x1024 .bf16 := k0_pay42 (red P c)

def ownL (c : Dev nD) : FVec F S1x64x1024 .bf16 := shapeCast S1x64x1024 (own P c) shapeCasts_S64x1024_S1x64x1024

def gat (k : Fin 7) (c : Dev nD) : FVec F S1x64x1024 .f32 :=
  match k with
  | 0 => k0_pay43 (ownL P (sh 7 c))
  | 1 => k0_pay44 (ownL P (sh 6 c))
  | 2 => k0_pay46 (k0_pay45 (ownL P (sh 5 c)))
  | 3 => k0_pay47 (ownL P (sh 4 c))
  | 4 => k0_pay48 (ownL P (sh 3 c))
  | 5 => k0_pay49 (ownL P (sh 2 c))
  | 6 => k0_pay1 (ownL P (sh 1 c))

def finBlk (c j : Dev nD) : FVec F S1x64x1024 .f32 :=
  match (c.val + 8 - j.val) % 8 with
  | 0 => red P c
  | 1 => gat P 0 c | 2 => gat P 1 c | 3 => gat P 2 c | 4 => gat P 3 c | 5 => gat P 4 c | 6 => gat P 5 c
  | _ => gat P 6 c

def outFin (c : Dev nD) : Vec F S1x512x1024 .f32 := fun i =>
  finBlk P c ⟨(i 1).val / 64, Nat.div_lt_of_lt_mul (i 1).isLt⟩
    (ix3 (0 : Fin 1) (⟨(i 1).val % 64, Nat.mod_lt _ (by decide)⟩ : Fin 64) (⟨(i 2).val, (i 2).isLt⟩ : Fin 1024))

def rstageBuf (c : Dev nD) : Vec F S4x64x1024 .bf16 := fun i =>
  rst P ⟨(i 0).val, (i 0).isLt⟩ c (ix3 (0 : Fin 1) (⟨(i 1).val, (i 1).isLt⟩ : Fin 64) (⟨(i 2).val, (i 2).isLt⟩ : Fin 1024))
def lstageBuf (c : Dev nD) : Vec F S3x64x1024 .bf16 := fun i =>
  lst P ⟨(i 0).val, (i 0).isLt⟩ c (ix3 (0 : Fin 1) (⟨(i 1).val, (i 1).isLt⟩ : Fin 64) (⟨(i 2).val, (i 2).isLt⟩ : Fin 1024))
def rlandBuf (c : Dev nD) : Vec F S4x64x1024 .bf16 := rstageBuf P (sh 7 c)
def llandBuf (c : Dev nD) : Vec F S3x64x1024 .bf16 := lstageBuf P (sh 1 c)
def aglandBuf (c : Dev nD) : Vec F S7x64x1024 .bf16 := fun i =>
  own P (sh (7 - (i 0).val) c) (ix2 (⟨(i 1).val, (i 1).isLt⟩ : Fin 64) (⟨(i 2).val, (i 2).isLt⟩ : Fin 1024))

end Ring

end Cert.KernelIdeal.Hand

end
-- ==== Proof.Sched.lean ====
import proofs.«900750_g7700000000000751_dist_attn_cross_gqa_kvrep_htp_b1_sq512_skv2048_d1024_hq8_dh128_v7x_i8_bf16_1_alg».proof.Proof.Alg
import proofs.«900750_g7700000000000751_dist_attn_cross_gqa_kvrep_htp_b1_sq512_skv2048_d1024_hq8_dh128_v7x_i8_bf16_1_alg».proof.Proof.Contents
import proofs.«900750_g7700000000000751_dist_attn_cross_gqa_kvrep_htp_b1_sq512_skv2048_d1024_hq8_dh128_v7x_i8_bf16_1_alg».proof.Proof.Slots
import Idealize.ShloMosaic.Lib.Pipeline.Launch
import Idealize.ShloMosaic.Lib.Pipeline.Kit
import Idealize.ShloMosaic.Lib.Pipeline.Value
import Idealize.ShloMosaic.Lib.Transfers
import Idealize.ShloMosaic.Lib.Tactic

noncomputable section

namespace Cert.KernelIdeal.Hand

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def slotP {s : Shape} {e : EltTy} (M : Memref sig .tc .vmem s e) (d : Dev nD) : sProp 𝕄 :=
  iprop(∃ f : Buf (Elt F) (M.view.loc (d : Thread nD τ)), (M.view.loc (d : Thread nD τ) ↦[M.view.set]{fullShare} f))

def agP (e : Dev nD) (j : Fin 7) : sProp 𝕄 := slotP (F := F) (slot7 aglandM j) e

abbrev A (e : Dev nD) (k : ℕ) : sProp 𝕄 := agP (F := F) e ⟨(k - 1) % 7, Nat.mod_lt _ (by decide)⟩

abbrev agShare (k : Fin 7) : PosShare TreeShare := Transfers.shareTok fullShare 7 k

abbrev agRest : PosShare TreeShare := Transfers.shareDrop fullShare 7

def relayL (c : Dev nD) : Fin 3 → sProp 𝕄
  | 0 => iprop(agP (F := F) (sh 2 c) 1 ∗ agP (F := F) (sh 2 c) 2 ∗ agP (F := F) (sh 2 c) 3)
  | 1 => iprop(agP (F := F) (sh 3 c) 2 ∗ agP (F := F) (sh 3 c) 3)
  | 2 => agP (F := F) (sh 4 c) 3

def relayR (c : Dev nD) : Fin 4 → sProp 𝕄
  | 0 => iprop(agP (F := F) (sh 6 c) 5 ∗ agP (F := F) (sh 6 c) 4)
  | 1 => agP (F := F) (sh 5 c) 4
  | 2 => iprop(emp)
  | 3 => iprop(emp)

def barPayT (c : Dev nD) : sProp 𝕄 :=
  iprop(slotP (F := F) (slot4 rlandM 0) (sh 1 c) ∗ slotP (F := F) (slot4 rlandM 1) (sh 1 c) ∗ slotP (F := F) (slot4 rlandM 2) (sh 1 c) ∗ slotP (F := F) (slot4 rlandM 3) (sh 1 c)
    ∗ agP (F := F) (sh 1 c) 0 ∗ agP (F := F) (sh 1 c) 1 ∗ agP (F := F) (sh 1 c) 2 ∗ agP (F := F) (sh 1 c) 3)

def barPayF (c : Dev nD) : sProp 𝕄 :=
  iprop(slotP (F := F) (slot3 llandM 0) (sh 7 c) ∗ slotP (F := F) (slot3 llandM 1) (sh 7 c) ∗ slotP (F := F) (slot3 llandM 2) (sh 7 c)
    ∗ agP (F := F) (sh 7 c) 6 ∗ agP (F := F) (sh 7 c) 5 ∗ agP (F := F) (sh 7 c) 4)

section Pay
variable (P : Dev nD → Dev nD → Vec F S1x64x1024 .f32)

def rlandPt (s : Fin 4) (c : Dev nD) (f : Vec F S4x64x1024 .bf16) : sProp 𝕄 := match s with
  | 0 => ((slot4 rlandM 0).view.loc (c : Thread nD τ) ↦[(slot4 rlandM 0).view.set]{fullShare} f)
  | 1 => ((slot4 rlandM 1).view.loc (c : Thread nD τ) ↦[(slot4 rlandM 1).view.set]{fullShare} f)
  | 2 => ((slot4 rlandM 2).view.loc (c : Thread nD τ) ↦[(slot4 rlandM 2).view.set]{fullShare} f)
  | 3 => ((slot4 rlandM 3).view.loc (c : Thread nD τ) ↦[(slot4 rlandM 3).view.set]{fullShare} f)
def rstagePt (s : Fin 4) (c : Dev nD) (f : Vec F S4x64x1024 .bf16) : sProp 𝕄 := match s with
  | 0 => ((slot4 rstageM 0).view.loc (c : Thread nD τ) ↦[(slot4 rstageM 0).view.set]{fullShare} f)
  | 1 => ((slot4 rstageM 1).view.loc (c : Thread nD τ) ↦[(slot4 rstageM 1).view.set]{fullShare} f)
  | 2 => ((slot4 rstageM 2).view.loc (c : Thread nD τ) ↦[(slot4 rstageM 2).view.set]{fullShare} f)
  | 3 => ((slot4 rstageM 3).view.loc (c : Thread nD τ) ↦[(slot4 rstageM 3).view.set]{fullShare} f)
def llandPt (s : Fin 3) (c : Dev nD) (f : Vec F S3x64x1024 .bf16) : sProp 𝕄 := match s with
  | 0 => ((slot3 llandM 0).view.loc (c : Thread nD τ) ↦[(slot3 llandM 0).view.set]{fullShare} f)
  | 1 => ((slot3 llandM 1).view.loc (c : Thread nD τ) ↦[(slot3 llandM 1).view.set]{fullShare} f)
  | 2 => ((slot3 llandM 2).view.loc (c : Thread nD τ) ↦[(slot3 llandM 2).view.set]{fullShare} f)
def lstagePt (s : Fin 3) (c : Dev nD) (f : Vec F S3x64x1024 .bf16) : sProp 𝕄 := match s with
  | 0 => ((slot3 lstageM 0).view.loc (c : Thread nD τ) ↦[(slot3 lstageM 0).view.set]{fullShare} f)
  | 1 => ((slot3 lstageM 1).view.loc (c : Thread nD τ) ↦[(slot3 lstageM 1).view.set]{fullShare} f)
  | 2 => ((slot3 lstageM 2).view.loc (c : Thread nD τ) ↦[(slot3 lstageM 2).view.set]{fullShare} f)
def aglandPt (j : Fin 7) (c : Dev nD) (f : Vec F S7x64x1024 .bf16) : sProp 𝕄 := match j with
  | 0 => ((slot7 aglandM 0).view.loc (c : Thread nD τ) ↦[(slot7 aglandM 0).view.set]{fullShare} f)
  | 1 => ((slot7 aglandM 1).view.loc (c : Thread nD τ) ↦[(slot7 aglandM 1).view.set]{fullShare} f)
  | 2 => ((slot7 aglandM 2).view.loc (c : Thread nD τ) ↦[(slot7 aglandM 2).view.set]{fullShare} f)
  | 3 => ((slot7 aglandM 3).view.loc (c : Thread nD τ) ↦[(slot7 aglandM 3).view.set]{fullShare} f)
  | 4 => ((slot7 aglandM 4).view.loc (c : Thread nD τ) ↦[(slot7 aglandM 4).view.set]{fullShare} f)
  | 5 => ((slot7 aglandM 5).view.loc (c : Thread nD τ) ↦[(slot7 aglandM 5).view.set]{fullShare} f)
  | 6 => ((slot7 aglandM 6).view.loc (c : Thread nD τ) ↦[(slot7 aglandM 6).view.set]{fullShare} f)

def ownPt (q : PosShare TreeShare) (c : Dev nD) (f : FVec F S64x1024 .bf16) : sProp 𝕄 :=
  ((ownM : Memref sig .tc .vmem S64x1024 .bf16).view.loc (c : Thread nD τ) ↦[(ownM : Memref sig .tc .vmem S64x1024 .bf16).view.set]{q} f)

def rrecvPay (s : Fin 4) (c : Dev nD) : sProp 𝕄 := iprop(rlandPt (F := F) s c (rlandBuf P c) ∗ relayR (F := F) c s)

def lrecvPay (s : Fin 3) (c : Dev nD) : sProp 𝕄 := iprop(llandPt (F := F) s c (llandBuf P c) ∗ relayL (F := F) c s)

def agrecvPay (j : Fin 7) (c : Dev nD) : sProp 𝕄 := aglandPt (F := F) j c (aglandBuf P c)

def rsendPay (s : Fin 4) (c : Dev nD) : sProp 𝕄 := rstagePt (F := F) s c (rstageBuf P c)
def lsendPay (s : Fin 3) (c : Dev nD) : sProp 𝕄 := lstagePt (F := F) s c (lstageBuf P c)

def agsendPay (k : Fin 7) (c : Dev nD) : sProp 𝕄 := ownPt (F := F) (agShare k) c (own P c)

def dpay (c : Dev nD) : ℕ → sProp 𝕄
  | 8 => rsendPay P 0 c | 9 => rsendPay P 1 c | 10 => rsendPay P 2 c | 11 => rsendPay P 3 c
  | 12 => rrecvPay P 0 c | 13 => rrecvPay P 1 c | 14 => rrecvPay P 2 c | 15 => rrecvPay P 3 c
  | 16 => lsendPay P 0 c | 17 => lsendPay P 1 c | 18 => lsendPay P 2 c
  | 19 => lrecvPay P 0 c | 20 => lrecvPay P 1 c | 21 => lrecvPay P 2 c
  | 22 => agsendPay P 0 c | 23 => agsendPay P 1 c | 24 => agsendPay P 2 c | 25 => agsendPay P 3 c
  | 26 => agsendPay P 4 c | 27 => agsendPay P 5 c | 28 => agsendPay P 6 c
  | 29 => agrecvPay P 0 c | 30 => agrecvPay P 1 c | 31 => agrecvPay P 2 c | 32 => agrecvPay P 3 c
  | 33 => agrecvPay P 4 c | 34 => agrecvPay P 5 c | 35 => agrecvPay P 6 c
  | _ => iprop(emp)

def rd : Rounds.Schedule (GSem nD τ sig) Bool 𝕄 where
  duties g r :=
    if r = 0 ∧ g.1.2 = .tc then
      (match g.2 with
        | .reg s => if SemLoc.reg s = SemLoc.reg barS then Finset.univ else ∅
        | .dma q => if 8 ≤ q.val then {false} else ∅)
    else ∅
  unitless _ := False
  amount g _ _ := match g.2 with
    | .reg _ => 1
    | .dma _ => N
  payload g _ d := match g.2 with
    | .reg s => if SemLoc.reg s = SemLoc.reg barS then (if d then barPayT (F := F) g.1.1 else barPayF (F := F) g.1.1) else iprop(emp)
    | .dma q => dpay P g.1.1 q.val
  amount_pos g _ _ _ := by
    cases g.2 with
    | reg _ => exact Nat.one_pos
    | dma _ => exact N_pos

end Pay

instance slotP_storable {s : Shape} {e : EltTy} (M : Memref sig .tc .vmem s e) (d : Dev nD) :
    BI.Storable (upEmb : UEmb _ 𝕄) (slotP (F := F) M d) := by unfold slotP; infer_instance
instance agP_storable (e : Dev nD) (j : Fin 7) : BI.Storable (upEmb : UEmb _ 𝕄) (agP (F := F) e j) := by unfold agP; infer_instance
instance relayL_storable (c : Dev nD) (s : Fin 3) : BI.Storable (upEmb : UEmb _ 𝕄) (relayL (F := F) c s) := by
  unfold relayL; split <;> infer_instance
instance relayR_storable (c : Dev nD) (s : Fin 4) : BI.Storable (upEmb : UEmb _ 𝕄) (relayR (F := F) c s) := by
  unfold relayR; split <;> infer_instance
instance barPayT_storable (c : Dev nD) : BI.Storable (upEmb : UEmb _ 𝕄) (barPayT (F := F) c) := by unfold barPayT; infer_instance
instance barPayF_storable (c : Dev nD) : BI.Storable (upEmb : UEmb _ 𝕄) (barPayF (F := F) c) := by unfold barPayF; infer_instance
instance rlandPt_storable (s : Fin 4) (c : Dev nD) (f : Vec F S4x64x1024 .bf16) : BI.Storable (upEmb : UEmb _ 𝕄) (rlandPt (F := F) s c f) := by
  unfold rlandPt; split <;> infer_instance
instance rstagePt_storable (s : Fin 4) (c : Dev nD) (f : Vec F S4x64x1024 .bf16) : BI.Storable (upEmb : UEmb _ 𝕄) (rstagePt (F := F) s c f) := by
  unfold rstagePt; split <;> infer_instance
instance llandPt_storable (s : Fin 3) (c : Dev nD) (f : Vec F S3x64x1024 .bf16) : BI.Storable (upEmb : UEmb _ 𝕄) (llandPt (F := F) s c f) := by
  unfold llandPt; split <;> infer_instance
instance lstagePt_storable (s : Fin 3) (c : Dev nD) (f : Vec F S3x64x1024 .bf16) : BI.Storable (upEmb : UEmb _ 𝕄) (lstagePt (F := F) s c f) := by
  unfold lstagePt; split <;> infer_instance
instance aglandPt_storable (j : Fin 7) (c : Dev nD) (f : Vec F S7x64x1024 .bf16) : BI.Storable (upEmb : UEmb _ 𝕄) (aglandPt (F := F) j c f) := by
  unfold aglandPt; split <;> infer_instance
instance ownPt_storable (q : PosShare TreeShare) (c : Dev nD) (f : FVec F S64x1024 .bf16) : BI.Storable (upEmb : UEmb _ 𝕄) (ownPt (F := F) q c f) := by
  unfold ownPt; infer_instance

section PayStorable
variable (P : Dev nD → Dev nD → Vec F S1x64x1024 .f32)

instance rrecvPay_storable (s : Fin 4) (c : Dev nD) : BI.Storable (upEmb : UEmb _ 𝕄) (rrecvPay P s c) := by unfold rrecvPay; infer_instance
instance lrecvPay_storable (s : Fin 3) (c : Dev nD) : BI.Storable (upEmb : UEmb _ 𝕄) (lrecvPay P s c) := by unfold lrecvPay; infer_instance
instance agrecvPay_storable (j : Fin 7) (c : Dev nD) : BI.Storable (upEmb : UEmb _ 𝕄) (agrecvPay P j c) := by unfold agrecvPay; infer_instance
instance rsendPay_storable (s : Fin 4) (c : Dev nD) : BI.Storable (upEmb : UEmb _ 𝕄) (rsendPay P s c) := by unfold rsendPay; infer_instance
instance lsendPay_storable (s : Fin 3) (c : Dev nD) : BI.Storable (upEmb : UEmb _ 𝕄) (lsendPay P s c) := by unfold lsendPay; infer_instance
instance agsendPay_storable (k : Fin 7) (c : Dev nD) : BI.Storable (upEmb : UEmb _ 𝕄) (agsendPay P k c) := by unfold agsendPay; infer_instance
instance dpay_storable (c : Dev nD) (n : ℕ) : BI.Storable (upEmb : UEmb _ 𝕄) (dpay P c n) := by
  unfold dpay; split <;> infer_instance

instance rd_payload_storable (g : GSem nD τ sig) (r : ℕ) (d : Bool) : BI.Storable (upEmb : UEmb _ 𝕄) ((rd P).payload g r d) := by
  show BI.Storable upEmb (match g.2 with
    | .reg s => if SemLoc.reg s = SemLoc.reg barS then (if d then barPayT (F := F) g.1.1 else barPayF (F := F) g.1.1) else iprop(emp)
    | .dma q => dpay P g.1.1 q.val)
  (repeat' split) <;> infer_instance

end PayStorable

theorem sh_sh' (j k m : ℕ) (c : Dev nD) (h : (j + k) % 8 = m % 8) : sh j (sh k c) = sh m c := by
  apply Fin.ext; show ((c.val + k) % 8 + j) % 8 = (c.val + m) % 8; omega

section Tables
variable (P : Dev nD → Dev nD → Vec F S1x64x1024 .f32) (c : Dev nD)

@[sl_rounds] theorem duties_bar : (rd P).duties (barCell c) 0 = Finset.univ := by
  dsimp only [rd]; rw [if_pos ⟨rfl, rfl⟩]; exact if_pos rfl
@[sl_rounds] theorem duties_cell (n : ℕ) (h : n < 36) (h8 : 8 ≤ n) : (rd P).duties (dcell c n h) 0 = {false} := by
  dsimp only [rd]; rw [if_pos ⟨rfl, rfl⟩]; exact if_pos h8
@[sl_rounds] theorem duties_none (n : ℕ) (h : n < 36) (h8 : n < 8) : (rd P).duties (dcell c n h) 0 = ∅ := by
  dsimp only [rd]; rw [if_pos ⟨rfl, rfl⟩]; exact if_neg (Nat.not_le.mpr h8)
theorem duties_later (g : GSem nD τ sig) : ∀ r, 1 ≤ r → (rd P).duties g r = ∅ :=
  fun r hr => by dsimp only [rd]; exact if_neg fun h => by omega

@[sl_rounds] theorem amount_bar (r : ℕ) (d : Bool) : (rd P).amount (barCell c) r d = 1 := rfl
@[sl_rounds] theorem amount_cell (n : ℕ) (h : n < 36) (r : ℕ) (d : Bool) : (rd P).amount (dcell c n h) r d = N := rfl

@[sl_rounds] theorem expect_bar : (rd P).expect (barCell c) 0 = 2 := by
  unfold Schedule.expect Schedule.amountOf
  rw [duties_bar, Finset.sum_congr rfl fun d _ => amount_bar P c 0 d, Finset.sum_const, Finset.card_univ, Fintype.card_bool, smul_eq_mul]
@[sl_rounds] theorem expect_cell (n : ℕ) (h : n < 36) (h8 : 8 ≤ n) : (rd P).expect (dcell c n h) 0 = N := by
  unfold Schedule.expect Schedule.amountOf; rw [duties_cell P c n h h8, Finset.sum_singleton, amount_cell]

theorem payload_bar_true : (rd P).payload (barCell c) 0 true = barPayT (F := F) c := by
  dsimp only [rd]; rw [if_pos rfl, if_pos rfl]
theorem payload_bar_false : (rd P).payload (barCell c) 0 false = barPayF (F := F) c := by
  dsimp only [rd]; rw [if_pos rfl]; exact if_neg Bool.false_ne_true
theorem payload_cell (n : ℕ) (h : n < 36) (d : Bool) : (rd P).payload (dcell c n h) 0 d = dpay P c n := rfl

theorem rest_bar : bigSep ((rd P).duties (barCell c) 0 \ ∅) (fun d => (rd P).payload (barCell c) 0 d) = iprop(barPayF (F := F) c ∗ barPayT (F := F) c) := by
  rw [Finset.sdiff_empty, duties_bar, bigSep_univ_eq_bigSepL [false, true] (by decide) (by decide), bigSepL_cons_cons, bigSepL_singleton,
    payload_bar_false, payload_bar_true]
  rfl

theorem rest_cell (n : ℕ) (h : n < 36) (h8 : 8 ≤ n) :
    bigSep ((rd P).duties (dcell c n h) 0 \ ∅) (fun d => (rd P).payload (dcell c n h) 0 d) = dpay P c n := by
  rw [Finset.sdiff_empty, duties_cell P c n h h8, bigSep_singleton, payload_cell]

@[sl_rounds] theorem payload_barT : (rd P).payload (barCell c) 0 true =
    iprop((∃ f : Buf (Elt F) ((slot4 rlandM 0).view.loc (sh 1 c : Thread nD τ)), ((slot4 rlandM 0).view.loc (sh 1 c : Thread nD τ) ↦[(slot4 rlandM 0).view.set]{fullShare} f))
      ∗ (∃ f : Buf (Elt F) ((slot4 rlandM 1).view.loc (sh 1 c : Thread nD τ)), ((slot4 rlandM 1).view.loc (sh 1 c : Thread nD τ) ↦[(slot4 rlandM 1).view.set]{fullShare} f))
      ∗ (∃ f : Buf (Elt F) ((slot4 rlandM 2).view.loc (sh 1 c : Thread nD τ)), ((slot4 rlandM 2).view.loc (sh 1 c : Thread nD τ) ↦[(slot4 rlandM 2).view.set]{fullShare} f))
      ∗ (∃ f : Buf (Elt F) ((slot4 rlandM 3).view.loc (sh 1 c : Thread nD τ)), ((slot4 rlandM 3).view.loc (sh 1 c : Thread nD τ) ↦[(slot4 rlandM 3).view.set]{fullShare} f))
      ∗ (∃ f : Buf (Elt F) ((slot7 aglandM 0).view.loc (sh 1 c : Thread nD τ)), ((slot7 aglandM 0).view.loc (sh 1 c : Thread nD τ) ↦[(slot7 aglandM 0).view.set]{fullShare} f))
      ∗ (∃ f : Buf (Elt F) ((slot7 aglandM 1).view.loc (sh 1 c : Thread nD τ)), ((slot7 aglandM 1).view.loc (sh 1 c : Thread nD τ) ↦[(slot7 aglandM 1).view.set]{fullShare} f))
      ∗ (∃ f : Buf (Elt F) ((slot7 aglandM 2).view.loc (sh 1 c : Thread nD τ)), ((slot7 aglandM 2).view.loc (sh 1 c : Thread nD τ) ↦[(slot7 aglandM 2).view.set]{fullShare} f))
      ∗ (∃ f : Buf (Elt F) ((slot7 aglandM 3).view.loc (sh 1 c : Thread nD τ)), ((slot7 aglandM 3).view.loc (sh 1 c : Thread nD τ) ↦[(slot7 aglandM 3).view.set]{fullShare} f))) :=
  payload_bar_true P c
@[sl_rounds] theorem payload_barF : (rd P).payload (barCell c) 0 false =
    iprop((∃ f : Buf (Elt F) ((slot3 llandM 0).view.loc (sh 7 c : Thread nD τ)), ((slot3 llandM 0).view.loc (sh 7 c : Thread nD τ) ↦[(slot3 llandM 0).view.set]{fullShare} f))
      ∗ (∃ f : Buf (Elt F) ((slot3 llandM 1).view.loc (sh 7 c : Thread nD τ)), ((slot3 llandM 1).view.loc (sh 7 c : Thread nD τ) ↦[(slot3 llandM 1).view.set]{fullShare} f))
      ∗ (∃ f : Buf (Elt F) ((slot3 llandM 2).view.loc (sh 7 c : Thread nD τ)), ((slot3 llandM 2).view.loc (sh 7 c : Thread nD τ) ↦[(slot3 llandM 2).view.set]{fullShare} f))
      ∗ (∃ f : Buf (Elt F) ((slot7 aglandM 6).view.loc (sh 7 c : Thread nD τ)), ((slot7 aglandM 6).view.loc (sh 7 c : Thread nD τ) ↦[(slot7 aglandM 6).view.set]{fullShare} f))
      ∗ (∃ f : Buf (Elt F) ((slot7 aglandM 5).view.loc (sh 7 c : Thread nD τ)), ((slot7 aglandM 5).view.loc (sh 7 c : Thread nD τ) ↦[(slot7 aglandM 5).view.set]{fullShare} f))
      ∗ (∃ f : Buf (Elt F) ((slot7 aglandM 4).view.loc (sh 7 c : Thread nD τ)), ((slot7 aglandM 4).view.loc (sh 7 c : Thread nD τ) ↦[(slot7 aglandM 4).view.set]{fullShare} f))) :=
  payload_bar_false P c
@[sl_rounds] theorem payload_rsend0 (d : Bool) : (rd P).payload (dcell c 8) 0 d =
    ((slot4 rstageM 0).view.loc (c : Thread nD τ) ↦[(slot4 rstageM 0).view.set]{fullShare} rstageBuf P c) :=
  rfl
@[sl_rounds] theorem payload_rsend1 (d : Bool) : (rd P).payload (dcell c 9) 0 d =
    ((slot4 rstageM 1).view.loc (c : Thread nD τ) ↦[(slot4 rstageM 1).view.set]{fullShare} rstageBuf P c) :=
  rfl
@[sl_rounds] theorem payload_rsend2 (d : Bool) : (rd P).payload (dcell c 10) 0 d =
    ((slot4 rstageM 2).view.loc (c : Thread nD τ) ↦[(slot4 rstageM 2).view.set]{fullShare} rstageBuf P c) :=
  rfl
@[sl_rounds] theorem payload_rsend3 (d : Bool) : (rd P).payload (dcell c 11) 0 d =
    ((slot4 rstageM 3).view.loc (c : Thread nD τ) ↦[(slot4 rstageM 3).view.set]{fullShare} rstageBuf P c) :=
  rfl
@[sl_rounds] theorem payload_rrecv0 (d : Bool) : (rd P).payload (dcell c 12) 0 d =
    iprop(((slot4 rlandM 0).view.loc (c : Thread nD τ) ↦[(slot4 rlandM 0).view.set]{fullShare} rlandBuf P c) ∗ (∃ f : Buf (Elt F) ((slot7 aglandM 5).view.loc (sh 6 c : Thread nD τ)), ((slot7 aglandM 5).view.loc (sh 6 c : Thread nD τ) ↦[(slot7 aglandM 5).view.set]{fullShare} f)) ∗ (∃ f : Buf (Elt F) ((slot7 aglandM 4).view.loc (sh 6 c : Thread nD τ)), ((slot7 aglandM 4).view.loc (sh 6 c : Thread nD τ) ↦[(slot7 aglandM 4).view.set]{fullShare} f))) :=
  rfl
@[sl_rounds] theorem payload_rrecv1 (d : Bool) : (rd P).payload (dcell c 13) 0 d =
    iprop(((slot4 rlandM 1).view.loc (c : Thread nD τ) ↦[(slot4 rlandM 1).view.set]{fullShare} rlandBuf P c) ∗ (∃ f : Buf (Elt F) ((slot7 aglandM 4).view.loc (sh 5 c : Thread nD τ)), ((slot7 aglandM 4).view.loc (sh 5 c : Thread nD τ) ↦[(slot7 aglandM 4).view.set]{fullShare} f))) :=
  rfl
@[sl_rounds] theorem payload_rrecv2 (d : Bool) : (rd P).payload (dcell c 14) 0 d =
    ((slot4 rlandM 2).view.loc (c : Thread nD τ) ↦[(slot4 rlandM 2).view.set]{fullShare} rlandBuf P c) :=
  sep_emp_eq'' _
@[sl_rounds] theorem payload_rrecv3 (d : Bool) : (rd P).payload (dcell c 15) 0 d =
    ((slot4 rlandM 3).view.loc (c : Thread nD τ) ↦[(slot4 rlandM 3).view.set]{fullShare} rlandBuf P c) :=
  sep_emp_eq'' _
@[sl_rounds] theorem payload_lsend0 (d : Bool) : (rd P).payload (dcell c 16) 0 d =
    ((slot3 lstageM 0).view.loc (c : Thread nD τ) ↦[(slot3 lstageM 0).view.set]{fullShare} lstageBuf P c) :=
  rfl
@[sl_rounds] theorem payload_lsend1 (d : Bool) : (rd P).payload (dcell c 17) 0 d =
    ((slot3 lstageM 1).view.loc (c : Thread nD τ) ↦[(slot3 lstageM 1).view.set]{fullShare} lstageBuf P c) :=
  rfl
@[sl_rounds] theorem payload_lsend2 (d : Bool) : (rd P).payload (dcell c 18) 0 d =
    ((slot3 lstageM 2).view.loc (c : Thread nD τ) ↦[(slot3 lstageM 2).view.set]{fullShare} lstageBuf P c) :=
  rfl
@[sl_rounds] theorem payload_lrecv0 (d : Bool) : (rd P).payload (dcell c 19) 0 d =
    iprop(((slot3 llandM 0).view.loc (c : Thread nD τ) ↦[(slot3 llandM 0).view.set]{fullShare} llandBuf P c) ∗ (∃ f : Buf (Elt F) ((slot7 aglandM 1).view.loc (sh 2 c : Thread nD τ)), ((slot7 aglandM 1).view.loc (sh 2 c : Thread nD τ) ↦[(slot7 aglandM 1).view.set]{fullShare} f)) ∗ (∃ f : Buf (Elt F) ((slot7 aglandM 2).view.loc (sh 2 c : Thread nD τ)), ((slot7 aglandM 2).view.loc (sh 2 c : Thread nD τ) ↦[(slot7 aglandM 2).view.set]{fullShare} f)) ∗ (∃ f : Buf (Elt F) ((slot7 aglandM 3).view.loc (sh 2 c : Thread nD τ)), ((slot7 aglandM 3).view.loc (sh 2 c : Thread nD τ) ↦[(slot7 aglandM 3).view.set]{fullShare} f))) :=
  rfl
@[sl_rounds] theorem payload_lrecv1 (d : Bool) : (rd P).payload (dcell c 20) 0 d =
    iprop(((slot3 llandM 1).view.loc (c : Thread nD τ) ↦[(slot3 llandM 1).view.set]{fullShare} llandBuf P c) ∗ (∃ f : Buf (Elt F) ((slot7 aglandM 2).view.loc (sh 3 c : Thread nD τ)), ((slot7 aglandM 2).view.loc (sh 3 c : Thread nD τ) ↦[(slot7 aglandM 2).view.set]{fullShare} f)) ∗ (∃ f : Buf (Elt F) ((slot7 aglandM 3).view.loc (sh 3 c : Thread nD τ)), ((slot7 aglandM 3).view.loc (sh 3 c : Thread nD τ) ↦[(slot7 aglandM 3).view.set]{fullShare} f))) :=
  rfl
@[sl_rounds] theorem payload_lrecv2 (d : Bool) : (rd P).payload (dcell c 21) 0 d =
    iprop(((slot3 llandM 2).view.loc (c : Thread nD τ) ↦[(slot3 llandM 2).view.set]{fullShare} llandBuf P c) ∗ (∃ f : Buf (Elt F) ((slot7 aglandM 3).view.loc (sh 4 c : Thread nD τ)), ((slot7 aglandM 3).view.loc (sh 4 c : Thread nD τ) ↦[(slot7 aglandM 3).view.set]{fullShare} f))) :=
  rfl
@[sl_rounds] theorem payload_agsend0 (d : Bool) : (rd P).payload (dcell c 22) 0 d =
    ((ownM : Memref sig .tc .vmem S64x1024 .bf16).view.loc (c : Thread nD τ) ↦[(ownM : Memref sig .tc .vmem S64x1024 .bf16).view.set]{agShare 0} own P c) :=
  rfl
@[sl_rounds] theorem payload_agsend1 (d : Bool) : (rd P).payload (dcell c 23) 0 d =
    ((ownM : Memref sig .tc .vmem S64x1024 .bf16).view.loc (c : Thread nD τ) ↦[(ownM : Memref sig .tc .vmem S64x1024 .bf16).view.set]{agShare 1} own P c) :=
  rfl
@[sl_rounds] theorem payload_agsend2 (d : Bool) : (rd P).payload (dcell c 24) 0 d =
    ((ownM : Memref sig .tc .vmem S64x1024 .bf16).view.loc (c : Thread nD τ) ↦[(ownM : Memref sig .tc .vmem S64x1024 .bf16).view.set]{agShare 2} own P c) :=
  rfl
@[sl_rounds] theorem payload_agsend3 (d : Bool) : (rd P).payload (dcell c 25) 0 d =
    ((ownM : Memref sig .tc .vmem S64x1024 .bf16).view.loc (c : Thread nD τ) ↦[(ownM : Memref sig .tc .vmem S64x1024 .bf16).view.set]{agShare 3} own P c) :=
  rfl
@[sl_rounds] theorem payload_agsend4 (d : Bool) : (rd P).payload (dcell c 26) 0 d =
    ((ownM : Memref sig .tc .vmem S64x1024 .bf16).view.loc (c : Thread nD τ) ↦[(ownM : Memref sig .tc .vmem S64x1024 .bf16).view.set]{agShare 4} own P c) :=
  rfl
@[sl_rounds] theorem payload_agsend5 (d : Bool) : (rd P).payload (dcell c 27) 0 d =
    ((ownM : Memref sig .tc .vmem S64x1024 .bf16).view.loc (c : Thread nD τ) ↦[(ownM : Memref sig .tc .vmem S64x1024 .bf16).view.set]{agShare 5} own P c) :=
  rfl
@[sl_rounds] theorem payload_agsend6 (d : Bool) : (rd P).payload (dcell c 28) 0 d =
    ((ownM : Memref sig .tc .vmem S64x1024 .bf16).view.loc (c : Thread nD τ) ↦[(ownM : Memref sig .tc .vmem S64x1024 .bf16).view.set]{agShare 6} own P c) :=
  rfl
@[sl_rounds] theorem payload_agrecv0 (d : Bool) : (rd P).payload (dcell c 29) 0 d =
    ((slot7 aglandM 0).view.loc (c : Thread nD τ) ↦[(slot7 aglandM 0).view.set]{fullShare} aglandBuf P c) :=
  rfl
@[sl_rounds] theorem payload_agrecv1 (d : Bool) : (rd P).payload (dcell c 30) 0 d =
    ((slot7 aglandM 1).view.loc (c : Thread nD τ) ↦[(slot7 aglandM 1).view.set]{fullShare} aglandBuf P c) :=
  rfl
@[sl_rounds] theorem payload_agrecv2 (d : Bool) : (rd P).payload (dcell c 31) 0 d =
    ((slot7 aglandM 2).view.loc (c : Thread nD τ) ↦[(slot7 aglandM 2).view.set]{fullShare} aglandBuf P c) :=
  rfl
@[sl_rounds] theorem payload_agrecv3 (d : Bool) : (rd P).payload (dcell c 32) 0 d =
    ((slot7 aglandM 3).view.loc (c : Thread nD τ) ↦[(slot7 aglandM 3).view.set]{fullShare} aglandBuf P c) :=
  rfl
@[sl_rounds] theorem payload_agrecv4 (d : Bool) : (rd P).payload (dcell c 33) 0 d =
    ((slot7 aglandM 4).view.loc (c : Thread nD τ) ↦[(slot7 aglandM 4).view.set]{fullShare} aglandBuf P c) :=
  rfl
@[sl_rounds] theorem payload_agrecv5 (d : Bool) : (rd P).payload (dcell c 34) 0 d =
    ((slot7 aglandM 5).view.loc (c : Thread nD τ) ↦[(slot7 aglandM 5).view.set]{fullShare} aglandBuf P c) :=
  rfl
@[sl_rounds] theorem payload_agrecv6 (d : Bool) : (rd P).payload (dcell c 35) 0 d =
    ((slot7 aglandM 6).view.loc (c : Thread nD τ) ↦[(slot7 aglandM 6).view.set]{fullShare} aglandBuf P c) :=
  rfl

end Tables

section Paid
variable (P : Dev nD → Dev nD → Vec F S1x64x1024 .f32) (c : Dev nD)

theorem rlandBuf_right : rlandBuf P (sh 1 c) = rstageBuf P c := by
  show rstageBuf P (sh 7 (sh 1 c)) = _; rw [sh_sh' 7 1 0 c rfl, sh_zero]
theorem llandBuf_left : llandBuf P (sh 7 c) = lstageBuf P c := by
  show lstageBuf P (sh 1 (sh 7 c)) = _; rw [sh_sh' 1 7 0 c rfl, sh_zero]

@[sl_rounds high] theorem payload_barT_paid : (rd P).payload (barCell (sh 7 c)) 0 true =
    iprop((∃ f : Buf (Elt F) ((slot4 rlandM 0).view.loc (c : Thread nD τ)), ((slot4 rlandM 0).view.loc (c : Thread nD τ) ↦[(slot4 rlandM 0).view.set]{fullShare} f))
      ∗ (∃ f : Buf (Elt F) ((slot4 rlandM 1).view.loc (c : Thread nD τ)), ((slot4 rlandM 1).view.loc (c : Thread nD τ) ↦[(slot4 rlandM 1).view.set]{fullShare} f))
      ∗ (∃ f : Buf (Elt F) ((slot4 rlandM 2).view.loc (c : Thread nD τ)), ((slot4 rlandM 2).view.loc (c : Thread nD τ) ↦[(slot4 rlandM 2).view.set]{fullShare} f))
      ∗ (∃ f : Buf (Elt F) ((slot4 rlandM 3).view.loc (c : Thread nD τ)), ((slot4 rlandM 3).view.loc (c : Thread nD τ) ↦[(slot4 rlandM 3).view.set]{fullShare} f))
      ∗ (∃ f : Buf (Elt F) ((slot7 aglandM 0).view.loc (c : Thread nD τ)), ((slot7 aglandM 0).view.loc (c : Thread nD τ) ↦[(slot7 aglandM 0).view.set]{fullShare} f))
      ∗ (∃ f : Buf (Elt F) ((slot7 aglandM 1).view.loc (c : Thread nD τ)), ((slot7 aglandM 1).view.loc (c : Thread nD τ) ↦[(slot7 aglandM 1).view.set]{fullShare} f))
      ∗ (∃ f : Buf (Elt F) ((slot7 aglandM 2).view.loc (c : Thread nD τ)), ((slot7 aglandM 2).view.loc (c : Thread nD τ) ↦[(slot7 aglandM 2).view.set]{fullShare} f))
      ∗ (∃ f : Buf (Elt F) ((slot7 aglandM 3).view.loc (c : Thread nD τ)), ((slot7 aglandM 3).view.loc (c : Thread nD τ) ↦[(slot7 aglandM 3).view.set]{fullShare} f))) := by
  rw [payload_barT P (sh 7 c), sh_sh' 1 7 0 c rfl, sh_zero]

@[sl_rounds high] theorem payload_barF_paid : (rd P).payload (barCell (sh 1 c)) 0 false =
    iprop((∃ f : Buf (Elt F) ((slot3 llandM 0).view.loc (c : Thread nD τ)), ((slot3 llandM 0).view.loc (c : Thread nD τ) ↦[(slot3 llandM 0).view.set]{fullShare} f))
      ∗ (∃ f : Buf (Elt F) ((slot3 llandM 1).view.loc (c : Thread nD τ)), ((slot3 llandM 1).view.loc (c : Thread nD τ) ↦[(slot3 llandM 1).view.set]{fullShare} f))
      ∗ (∃ f : Buf (Elt F) ((slot3 llandM 2).view.loc (c : Thread nD τ)), ((slot3 llandM 2).view.loc (c : Thread nD τ) ↦[(slot3 llandM 2).view.set]{fullShare} f))
      ∗ (∃ f : Buf (Elt F) ((slot7 aglandM 6).view.loc (c : Thread nD τ)), ((slot7 aglandM 6).view.loc (c : Thread nD τ) ↦[(slot7 aglandM 6).view.set]{fullShare} f))
      ∗ (∃ f : Buf (Elt F) ((slot7 aglandM 5).view.loc (c : Thread nD τ)), ((slot7 aglandM 5).view.loc (c : Thread nD τ) ↦[(slot7 aglandM 5).view.set]{fullShare} f))
      ∗ (∃ f : Buf (Elt F) ((slot7 aglandM 4).view.loc (c : Thread nD τ)), ((slot7 aglandM 4).view.loc (c : Thread nD τ) ↦[(slot7 aglandM 4).view.set]{fullShare} f))) := by
  rw [payload_barF P (sh 1 c), sh_sh' 7 1 0 c rfl, sh_zero]

@[sl_rounds high] theorem payload_rrecv0_paid (d : Bool) : (rd P).payload (dcell (sh 1 c) 12) 0 d =
    iprop(((slot4 rlandM 0).view.loc (sh 1 c : Thread nD τ) ↦[(slot4 rlandM 0).view.set]{fullShare} rstageBuf P c) ∗ (∃ f : Buf (Elt F) ((slot7 aglandM 5).view.loc (sh 7 c : Thread nD τ)), ((slot7 aglandM 5).view.loc (sh 7 c : Thread nD τ) ↦[(slot7 aglandM 5).view.set]{fullShare} f)) ∗ (∃ f : Buf (Elt F) ((slot7 aglandM 4).view.loc (sh 7 c : Thread nD τ)), ((slot7 aglandM 4).view.loc (sh 7 c : Thread nD τ) ↦[(slot7 aglandM 4).view.set]{fullShare} f))) := by
  rw [payload_rrecv0 P (sh 1 c) d, sh_sh' 6 1 7 c rfl, rlandBuf_right]
@[sl_rounds high] theorem payload_rrecv1_paid (d : Bool) : (rd P).payload (dcell (sh 1 c) 13) 0 d =
    iprop(((slot4 rlandM 1).view.loc (sh 1 c : Thread nD τ) ↦[(slot4 rlandM 1).view.set]{fullShare} rstageBuf P c) ∗ (∃ f : Buf (Elt F) ((slot7 aglandM 4).view.loc (sh 6 c : Thread nD τ)), ((slot7 aglandM 4).view.loc (sh 6 c : Thread nD τ) ↦[(slot7 aglandM 4).view.set]{fullShare} f))) := by
  rw [payload_rrecv1 P (sh 1 c) d, sh_sh' 5 1 6 c rfl, rlandBuf_right]
@[sl_rounds high] theorem payload_rrecv2_paid (d : Bool) : (rd P).payload (dcell (sh 1 c) 14) 0 d =
    ((slot4 rlandM 2).view.loc (sh 1 c : Thread nD τ) ↦[(slot4 rlandM 2).view.set]{fullShare} rstageBuf P c) := by
  rw [payload_rrecv2 P (sh 1 c) d, rlandBuf_right]
@[sl_rounds high] theorem payload_rrecv3_paid (d : Bool) : (rd P).payload (dcell (sh 1 c) 15) 0 d =
    ((slot4 rlandM 3).view.loc (sh 1 c : Thread nD τ) ↦[(slot4 rlandM 3).view.set]{fullShare} rstageBuf P c) := by
  rw [payload_rrecv3 P (sh 1 c) d, rlandBuf_right]

@[sl_rounds high] theorem payload_lrecv0_paid (d : Bool) : (rd P).payload (dcell (sh 7 c) 19) 0 d =
    iprop(((slot3 llandM 0).view.loc (sh 7 c : Thread nD τ) ↦[(slot3 llandM 0).view.set]{fullShare} lstageBuf P c) ∗ (∃ f : Buf (Elt F) ((slot7 aglandM 1).view.loc (sh 1 c : Thread nD τ)), ((slot7 aglandM 1).view.loc (sh 1 c : Thread nD τ) ↦[(slot7 aglandM 1).view.set]{fullShare} f)) ∗ (∃ f : Buf (Elt F) ((slot7 aglandM 2).view.loc (sh 1 c : Thread nD τ)), ((slot7 aglandM 2).view.loc (sh 1 c : Thread nD τ) ↦[(slot7 aglandM 2).view.set]{fullShare} f)) ∗ (∃ f : Buf (Elt F) ((slot7 aglandM 3).view.loc (sh 1 c : Thread nD τ)), ((slot7 aglandM 3).view.loc (sh 1 c : Thread nD τ) ↦[(slot7 aglandM 3).view.set]{fullShare} f))) := by
  rw [payload_lrecv0 P (sh 7 c) d, sh_sh' 2 7 1 c rfl, llandBuf_left]
@[sl_rounds high] theorem payload_lrecv1_paid (d : Bool) : (rd P).payload (dcell (sh 7 c) 20) 0 d =
    iprop(((slot3 llandM 1).view.loc (sh 7 c : Thread nD τ) ↦[(slot3 llandM 1).view.set]{fullShare} lstageBuf P c) ∗ (∃ f : Buf (Elt F) ((slot7 aglandM 2).view.loc (sh 2 c : Thread nD τ)), ((slot7 aglandM 2).view.loc (sh 2 c : Thread nD τ) ↦[(slot7 aglandM 2).view.set]{fullShare} f)) ∗ (∃ f : Buf (Elt F) ((slot7 aglandM 3).view.loc (sh 2 c : Thread nD τ)), ((slot7 aglandM 3).view.loc (sh 2 c : Thread nD τ) ↦[(slot7 aglandM 3).view.set]{fullShare} f))) := by
  rw [payload_lrecv1 P (sh 7 c) d, sh_sh' 3 7 2 c rfl, llandBuf_left]
@[sl_rounds high] theorem payload_lrecv2_paid (d : Bool) : (rd P).payload (dcell (sh 7 c) 21) 0 d =
    iprop(((slot3 llandM 2).view.loc (sh 7 c : Thread nD τ) ↦[(slot3 llandM 2).view.set]{fullShare} lstageBuf P c) ∗ (∃ f : Buf (Elt F) ((slot7 aglandM 3).view.loc (sh 3 c : Thread nD τ)), ((slot7 aglandM 3).view.loc (sh 3 c : Thread nD τ) ↦[(slot7 aglandM 3).view.set]{fullShare} f))) := by
  rw [payload_lrecv2 P (sh 7 c) d, sh_sh' 4 7 3 c rfl, llandBuf_left]

end Paid

section Restate
variable (P : Dev nD → Dev nD → Vec F S1x64x1024 .f32)

theorem rland_restate0 (c e : Dev nD) (he : sh 7 c = e) (fd : Buf (Elt F) ((slot4 rlandM 0).view.loc (c : Thread nD τ))) :
    (((slot4 rlandM 0).view.loc (c : Thread nD τ) ↦[(slot4 rlandM 0).view.set]{fullShare} ((slot4 rlandM 0).view.write (Elt F) fd ((slot4 rstageM 0).view.read (Elt F) (rstageBuf P e)) Finset.univ)) : sProp 𝕄)
      = rlandPt (F := F) 0 c (rlandBuf P c) := by
  subst he
  show _ = ((slot4 rlandM 0).view.loc (c : Thread nD τ) ↦[(slot4 rlandM 0).view.set]{fullShare} rlandBuf P c)
  refine pointsTo_congr fun i hi => ?_
  obtain ⟨y, rfl⟩ := View.exists_emb_of_mem_set _ hi
  rw [View.write_emb_of_mem _ _ (Finset.mem_univ y)]
  rfl
theorem rland_restate1 (c e : Dev nD) (he : sh 7 c = e) (fd : Buf (Elt F) ((slot4 rlandM 1).view.loc (c : Thread nD τ))) :
    (((slot4 rlandM 1).view.loc (c : Thread nD τ) ↦[(slot4 rlandM 1).view.set]{fullShare} ((slot4 rlandM 1).view.write (Elt F) fd ((slot4 rstageM 1).view.read (Elt F) (rstageBuf P e)) Finset.univ)) : sProp 𝕄)
      = rlandPt (F := F) 1 c (rlandBuf P c) := by
  subst he
  show _ = ((slot4 rlandM 1).view.loc (c : Thread nD τ) ↦[(slot4 rlandM 1).view.set]{fullShare} rlandBuf P c)
  refine pointsTo_congr fun i hi => ?_
  obtain ⟨y, rfl⟩ := View.exists_emb_of_mem_set _ hi
  rw [View.write_emb_of_mem _ _ (Finset.mem_univ y)]
  rfl
theorem rland_restate2 (c e : Dev nD) (he : sh 7 c = e) (fd : Buf (Elt F) ((slot4 rlandM 2).view.loc (c : Thread nD τ))) :
    (((slot4 rlandM 2).view.loc (c : Thread nD τ) ↦[(slot4 rlandM 2).view.set]{fullShare} ((slot4 rlandM 2).view.write (Elt F) fd ((slot4 rstageM 2).view.read (Elt F) (rstageBuf P e)) Finset.univ)) : sProp 𝕄)
      = rlandPt (F := F) 2 c (rlandBuf P c) := by
  subst he
  show _ = ((slot4 rlandM 2).view.loc (c : Thread nD τ) ↦[(slot4 rlandM 2).view.set]{fullShare} rlandBuf P c)
  refine pointsTo_congr fun i hi => ?_
  obtain ⟨y, rfl⟩ := View.exists_emb_of_mem_set _ hi
  rw [View.write_emb_of_mem _ _ (Finset.mem_univ y)]
  rfl
theorem rland_restate3 (c e : Dev nD) (he : sh 7 c = e) (fd : Buf (Elt F) ((slot4 rlandM 3).view.loc (c : Thread nD τ))) :
    (((slot4 rlandM 3).view.loc (c : Thread nD τ) ↦[(slot4 rlandM 3).view.set]{fullShare} ((slot4 rlandM 3).view.write (Elt F) fd ((slot4 rstageM 3).view.read (Elt F) (rstageBuf P e)) Finset.univ)) : sProp 𝕄)
      = rlandPt (F := F) 3 c (rlandBuf P c) := by
  subst he
  show _ = ((slot4 rlandM 3).view.loc (c : Thread nD τ) ↦[(slot4 rlandM 3).view.set]{fullShare} rlandBuf P c)
  refine pointsTo_congr fun i hi => ?_
  obtain ⟨y, rfl⟩ := View.exists_emb_of_mem_set _ hi
  rw [View.write_emb_of_mem _ _ (Finset.mem_univ y)]
  rfl

theorem lland_restate0 (c e : Dev nD) (he : sh 1 c = e) (fd : Buf (Elt F) ((slot3 llandM 0).view.loc (c : Thread nD τ))) :
    (((slot3 llandM 0).view.loc (c : Thread nD τ) ↦[(slot3 llandM 0).view.set]{fullShare} ((slot3 llandM 0).view.write (Elt F) fd ((slot3 lstageM 0).view.read (Elt F) (lstageBuf P e)) Finset.univ)) : sProp 𝕄)
      = llandPt (F := F) 0 c (llandBuf P c) := by
  subst he
  show _ = ((slot3 llandM 0).view.loc (c : Thread nD τ) ↦[(slot3 llandM 0).view.set]{fullShare} llandBuf P c)
  refine pointsTo_congr fun i hi => ?_
  obtain ⟨y, rfl⟩ := View.exists_emb_of_mem_set _ hi
  rw [View.write_emb_of_mem _ _ (Finset.mem_univ y)]
  rfl
theorem lland_restate1 (c e : Dev nD) (he : sh 1 c = e) (fd : Buf (Elt F) ((slot3 llandM 1).view.loc (c : Thread nD τ))) :
    (((slot3 llandM 1).view.loc (c : Thread nD τ) ↦[(slot3 llandM 1).view.set]{fullShare} ((slot3 llandM 1).view.write (Elt F) fd ((slot3 lstageM 1).view.read (Elt F) (lstageBuf P e)) Finset.univ)) : sProp 𝕄)
      = llandPt (F := F) 1 c (llandBuf P c) := by
  subst he
  show _ = ((slot3 llandM 1).view.loc (c : Thread nD τ) ↦[(slot3 llandM 1).view.set]{fullShare} llandBuf P c)
  refine pointsTo_congr fun i hi => ?_
  obtain ⟨y, rfl⟩ := View.exists_emb_of_mem_set _ hi
  rw [View.write_emb_of_mem _ _ (Finset.mem_univ y)]
  rfl
theorem lland_restate2 (c e : Dev nD) (he : sh 1 c = e) (fd : Buf (Elt F) ((slot3 llandM 2).view.loc (c : Thread nD τ))) :
    (((slot3 llandM 2).view.loc (c : Thread nD τ) ↦[(slot3 llandM 2).view.set]{fullShare} ((slot3 llandM 2).view.write (Elt F) fd ((slot3 lstageM 2).view.read (Elt F) (lstageBuf P e)) Finset.univ)) : sProp 𝕄)
      = llandPt (F := F) 2 c (llandBuf P c) := by
  subst he
  show _ = ((slot3 llandM 2).view.loc (c : Thread nD τ) ↦[(slot3 llandM 2).view.set]{fullShare} llandBuf P c)
  refine pointsTo_congr fun i hi => ?_
  obtain ⟨y, rfl⟩ := View.exists_emb_of_mem_set _ hi
  rw [View.write_emb_of_mem _ _ (Finset.mem_univ y)]
  rfl

theorem agland_restate0 (c e : Dev nD) (he : sh 7 c = e) (fd : Buf (Elt F) ((slot7 aglandM 0).view.loc (c : Thread nD τ))) :
    (((slot7 aglandM 0).view.loc (c : Thread nD τ) ↦[(slot7 aglandM 0).view.set]{fullShare} ((slot7 aglandM 0).view.write (Elt F) fd ((ownM : Memref sig .tc .vmem S64x1024 .bf16).view.read (Elt F) (own P e)) Finset.univ)) : sProp 𝕄)
      = aglandPt (F := F) 0 c (aglandBuf P c) := by
  subst he
  show _ = ((slot7 aglandM 0).view.loc (c : Thread nD τ) ↦[(slot7 aglandM 0).view.set]{fullShare} aglandBuf P c)
  refine pointsTo_congr fun i hi => ?_
  obtain ⟨y, rfl⟩ := View.exists_emb_of_mem_set _ hi
  rw [View.write_emb_of_mem _ _ (Finset.mem_univ y)]
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot7 aglandM 0).view.emb y = (ix3 (⟨0, by decide⟩ : Fin 7) (y 0) (y 1) : S7x64x1024.Idx) := by
    show (rect7 0).emb (Shape.reshapeEquiv (s := S1x64x1024) (s' := S64x1024) squeezes_S1x64x1024_S64x1024.numel_eq y) = _
    rw [hy]
    funext a; apply Fin.ext
    match a with
    | ⟨0, _⟩ => rfl
    | ⟨1, _⟩ => show 0 + 1 * (y 0).val = (y 0).val; omega
    | ⟨2, _⟩ => show 0 + 1 * (y 1).val = (y 1).val; omega
  rw [key]
  show _ = own P (sh 7 c) (ix2 (y 0) (y 1))
  exact (show _ = own P (sh 7 c) y from rfl).trans (congrArg (own P (sh 7 c)) (eq_ix2 y))
theorem agland_restate1 (c e : Dev nD) (he : sh 6 c = e) (fd : Buf (Elt F) ((slot7 aglandM 1).view.loc (c : Thread nD τ))) :
    (((slot7 aglandM 1).view.loc (c : Thread nD τ) ↦[(slot7 aglandM 1).view.set]{fullShare} ((slot7 aglandM 1).view.write (Elt F) fd ((ownM : Memref sig .tc .vmem S64x1024 .bf16).view.read (Elt F) (own P e)) Finset.univ)) : sProp 𝕄)
      = aglandPt (F := F) 1 c (aglandBuf P c) := by
  subst he
  show _ = ((slot7 aglandM 1).view.loc (c : Thread nD τ) ↦[(slot7 aglandM 1).view.set]{fullShare} aglandBuf P c)
  refine pointsTo_congr fun i hi => ?_
  obtain ⟨y, rfl⟩ := View.exists_emb_of_mem_set _ hi
  rw [View.write_emb_of_mem _ _ (Finset.mem_univ y)]
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot7 aglandM 1).view.emb y = (ix3 (⟨1, by decide⟩ : Fin 7) (y 0) (y 1) : S7x64x1024.Idx) := by
    show (rect7 1).emb (Shape.reshapeEquiv (s := S1x64x1024) (s' := S64x1024) squeezes_S1x64x1024_S64x1024.numel_eq y) = _
    rw [hy]
    funext a; apply Fin.ext
    match a with
    | ⟨0, _⟩ => rfl
    | ⟨1, _⟩ => show 0 + 1 * (y 0).val = (y 0).val; omega
    | ⟨2, _⟩ => show 0 + 1 * (y 1).val = (y 1).val; omega
  rw [key]
  show _ = own P (sh 6 c) (ix2 (y 0) (y 1))
  exact (show _ = own P (sh 6 c) y from rfl).trans (congrArg (own P (sh 6 c)) (eq_ix2 y))
theorem agland_restate2 (c e : Dev nD) (he : sh 5 c = e) (fd : Buf (Elt F) ((slot7 aglandM 2).view.loc (c : Thread nD τ))) :
    (((slot7 aglandM 2).view.loc (c : Thread nD τ) ↦[(slot7 aglandM 2).view.set]{fullShare} ((slot7 aglandM 2).view.write (Elt F) fd ((ownM : Memref sig .tc .vmem S64x1024 .bf16).view.read (Elt F) (own P e)) Finset.univ)) : sProp 𝕄)
      = aglandPt (F := F) 2 c (aglandBuf P c) := by
  subst he
  show _ = ((slot7 aglandM 2).view.loc (c : Thread nD τ) ↦[(slot7 aglandM 2).view.set]{fullShare} aglandBuf P c)
  refine pointsTo_congr fun i hi => ?_
  obtain ⟨y, rfl⟩ := View.exists_emb_of_mem_set _ hi
  rw [View.write_emb_of_mem _ _ (Finset.mem_univ y)]
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot7 aglandM 2).view.emb y = (ix3 (⟨2, by decide⟩ : Fin 7) (y 0) (y 1) : S7x64x1024.Idx) := by
    show (rect7 2).emb (Shape.reshapeEquiv (s := S1x64x1024) (s' := S64x1024) squeezes_S1x64x1024_S64x1024.numel_eq y) = _
    rw [hy]
    funext a; apply Fin.ext
    match a with
    | ⟨0, _⟩ => rfl
    | ⟨1, _⟩ => show 0 + 1 * (y 0).val = (y 0).val; omega
    | ⟨2, _⟩ => show 0 + 1 * (y 1).val = (y 1).val; omega
  rw [key]
  show _ = own P (sh 5 c) (ix2 (y 0) (y 1))
  exact (show _ = own P (sh 5 c) y from rfl).trans (congrArg (own P (sh 5 c)) (eq_ix2 y))
theorem agland_restate3 (c e : Dev nD) (he : sh 4 c = e) (fd : Buf (Elt F) ((slot7 aglandM 3).view.loc (c : Thread nD τ))) :
    (((slot7 aglandM 3).view.loc (c : Thread nD τ) ↦[(slot7 aglandM 3).view.set]{fullShare} ((slot7 aglandM 3).view.write (Elt F) fd ((ownM : Memref sig .tc .vmem S64x1024 .bf16).view.read (Elt F) (own P e)) Finset.univ)) : sProp 𝕄)
      = aglandPt (F := F) 3 c (aglandBuf P c) := by
  subst he
  show _ = ((slot7 aglandM 3).view.loc (c : Thread nD τ) ↦[(slot7 aglandM 3).view.set]{fullShare} aglandBuf P c)
  refine pointsTo_congr fun i hi => ?_
  obtain ⟨y, rfl⟩ := View.exists_emb_of_mem_set _ hi
  rw [View.write_emb_of_mem _ _ (Finset.mem_univ y)]
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot7 aglandM 3).view.emb y = (ix3 (⟨3, by decide⟩ : Fin 7) (y 0) (y 1) : S7x64x1024.Idx) := by
    show (rect7 3).emb (Shape.reshapeEquiv (s := S1x64x1024) (s' := S64x1024) squeezes_S1x64x1024_S64x1024.numel_eq y) = _
    rw [hy]
    funext a; apply Fin.ext
    match a with
    | ⟨0, _⟩ => rfl
    | ⟨1, _⟩ => show 0 + 1 * (y 0).val = (y 0).val; omega
    | ⟨2, _⟩ => show 0 + 1 * (y 1).val = (y 1).val; omega
  rw [key]
  show _ = own P (sh 4 c) (ix2 (y 0) (y 1))
  exact (show _ = own P (sh 4 c) y from rfl).trans (congrArg (own P (sh 4 c)) (eq_ix2 y))
theorem agland_restate4 (c e : Dev nD) (he : sh 3 c = e) (fd : Buf (Elt F) ((slot7 aglandM 4).view.loc (c : Thread nD τ))) :
    (((slot7 aglandM 4).view.loc (c : Thread nD τ) ↦[(slot7 aglandM 4).view.set]{fullShare} ((slot7 aglandM 4).view.write (Elt F) fd ((ownM : Memref sig .tc .vmem S64x1024 .bf16).view.read (Elt F) (own P e)) Finset.univ)) : sProp 𝕄)
      = aglandPt (F := F) 4 c (aglandBuf P c) := by
  subst he
  show _ = ((slot7 aglandM 4).view.loc (c : Thread nD τ) ↦[(slot7 aglandM 4).view.set]{fullShare} aglandBuf P c)
  refine pointsTo_congr fun i hi => ?_
  obtain ⟨y, rfl⟩ := View.exists_emb_of_mem_set _ hi
  rw [View.write_emb_of_mem _ _ (Finset.mem_univ y)]
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot7 aglandM 4).view.emb y = (ix3 (⟨4, by decide⟩ : Fin 7) (y 0) (y 1) : S7x64x1024.Idx) := by
    show (rect7 4).emb (Shape.reshapeEquiv (s := S1x64x1024) (s' := S64x1024) squeezes_S1x64x1024_S64x1024.numel_eq y) = _
    rw [hy]
    funext a; apply Fin.ext
    match a with
    | ⟨0, _⟩ => rfl
    | ⟨1, _⟩ => show 0 + 1 * (y 0).val = (y 0).val; omega
    | ⟨2, _⟩ => show 0 + 1 * (y 1).val = (y 1).val; omega
  rw [key]
  show _ = own P (sh 3 c) (ix2 (y 0) (y 1))
  exact (show _ = own P (sh 3 c) y from rfl).trans (congrArg (own P (sh 3 c)) (eq_ix2 y))
theorem agland_restate5 (c e : Dev nD) (he : sh 2 c = e) (fd : Buf (Elt F) ((slot7 aglandM 5).view.loc (c : Thread nD τ))) :
    (((slot7 aglandM 5).view.loc (c : Thread nD τ) ↦[(slot7 aglandM 5).view.set]{fullShare} ((slot7 aglandM 5).view.write (Elt F) fd ((ownM : Memref sig .tc .vmem S64x1024 .bf16).view.read (Elt F) (own P e)) Finset.univ)) : sProp 𝕄)
      = aglandPt (F := F) 5 c (aglandBuf P c) := by
  subst he
  show _ = ((slot7 aglandM 5).view.loc (c : Thread nD τ) ↦[(slot7 aglandM 5).view.set]{fullShare} aglandBuf P c)
  refine pointsTo_congr fun i hi => ?_
  obtain ⟨y, rfl⟩ := View.exists_emb_of_mem_set _ hi
  rw [View.write_emb_of_mem _ _ (Finset.mem_univ y)]
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot7 aglandM 5).view.emb y = (ix3 (⟨5, by decide⟩ : Fin 7) (y 0) (y 1) : S7x64x1024.Idx) := by
    show (rect7 5).emb (Shape.reshapeEquiv (s := S1x64x1024) (s' := S64x1024) squeezes_S1x64x1024_S64x1024.numel_eq y) = _
    rw [hy]
    funext a; apply Fin.ext
    match a with
    | ⟨0, _⟩ => rfl
    | ⟨1, _⟩ => show 0 + 1 * (y 0).val = (y 0).val; omega
    | ⟨2, _⟩ => show 0 + 1 * (y 1).val = (y 1).val; omega
  rw [key]
  show _ = own P (sh 2 c) (ix2 (y 0) (y 1))
  exact (show _ = own P (sh 2 c) y from rfl).trans (congrArg (own P (sh 2 c)) (eq_ix2 y))
theorem agland_restate6 (c e : Dev nD) (he : sh 1 c = e) (fd : Buf (Elt F) ((slot7 aglandM 6).view.loc (c : Thread nD τ))) :
    (((slot7 aglandM 6).view.loc (c : Thread nD τ) ↦[(slot7 aglandM 6).view.set]{fullShare} ((slot7 aglandM 6).view.write (Elt F) fd ((ownM : Memref sig .tc .vmem S64x1024 .bf16).view.read (Elt F) (own P e)) Finset.univ)) : sProp 𝕄)
      = aglandPt (F := F) 6 c (aglandBuf P c) := by
  subst he
  show _ = ((slot7 aglandM 6).view.loc (c : Thread nD τ) ↦[(slot7 aglandM 6).view.set]{fullShare} aglandBuf P c)
  refine pointsTo_congr fun i hi => ?_
  obtain ⟨y, rfl⟩ := View.exists_emb_of_mem_set _ hi
  rw [View.write_emb_of_mem _ _ (Finset.mem_univ y)]
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot7 aglandM 6).view.emb y = (ix3 (⟨6, by decide⟩ : Fin 7) (y 0) (y 1) : S7x64x1024.Idx) := by
    show (rect7 6).emb (Shape.reshapeEquiv (s := S1x64x1024) (s' := S64x1024) squeezes_S1x64x1024_S64x1024.numel_eq y) = _
    rw [hy]
    funext a; apply Fin.ext
    match a with
    | ⟨0, _⟩ => rfl
    | ⟨1, _⟩ => show 0 + 1 * (y 0).val = (y 0).val; omega
    | ⟨2, _⟩ => show 0 + 1 * (y 1).val = (y 1).val; omega
  rw [key]
  show _ = own P (sh 1 c) (ix2 (y 0) (y 1))
  exact (show _ = own P (sh 1 c) y from rfl).trans (congrArg (own P (sh 1 c)) (eq_ix2 y))

end Restate

section Hpay
variable (P : Dev nD → Dev nD → Vec F S1x64x1024 .f32) (c : Dev nD)

theorem hpay_rsend0 : (((slot4 rstageM 0).view.loc (c : Thread nD τ) ↦[(slot4 rstageM 0).view.set]{fullShare} rstageBuf P c) : sProp 𝕄) ⊢ (rd P).payload (dcell c 8) 0 false :=
  Entails.of_eq (payload_rsend0 P c false).symm
theorem hpay_rsend1 : (((slot4 rstageM 1).view.loc (c : Thread nD τ) ↦[(slot4 rstageM 1).view.set]{fullShare} rstageBuf P c) : sProp 𝕄) ⊢ (rd P).payload (dcell c 9) 0 false :=
  Entails.of_eq (payload_rsend1 P c false).symm
theorem hpay_rsend2 : (((slot4 rstageM 2).view.loc (c : Thread nD τ) ↦[(slot4 rstageM 2).view.set]{fullShare} rstageBuf P c) : sProp 𝕄) ⊢ (rd P).payload (dcell c 10) 0 false :=
  Entails.of_eq (payload_rsend2 P c false).symm
theorem hpay_rsend3 : (((slot4 rstageM 3).view.loc (c : Thread nD τ) ↦[(slot4 rstageM 3).view.set]{fullShare} rstageBuf P c) : sProp 𝕄) ⊢ (rd P).payload (dcell c 11) 0 false :=
  Entails.of_eq (payload_rsend3 P c false).symm
theorem hpay_lsend0 : (((slot3 lstageM 0).view.loc (c : Thread nD τ) ↦[(slot3 lstageM 0).view.set]{fullShare} lstageBuf P c) : sProp 𝕄) ⊢ (rd P).payload (dcell c 16) 0 false :=
  Entails.of_eq (payload_lsend0 P c false).symm
theorem hpay_lsend1 : (((slot3 lstageM 1).view.loc (c : Thread nD τ) ↦[(slot3 lstageM 1).view.set]{fullShare} lstageBuf P c) : sProp 𝕄) ⊢ (rd P).payload (dcell c 17) 0 false :=
  Entails.of_eq (payload_lsend1 P c false).symm
theorem hpay_lsend2 : (((slot3 lstageM 2).view.loc (c : Thread nD τ) ↦[(slot3 lstageM 2).view.set]{fullShare} lstageBuf P c) : sProp 𝕄) ⊢ (rd P).payload (dcell c 18) 0 false :=
  Entails.of_eq (payload_lsend2 P c false).symm
theorem hpay_agsend0 : (((ownM : Memref sig .tc .vmem S64x1024 .bf16).view.loc (c : Thread nD τ) ↦[(ownM : Memref sig .tc .vmem S64x1024 .bf16).view.set]{agShare 0} own P c) : sProp 𝕄) ⊢ (rd P).payload (dcell c 22) 0 false :=
  Entails.of_eq (payload_agsend0 P c false).symm
theorem hpay_agsend1 : (((ownM : Memref sig .tc .vmem S64x1024 .bf16).view.loc (c : Thread nD τ) ↦[(ownM : Memref sig .tc .vmem S64x1024 .bf16).view.set]{agShare 1} own P c) : sProp 𝕄) ⊢ (rd P).payload (dcell c 23) 0 false :=
  Entails.of_eq (payload_agsend1 P c false).symm
theorem hpay_agsend2 : (((ownM : Memref sig .tc .vmem S64x1024 .bf16).view.loc (c : Thread nD τ) ↦[(ownM : Memref sig .tc .vmem S64x1024 .bf16).view.set]{agShare 2} own P c) : sProp 𝕄) ⊢ (rd P).payload (dcell c 24) 0 false :=
  Entails.of_eq (payload_agsend2 P c false).symm
theorem hpay_agsend3 : (((ownM : Memref sig .tc .vmem S64x1024 .bf16).view.loc (c : Thread nD τ) ↦[(ownM : Memref sig .tc .vmem S64x1024 .bf16).view.set]{agShare 3} own P c) : sProp 𝕄) ⊢ (rd P).payload (dcell c 25) 0 false :=
  Entails.of_eq (payload_agsend3 P c false).symm
theorem hpay_agsend4 : (((ownM : Memref sig .tc .vmem S64x1024 .bf16).view.loc (c : Thread nD τ) ↦[(ownM : Memref sig .tc .vmem S64x1024 .bf16).view.set]{agShare 4} own P c) : sProp 𝕄) ⊢ (rd P).payload (dcell c 26) 0 false :=
  Entails.of_eq (payload_agsend4 P c false).symm
theorem hpay_agsend5 : (((ownM : Memref sig .tc .vmem S64x1024 .bf16).view.loc (c : Thread nD τ) ↦[(ownM : Memref sig .tc .vmem S64x1024 .bf16).view.set]{agShare 5} own P c) : sProp 𝕄) ⊢ (rd P).payload (dcell c 27) 0 false :=
  Entails.of_eq (payload_agsend5 P c false).symm
theorem hpay_agsend6 : (((ownM : Memref sig .tc .vmem S64x1024 .bf16).view.loc (c : Thread nD τ) ↦[(ownM : Memref sig .tc .vmem S64x1024 .bf16).view.set]{agShare 6} own P c) : sProp 𝕄) ⊢ (rd P).payload (dcell c 28) 0 false :=
  Entails.of_eq (payload_agsend6 P c false).symm

theorem hpay_rrecv0 (fd : Buf (Elt F) ((slot4 rlandM 0).view.loc (sh 1 c : Thread nD τ))) :
    iprop(((slot4 rlandM 0).view.loc (sh 1 c : Thread nD τ) ↦[(slot4 rlandM 0).view.set]{fullShare} ((slot4 rlandM 0).view.write (Elt F) fd ((slot4 rstageM 0).view.read (Elt F) (rstageBuf P c)) Finset.univ)) ∗ iprop(agP (F := F) (sh 7 c) 5 ∗ agP (F := F) (sh 7 c) 4))
      ⊢ (rd P).payload (dcell (sh 1 c) 12) 0 false := by
  refine (sep_mono_left (Entails.of_eq (rland_restate0 P (sh 1 c) c ((sh_sh' 7 1 0 c rfl).trans (sh_zero c)) fd))).trans (Entails.of_eq ?_)
  rw [payload_rrecv0_paid, rlandBuf_right]; rfl
theorem hpay_rrecv1 (fd : Buf (Elt F) ((slot4 rlandM 1).view.loc (sh 1 c : Thread nD τ))) :
    iprop(((slot4 rlandM 1).view.loc (sh 1 c : Thread nD τ) ↦[(slot4 rlandM 1).view.set]{fullShare} ((slot4 rlandM 1).view.write (Elt F) fd ((slot4 rstageM 1).view.read (Elt F) (rstageBuf P c)) Finset.univ)) ∗ agP (F := F) (sh 6 c) 4)
      ⊢ (rd P).payload (dcell (sh 1 c) 13) 0 false := by
  refine (sep_mono_left (Entails.of_eq (rland_restate1 P (sh 1 c) c ((sh_sh' 7 1 0 c rfl).trans (sh_zero c)) fd))).trans (Entails.of_eq ?_)
  rw [payload_rrecv1_paid, rlandBuf_right]; rfl
theorem hpay_rrecv2 (fd : Buf (Elt F) ((slot4 rlandM 2).view.loc (sh 1 c : Thread nD τ))) :
    (((slot4 rlandM 2).view.loc (sh 1 c : Thread nD τ) ↦[(slot4 rlandM 2).view.set]{fullShare} ((slot4 rlandM 2).view.write (Elt F) fd ((slot4 rstageM 2).view.read (Elt F) (rstageBuf P c)) Finset.univ)) : sProp 𝕄)
      ⊢ (rd P).payload (dcell (sh 1 c) 14) 0 false := by
  refine (Entails.of_eq (rland_restate2 P (sh 1 c) c ((sh_sh' 7 1 0 c rfl).trans (sh_zero c)) fd)).trans (Entails.of_eq ?_)
  rw [payload_rrecv2_paid, rlandBuf_right]; rfl
theorem hpay_rrecv3 (fd : Buf (Elt F) ((slot4 rlandM 3).view.loc (sh 1 c : Thread nD τ))) :
    (((slot4 rlandM 3).view.loc (sh 1 c : Thread nD τ) ↦[(slot4 rlandM 3).view.set]{fullShare} ((slot4 rlandM 3).view.write (Elt F) fd ((slot4 rstageM 3).view.read (Elt F) (rstageBuf P c)) Finset.univ)) : sProp 𝕄)
      ⊢ (rd P).payload (dcell (sh 1 c) 15) 0 false := by
  refine (Entails.of_eq (rland_restate3 P (sh 1 c) c ((sh_sh' 7 1 0 c rfl).trans (sh_zero c)) fd)).trans (Entails.of_eq ?_)
  rw [payload_rrecv3_paid, rlandBuf_right]; rfl
theorem hpay_lrecv0 (fd : Buf (Elt F) ((slot3 llandM 0).view.loc (sh 7 c : Thread nD τ))) :
    iprop(((slot3 llandM 0).view.loc (sh 7 c : Thread nD τ) ↦[(slot3 llandM 0).view.set]{fullShare} ((slot3 llandM 0).view.write (Elt F) fd ((slot3 lstageM 0).view.read (Elt F) (lstageBuf P c)) Finset.univ)) ∗ iprop(agP (F := F) (sh 1 c) 1 ∗ agP (F := F) (sh 1 c) 2 ∗ agP (F := F) (sh 1 c) 3))
      ⊢ (rd P).payload (dcell (sh 7 c) 19) 0 false := by
  refine (sep_mono_left (Entails.of_eq (lland_restate0 P (sh 7 c) c ((sh_sh' 1 7 0 c rfl).trans (sh_zero c)) fd))).trans (Entails.of_eq ?_)
  rw [payload_lrecv0_paid, llandBuf_left]; rfl
theorem hpay_lrecv1 (fd : Buf (Elt F) ((slot3 llandM 1).view.loc (sh 7 c : Thread nD τ))) :
    iprop(((slot3 llandM 1).view.loc (sh 7 c : Thread nD τ) ↦[(slot3 llandM 1).view.set]{fullShare} ((slot3 llandM 1).view.write (Elt F) fd ((slot3 lstageM 1).view.read (Elt F) (lstageBuf P c)) Finset.univ)) ∗ iprop(agP (F := F) (sh 2 c) 2 ∗ agP (F := F) (sh 2 c) 3))
      ⊢ (rd P).payload (dcell (sh 7 c) 20) 0 false := by
  refine (sep_mono_left (Entails.of_eq (lland_restate1 P (sh 7 c) c ((sh_sh' 1 7 0 c rfl).trans (sh_zero c)) fd))).trans (Entails.of_eq ?_)
  rw [payload_lrecv1_paid, llandBuf_left]; rfl
theorem hpay_lrecv2 (fd : Buf (Elt F) ((slot3 llandM 2).view.loc (sh 7 c : Thread nD τ))) :
    iprop(((slot3 llandM 2).view.loc (sh 7 c : Thread nD τ) ↦[(slot3 llandM 2).view.set]{fullShare} ((slot3 llandM 2).view.write (Elt F) fd ((slot3 lstageM 2).view.read (Elt F) (lstageBuf P c)) Finset.univ)) ∗ agP (F := F) (sh 3 c) 3)
      ⊢ (rd P).payload (dcell (sh 7 c) 21) 0 false := by
  refine (sep_mono_left (Entails.of_eq (lland_restate2 P (sh 7 c) c ((sh_sh' 1 7 0 c rfl).trans (sh_zero c)) fd))).trans (Entails.of_eq ?_)
  rw [payload_lrecv2_paid, llandBuf_left]; rfl
theorem hpay_agrecv0 (fd : Buf (Elt F) ((slot7 aglandM 0).view.loc (sh 1 c : Thread nD τ))) :
    (((slot7 aglandM 0).view.loc (sh 1 c : Thread nD τ) ↦[(slot7 aglandM 0).view.set]{fullShare} ((slot7 aglandM 0).view.write (Elt F) fd ((ownM : Memref sig .tc .vmem S64x1024 .bf16).view.read (Elt F) (own P c)) Finset.univ)) : sProp 𝕄)
      ⊢ (rd P).payload (dcell (sh 1 c) 29) 0 false :=
  (Entails.of_eq (agland_restate0 P (sh 1 c) c ((sh_sh' 7 1 0 c rfl).trans (sh_zero c)) fd)).trans
    (Entails.of_eq (payload_agrecv0 P (sh 1 c) false).symm)
theorem hpay_agrecv1 (fd : Buf (Elt F) ((slot7 aglandM 1).view.loc (sh 2 c : Thread nD τ))) :
    (((slot7 aglandM 1).view.loc (sh 2 c : Thread nD τ) ↦[(slot7 aglandM 1).view.set]{fullShare} ((slot7 aglandM 1).view.write (Elt F) fd ((ownM : Memref sig .tc .vmem S64x1024 .bf16).view.read (Elt F) (own P c)) Finset.univ)) : sProp 𝕄)
      ⊢ (rd P).payload (dcell (sh 2 c) 30) 0 false :=
  (Entails.of_eq (agland_restate1 P (sh 2 c) c ((sh_sh' 6 2 0 c rfl).trans (sh_zero c)) fd)).trans
    (Entails.of_eq (payload_agrecv1 P (sh 2 c) false).symm)
theorem hpay_agrecv2 (fd : Buf (Elt F) ((slot7 aglandM 2).view.loc (sh 3 c : Thread nD τ))) :
    (((slot7 aglandM 2).view.loc (sh 3 c : Thread nD τ) ↦[(slot7 aglandM 2).view.set]{fullShare} ((slot7 aglandM 2).view.write (Elt F) fd ((ownM : Memref sig .tc .vmem S64x1024 .bf16).view.read (Elt F) (own P c)) Finset.univ)) : sProp 𝕄)
      ⊢ (rd P).payload (dcell (sh 3 c) 31) 0 false :=
  (Entails.of_eq (agland_restate2 P (sh 3 c) c ((sh_sh' 5 3 0 c rfl).trans (sh_zero c)) fd)).trans
    (Entails.of_eq (payload_agrecv2 P (sh 3 c) false).symm)
theorem hpay_agrecv3 (fd : Buf (Elt F) ((slot7 aglandM 3).view.loc (sh 4 c : Thread nD τ))) :
    (((slot7 aglandM 3).view.loc (sh 4 c : Thread nD τ) ↦[(slot7 aglandM 3).view.set]{fullShare} ((slot7 aglandM 3).view.write (Elt F) fd ((ownM : Memref sig .tc .vmem S64x1024 .bf16).view.read (Elt F) (own P c)) Finset.univ)) : sProp 𝕄)
      ⊢ (rd P).payload (dcell (sh 4 c) 32) 0 false :=
  (Entails.of_eq (agland_restate3 P (sh 4 c) c ((sh_sh' 4 4 0 c rfl).trans (sh_zero c)) fd)).trans
    (Entails.of_eq (payload_agrecv3 P (sh 4 c) false).symm)
theorem hpay_agrecv4 (fd : Buf (Elt F) ((slot7 aglandM 4).view.loc (sh 5 c : Thread nD τ))) :
    (((slot7 aglandM 4).view.loc (sh 5 c : Thread nD τ) ↦[(slot7 aglandM 4).view.set]{fullShare} ((slot7 aglandM 4).view.write (Elt F) fd ((ownM : Memref sig .tc .vmem S64x1024 .bf16).view.read (Elt F) (own P c)) Finset.univ)) : sProp 𝕄)
      ⊢ (rd P).payload (dcell (sh 5 c) 33) 0 false :=
  (Entails.of_eq (agland_restate4 P (sh 5 c) c ((sh_sh' 3 5 0 c rfl).trans (sh_zero c)) fd)).trans
    (Entails.of_eq (payload_agrecv4 P (sh 5 c) false).symm)
theorem hpay_agrecv5 (fd : Buf (Elt F) ((slot7 aglandM 5).view.loc (sh 6 c : Thread nD τ))) :
    (((slot7 aglandM 5).view.loc (sh 6 c : Thread nD τ) ↦[(slot7 aglandM 5).view.set]{fullShare} ((slot7 aglandM 5).view.write (Elt F) fd ((ownM : Memref sig .tc .vmem S64x1024 .bf16).view.read (Elt F) (own P c)) Finset.univ)) : sProp 𝕄)
      ⊢ (rd P).payload (dcell (sh 6 c) 34) 0 false :=
  (Entails.of_eq (agland_restate5 P (sh 6 c) c ((sh_sh' 2 6 0 c rfl).trans (sh_zero c)) fd)).trans
    (Entails.of_eq (payload_agrecv5 P (sh 6 c) false).symm)
theorem hpay_agrecv6 (fd : Buf (Elt F) ((slot7 aglandM 6).view.loc (sh 7 c : Thread nD τ))) :
    (((slot7 aglandM 6).view.loc (sh 7 c : Thread nD τ) ↦[(slot7 aglandM 6).view.set]{fullShare} ((slot7 aglandM 6).view.write (Elt F) fd ((ownM : Memref sig .tc .vmem S64x1024 .bf16).view.read (Elt F) (own P c)) Finset.univ)) : sProp 𝕄)
      ⊢ (rd P).payload (dcell (sh 7 c) 35) 0 false :=
  (Entails.of_eq (agland_restate6 P (sh 7 c) c ((sh_sh' 1 7 0 c rfl).trans (sh_zero c)) fd)).trans
    (Entails.of_eq (payload_agrecv6 P (sh 7 c) false).symm)

end Hpay

section Shares
variable (c : Dev nD) (f : FVec F S64x1024 .bf16)

theorem own_shares :
    (((ownM : Memref sig .tc .vmem S64x1024 .bf16).view.loc (c : Thread nD τ) ↦[(ownM : Memref sig .tc .vmem S64x1024 .bf16).view.set]{fullShare} f) : sProp 𝕄)
      ⊣⊢ iprop(((ownM : Memref sig .tc .vmem S64x1024 .bf16).view.loc (c : Thread nD τ) ↦[(ownM : Memref sig .tc .vmem S64x1024 .bf16).view.set]{agRest} f)
          ∗ bigSep Finset.univ (fun k : Fin 7 => ((ownM : Memref sig .tc .vmem S64x1024 .bf16).view.loc (c : Thread nD τ) ↦[(ownM : Memref sig .tc .vmem S64x1024 .bf16).view.set]{agShare k} f))) :=
  Transfers.pointsTo_toks fullShare 7

theorem own_shares7 :
    (((ownM : Memref sig .tc .vmem S64x1024 .bf16).view.loc (c : Thread nD τ) ↦[(ownM : Memref sig .tc .vmem S64x1024 .bf16).view.set]{fullShare} f) : sProp 𝕄)
      ⊣⊢ iprop(((ownM : Memref sig .tc .vmem S64x1024 .bf16).view.loc (c : Thread nD τ) ↦[(ownM : Memref sig .tc .vmem S64x1024 .bf16).view.set]{agRest} f)
          ∗ ((ownM : Memref sig .tc .vmem S64x1024 .bf16).view.loc (c : Thread nD τ) ↦[(ownM : Memref sig .tc .vmem S64x1024 .bf16).view.set]{agShare 0} f)
          ∗ ((ownM : Memref sig .tc .vmem S64x1024 .bf16).view.loc (c : Thread nD τ) ↦[(ownM : Memref sig .tc .vmem S64x1024 .bf16).view.set]{agShare 1} f)
          ∗ ((ownM : Memref sig .tc .vmem S64x1024 .bf16).view.loc (c : Thread nD τ) ↦[(ownM : Memref sig .tc .vmem S64x1024 .bf16).view.set]{agShare 2} f)
          ∗ ((ownM : Memref sig .tc .vmem S64x1024 .bf16).view.loc (c : Thread nD τ) ↦[(ownM : Memref sig .tc .vmem S64x1024 .bf16).view.set]{agShare 3} f)
          ∗ ((ownM : Memref sig .tc .vmem S64x1024 .bf16).view.loc (c : Thread nD τ) ↦[(ownM : Memref sig .tc .vmem S64x1024 .bf16).view.set]{agShare 4} f)
          ∗ ((ownM : Memref sig .tc .vmem S64x1024 .bf16).view.loc (c : Thread nD τ) ↦[(ownM : Memref sig .tc .vmem S64x1024 .bf16).view.set]{agShare 5} f)
          ∗ ((ownM : Memref sig .tc .vmem S64x1024 .bf16).view.loc (c : Thread nD τ) ↦[(ownM : Memref sig .tc .vmem S64x1024 .bf16).view.set]{agShare 6} f)) := by
  have h := own_shares (F := F) c f
  rw [bigSep_univ_eq_bigSepL [0, 1, 2, 3, 4, 5, 6] (by decide) (by decide)] at h
  exact h

end Shares

end Cert.KernelIdeal.Hand

end
-- ==== Proof.Levels.lean ====
import proofs.«900750_g7700000000000751_dist_attn_cross_gqa_kvrep_htp_b1_sq512_skv2048_d1024_hq8_dh128_v7x_i8_bf16_1_alg».proof.Proof.Alg
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def pays (c : Dev nD) : List (GSem nD τ sig × ℕ) :=
  [(barCell (sh 7 c), 1), (barCell (sh 1 c), 1),
   (dcell (sh 1 c) 12, N), (dcell (sh 7 c) 19, N),
   (dcell (sh 1 c) 13, N), (dcell (sh 7 c) 20, N),
   (dcell (sh 1 c) 14, N), (dcell (sh 7 c) 21, N),
   (dcell (sh 1 c) 15, N),
   (dcell (sh 1 c) 29, N), (dcell (sh 2 c) 30, N), (dcell (sh 3 c) 31, N), (dcell (sh 4 c) 32, N),
   (dcell (sh 5 c) 33, N), (dcell (sh 6 c) 34, N), (dcell (sh 7 c) 35, N)]

def owing (l : List (GSem nD τ sig × ℕ)) : CellTallies nD τ sig Unit :=
  l.foldr (fun p acc => acc + tallyAt p.1 () p.2) 0

theorem owing_cons (p : GSem nD τ sig × ℕ) (l : List (GSem nD τ sig × ℕ)) : owing (p :: l) = owing l + tallyAt p.1 () p.2 := rfl

def owe (i : ℕ) (c : Dev nD) : CellTallies nD τ sig Unit := owing ((pays c).drop i)

theorem owe_0 (c : Dev nD) : owe 0 c = owe 1 c + tallyAt (barCell (sh 7 c)) () 1 := rfl
theorem owe_1 (c : Dev nD) : owe 1 c = owe 2 c + tallyAt (barCell (sh 1 c)) () 1 := rfl
theorem owe_2 (c : Dev nD) : owe 2 c = owe 3 c + tallyAt (dcell (sh 1 c) 12) () N := rfl
theorem owe_3 (c : Dev nD) : owe 3 c = owe 4 c + tallyAt (dcell (sh 7 c) 19) () N := rfl
theorem owe_4 (c : Dev nD) : owe 4 c = owe 5 c + tallyAt (dcell (sh 1 c) 13) () N := rfl
theorem owe_5 (c : Dev nD) : owe 5 c = owe 6 c + tallyAt (dcell (sh 7 c) 20) () N := rfl
theorem owe_6 (c : Dev nD) : owe 6 c = owe 7 c + tallyAt (dcell (sh 1 c) 14) () N := rfl
theorem owe_7 (c : Dev nD) : owe 7 c = owe 8 c + tallyAt (dcell (sh 7 c) 21) () N := rfl
theorem owe_8 (c : Dev nD) : owe 8 c = owe 9 c + tallyAt (dcell (sh 1 c) 15) () N := rfl
theorem owe_9 (c : Dev nD) : owe 9 c = owe 10 c + tallyAt (dcell (sh 1 c) 29) () N := rfl
theorem owe_10 (c : Dev nD) : owe 10 c = owe 11 c + tallyAt (dcell (sh 2 c) 30) () N := rfl
theorem owe_11 (c : Dev nD) : owe 11 c = owe 12 c + tallyAt (dcell (sh 3 c) 31) () N := rfl
theorem owe_12 (c : Dev nD) : owe 12 c = owe 13 c + tallyAt (dcell (sh 4 c) 32) () N := rfl
theorem owe_13 (c : Dev nD) : owe 13 c = owe 14 c + tallyAt (dcell (sh 5 c) 33) () N := rfl
theorem owe_14 (c : Dev nD) : owe 14 c = owe 15 c + tallyAt (dcell (sh 6 c) 34) () N := rfl
theorem owe_15 (c : Dev nD) : owe 15 c = owe 16 c + tallyAt (dcell (sh 7 c) 35) () N := rfl
theorem owe_16 (c : Dev nD) : owe 16 c = 0 := rfl

theorem owing_pos {l : List (GSem nD τ sig × ℕ)} {g : GSem nD τ sig} {u : Unit} (h : 0 < owing l g u) : ∃ p ∈ l, g = p.1 := by
  induction l with
  | nil => exact absurd h (Nat.lt_irrefl 0)
  | cons p l ih =>
    rw [owing_cons, Pi.add_apply, Finsupp.add_apply, tallyAt_apply] at h
    by_cases hp : g = p.1 ∧ u = ()
    · exact ⟨p, List.mem_cons.mpr (Or.inl rfl), hp.1⟩
    · rw [if_neg hp, Nat.add_zero] at h
      obtain ⟨q, hq, e⟩ := ih h
      exact ⟨q, List.mem_cons.mpr (Or.inr hq), e⟩

theorem owe_pos {i : ℕ} {c : Dev nD} {g : GSem nD τ sig} {u : Unit} (h : 0 < owe i c g u) : ∃ p ∈ (pays c).drop i, g = p.1 := owing_pos h

def L (g : GSem nD τ sig) : Finset Unit := if g.1.2 = .tc then {()} else ∅

def lvN (n : ℕ) : ℕ :=
  if 12 ≤ n ∧ n ≤ 15 then n - 10 else if 19 ≤ n ∧ n ≤ 21 then n - 17 else if 29 ≤ n ∧ n ≤ 35 then 6 else 0

def lv (g : GSem nD τ sig) (_ : Unit) : ℕ :=
  match g.2 with
  | .reg s => if s = barS then 1 else 0
  | .dma q => lvN q.val

theorem L_of_ne (g : GSem nD τ sig) (h : g.1.2 ≠ .tc) : L g = ∅ := if_neg h
theorem L_tc (c : Dev nD) (sm : SemLoc sig) : L ((c : Thread nD τ), sm) = {()} := if_pos rfl

theorem lv_bar (e : Dev nD) : lv (barCell e) () = 1 := by
  show (if barS = barS then 1 else 0) = 1
  exact if_pos rfl
theorem lv_dcell (e : Dev nD) (n : ℕ) (h : n < 36) : lv (dcell e n h) () = lvN n := rfl
theorem lv_dma (e : Dev nD) (q : DmaSem sig) : lv ((e : Thread nD τ), .dma q) () = lvN q.val := rfl

theorem pays_tc (c : Dev nD) : ∀ p ∈ pays c, p.1.1.2 = Proc.tc := by
  intro p hp
  simp only [pays, List.mem_cons, List.not_mem_nil, or_false] at hp
  rcases hp with rfl | rfl | rfl | rfl | rfl | rfl | rfl | rfl | rfl | rfl | rfl | rfl | rfl | rfl | rfl | rfl <;> rfl

def payLevels : List ℕ := [1, 1, 2, 2, 3, 3, 4, 4, 5, 6, 6, 6, 6, 6, 6, 6]

theorem pays_levels (c : Dev nD) : (pays c).map (fun p => lv p.1 ()) = payLevels := by
  simp only [pays, List.map_cons, List.map_nil, lv_bar, lv_dcell]
  rfl

omit [FloatOps F] in

theorem mayWait_cut (c : Dev nD) (sm : SemLoc sig) (i b : ℕ) (hb : lv ((c : Thread nD τ), sm) () ≤ b)
    (h : ∀ p ∈ (pays c).drop i, b < lv p.1 ()) :
    (levAts L lv : sProp 𝕄) ⊢ MayWait (c : Thread nD τ) sm () (owe i c) :=
  MayOwe.of_cut (L := L) (lev := lv) b
    (fun p hp => by rw [Finset.mem_singleton.mp hp, L_tc]; exact Finset.mem_singleton_self _)
    (fun g u hg => by
      obtain ⟨p, hp, rfl⟩ := owe_pos hg
      have ht := pays_tc c p (List.mem_of_mem_drop hp)
      unfold L; rw [if_pos ht]; exact Finset.mem_singleton_self _)
    (fun p hp => by rw [Finset.mem_singleton.mp hp]; exact hb)
    (fun g u hg => by obtain ⟨p, hp, rfl⟩ := owe_pos hg; exact h p hp)

omit [FloatOps F] in

theorem mayWait_of_levels (c : Dev nD) (sm : SemLoc sig) (i b : ℕ) (hb : lv ((c : Thread nD τ), sm) () ≤ b)
    (h : ∀ x ∈ payLevels.drop i, b < x) :
    (levAts L lv : sProp 𝕄) ⊢ MayWait (c : Thread nD τ) sm () (owe i c) :=
  mayWait_cut c sm i b hb fun p hp => h _ (by
    rw [← pays_levels c, ← List.map_drop]; exact List.mem_map.mpr ⟨p, hp, rfl⟩)

omit [FloatOps F] in

theorem mayWait_bar (c : Dev nD) : (levAts L lv : sProp 𝕄) ⊢ MayWait (c : Thread nD τ) (.reg barS) () (owe 2 c) :=
  mayWait_of_levels c _ 2 1 (lv_bar c).le (by decide)

omit [FloatOps F] in

theorem mayWait_lv0 (c : Dev nD) (sm : SemLoc sig) (h0 : lv ((c : Thread nD τ), sm) () = 0) (i : ℕ) :
    (levAts L lv : sProp 𝕄) ⊢ MayWait (c : Thread nD τ) sm () (owe i c) :=
  mayWait_of_levels c sm i 0 h0.le fun x hx => (by decide : ∀ y ∈ payLevels, 0 < y) x (List.mem_of_mem_drop hx)

omit [FloatOps F] in

theorem mayWait_dma0 (c : Dev nD) (q : DmaSem sig) (hq : lvN q.val = 0) (i : ℕ) :
    (levAts L lv : sProp 𝕄) ⊢ MayWait (c : Thread nD τ) (.dma q) () (owe i c) :=
  mayWait_lv0 c (.dma q) ((lv_dma c q).trans hq) i

omit [FloatOps F] in

theorem mayWait_done (c : Dev nD) (sm : SemLoc sig) : (levAts L lv : sProp 𝕄) ⊢ MayWait (c : Thread nD τ) sm () 0 := by
  rw [MayWait_zero]; iintro -; iempintro

omit [FloatOps F] in

theorem mayWait_owe16 (c : Dev nD) (sm : SemLoc sig) : (levAts L lv : sProp 𝕄) ⊢ MayWait (c : Thread nD τ) sm () (owe 16 c) := by
  rw [owe_16]; exact mayWait_done c sm

omit [FloatOps F] in

theorem mayWait_lrecv0 (c : Dev nD) : (levAts L lv : sProp 𝕄) ⊢ MayWait (c : Thread nD τ) (.dma (dq 19)) () (owe 4 c) :=
  mayWait_of_levels c _ 4 2 (by rw [lv_dma]; decide) (by decide)
omit [FloatOps F] in
theorem mayWait_lrecv1 (c : Dev nD) : (levAts L lv : sProp 𝕄) ⊢ MayWait (c : Thread nD τ) (.dma (dq 20)) () (owe 6 c) :=
  mayWait_of_levels c _ 6 3 (by rw [lv_dma]; decide) (by decide)
omit [FloatOps F] in
theorem mayWait_lrecv2 (c : Dev nD) : (levAts L lv : sProp 𝕄) ⊢ MayWait (c : Thread nD τ) (.dma (dq 21)) () (owe 8 c) :=
  mayWait_of_levels c _ 8 4 (by rw [lv_dma]; decide) (by decide)
omit [FloatOps F] in

theorem mayWait_rrecv0 (c : Dev nD) : (levAts L lv : sProp 𝕄) ⊢ MayWait (c : Thread nD τ) (.dma (dq 12)) () (owe 4 c) :=
  mayWait_of_levels c _ 4 2 (by rw [lv_dma]; decide) (by decide)
omit [FloatOps F] in
theorem mayWait_rrecv1 (c : Dev nD) : (levAts L lv : sProp 𝕄) ⊢ MayWait (c : Thread nD τ) (.dma (dq 13)) () (owe 6 c) :=
  mayWait_of_levels c _ 6 3 (by rw [lv_dma]; decide) (by decide)
omit [FloatOps F] in
theorem mayWait_rrecv2 (c : Dev nD) : (levAts L lv : sProp 𝕄) ⊢ MayWait (c : Thread nD τ) (.dma (dq 14)) () (owe 8 c) :=
  mayWait_of_levels c _ 8 4 (by rw [lv_dma]; decide) (by decide)
omit [FloatOps F] in
theorem mayWait_rrecv3 (c : Dev nD) : (levAts L lv : sProp 𝕄) ⊢ MayWait (c : Thread nD τ) (.dma (dq 15)) () (owe 9 c) :=
  mayWait_of_levels c _ 9 5 (by rw [lv_dma]; decide) (by decide)

end Cert.KernelIdeal.Hand

end
-- ==== Proof.Iface.lean ====
import proofs.«900750_g7700000000000751_dist_attn_cross_gqa_kvrep_htp_b1_sq512_skv2048_d1024_hq8_dh128_v7x_i8_bf16_1_alg».proof.Proof.Sched
import proofs.«900750_g7700000000000751_dist_attn_cross_gqa_kvrep_htp_b1_sq512_skv2048_d1024_hq8_dh128_v7x_i8_bf16_1_alg».proof.Proof.Levels
import proofs.«900750_g7700000000000751_dist_attn_cross_gqa_kvrep_htp_b1_sq512_skv2048_d1024_hq8_dh128_v7x_i8_bf16_1_alg».proof.Proof.Gen.KernelIdeal.Points
import proofs.«900750_g7700000000000751_dist_attn_cross_gqa_kvrep_htp_b1_sq512_skv2048_d1024_hq8_dh128_v7x_i8_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (P : Dev nD → Dev nD → Vec F S1x64x1024 .f32)

abbrev t₀ : Fin cfg0.N := Gen.t0_0
theorem fin_N (t : Fin cfg0.N) : t = t₀ := Gen.fin_N0 t

def invs (K : Dev nD × Fin 29 → ℕ) (c : Dev nD) : sProp 𝕄 :=
  iprop(cellInv ER (rd P) (K (c, 0)) (barCell c)
    ∗ cellInv ER (rd P) (K (c, 1)) (dcell c 8)
    ∗ cellInv ER (rd P) (K (c, 2)) (dcell c 9)
    ∗ cellInv ER (rd P) (K (c, 3)) (dcell c 10)
    ∗ cellInv ER (rd P) (K (c, 4)) (dcell c 11)
    ∗ cellInv ER (rd P) (K (c, 5)) (dcell c 12)
    ∗ cellInv ER (rd P) (K (c, 6)) (dcell c 13)
    ∗ cellInv ER (rd P) (K (c, 7)) (dcell c 14)
    ∗ cellInv ER (rd P) (K (c, 8)) (dcell c 15)
    ∗ cellInv ER (rd P) (K (c, 9)) (dcell c 16)
    ∗ cellInv ER (rd P) (K (c, 10)) (dcell c 17)
    ∗ cellInv ER (rd P) (K (c, 11)) (dcell c 18)
    ∗ cellInv ER (rd P) (K (c, 12)) (dcell c 19)
    ∗ cellInv ER (rd P) (K (c, 13)) (dcell c 20)
    ∗ cellInv ER (rd P) (K (c, 14)) (dcell c 21)
    ∗ cellInv ER (rd P) (K (c, 15)) (dcell c 22)
    ∗ cellInv ER (rd P) (K (c, 16)) (dcell c 23)
    ∗ cellInv ER (rd P) (K (c, 17)) (dcell c 24)
    ∗ cellInv ER (rd P) (K (c, 18)) (dcell c 25)
    ∗ cellInv ER (rd P) (K (c, 19)) (dcell c 26)
    ∗ cellInv ER (rd P) (K (c, 20)) (dcell c 27)
    ∗ cellInv ER (rd P) (K (c, 21)) (dcell c 28)
    ∗ cellInv ER (rd P) (K (c, 22)) (dcell c 29)
    ∗ cellInv ER (rd P) (K (c, 23)) (dcell c 30)
    ∗ cellInv ER (rd P) (K (c, 24)) (dcell c 31)
    ∗ cellInv ER (rd P) (K (c, 25)) (dcell c 32)
    ∗ cellInv ER (rd P) (K (c, 26)) (dcell c 33)
    ∗ cellInv ER (rd P) (K (c, 27)) (dcell c 34)
    ∗ cellInv ER (rd P) (K (c, 28)) (dcell c 35)
    ∗ cellInv ER (rd P) (K (sh 7 c, 0)) (barCell (sh 7 c))
    ∗ cellInv ER (rd P) (K (sh 1 c, 0)) (barCell (sh 1 c))
    ∗ cellInv ER (rd P) (K (sh 1 c, 5)) (dcell (sh 1 c) 12)
    ∗ cellInv ER (rd P) (K (sh 1 c, 6)) (dcell (sh 1 c) 13)
    ∗ cellInv ER (rd P) (K (sh 1 c, 7)) (dcell (sh 1 c) 14)
    ∗ cellInv ER (rd P) (K (sh 1 c, 8)) (dcell (sh 1 c) 15)
    ∗ cellInv ER (rd P) (K (sh 7 c, 12)) (dcell (sh 7 c) 19)
    ∗ cellInv ER (rd P) (K (sh 7 c, 13)) (dcell (sh 7 c) 20)
    ∗ cellInv ER (rd P) (K (sh 7 c, 14)) (dcell (sh 7 c) 21)
    ∗ cellInv ER (rd P) (K (sh 1 c, 22)) (dcell (sh 1 c) 29)
    ∗ cellInv ER (rd P) (K (sh 2 c, 23)) (dcell (sh 2 c) 30)
    ∗ cellInv ER (rd P) (K (sh 3 c, 24)) (dcell (sh 3 c) 31)
    ∗ cellInv ER (rd P) (K (sh 4 c, 25)) (dcell (sh 4 c) 32)
    ∗ cellInv ER (rd P) (K (sh 5 c, 26)) (dcell (sh 5 c) 33)
    ∗ cellInv ER (rd P) (K (sh 6 c, 27)) (dcell (sh 6 c) 34)
    ∗ cellInv ER (rd P) (K (sh 7 c, 28)) (dcell (sh 7 c) 35))

instance invs_persistent (K : Dev nD × Fin 29 → ℕ) (c : Dev nD) : BI.Persistent (invs P K c) := by unfold invs; infer_instance

def ghost (K : Dev nD × Fin 29 → ℕ) (c : Dev nD) : sProp 𝕄 :=
  iprop(invs P K c
    ∗ (atPos ER (barCell c) 0 ∅ 0
      ∗ atPos ER (dcell c 8) 0 ∅ 0
      ∗ atPos ER (dcell c 9) 0 ∅ 0
      ∗ atPos ER (dcell c 10) 0 ∅ 0
      ∗ atPos ER (dcell c 11) 0 ∅ 0
      ∗ atPos ER (dcell c 12) 0 ∅ 0
      ∗ atPos ER (dcell c 13) 0 ∅ 0
      ∗ atPos ER (dcell c 14) 0 ∅ 0
      ∗ atPos ER (dcell c 15) 0 ∅ 0
      ∗ atPos ER (dcell c 16) 0 ∅ 0
      ∗ atPos ER (dcell c 17) 0 ∅ 0
      ∗ atPos ER (dcell c 18) 0 ∅ 0
      ∗ atPos ER (dcell c 19) 0 ∅ 0
      ∗ atPos ER (dcell c 20) 0 ∅ 0
      ∗ atPos ER (dcell c 21) 0 ∅ 0
      ∗ atPos ER (dcell c 22) 0 ∅ 0
      ∗ atPos ER (dcell c 23) 0 ∅ 0
      ∗ atPos ER (dcell c 24) 0 ∅ 0
      ∗ atPos ER (dcell c 25) 0 ∅ 0
      ∗ atPos ER (dcell c 26) 0 ∅ 0
      ∗ atPos ER (dcell c 27) 0 ∅ 0
      ∗ atPos ER (dcell c 28) 0 ∅ 0
      ∗ atPos ER (dcell c 29) 0 ∅ 0
      ∗ atPos ER (dcell c 30) 0 ∅ 0
      ∗ atPos ER (dcell c 31) 0 ∅ 0
      ∗ atPos ER (dcell c 32) 0 ∅ 0
      ∗ atPos ER (dcell c 33) 0 ∅ 0
      ∗ atPos ER (dcell c 34) 0 ∅ 0
      ∗ atPos ER (dcell c 35) 0 ∅ 0)
    ∗ (reached ER (barCell c) 0
      ∗ reached ER (dcell c 8) 0
      ∗ reached ER (dcell c 9) 0
      ∗ reached ER (dcell c 10) 0
      ∗ reached ER (dcell c 11) 0
      ∗ reached ER (dcell c 12) 0
      ∗ reached ER (dcell c 13) 0
      ∗ reached ER (dcell c 14) 0
      ∗ reached ER (dcell c 15) 0
      ∗ reached ER (dcell c 16) 0
      ∗ reached ER (dcell c 17) 0
      ∗ reached ER (dcell c 18) 0
      ∗ reached ER (dcell c 19) 0
      ∗ reached ER (dcell c 20) 0
      ∗ reached ER (dcell c 21) 0
      ∗ reached ER (dcell c 22) 0
      ∗ reached ER (dcell c 23) 0
      ∗ reached ER (dcell c 24) 0
      ∗ reached ER (dcell c 25) 0
      ∗ reached ER (dcell c 26) 0
      ∗ reached ER (dcell c 27) 0
      ∗ reached ER (dcell c 28) 0
      ∗ reached ER (dcell c 29) 0
      ∗ reached ER (dcell c 30) 0
      ∗ reached ER (dcell c 31) 0
      ∗ reached ER (dcell c 32) 0
      ∗ reached ER (dcell c 33) 0
      ∗ reached ER (dcell c 34) 0
      ∗ reached ER (dcell c 35) 0
      ∗ reached ER (barCell (sh 7 c)) 0
      ∗ reached ER (barCell (sh 1 c)) 0
      ∗ reached ER (dcell (sh 1 c) 12) 0
      ∗ reached ER (dcell (sh 1 c) 13) 0
      ∗ reached ER (dcell (sh 1 c) 14) 0
      ∗ reached ER (dcell (sh 1 c) 15) 0
      ∗ reached ER (dcell (sh 7 c) 19) 0
      ∗ reached ER (dcell (sh 7 c) 20) 0
      ∗ reached ER (dcell (sh 7 c) 21) 0
      ∗ reached ER (dcell (sh 1 c) 29) 0
      ∗ reached ER (dcell (sh 2 c) 30) 0
      ∗ reached ER (dcell (sh 3 c) 31) 0
      ∗ reached ER (dcell (sh 4 c) 32) 0
      ∗ reached ER (dcell (sh 5 c) 33) 0
      ∗ reached ER (dcell (sh 6 c) 34) 0
      ∗ reached ER (dcell (sh 7 c) 35) 0)
    ∗ dutyTok ER (barCell (sh 7 c)) 0 true
    ∗ dutyTok ER (barCell (sh 1 c)) 0 false
    ∗ dutyTok ER (dcell c 8) 0 false
    ∗ dutyTok ER (dcell (sh 1 c) 12) 0 false
    ∗ dutyTok ER (dcell c 16) 0 false
    ∗ dutyTok ER (dcell (sh 7 c) 19) 0 false
    ∗ dutyTok ER (dcell c 9) 0 false
    ∗ dutyTok ER (dcell (sh 1 c) 13) 0 false
    ∗ dutyTok ER (dcell c 17) 0 false
    ∗ dutyTok ER (dcell (sh 7 c) 20) 0 false
    ∗ dutyTok ER (dcell c 10) 0 false
    ∗ dutyTok ER (dcell (sh 1 c) 14) 0 false
    ∗ dutyTok ER (dcell c 18) 0 false
    ∗ dutyTok ER (dcell (sh 7 c) 21) 0 false
    ∗ dutyTok ER (dcell c 11) 0 false
    ∗ dutyTok ER (dcell (sh 1 c) 15) 0 false
    ∗ dutyTok ER (dcell c 22) 0 false
    ∗ dutyTok ER (dcell (sh 1 c) 29) 0 false
    ∗ dutyTok ER (dcell c 23) 0 false
    ∗ dutyTok ER (dcell (sh 2 c) 30) 0 false
    ∗ dutyTok ER (dcell c 24) 0 false
    ∗ dutyTok ER (dcell (sh 3 c) 31) 0 false
    ∗ dutyTok ER (dcell c 25) 0 false
    ∗ dutyTok ER (dcell (sh 4 c) 32) 0 false
    ∗ dutyTok ER (dcell c 26) 0 false
    ∗ dutyTok ER (dcell (sh 5 c) 33) 0 false
    ∗ dutyTok ER (dcell c 27) 0 false
    ∗ dutyTok ER (dcell (sh 6 c) 34) 0 false
    ∗ dutyTok ER (dcell c 28) 0 false
    ∗ dutyTok ER (dcell (sh 7 c) 35) 0 false)

def creds (c : Dev nD) : sProp 𝕄 :=
  iprop(cred (tallyAt (barCell c) () 2)
    ∗ cred (tallyAt (dcell c 12) () N)
    ∗ cred (tallyAt (dcell c 13) () N)
    ∗ cred (tallyAt (dcell c 14) () N)
    ∗ cred (tallyAt (dcell c 15) () N)
    ∗ cred (tallyAt (dcell c 19) () N)
    ∗ cred (tallyAt (dcell c 20) () N)
    ∗ cred (tallyAt (dcell c 21) () N)
    ∗ cred (tallyAt (dcell c 29) () N)
    ∗ cred (tallyAt (dcell c 30) () N)
    ∗ cred (tallyAt (dcell c 31) () N)
    ∗ cred (tallyAt (dcell c 32) () N)
    ∗ cred (tallyAt (dcell c 33) () N)
    ∗ cred (tallyAt (dcell c 34) () N)
    ∗ cred (tallyAt (dcell c 35) () N))

def scratch11 (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch9), ((c : Thread nD τ).loc cc0_scratch9) ↦{fullShare} f)
    ∗ (∃ f : Buf (Elt F) ((c : Thread nD τ).loc cc0_scratch10), ((c : Thread nD τ).loc cc0_scratch10) ↦{fullShare} f))

def locals0 (c : Dev nD) : sProp 𝕄 :=
  iprop(semVal (dcell c 4) 0
    ∗ semVal (dcell c 5) 0
    ∗ semVal (dcell c 6) 0
    ∗ semVal (dcell c 7) 0)

def own32 (c : Dev nD) : sProp 𝕄 :=
  iprop(semVal (dcell c 4) 0
    ∗ semVal (dcell c 5) 0
    ∗ semVal (dcell c 6) 0
    ∗ semVal (dcell c 7) 0
    ∗ semVal (dcell c 8) 0
    ∗ semVal (dcell c 9) 0
    ∗ semVal (dcell c 10) 0
    ∗ semVal (dcell c 11) 0
    ∗ semVal (dcell c 12) 0
    ∗ semVal (dcell c 13) 0
    ∗ semVal (dcell c 14) 0
    ∗ semVal (dcell c 15) 0
    ∗ semVal (dcell c 16) 0
    ∗ semVal (dcell c 17) 0
    ∗ semVal (dcell c 18) 0
    ∗ semVal (dcell c 19) 0
    ∗ semVal (dcell c 20) 0
    ∗ semVal (dcell c 21) 0
    ∗ semVal (dcell c 22) 0
    ∗ semVal (dcell c 23) 0
    ∗ semVal (dcell c 24) 0
    ∗ semVal (dcell c 25) 0
    ∗ semVal (dcell c 26) 0
    ∗ semVal (dcell c 27) 0
    ∗ semVal (dcell c 28) 0
    ∗ semVal (dcell c 29) 0
    ∗ semVal (dcell c 30) 0
    ∗ semVal (dcell c 31) 0
    ∗ semVal (dcell c 32) 0
    ∗ semVal (dcell c 33) 0
    ∗ semVal (dcell c 34) 0
    ∗ semVal (dcell c 35) 0)

def kvPts (c : Dev nD) : sProp 𝕄 :=
  iprop((((c : Thread nD τ).loc main_arg3) ↦{fullShare} m ((c : Thread nD τ).loc main_arg3)) ∗ (((c : Thread nD τ).loc main_arg4) ↦{fullShare} m ((c : Thread nD τ).loc main_arg4)))

def start (c : Dev nD) : sProp 𝕄 :=
  iprop((∃ K, ghost P K c) ∗ creds c ∗ levAts L lv)

def Φ₀ (c : Dev nD) : sProp 𝕄 := iprop(start P c ∗ scratch11 c ∗ locals0 c ∗ kvPts m c)

def Φ₁ (c : Dev nD) : sProp 𝕄 := iprop(scratch11 c ∗ own32 c ∗ kvPts m c)

def dats (_ : Fin 1) (c : Dev nD) : Dat τ (Elt F) Unit ℕ UU ℕ cfg0 c where
  A w := m ((cfg0.win w).arr.view.loc (c : Thread nD τ))
  after w t := match w with
    | ⟨0, _⟩ => Gen.iblk m c 0 t
    | ⟨1, _⟩ => Gen.iblk m c 1 t
    | ⟨2, _⟩ => Gen.iblk m c 2 t
    | ⟨3, _⟩ => outFin P c
    | ⟨_ + 4, h⟩ => absurd h (Nat.not_lt.2 (Nat.le_add_left _ _))
  Φ t := match t with
    | ⟨0, _⟩ => Φ₀ m P c
    | ⟨_ + 1, _⟩ => Φ₁ m c
  q _ := fullShare
  owed t := match t with
    | ⟨0, _⟩ => owe 0 c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 29 → ℕ) (c : Dev nD) : sProp 𝕄 :=
  iprop((ghost P K c ∗ creds c ∗ levAts L lv ∗ scratch11 c ∗ locals0 c ∗ kvPts m c)
    ∗ (dats m P 0 c).owesAt () t₀.castSucc
    ∗ (∃ d, stg c cc0_stg0_0 ((dats m P 0 c).before (0 : Fin 4) t₀ d))
    ∗ (∃ d, stg c cc0_stg1_0 ((dats m P 0 c).before (1 : Fin 4) t₀ d))
    ∗ (∃ d, stg c cc0_stg2_0 ((dats m P 0 c).before (2 : Fin 4) t₀ d))
    ∗ (∃ d, stg c cc0_stg3_0 ((dats m P 0 c).before (3 : Fin 4) t₀ d)))

def bodyPost (c : Dev nD) : sProp 𝕄 :=
  iprop(Φ₁ m c ∗ (dats m P 0 c).owesAt () t₀.succ
    ∗ stg c cc0_stg0_0 (Gen.iblk m c 0 t₀) ∗ stg c cc0_stg1_0 (Gen.iblk m c 1 t₀) ∗ stg c cc0_stg2_0 (Gen.iblk m c 2 t₀) ∗ stg c cc0_stg3_0 (outFin P c))

abbrev bodyProg : Prog (TpuEff nD τ sig (Elt F) Λ₀ .tc) PUnit :=
  cc0_body xM (Memref.isWhole_whole _) wqM (Memref.isWhole_whole _) woM (Memref.isWhole_whole _) kM (Memref.isWhole_whole _) vM (Memref.isWhole_whole _) outM (Memref.isWhole_whole _)
    kvM (Memref.isWhole_whole _) wqbM (Memref.isWhole_whole _) wobM (Memref.isWhole_whole _) kvbM (Memref.isWhole_whole _) qM (Memref.isWhole_whole _)
    rlandM (Memref.isWhole_whole _) rstageM (Memref.isWhole_whole _) llandM (Memref.isWhole_whole _) lstageM (Memref.isWhole_whole _) ownM (Memref.isWhole_whole _) aglandM (Memref.isWhole_whole _)
    cc0_scratch11 cc0_scratch12 cc0_scratch13 cc0_scratch14 cc0_scratch15 cc0_scratch16 cc0_scratch17

def SoundBody : Prop :=
  ∀ (K : Dev nD × Fin 29 → ℕ) (c : Dev nD) (Kt : PUnit → sProp 𝕄),
    iprop(bodyPre m P K c ∗ (bodyPost m P c -∗ Kt ⟨⟩))
      ⊢ wp frame (wpE (defs₀ (F := F)) 𝒱₀ c none) Set.univ (bodyProg (F := F)) Kt

end Cert.KernelIdeal.Hand

end
-- ==== Proof.Toks.lean ====
import proofs.«900750_g7700000000000751_dist_attn_cross_gqa_kvrep_htp_b1_sq512_skv2048_d1024_hq8_dh128_v7x_i8_bf16_1_alg».proof.Proof.Alg

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

def toks (c : Dev nD) : sProp 𝕄 :=
  iprop(dutyTok ER (barCell c) 0 false
    ∗ dutyTok ER (barCell c) 0 true
    ∗ dutyTok ER (dcell c 8) 0 false
    ∗ dutyTok ER (dcell c 9) 0 false
    ∗ dutyTok ER (dcell c 10) 0 false
    ∗ dutyTok ER (dcell c 11) 0 false
    ∗ dutyTok ER (dcell c 12) 0 false
    ∗ dutyTok ER (dcell c 13) 0 false
    ∗ dutyTok ER (dcell c 14) 0 false
    ∗ dutyTok ER (dcell c 15) 0 false
    ∗ dutyTok ER (dcell c 16) 0 false
    ∗ dutyTok ER (dcell c 17) 0 false
    ∗ dutyTok ER (dcell c 18) 0 false
    ∗ dutyTok ER (dcell c 19) 0 false
    ∗ dutyTok ER (dcell c 20) 0 false
    ∗ dutyTok ER (dcell c 21) 0 false
    ∗ dutyTok ER (dcell c 22) 0 false
    ∗ dutyTok ER (dcell c 23) 0 false
    ∗ dutyTok ER (dcell c 24) 0 false
    ∗ dutyTok ER (dcell c 25) 0 false
    ∗ dutyTok ER (dcell c 26) 0 false
    ∗ dutyTok ER (dcell c 27) 0 false
    ∗ dutyTok ER (dcell c 28) 0 false
    ∗ dutyTok ER (dcell c 29) 0 false
    ∗ dutyTok ER (dcell c 30) 0 false
    ∗ dutyTok ER (dcell c 31) 0 false
    ∗ dutyTok ER (dcell c 32) 0 false
    ∗ dutyTok ER (dcell c 33) 0 false
    ∗ dutyTok ER (dcell c 34) 0 false
    ∗ dutyTok ER (dcell c 35) 0 false)

def payToks (c : Dev nD) : sProp 𝕄 :=
  iprop(dutyTok ER (barCell (sh 7 c)) 0 true
    ∗ dutyTok ER (barCell (sh 1 c)) 0 false
    ∗ dutyTok ER (dcell c 8) 0 false
    ∗ dutyTok ER (dcell (sh 1 c) 12) 0 false
    ∗ dutyTok ER (dcell c 16) 0 false
    ∗ dutyTok ER (dcell (sh 7 c) 19) 0 false
    ∗ dutyTok ER (dcell c 9) 0 false
    ∗ dutyTok ER (dcell (sh 1 c) 13) 0 false
    ∗ dutyTok ER (dcell c 17) 0 false
    ∗ dutyTok ER (dcell (sh 7 c) 20) 0 false
    ∗ dutyTok ER (dcell c 10) 0 false
    ∗ dutyTok ER (dcell (sh 1 c) 14) 0 false
    ∗ dutyTok ER (dcell c 18) 0 false
    ∗ dutyTok ER (dcell (sh 7 c) 21) 0 false
    ∗ dutyTok ER (dcell c 11) 0 false
    ∗ dutyTok ER (dcell (sh 1 c) 15) 0 false
    ∗ dutyTok ER (dcell c 22) 0 false
    ∗ dutyTok ER (dcell (sh 1 c) 29) 0 false
    ∗ dutyTok ER (dcell c 23) 0 false
    ∗ dutyTok ER (dcell (sh 2 c) 30) 0 false
    ∗ dutyTok ER (dcell c 24) 0 false
    ∗ dutyTok ER (dcell (sh 3 c) 31) 0 false
    ∗ dutyTok ER (dcell c 25) 0 false
    ∗ dutyTok ER (dcell (sh 4 c) 32) 0 false
    ∗ dutyTok ER (dcell c 26) 0 false
    ∗ dutyTok ER (dcell (sh 5 c) 33) 0 false
    ∗ dutyTok ER (dcell c 27) 0 false
    ∗ dutyTok ER (dcell (sh 6 c) 34) 0 false
    ∗ dutyTok ER (dcell c 28) 0 false
    ∗ dutyTok ER (dcell (sh 7 c) 35) 0 false)

def shE (k j : ℕ) (h : (k + j) % 8 = 0) : Dev nD ≃ Dev nD where
  toFun := sh k
  invFun := sh j
  left_inv c := by
    apply Fin.ext; have hc : c.val < 8 := c.isLt
    show ((c.val + k) % 8 + j) % 8 = c.val; omega
  right_inv c := by
    apply Fin.ext; have hc : c.val < 8 := c.isLt
    show ((c.val + j) % 8 + k) % 8 = c.val; omega

theorem bigSep_shift (k j : ℕ) (h : (k + j) % 8 = 0) (Φ : Dev nD → sProp 𝕄) :
    bigSep Finset.univ Φ = bigSep Finset.univ (fun c => Φ (sh k c)) :=
  bigSep_univ_equiv (shE k j h) Φ

theorem toks_around : (bigSep Finset.univ fun c : Dev nD => (toks c : sProp 𝕄)) ⊢ bigSep Finset.univ fun c : Dev nD => payToks c := by
  unfold toks payToks
  simp only [bigSep_sep']
  rw [bigSep_shift 1 7 rfl (fun c : Dev nD => (dutyTok ER (barCell c) 0 false : sProp 𝕄)),
    bigSep_shift 7 1 rfl (fun c : Dev nD => (dutyTok ER (barCell c) 0 true : sProp 𝕄)),
    bigSep_shift 1 7 rfl (fun c : Dev nD => (dutyTok ER (dcell c 12) 0 false : sProp 𝕄)),
    bigSep_shift 1 7 rfl (fun c : Dev nD => (dutyTok ER (dcell c 13) 0 false : sProp 𝕄)),
    bigSep_shift 1 7 rfl (fun c : Dev nD => (dutyTok ER (dcell c 14) 0 false : sProp 𝕄)),
    bigSep_shift 1 7 rfl (fun c : Dev nD => (dutyTok ER (dcell c 15) 0 false : sProp 𝕄)),
    bigSep_shift 7 1 rfl (fun c : Dev nD => (dutyTok ER (dcell c 19) 0 false : sProp 𝕄)),
    bigSep_shift 7 1 rfl (fun c : Dev nD => (dutyTok ER (dcell c 20) 0 false : sProp 𝕄)),
    bigSep_shift 7 1 rfl (fun c : Dev nD => (dutyTok ER (dcell c 21) 0 false : sProp 𝕄)),
    bigSep_shift 1 7 rfl (fun c : Dev nD => (dutyTok ER (dcell c 29) 0 false : sProp 𝕄)),
    bigSep_shift 2 6 rfl (fun c : Dev nD => (dutyTok ER (dcell c 30) 0 false : sProp 𝕄)),
    bigSep_shift 3 5 rfl (fun c : Dev nD => (dutyTok ER (dcell c 31) 0 false : sProp 𝕄)),
    bigSep_shift 4 4 rfl (fun c : Dev nD => (dutyTok ER (dcell c 32) 0 false : sProp 𝕄)),
    bigSep_shift 5 3 rfl (fun c : Dev nD => (dutyTok ER (dcell c 33) 0 false : sProp 𝕄)),
    bigSep_shift 6 2 rfl (fun c : Dev nD => (dutyTok ER (dcell c 34) 0 false : sProp 𝕄)),
    bigSep_shift 7 1 rfl (fun c : Dev nD => (dutyTok ER (dcell c 35) 0 false : sProp 𝕄))]
  iintro ⟨Hbf, Hbt, H8, H9, H10, H11, H12, H13, H14, H15, H16, H17, H18, H19, H20, H21, H22, H23, H24, H25, H26, H27, H28, H29, H30, H31, H32, H33, H34, H35⟩
  isplitl [Hbt]; · iexact Hbt
  isplitl [Hbf]; · iexact Hbf
  isplitl [H8]; · iexact H8
  isplitl [H12]; · iexact H12
  isplitl [H16]; · iexact H16
  isplitl [H19]; · iexact H19
  isplitl [H9]; · iexact H9
  isplitl [H13]; · iexact H13
  isplitl [H17]; · iexact H17
  isplitl [H20]; · iexact H20
  isplitl [H10]; · iexact H10
  isplitl [H14]; · iexact H14
  isplitl [H18]; · iexact H18
  isplitl [H21]; · iexact H21
  isplitl [H11]; · iexact H11
  isplitl [H15]; · iexact H15
  isplitl [H22]; · iexact H22
  isplitl [H29]; · iexact H29
  isplitl [H23]; · iexact H23
  isplitl [H30]; · iexact H30
  isplitl [H24]; · iexact H24
  isplitl [H31]; · iexact H31
  isplitl [H25]; · iexact H25
  isplitl [H32]; · iexact H32
  isplitl [H26]; · iexact H26
  isplitl [H33]; · iexact H33
  isplitl [H27]; · iexact H27
  isplitl [H34]; · iexact H34
  isplitl [H28]; · iexact H28
  iexact H35

end Cert.KernelIdeal.Hand

end
-- ==== Proof.LevelsSum.lean ====
import proofs.«900750_g7700000000000751_dist_attn_cross_gqa_kvrep_htp_b1_sq512_skv2048_d1024_hq8_dh128_v7x_i8_bf16_1_alg».proof.Proof.Levels

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem sh_inv (k j : ℕ) (h : (k + j) % 8 = 0) (c : Dev nD) : sh k (sh j c) = c := by
  apply Fin.ext; have hc : c.val < 8 := c.isLt
  show ((c.val + j) % 8 + k) % 8 = c.val; omega

omit [FloatOps F] in

theorem launchCred_step (O : Dev nD → CellTallies nD τ sig Unit) (k j : ℕ) (h : (k + j) % 8 = 0) (sm : SemLoc sig) (n : ℕ) (c : Dev nD) :
    (Pipeline.launchCred (fun d => O d + tallyAt (((sh k d : Dev nD) : Thread nD τ), sm) () n) c : sProp 𝕄)
      ⊢ iprop(Pipeline.launchCred O c ∗ cred (tallyAt ((c : Thread nD τ), sm) () n)) := by
  rw [Pipeline.launchCred_add]
  exact sep_mono_right (Pipeline.launchCred_tallyAt sm (sh k) (sh j) (sh_inv k j h) (sh_inv j k (by rw [Nat.add_comm]; exact h)) () n c)

omit [FloatOps F] in

theorem launchCred_owe (i i' k j : ℕ) (h : (k + j) % 8 = 0) (sm : SemLoc sig) (n : ℕ)
    (ho : ∀ d : Dev nD, owe i d = owe i' d + tallyAt (((sh k d : Dev nD) : Thread nD τ), sm) () n) (c : Dev nD) :
    (Pipeline.launchCred (owe i) c : sProp 𝕄) ⊢ iprop(Pipeline.launchCred (owe i') c ∗ cred (tallyAt ((c : Thread nD τ), sm) () n)) := by
  rw [show owe i = fun d => owe i' d + tallyAt (((sh k d : Dev nD) : Thread nD τ), sm) () n from funext ho]
  exact launchCred_step (owe i') k j h sm n c

omit [FloatOps F] in

theorem launch_creds (c : Dev nD) :
    (Pipeline.launchCred (owe 0) c : sProp 𝕄) ⊢ iprop(cred (tallyAt (barCell c) () 2)
      ∗ cred (tallyAt (dcell c 12) () N) ∗ cred (tallyAt (dcell c 13) () N) ∗ cred (tallyAt (dcell c 14) () N) ∗ cred (tallyAt (dcell c 15) () N)
      ∗ cred (tallyAt (dcell c 19) () N) ∗ cred (tallyAt (dcell c 20) () N) ∗ cred (tallyAt (dcell c 21) () N)
      ∗ cred (tallyAt (dcell c 29) () N) ∗ cred (tallyAt (dcell c 30) () N) ∗ cred (tallyAt (dcell c 31) () N) ∗ cred (tallyAt (dcell c 32) () N)
      ∗ cred (tallyAt (dcell c 33) () N) ∗ cred (tallyAt (dcell c 34) () N) ∗ cred (tallyAt (dcell c 35) () N)) := by
  iintro H
  ihave H := (launchCred_owe 0 1 7 1 rfl (.reg barS) 1 owe_0 c) $$ H; icases H with ⟨H, Hb7⟩
  ihave H := (launchCred_owe 1 2 1 7 rfl (.reg barS) 1 owe_1 c) $$ H; icases H with ⟨H, Hb1⟩
  ihave H := (launchCred_owe 2 3 1 7 rfl (.dma (dq 12)) N owe_2 c) $$ H; icases H with ⟨H, H12⟩
  ihave H := (launchCred_owe 3 4 7 1 rfl (.dma (dq 19)) N owe_3 c) $$ H; icases H with ⟨H, H19⟩
  ihave H := (launchCred_owe 4 5 1 7 rfl (.dma (dq 13)) N owe_4 c) $$ H; icases H with ⟨H, H13⟩
  ihave H := (launchCred_owe 5 6 7 1 rfl (.dma (dq 20)) N owe_5 c) $$ H; icases H with ⟨H, H20⟩
  ihave H := (launchCred_owe 6 7 1 7 rfl (.dma (dq 14)) N owe_6 c) $$ H; icases H with ⟨H, H14⟩
  ihave H := (launchCred_owe 7 8 7 1 rfl (.dma (dq 21)) N owe_7 c) $$ H; icases H with ⟨H, H21⟩
  ihave H := (launchCred_owe 8 9 1 7 rfl (.dma (dq 15)) N owe_8 c) $$ H; icases H with ⟨H, H15⟩
  ihave H := (launchCred_owe 9 10 1 7 rfl (.dma (dq 29)) N owe_9 c) $$ H; icases H with ⟨H, H29⟩
  ihave H := (launchCred_owe 10 11 2 6 rfl (.dma (dq 30)) N owe_10 c) $$ H; icases H with ⟨H, H30⟩
  ihave H := (launchCred_owe 11 12 3 5 rfl (.dma (dq 31)) N owe_11 c) $$ H; icases H with ⟨H, H31⟩
  ihave H := (launchCred_owe 12 13 4 4 rfl (.dma (dq 32)) N owe_12 c) $$ H; icases H with ⟨H, H32⟩
  ihave H := (launchCred_owe 13 14 5 3 rfl (.dma (dq 33)) N owe_13 c) $$ H; icases H with ⟨H, H33⟩
  ihave H := (launchCred_owe 14 15 6 2 rfl (.dma (dq 34)) N owe_14 c) $$ H; icases H with ⟨H, H34⟩
  ihave H := (launchCred_owe 15 16 7 1 rfl (.dma (dq 35)) N owe_15 c) $$ H; icases H with ⟨-, H35⟩
  isplitl [Hb7 Hb1]
  · rw [← tallyAt_add (barCell c) () 1 1]
    iapply (cred_add _ _).2
    isplitl [Hb7] <;> iassumption
  isplitl [H12]; · iexact H12
  isplitl [H13]; · iexact H13
  isplitl [H14]; · iexact H14
  isplitl [H15]; · iexact H15
  isplitl [H19]; · iexact H19
  isplitl [H20]; · iexact H20
  isplitl [H21]; · iexact H21
  isplitl [H29]; · iexact H29
  isplitl [H30]; · iexact H30
  isplitl [H31]; · iexact H31
  isplitl [H32]; · iexact H32
  isplitl [H33]; · iexact H33
  isplitl [H34]; · iexact H34
  iexact H35

end Cert.KernelIdeal.Hand

end
-- ==== Proof.LaunchK.lean ====
import proofs.«900750_g7700000000000751_dist_attn_cross_gqa_kvrep_htp_b1_sq512_skv2048_d1024_hq8_dh128_v7x_i8_bf16_1_alg».proof.Proof.Iface
import proofs.«900750_g7700000000000751_dist_attn_cross_gqa_kvrep_htp_b1_sq512_skv2048_d1024_hq8_dh128_v7x_i8_bf16_1_alg».proof.Proof.Toks
import proofs.«900750_g7700000000000751_dist_attn_cross_gqa_kvrep_htp_b1_sq512_skv2048_d1024_hq8_dh128_v7x_i8_bf16_1_alg».proof.Proof.LevelsSum
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (P : Dev nD → Dev nD → Vec F S1x64x1024 .f32)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
def bodyPre' (c : Dev nD) : sProp 𝕄 :=
  iprop(Φ₀ m P c ∗ (dats m P 0 c).owesAt () t₀.castSucc
    ∗ (∃ d, stg c cc0_stg0_0 ((dats m P 0 c).before (0 : Fin 4) t₀ d))
    ∗ (∃ d, stg c cc0_stg1_0 ((dats m P 0 c).before (1 : Fin 4) t₀ d))
    ∗ (∃ d, stg c cc0_stg2_0 ((dats m P 0 c).before (2 : Fin 4) t₀ d))
    ∗ (∃ d, stg c cc0_stg3_0 ((dats m P 0 c).before (3 : Fin 4) t₀ d)))

set_option maxRecDepth 8000 in

theorem body_obligation (hb : SoundBody m P) (c : Dev nD) : BodyObligation (dats (F := F) m P 0 c) (defs₀ (F := F)) 𝒱₀ () Set.univ := fun t => by
  rw [fin_N t]
  rw [Gen.bigSep_W0, Gen.bigSep_W0]
  simp only [owns_whole_eq]
  show bodyPre' m P c ⊢ wp frame (wpE (defs₀ (F := F)) 𝒱₀ c none) Set.univ (bodyProg (F := F)) (fun _ => bodyPost m P c)
  unfold bodyPre' Φ₀ start
  iintro ⟨⟨⟨⟨%K, Hg⟩, Hcr, Hlev⟩, Hscr, Hloc, Hkv⟩, Ho, Hx, Hwq, Hwo, Hout⟩
  iapply (hb K c fun _ => bodyPost m P c)
  unfold bodyPre
  isplitr []
  · isplitl [Hg Hcr Hlev Hscr Hloc Hkv]
    · isplitl [Hg]; · iexact Hg
      isplitl [Hcr]; · iexact Hcr
      isplitl [Hlev]; · iexact Hlev
      isplitl [Hscr]; · iexact Hscr
      isplitl [Hloc]; · iexact Hloc
      iexact Hkv
    isplitl [Ho]; · iexact Ho
    isplitl [Hx]; · iexact Hx
    isplitl [Hwq]; · iexact Hwq
    isplitl [Hwo]; · iexact Hwo
    iexact Hout
  · iintro H; iexact H

abbrev osem : Fin 32 → SemLoc sig := fun k => .dma ⟨4 + k.val, by show 4 + k.val < 36; have := k.isLt; omega⟩
theorem ownSemFacts : Pipeline.OwnSemFacts cfg0.spec osem := by decide

theorem share_eq (c : Dev nD) (w : Fin cfg0.W) : (dats m P 0 c).share w = fullShare := by unfold Dat.share; split <;> rfl

abbrev csem : Fin 29 → SemLoc sig := fun k => if k.val = 0 then .reg barS else .dma ⟨7 + k.val, by show 7 + k.val < 36; have := k.isLt; omega⟩
abbrev kcell (ck : Dev nD × Fin 29) : GSem nD τ sig := ((ck.1 : Thread nD τ), csem ck.2)

theorem csem_injective : Function.Injective csem := by decide

theorem kcell_injective : Function.Injective (kcell : Dev nD × Fin 29 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

abbrev tokIx (j : Fin 30) : Fin 29 × Bool := (⟨j.val - 1, by have := j.isLt; omega⟩, decide (j.val = 1))
theorem tokIx_injective : Function.Injective tokIx := by decide
abbrev tokOf (cj : Dev nD × Fin 30) : GSem nD τ sig × ℕ × Bool := (kcell (cj.1, (tokIx cj.2).1), 0, (tokIx cj.2).2)
theorem tokOf_injective : Function.Injective (tokOf : Dev nD × Fin 30 → GSem nD τ sig × ℕ × Bool) := by
  rintro ⟨c, j⟩ ⟨c', j'⟩ h
  have h1 : kcell (c, (tokIx j).1) = kcell (c', (tokIx j').1) := congrArg (fun x : GSem nD τ sig × ℕ × Bool => x.1) h
  have h2 : (tokIx j).2 = (tokIx j').2 := congrArg (fun x : GSem nD τ sig × ℕ × Bool => x.2.2) h
  have h3 := kcell_injective h1
  have hc : c = c' := congrArg Prod.fst h3
  have hk : (tokIx j).1 = (tokIx j').1 := congrArg Prod.snd h3
  subst hc
  rw [tokIx_injective (Prod.ext hk h2)]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

theorem bigSep_fin29 (Φ : Fin 29 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28) :=
  bigSep_univ_eq_bigSepL [0, 1, 2, 3, 4, 5, 6, 7, 8, 9, 10, 11, 12, 13, 14, 15, 16, 17, 18, 19, 20, 21, 22, 23, 24, 25, 26, 27, 28] (by decide) (by decide) Φ
theorem bigSep_fin30 (Φ : Fin 30 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29) :=
  bigSep_univ_eq_bigSepL [0, 1, 2, 3, 4, 5, 6, 7, 8, 9, 10, 11, 12, 13, 14, 15, 16, 17, 18, 19, 20, 21, 22, 23, 24, 25, 26, 27, 28, 29] (by decide) (by decide) Φ

def G (c : Dev nD) : sProp 𝕄 :=
  iprop((bigSep Finset.univ fun k : Fin 29 => roundState ER (rd P) (kcell (c, k)) 0)
    ∗ (bigSep Finset.univ fun k : Fin 29 => iprop(atPos ER (kcell (c, k)) 0 ∅ 0 ∗ reached ER (kcell (c, k)) 0)) ∗ toks c)

def G' (c : Dev nD) : sProp 𝕄 := iprop((∃ K, ghost P K c) ∗ locals0 c)

theorem toks_eq (c : Dev nD) : (bigSep Finset.univ fun j : Fin 30 => (dutyTok ER (tokOf (c, j)).1 (tokOf (c, j)).2.1 (tokOf (c, j)).2.2 : sProp 𝕄)) = toks c := by
  rw [bigSep_fin30]; rfl

theorem fund_ring : BI.own (ER (initOf ringCells ringToks)) ⊢ (|==> bigSep Finset.univ (G P) : sProp 𝕄) := by
  have hX (Φ : GSem nD τ sig → sProp 𝕄) : bigSep ringCells Φ = bigSep Finset.univ fun c : Dev nD => bigSep Finset.univ fun k : Fin 29 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd P) ringCells ringToks) $$ HX with ⟨Hst, Hr, Hat, Htok⟩
  imodintro
  ihave Hst' := (Entails.of_eq (hX fun g => roundState ER (rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄) = own32 c := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 29 => semVal (kcell (c, k)) 0) ∗ locals0 c) : sProp 𝕄) := by
  rw [ownSems0_eq, unscopedSems0_eq, bigSep_fin29]
  unfold own32 locals0
  iintro ⟨⟨H4, H5, H6, H7, H8, H9, H10, H11, H12, H13, H14, H15, H16, H17, H18, H19, H20, H21, H22, H23, H24, H25, H26, H27, H28, H29, H30, H31, H32, H33, H34, H35⟩, HB⟩
  isplitr [H4 H5 H6 H7]
  ·
    isplitl [HB]; · iexact HB
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iexact H35
  · isplitl [H4]; · iexact H4
    isplitl [H5]; · iexact H5
    isplitl [H6]; · iexact H6
    iexact H7

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (rd P) κ (kcell (c, k))))
          ∗ (bigSep Finset.univ fun k => iprop(atPos ER (kcell (c, k)) 0 ∅ 0 ∗ reached ER (kcell (c, k)) 0)) ∗ toks c ∗ locals0 c) := by
  unfold G
  iintro ⟨Hos, Hus, Hst, Hat, Htok⟩
  ihave Hv := (sems0_eq (F := F) c) $$ [Hos Hus]
  · isplitl [Hos] <;> iassumption
  icases Hv with ⟨Hv, Hloc⟩
  imod (show iprop((bigSep Finset.univ fun k : Fin 29 => semVal (kcell (c, k)) 0) ∗ bigSep Finset.univ fun k : Fin 29 => roundState ER (rd P) (kcell (c, k)) 0)
      ⊢ (|={Set.univ}=> bigSep Finset.univ fun k => iprop(∃ κ : ℕ, cellInv ER (rd P) κ (kcell (c, k))) : sProp 𝕄) from by
        rw [← bigSep_sep']
        exact (bigSep_mono fun k _ => (Rounds.body_intro ER (rd P) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

def records (K : Dev nD × Fin 29 → ℕ) : sProp 𝕄 :=
  iprop((bigSep Finset.univ fun ck : Dev nD × Fin 29 => cellInv ER (rd P) (K ck) (kcell ck))
    ∗ bigSep Finset.univ fun ck : Dev nD × Fin 29 => reached ER (kcell ck) 0)

instance records_persistent (K : Dev nD × Fin 29 → ℕ) : BI.Persistent (records P K) := by unfold records; infer_instance

theorem inv_at (K : Dev nD × Fin 29 → ℕ) (ck : Dev nD × Fin 29) :
    (bigSep Finset.univ fun ck : Dev nD × Fin 29 => (cellInv ER (rd P) (K ck) (kcell ck) : sProp 𝕄)) ⊢ cellInv ER (rd P) (K ck) (kcell ck) :=
  bigSep_elim (Finset.mem_univ ck)
theorem reached_at (ck : Dev nD × Fin 29) :
    (bigSep Finset.univ fun ck : Dev nD × Fin 29 => (reached ER (kcell ck) 0 : sProp 𝕄)) ⊢ reached ER (kcell ck) 0 :=
  bigSep_elim (Finset.mem_univ ck)

def linear (c : Dev nD) : sProp 𝕄 :=
  iprop((bigSep Finset.univ fun k : Fin 29 => atPos ER (kcell (c, k)) 0 ∅ 0) ∗ payToks c ∗ locals0 c)

set_option maxHeartbeats 1600000 in
theorem ghost_intro (K : Dev nD × Fin 29 → ℕ) (c : Dev nD) : iprop(records P K ∗ linear c) ⊢ G' P c := by
  unfold records linear G'
  iintro ⟨⟨#HI, #HR⟩, Hat, Htok, Hloc⟩
  isplitr [Hloc]
  swap
  · iexact Hloc
  iexists K
  unfold ghost invs
  isplitr
  ·
    isplitr; · iapply (inv_at P K (c, 0)); iexact HI
    isplitr; · iapply (inv_at P K (c, 1)); iexact HI
    isplitr; · iapply (inv_at P K (c, 2)); iexact HI
    isplitr; · iapply (inv_at P K (c, 3)); iexact HI
    isplitr; · iapply (inv_at P K (c, 4)); iexact HI
    isplitr; · iapply (inv_at P K (c, 5)); iexact HI
    isplitr; · iapply (inv_at P K (c, 6)); iexact HI
    isplitr; · iapply (inv_at P K (c, 7)); iexact HI
    isplitr; · iapply (inv_at P K (c, 8)); iexact HI
    isplitr; · iapply (inv_at P K (c, 9)); iexact HI
    isplitr; · iapply (inv_at P K (c, 10)); iexact HI
    isplitr; · iapply (inv_at P K (c, 11)); iexact HI
    isplitr; · iapply (inv_at P K (c, 12)); iexact HI
    isplitr; · iapply (inv_at P K (c, 13)); iexact HI
    isplitr; · iapply (inv_at P K (c, 14)); iexact HI
    isplitr; · iapply (inv_at P K (c, 15)); iexact HI
    isplitr; · iapply (inv_at P K (c, 16)); iexact HI
    isplitr; · iapply (inv_at P K (c, 17)); iexact HI
    isplitr; · iapply (inv_at P K (c, 18)); iexact HI
    isplitr; · iapply (inv_at P K (c, 19)); iexact HI
    isplitr; · iapply (inv_at P K (c, 20)); iexact HI
    isplitr; · iapply (inv_at P K (c, 21)); iexact HI
    isplitr; · iapply (inv_at P K (c, 22)); iexact HI
    isplitr; · iapply (inv_at P K (c, 23)); iexact HI
    isplitr; · iapply (inv_at P K (c, 24)); iexact HI
    isplitr; · iapply (inv_at P K (c, 25)); iexact HI
    isplitr; · iapply (inv_at P K (c, 26)); iexact HI
    isplitr; · iapply (inv_at P K (c, 27)); iexact HI
    isplitr; · iapply (inv_at P K (c, 28)); iexact HI
    isplitr; · iapply (inv_at P K (sh 7 c, 0)); iexact HI
    isplitr; · iapply (inv_at P K (sh 1 c, 0)); iexact HI
    isplitr; · iapply (inv_at P K (sh 1 c, 5)); iexact HI
    isplitr; · iapply (inv_at P K (sh 1 c, 6)); iexact HI
    isplitr; · iapply (inv_at P K (sh 1 c, 7)); iexact HI
    isplitr; · iapply (inv_at P K (sh 1 c, 8)); iexact HI
    isplitr; · iapply (inv_at P K (sh 7 c, 12)); iexact HI
    isplitr; · iapply (inv_at P K (sh 7 c, 13)); iexact HI
    isplitr; · iapply (inv_at P K (sh 7 c, 14)); iexact HI
    isplitr; · iapply (inv_at P K (sh 1 c, 22)); iexact HI
    isplitr; · iapply (inv_at P K (sh 2 c, 23)); iexact HI
    isplitr; · iapply (inv_at P K (sh 3 c, 24)); iexact HI
    isplitr; · iapply (inv_at P K (sh 4 c, 25)); iexact HI
    isplitr; · iapply (inv_at P K (sh 5 c, 26)); iexact HI
    isplitr; · iapply (inv_at P K (sh 6 c, 27)); iexact HI
    iapply (inv_at P K (sh 7 c, 28)); iexact HI
  isplitl [Hat]
  · ihave Hat' := (Entails.of_eq (bigSep_fin29 (F := F) fun k : Fin 29 => atPos ER (kcell (c, k)) 0 ∅ 0)) $$ Hat
    iexact Hat'
  isplitr
  ·
    isplitr; · iapply (reached_at (F := F) (c, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (c, 7)); iexact HR
    isplitr; · iapply (reached_at (F := F) (c, 8)); iexact HR
    isplitr; · iapply (reached_at (F := F) (c, 9)); iexact HR
    isplitr; · iapply (reached_at (F := F) (c, 10)); iexact HR
    isplitr; · iapply (reached_at (F := F) (c, 11)); iexact HR
    isplitr; · iapply (reached_at (F := F) (c, 12)); iexact HR
    isplitr; · iapply (reached_at (F := F) (c, 13)); iexact HR
    isplitr; · iapply (reached_at (F := F) (c, 14)); iexact HR
    isplitr; · iapply (reached_at (F := F) (c, 15)); iexact HR
    isplitr; · iapply (reached_at (F := F) (c, 16)); iexact HR
    isplitr; · iapply (reached_at (F := F) (c, 17)); iexact HR
    isplitr; · iapply (reached_at (F := F) (c, 18)); iexact HR
    isplitr; · iapply (reached_at (F := F) (c, 19)); iexact HR
    isplitr; · iapply (reached_at (F := F) (c, 20)); iexact HR
    isplitr; · iapply (reached_at (F := F) (c, 21)); iexact HR
    isplitr; · iapply (reached_at (F := F) (c, 22)); iexact HR
    isplitr; · iapply (reached_at (F := F) (c, 23)); iexact HR
    isplitr; · iapply (reached_at (F := F) (c, 24)); iexact HR
    isplitr; · iapply (reached_at (F := F) (c, 25)); iexact HR
    isplitr; · iapply (reached_at (F := F) (c, 26)); iexact HR
    isplitr; · iapply (reached_at (F := F) (c, 27)); iexact HR
    isplitr; · iapply (reached_at (F := F) (c, 28)); iexact HR
    isplitr; · iapply (reached_at (F := F) (sh 7 c, 0)); iexact HR
    isplitr; · iapply (reached_at (F := F) (sh 1 c, 0)); iexact HR
    isplitr; · iapply (reached_at (F := F) (sh 1 c, 5)); iexact HR
    isplitr; · iapply (reached_at (F := F) (sh 1 c, 6)); iexact HR
    isplitr; · iapply (reached_at (F := F) (sh 1 c, 7)); iexact HR
    isplitr; · iapply (reached_at (F := F) (sh 1 c, 8)); iexact HR
    isplitr; · iapply (reached_at (F := F) (sh 7 c, 12)); iexact HR
    isplitr; · iapply (reached_at (F := F) (sh 7 c, 13)); iexact HR
    isplitr; · iapply (reached_at (F := F) (sh 7 c, 14)); iexact HR
    isplitr; · iapply (reached_at (F := F) (sh 1 c, 22)); iexact HR
    isplitr; · iapply (reached_at (F := F) (sh 2 c, 23)); iexact HR
    isplitr; · iapply (reached_at (F := F) (sh 3 c, 24)); iexact HR
    isplitr; · iapply (reached_at (F := F) (sh 4 c, 25)); iexact HR
    isplitr; · iapply (reached_at (F := F) (sh 5 c, 26)); iexact HR
    isplitr; · iapply (reached_at (F := F) (sh 6 c, 27)); iexact HR
    iapply (reached_at (F := F) (sh 7 c, 28)); iexact HR
  unfold payToks
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_split : (bigSep Finset.univ fun c : Dev nD => (linear (F := F) c : sProp 𝕄))
    = iprop((bigSep Finset.univ fun c : Dev nD => bigSep Finset.univ fun k : Fin 29 => (atPos ER (kcell (c, k)) 0 ∅ 0 : sProp 𝕄))
        ∗ (bigSep Finset.univ fun c : Dev nD => (payToks c : sProp 𝕄)) ∗ bigSep Finset.univ fun c : Dev nD => (locals0 c : sProp 𝕄)) := by
  unfold linear; rw [bigSep_sep', bigSep_sep']

theorem regroup :
    (bigSep Finset.univ fun c : Dev nD => iprop((bigSep Finset.univ fun k => iprop(∃ κ : ℕ, cellInv ER (rd P) κ (kcell (c, k))))
          ∗ (bigSep Finset.univ fun k => iprop(atPos ER (kcell (c, k)) 0 ∅ 0 ∗ reached ER (kcell (c, k)) 0)) ∗ toks c ∗ locals0 c) : sProp 𝕄)
      ⊢ bigSep Finset.univ (G' P) := by
  rw [bigSep_sep', bigSep_sep', bigSep_sep', ← bigSep_univ_prod (fun ck : Dev nD × Fin 29 => iprop(∃ κ : ℕ, cellInv ER (rd P) κ (kcell ck))),
    bigSep_congr (s := Finset.univ) (fun (c : Dev nD) _ => bigSep_sep' Finset.univ (fun k : Fin 29 => (atPos ER (kcell (c, k)) 0 ∅ 0 : sProp 𝕄)) (fun k => reached ER (kcell (c, k)) 0)),
    bigSep_sep', ← bigSep_univ_prod (fun ck : Dev nD × Fin 29 => (reached ER (kcell ck) 0 : sProp 𝕄))]
  iintro ⟨HI, ⟨Hat, #HR⟩, Htok, Hloc⟩
  ihave HK := (BI.bigSep_exists_pi Finset.univ (fun (ck : Dev nD × Fin 29) (κ : ℕ) => (cellInv ER (rd P) κ (kcell ck) : sProp 𝕄))) $$ HI
  icases HK with ⟨%K, #HI⟩
  ihave Htk := (toks_around (F := F)) $$ Htok
  iapply (bigSep_with_persistent (R := records P K) fun c _ => ghost_intro P K c)
  isplitr
  · unfold records; isplitl; · iexact HI
    iexact HR
  · iapply (Entails.of_eq (linear_split (F := F)).symm)
    isplitl [Hat]; · iexact Hat
    isplitl [Htk]; · iexact Htk
    iexact Hloc

theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

def X (c : Dev nD) : sProp 𝕄 := iprop(start P c ∗ locals0 c ∗ kvPts m c)

theorem start_intro (c : Dev nD) :
    iprop(Pipeline.unscopedRestP Pipeline.Prefetch.none cfg0.spec c (fun b => m ((c : Thread nD τ).loc b)) ∗ levAts L lv
        ∗ Pipeline.launchCred (owe 0) c ∗ prngReg c (ρ c) ∗ G' P c)
      ⊢ |={Set.univ}=> iprop(X m P c ∗ emp) := by
  rw [Pipeline.unscopedRestP_none, unscopedRest0_eq]
  iintro ⟨Hkv, Hlev, Hcr, -, HG⟩
  ihave Hc := (launch_creds (F := F) c) $$ Hcr
  imodintro
  unfold X start G' creds kvPts
  icases HG with ⟨HG, Hloc⟩
  isplitl
  · isplitl [HG Hc Hlev]
    · isplitl [HG]; · iexact HG
      isplitl [Hc]; · iexact Hc
      iexact Hlev
    isplitl [Hloc]; · iexact Hloc
    iexact Hkv
  · iempintro

theorem phi0_intro (c : Dev nD) :
    iprop(X m P c ∗ Pipeline.prefHeld Pipeline.Prefetch.none c (fun _ => fullShare.right) (fun k => k.elim0) ∗ Pipeline.scopedRest cfg0.spec c)
      ⊢ (dats m P 0 c).Φ 0 := by
  rw [show (dats m P 0 c).Φ 0 = Φ₀ m P c from rfl, scopedRest0_eq]
  unfold Φ₀ X scratch11
  iintro ⟨⟨Hs, Hloc, Hkv⟩, -, Hr⟩
  isplitl [Hs]; · iexact Hs
  isplitl [Hr]; · iexact Hr
  isplitl [Hloc]; · iexact Hloc
  iexact Hkv

theorem phi1_exit (c : Dev nD) :
    (dats m P 0 c).Φ (Fin.last cfg0.N) ⊢ iprop(kvPts m c ∗ Pipeline.ownSems0 osem c ∗ Pipeline.scopedRest cfg0.spec c) := by
  rw [show (dats m P 0 c).Φ (Fin.last cfg0.N) = Φ₁ m c from rfl, scopedRest0_eq, ownSems0_eq]
  unfold Φ₁ scratch11
  iintro ⟨Hr, Hz, Hkv⟩
  isplitl [Hkv]; · iexact Hkv
  isplitl [Hz]; · iexact Hz
  iexact Hr

theorem waits (c : Dev nD) : (levAts L lv : sProp 𝕄) ⊢ Pipeline.cellsWaits cfgs (dats m P) () 0 c :=
  Pipeline.cellsWaits_intro cfgs (dats m P) () 0 c fun w s t => by
    rcases t with ⟨_ | _, ht⟩
    · exact mayWait_dma0 c _ (by fin_cases w <;> fin_cases s <;> decide) 0
    · exact mayWait_done c _

theorem own_ring (b : UB) : (BI.own ((embR : Emb (UB × Counters) 𝕄) (b, (1 : Counters))) : sProp 𝕄) ⊢ BI.own (ER (F := F) b) := Entails.of_eq rfl

theorem flushed_out (c : Dev nD) : (dats m P 0 c).flushed (3 : Fin 4) t₀ = View.read (Elt F) ((cfg0.win 3).blk t₀).view (outFin P c) := by
  first
    | rfl
    | exact (Memref.read_access_unit_zero (Elt F) main_v1 (funext fun a => Nat.zero_mul _) _ (outFin P c)).symm
    | (funext j; rfl)

theorem cover_out (c : Dev nD) (i : (View.loc (c : Thread nD τ) (cfg0.win 3).arr.view).2.ty.Idx) : i ∈ (win0_3.rect t₀).set := by
  first
    | exact View.mem_set_unit_zero (funext fun a => Nat.zero_mul _) _ i
    | (refine Rect.mem_set_unit.mpr fun a => ?_
       have h := (i a).isLt
       refine ⟨by rw [show win0_3.index t₀ a * win0_3.size a = 0 from Nat.zero_mul _]; exact Nat.zero_le _, ?_⟩
       rw [show win0_3.index t₀ a * win0_3.size a = 0 from Nat.zero_mul _, Nat.zero_add]
       exact h)

theorem arrAt_out (c : Dev nD) : (dats m P 0 c).arrAt (3 : Fin 4) cfg0.N = outFin P c :=
  (dats m P 0 c).arrAt_eq_of_cover (3 : Fin 4) (outFin P c) (fun t _ => by rw [fin_N t]; exact flushed_out m P c)
    fun i => ⟨t₀, Gen.flush0_3 t₀, by
      show i ∈ ((View.whole main_v1).slice (win0_3.rect t₀)).set
      rw [View.set_slice_whole]
      exact cover_out c i⟩

set_option maxRecDepth 8000 in

theorem run_main (hb : SoundBody m P) : θ_run defs (onTc (τ := τ) (main (F := F))) ⟨m, fun _ => 0, ρ⟩ (fun r => ∀ c : Dev nD,
    r.2.mem ((c : Thread nD τ).loc main_v1) = outFin P c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  Pipeline.θ_run_region_owing_glob_pf (fun p => (cfgs p).toPCfg) (fun p => (cfgs p).toPCfg_adm) (dats m P) () cellOf_inj (0 : Fin 1)
    winFacts0.to₀ ownSemFacts (Pipeline.PreFacts.none _) EP defs₀ 𝒱₀ m ρ main
    (hmain := fun _ => rfl)
    (hbody := body_obligation m P hb) (hne := block_pos0) (harr := arr_whole0) (hstage := stage_whole0) (hshare := share_eq m P)
    (hdistinct := winFacts0.arr_inj)
    (O₀ := owe 0) (howed₀ := fun _ => rfl) (howedN := fun _ => rfl)
    (L := L) (lv := lv) (hL := L_of_ne) (hwaits := waits m P)
    (G := G P) (G' := G' P) (u₀ := u₀)
    (hu₀ := by
      unfold u₀
      iintro Hu
      ihave H := (ownU_pair _ _) $$ Hu
      icases H with ⟨HP, HX⟩
      ihave HX' := (own_ring (F := F) _) $$ HX
      imod (fund_ring P) $$ HX' with HG
      imodintro
      isplitl [HP] <;> iassumption)
    (hglob := glob P)
    (hA := fun _ _ => rfl) (hpf := fun _ k => k.elim0)
    (X := X m P) (Y := kvPts m) (Z := fun _ => iprop(emp))
    (hX := start_intro m ρ P) (hin := phi0_intro m P) (hout := phi1_exit m P)
    (QY := fun c s => s.mem ((c : Thread nD τ).loc main_arg3) = m ((c : Thread nD τ).loc main_arg3)
      ∧ s.mem ((c : Thread nD τ).loc main_arg4) = m ((c : Thread nD τ).loc main_arg4))
    (hY := fun c s' => by
      unfold kvPts
      iintro ⟨⟨Hk, Hv⟩, -, HSI⟩
      icombine HSI Hk gives %hk
      icombine HSI Hv gives %hv
      imodintro
      isplitr; · ipureintro; exact ⟨Buf.eq_of_forall_mem_univ hk, Buf.eq_of_forall_mem_univ hv⟩
      iexact HSI)
    (hQ := fun s h c => ⟨((h c).1 3).trans (arrAt_out m P c),
      ((h c).1 0).trans ((dats m P 0 c).arrAt_in 0 rfl _),
      ((h c).1 1).trans ((dats m P 0 c).arrAt_in 1 rfl _),
      ((h c).1 2).trans ((dats m P 0 c).arrAt_in 2 rfl _),
      (h c).2.2.1, (h c).2.2.2⟩)

end Cert.KernelIdeal.Hand

end
-- ==== Proof.SlotSplit.lean ====
import proofs.«900750_g7700000000000751_dist_attn_cross_gqa_kvrep_htp_b1_sq512_skv2048_d1024_hq8_dh128_v7x_i8_bf16_1_alg».proof.Proof.Sched
import Idealize.ShloMosaic.Lib.Exec.Geometry

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

theorem mem_slot (n k : ℕ) (inb : ∀ a, (![k, 0, 0] : Fin 3 → ℕ) a + (![1, 64, 1024] : Fin 3 → ℕ) a ≤ (⟨3, ![n, 64, 1024]⟩ : Shape).size a)
    (i : (⟨3, ![n, 64, 1024]⟩ : Shape).Idx) :
    i ∈ (Rect.unit (s := ⟨3, ![n, 64, 1024]⟩) ![k, 0, 0] ![1, 64, 1024] inb).set ↔ (i 0 : ℕ) = k := by
  rw [Rect.mem_set_unit]
  have h1 : (i 1 : ℕ) < 64 := (i 1).isLt
  have h2 : (i 2 : ℕ) < 1024 := (i 2).isLt
  constructor
  · intro h
    have h0 : k ≤ (i 0 : ℕ) ∧ (i 0 : ℕ) < k + 1 := h 0
    omega
  · intro h a
    fin_cases a
    · show k ≤ (i 0 : ℕ) ∧ (i 0 : ℕ) < k + 1; omega
    · show 0 ≤ (i 1 : ℕ) ∧ (i 1 : ℕ) < 0 + 64; omega
    · show 0 ≤ (i 2 : ℕ) ∧ (i 2 : ℕ) < 0 + 1024; omega

theorem mem_rect4 : ∀ (j : Fin 4) (i : S4x64x1024.Idx), i ∈ (rect4 j).set ↔ (i 0 : ℕ) = j.val
  | 0, i => mem_slot 4 0 _ i
  | 1, i => mem_slot 4 1 _ i
  | 2, i => mem_slot 4 2 _ i
  | 3, i => mem_slot 4 3 _ i
theorem mem_rect3 : ∀ (j : Fin 3) (i : S3x64x1024.Idx), i ∈ (rect3 j).set ↔ (i 0 : ℕ) = j.val
  | 0, i => mem_slot 3 0 _ i
  | 1, i => mem_slot 3 1 _ i
  | 2, i => mem_slot 3 2 _ i
theorem mem_rect7 : ∀ (j : Fin 7) (i : S7x64x1024.Idx), i ∈ (rect7 j).set ↔ (i 0 : ℕ) = j.val
  | 0, i => mem_slot 7 0 _ i
  | 1, i => mem_slot 7 1 _ i
  | 2, i => mem_slot 7 2 _ i
  | 3, i => mem_slot 7 3 _ i
  | 4, i => mem_slot 7 4 _ i
  | 5, i => mem_slot 7 5 _ i
  | 6, i => mem_slot 7 6 _ i

theorem pointsTo_slots {ℓ : Loc nD τ sig} {n : ℕ} (K : Fin n → Finset (Idx ℓ)) (key : Idx ℓ → ℕ)
    (hK : ∀ j i, i ∈ K j ↔ key i = j.val) (hkey : ∀ i, key i < n) (q : PosShare TreeShare) (f : Buf (Elt F) ℓ) :
    (ℓ ↦{q} f : sProp 𝕄) = bigSep Finset.univ fun j => (ℓ ↦[K j]{q} f : sProp 𝕄) := by
  have hcov : (Finset.univ : Finset (Fin n)).biUnion K = Finset.univ := by
    ext i
    simp only [Finset.mem_biUnion, Finset.mem_univ, true_and, iff_true]
    exact ⟨⟨key i, hkey i⟩, (hK _ i).mpr rfl⟩
  exact (congrArg (fun S => (pointsTo ℓ S q f : sProp 𝕄)) hcov.symm).trans
    (pointsTo_biUnion Finset.univ K fun t _ t' _ hne => Finset.disjoint_left.mpr fun i h1 h2 =>
      hne (Fin.ext (((hK t i).mp h1).symm.trans ((hK t' i).mp h2))))

theorem slots_fin3 (Φ : Fin 3 → sProp 𝕄) : bigSep Finset.univ Φ = iprop(Φ 0 ∗ Φ 1 ∗ Φ 2) :=
  bigSep_univ_eq_bigSepL [0, 1, 2] (by decide) (by decide) Φ
theorem slots_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem slots_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

local macro "slot_set" M:term:max r:term:max : tactic =>
  `(tactic| (show ((Memref.slice $M $r (fun _ => rfl)).squeeze S64x1024 squeezes_S1x64x1024_S64x1024).view.set = (_ : Finset _); rw [Memref.set_view_squeeze]; exact View.set_slice_whole _ _))

theorem rlandPt_eq : ∀ (j : Fin 4) (c : Dev nD) (f : Vec F S4x64x1024 .bf16),
    rlandPt j c f = (rlandM.view.loc (c : Thread nD τ) ↦[(rect4 j).set]{fullShare} f : sProp 𝕄)
  | 0, c, f => by refine congrArg (fun S => (pointsTo (rlandM.view.loc (c : Thread nD τ)) S fullShare f : sProp 𝕄)) ?_; slot_set rlandM (rect4 0)
  | 1, c, f => by refine congrArg (fun S => (pointsTo (rlandM.view.loc (c : Thread nD τ)) S fullShare f : sProp 𝕄)) ?_; slot_set rlandM (rect4 1)
  | 2, c, f => by refine congrArg (fun S => (pointsTo (rlandM.view.loc (c : Thread nD τ)) S fullShare f : sProp 𝕄)) ?_; slot_set rlandM (rect4 2)
  | 3, c, f => by refine congrArg (fun S => (pointsTo (rlandM.view.loc (c : Thread nD τ)) S fullShare f : sProp 𝕄)) ?_; slot_set rlandM (rect4 3)

theorem rland_split (c : Dev nD) (f : Vec F S4x64x1024 .bf16) :
    (rlandM.view.loc (c : Thread nD τ) ↦{fullShare} f : sProp 𝕄) = iprop(rlandPt 0 c f ∗ rlandPt 1 c f ∗ rlandPt 2 c f ∗ rlandPt 3 c f) := by
  rw [rlandPt_eq 0, rlandPt_eq 1, rlandPt_eq 2, rlandPt_eq 3]
  exact (pointsTo_slots (ℓ := rlandM.view.loc (c : Thread nD τ)) (fun j => (rect4 j).set) (fun i => (i 0 : ℕ)) mem_rect4 (fun i => (i 0).isLt) fullShare f).trans
    (slots_fin4 _)

theorem rland_join (c : Dev nD) (f : Vec F S4x64x1024 .bf16) :
    iprop(rlandPt 0 c f ∗ rlandPt 1 c f ∗ rlandPt 2 c f ∗ rlandPt 3 c f) ⊢ (rlandM.view.loc (c : Thread nD τ) ↦{fullShare} f : sProp 𝕄) :=
  Entails.of_eq (rland_split c f).symm

theorem rstagePt_eq : ∀ (j : Fin 4) (c : Dev nD) (f : Vec F S4x64x1024 .bf16),
    rstagePt j c f = (rstageM.view.loc (c : Thread nD τ) ↦[(rect4 j).set]{fullShare} f : sProp 𝕄)
  | 0, c, f => by refine congrArg (fun S => (pointsTo (rstageM.view.loc (c : Thread nD τ)) S fullShare f : sProp 𝕄)) ?_; slot_set rstageM (rect4 0)
  | 1, c, f => by refine congrArg (fun S => (pointsTo (rstageM.view.loc (c : Thread nD τ)) S fullShare f : sProp 𝕄)) ?_; slot_set rstageM (rect4 1)
  | 2, c, f => by refine congrArg (fun S => (pointsTo (rstageM.view.loc (c : Thread nD τ)) S fullShare f : sProp 𝕄)) ?_; slot_set rstageM (rect4 2)
  | 3, c, f => by refine congrArg (fun S => (pointsTo (rstageM.view.loc (c : Thread nD τ)) S fullShare f : sProp 𝕄)) ?_; slot_set rstageM (rect4 3)

theorem rstage_split (c : Dev nD) (f : Vec F S4x64x1024 .bf16) :
    (rstageM.view.loc (c : Thread nD τ) ↦{fullShare} f : sProp 𝕄) = iprop(rstagePt 0 c f ∗ rstagePt 1 c f ∗ rstagePt 2 c f ∗ rstagePt 3 c f) := by
  rw [rstagePt_eq 0, rstagePt_eq 1, rstagePt_eq 2, rstagePt_eq 3]
  exact (pointsTo_slots (ℓ := rstageM.view.loc (c : Thread nD τ)) (fun j => (rect4 j).set) (fun i => (i 0 : ℕ)) mem_rect4 (fun i => (i 0).isLt) fullShare f).trans
    (slots_fin4 _)

theorem rstage_join (c : Dev nD) (f : Vec F S4x64x1024 .bf16) :
    iprop(rstagePt 0 c f ∗ rstagePt 1 c f ∗ rstagePt 2 c f ∗ rstagePt 3 c f) ⊢ (rstageM.view.loc (c : Thread nD τ) ↦{fullShare} f : sProp 𝕄) :=
  Entails.of_eq (rstage_split c f).symm

theorem llandPt_eq : ∀ (j : Fin 3) (c : Dev nD) (f : Vec F S3x64x1024 .bf16),
    llandPt j c f = (llandM.view.loc (c : Thread nD τ) ↦[(rect3 j).set]{fullShare} f : sProp 𝕄)
  | 0, c, f => by refine congrArg (fun S => (pointsTo (llandM.view.loc (c : Thread nD τ)) S fullShare f : sProp 𝕄)) ?_; slot_set llandM (rect3 0)
  | 1, c, f => by refine congrArg (fun S => (pointsTo (llandM.view.loc (c : Thread nD τ)) S fullShare f : sProp 𝕄)) ?_; slot_set llandM (rect3 1)
  | 2, c, f => by refine congrArg (fun S => (pointsTo (llandM.view.loc (c : Thread nD τ)) S fullShare f : sProp 𝕄)) ?_; slot_set llandM (rect3 2)

theorem lland_split (c : Dev nD) (f : Vec F S3x64x1024 .bf16) :
    (llandM.view.loc (c : Thread nD τ) ↦{fullShare} f : sProp 𝕄) = iprop(llandPt 0 c f ∗ llandPt 1 c f ∗ llandPt 2 c f) := by
  rw [llandPt_eq 0, llandPt_eq 1, llandPt_eq 2]
  exact (pointsTo_slots (ℓ := llandM.view.loc (c : Thread nD τ)) (fun j => (rect3 j).set) (fun i => (i 0 : ℕ)) mem_rect3 (fun i => (i 0).isLt) fullShare f).trans
    (slots_fin3 _)

theorem lland_join (c : Dev nD) (f : Vec F S3x64x1024 .bf16) :
    iprop(llandPt 0 c f ∗ llandPt 1 c f ∗ llandPt 2 c f) ⊢ (llandM.view.loc (c : Thread nD τ) ↦{fullShare} f : sProp 𝕄) :=
  Entails.of_eq (lland_split c f).symm

theorem lstagePt_eq : ∀ (j : Fin 3) (c : Dev nD) (f : Vec F S3x64x1024 .bf16),
    lstagePt j c f = (lstageM.view.loc (c : Thread nD τ) ↦[(rect3 j).set]{fullShare} f : sProp 𝕄)
  | 0, c, f => by refine congrArg (fun S => (pointsTo (lstageM.view.loc (c : Thread nD τ)) S fullShare f : sProp 𝕄)) ?_; slot_set lstageM (rect3 0)
  | 1, c, f => by refine congrArg (fun S => (pointsTo (lstageM.view.loc (c : Thread nD τ)) S fullShare f : sProp 𝕄)) ?_; slot_set lstageM (rect3 1)
  | 2, c, f => by refine congrArg (fun S => (pointsTo (lstageM.view.loc (c : Thread nD τ)) S fullShare f : sProp 𝕄)) ?_; slot_set lstageM (rect3 2)

theorem lstage_split (c : Dev nD) (f : Vec F S3x64x1024 .bf16) :
    (lstageM.view.loc (c : Thread nD τ) ↦{fullShare} f : sProp 𝕄) = iprop(lstagePt 0 c f ∗ lstagePt 1 c f ∗ lstagePt 2 c f) := by
  rw [lstagePt_eq 0, lstagePt_eq 1, lstagePt_eq 2]
  exact (pointsTo_slots (ℓ := lstageM.view.loc (c : Thread nD τ)) (fun j => (rect3 j).set) (fun i => (i 0 : ℕ)) mem_rect3 (fun i => (i 0).isLt) fullShare f).trans
    (slots_fin3 _)

theorem lstage_join (c : Dev nD) (f : Vec F S3x64x1024 .bf16) :
    iprop(lstagePt 0 c f ∗ lstagePt 1 c f ∗ lstagePt 2 c f) ⊢ (lstageM.view.loc (c : Thread nD τ) ↦{fullShare} f : sProp 𝕄) :=
  Entails.of_eq (lstage_split c f).symm

theorem aglandPt_eq : ∀ (j : Fin 7) (c : Dev nD) (f : Vec F S7x64x1024 .bf16),
    aglandPt j c f = (aglandM.view.loc (c : Thread nD τ) ↦[(rect7 j).set]{fullShare} f : sProp 𝕄)
  | 0, c, f => by refine congrArg (fun S => (pointsTo (aglandM.view.loc (c : Thread nD τ)) S fullShare f : sProp 𝕄)) ?_; slot_set aglandM (rect7 0)
  | 1, c, f => by refine congrArg (fun S => (pointsTo (aglandM.view.loc (c : Thread nD τ)) S fullShare f : sProp 𝕄)) ?_; slot_set aglandM (rect7 1)
  | 2, c, f => by refine congrArg (fun S => (pointsTo (aglandM.view.loc (c : Thread nD τ)) S fullShare f : sProp 𝕄)) ?_; slot_set aglandM (rect7 2)
  | 3, c, f => by refine congrArg (fun S => (pointsTo (aglandM.view.loc (c : Thread nD τ)) S fullShare f : sProp 𝕄)) ?_; slot_set aglandM (rect7 3)
  | 4, c, f => by refine congrArg (fun S => (pointsTo (aglandM.view.loc (c : Thread nD τ)) S fullShare f : sProp 𝕄)) ?_; slot_set aglandM (rect7 4)
  | 5, c, f => by refine congrArg (fun S => (pointsTo (aglandM.view.loc (c : Thread nD τ)) S fullShare f : sProp 𝕄)) ?_; slot_set aglandM (rect7 5)
  | 6, c, f => by refine congrArg (fun S => (pointsTo (aglandM.view.loc (c : Thread nD τ)) S fullShare f : sProp 𝕄)) ?_; slot_set aglandM (rect7 6)

theorem agland_split (c : Dev nD) (f : Vec F S7x64x1024 .bf16) :
    (aglandM.view.loc (c : Thread nD τ) ↦{fullShare} f : sProp 𝕄)
      = iprop(aglandPt 0 c f ∗ aglandPt 1 c f ∗ aglandPt 2 c f ∗ aglandPt 3 c f ∗ aglandPt 4 c f ∗ aglandPt 5 c f ∗ aglandPt 6 c f) := by
  rw [aglandPt_eq 0, aglandPt_eq 1, aglandPt_eq 2, aglandPt_eq 3, aglandPt_eq 4, aglandPt_eq 5, aglandPt_eq 6]
  exact (pointsTo_slots (ℓ := aglandM.view.loc (c : Thread nD τ)) (fun j => (rect7 j).set) (fun i => (i 0 : ℕ)) mem_rect7 (fun i => (i 0).isLt) fullShare f).trans
    (slots_fin7 _)

theorem agland_join (c : Dev nD) (f : Vec F S7x64x1024 .bf16) :
    iprop(aglandPt 0 c f ∗ aglandPt 1 c f ∗ aglandPt 2 c f ∗ aglandPt 3 c f ∗ aglandPt 4 c f ∗ aglandPt 5 c f ∗ aglandPt 6 c f)
      ⊢ (aglandM.view.loc (c : Thread nD τ) ↦{fullShare} f : sProp 𝕄) :=
  Entails.of_eq (agland_split c f).symm

end Cert.KernelIdeal.Hand

end
-- ==== Proof.SendRules.lean ====
import proofs.«900750_g7700000000000751_dist_attn_cross_gqa_kvrep_htp_b1_sq512_skv2048_d1024_hq8_dh128_v7x_i8_bf16_1_alg».proof.Proof.Sched
import proofs.«900750_g7700000000000751_dist_attn_cross_gqa_kvrep_htp_b1_sq512_skv2048_d1024_hq8_dh128_v7x_i8_bf16_1_alg».proof.Proof.Levels
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Send
variable (P : Dev nD → Dev nD → Vec F S1x64x1024 .f32)

-- A copy to a neighbour pays one duty on the sender's cell and one on the receiver's; the table lemmas say what each payment hands over.
theorem wp_send_with (c n e : Dev nD) (hn : n = e) (a b : ℕ) (ha : a < 36) (ha8 : 8 ≤ a) (hb : b < 36) (hb8 : 8 ≤ b)
    (src dst : Memref sig .tc .vmem S64x1024 .bf16) (sS sR : DmaSem sig) (hsS : sS = dq a ha) (hsR : sR = dq b hb)
    (q : PosShare TreeShare) (fv : Buf (Elt F) (src.view.loc (c : Thread nD τ))) (Fr : sProp 𝕄)
    (hN : dst.view.amount (SemLoc.dma (dq b hb)) = N)
    (hp₁ : ((src.view.loc (c : Thread nD τ) ↦[src.view.set]{q} fv) : sProp 𝕄) ⊢ (rd P).payload (dcell c a ha) 0 false)
    (hp₂ : ∀ fd : Buf (Elt F) (dst.view.loc (e : Thread nD τ)),
      iprop((dst.view.loc (e : Thread nD τ) ↦[dst.view.set]{fullShare} (dst.view.write (Elt F) fd (src.view.read (Elt F) fv) Finset.univ)) ∗ Fr)
        ⊢ (rd P).payload (dcell e b hb) 0 false)
    {κ₁ κ₂ : ℕ} {hsc : (dst : Memref sig (Dev.tc n : Thread nD τ).2.kind .vmem S64x1024 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fs : Buf (Elt F) (src.view.loc (c : Thread nD τ))) (hfs : ∀ i ∈ src.view.set, fs i = fv i)
    (fd : Buf (Elt F) (dst.view.loc (e : Thread nD τ))) (W : Waits sig Unit) (O : CellTallies nD τ sig Unit) :
    iprop(cellInv ER (rd P) κ₁ (dcell c a ha) ∗ cellInv ER (rd P) κ₂ (dcell e b hb)
        ∗ (src.view.loc (c : Thread nD τ) ↦[src.view.set]{q} fs)
        ∗ ((dst.view.loc (e : Thread nD τ) ↦[dst.view.set]{fullShare} fd) ∗ Fr)
        ∗ owes (c : Thread nD τ) (O + tallyAt (dcell e b hb) () N) W
        ∗ dutyTok ER (dcell c a ha) 0 false ∗ reached ER (dcell c a ha) 0
        ∗ dutyTok ER (dcell e b hb) 0 false ∗ reached ER (dcell e b hb) 0)
      ⊢ iprop(((cred (tallyAt (dcell c a ha) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsS hsR
  rw [pointsTo_congr hfs]
  exact Rounds.wp_send_pointsTo_with 𝒱₀ ER (rd P) (c : Thread nD τ) none
    (c' := (n : Thread nD τ)) (src := src) (dst := dst) (q := q) (fs := fv) (fd := fd) (F := Fr)
    (κ₁ := κ₁) (κ₂ := κ₂) (r₁ := 0) (r₂ := 0) (d₁ := false) (d₂ := false)
    (by rw [duties_cell P c a ha ha8]; exact Finset.mem_singleton_self _)
    (by rw [duties_cell P n b hb hb8]; exact Finset.mem_singleton_self _)
    () () N hN (amount_cell P c a ha 0 false) (amount_cell P n b hb 0 false) O rfl (W := W)
    hp₁ (hp₂ fd)

theorem wp_send (c n e : Dev nD) (hn : n = e) (a b : ℕ) (ha : a < 36) (ha8 : 8 ≤ a) (hb : b < 36) (hb8 : 8 ≤ b)
    (src dst : Memref sig .tc .vmem S64x1024 .bf16) (sS sR : DmaSem sig) (hsS : sS = dq a ha) (hsR : sR = dq b hb)
    (q : PosShare TreeShare) (fv : Buf (Elt F) (src.view.loc (c : Thread nD τ)))
    (hN : dst.view.amount (SemLoc.dma (dq b hb)) = N)
    (hp₁ : ((src.view.loc (c : Thread nD τ) ↦[src.view.set]{q} fv) : sProp 𝕄) ⊢ (rd P).payload (dcell c a ha) 0 false)
    (hp₂ : ∀ fd : Buf (Elt F) (dst.view.loc (e : Thread nD τ)),
      (dst.view.loc (e : Thread nD τ) ↦[dst.view.set]{fullShare} (dst.view.write (Elt F) fd (src.view.read (Elt F) fv) Finset.univ))
        ⊢ (rd P).payload (dcell e b hb) 0 false)
    {κ₁ κ₂ : ℕ} {hsc : (dst : Memref sig (Dev.tc n : Thread nD τ).2.kind .vmem S64x1024 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fs : Buf (Elt F) (src.view.loc (c : Thread nD τ))) (hfs : ∀ i ∈ src.view.set, fs i = fv i)
    (fd : Buf (Elt F) (dst.view.loc (e : Thread nD τ))) (W : Waits sig Unit) (O : CellTallies nD τ sig Unit) :
    iprop(cellInv ER (rd P) κ₁ (dcell c a ha) ∗ cellInv ER (rd P) κ₂ (dcell e b hb)
        ∗ (src.view.loc (c : Thread nD τ) ↦[src.view.set]{q} fs)
        ∗ (dst.view.loc (e : Thread nD τ) ↦[dst.view.set]{fullShare} fd)
        ∗ owes (c : Thread nD τ) (O + tallyAt (dcell e b hb) () N) W
        ∗ dutyTok ER (dcell c a ha) 0 false ∗ reached ER (dcell c a ha) 0
        ∗ dutyTok ER (dcell e b hb) 0 false ∗ reached ER (dcell e b hb) 0)
      ⊢ iprop(((cred (tallyAt (dcell c a ha) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsS hsR
  rw [pointsTo_congr hfs]
  exact Rounds.wp_send_pointsTo 𝒱₀ ER (rd P) (c : Thread nD τ) none
    (c' := (n : Thread nD τ)) (src := src) (dst := dst) (q := q) (fs := fv) (fd := fd)
    (κ₁ := κ₁) (κ₂ := κ₂) (r₁ := 0) (r₂ := 0) (d₁ := false) (d₂ := false)
    (by rw [duties_cell P c a ha ha8]; exact Finset.mem_singleton_self _)
    (by rw [duties_cell P n b hb hb8]; exact Finset.mem_singleton_self _)
    () () N hN (amount_cell P c a ha 0 false) (amount_cell P n b hb 0 false) O rfl (W := W)
    hp₁ (hp₂ fd)

end Send

section Agree
variable (P : Dev nD → Dev nD → Vec F S1x64x1024 .f32)

theorem rstage_agree0 (c : Dev nD) (fs : Vec F S4x64x1024 .bf16)
    (h : (rstageM : Memref sig .tc .vmem S4x64x1024 .bf16).view.readAt (Elt F) (rect4 0).toLoadRect fs = rst P 0 c) :
    ∀ i ∈ (slot4 rstageM 0).view.set, fs i = rstageBuf P c i := by
  intro i hi
  obtain ⟨y, rfl⟩ := View.exists_emb_of_mem_set _ hi
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot4 rstageM 0).view.emb y = (rect4 0).emb (Fin.cons ⟨0, Nat.one_pos⟩ y : S1x64x1024.Idx) := by
    show (rect4 0).emb (Shape.reshapeEquiv (s := S1x64x1024) (s' := S64x1024) squeezes_S1x64x1024_S64x1024.numel_eq y) = _
    rw [hy]
  rw [key]
  have h1 : fs ((rect4 0).emb (Fin.cons ⟨0, Nat.one_pos⟩ y : S1x64x1024.Idx)) = rst P 0 c (Fin.cons ⟨0, Nat.one_pos⟩ y) :=
    congrFun h (Fin.cons ⟨0, Nat.one_pos⟩ y)
  refine h1.trans ?_
  have e3 : (ix3 (0 : Fin 1) (⟨(y 0).val, (y 0).isLt⟩ : Fin 64) (⟨(y 1).val, (y 1).isLt⟩ : Fin 1024) : S1x64x1024.Idx) = Fin.cons ⟨0, Nat.one_pos⟩ y := by
    funext a
    match a with
    | ⟨0, _⟩ => rfl
    | ⟨1, _⟩ => rfl
    | ⟨2, _⟩ => rfl
  have e1 : (((rect4 0).emb (Fin.cons ⟨0, Nat.one_pos⟩ y : S1x64x1024.Idx)) 1).val = (y 0).val := by
    show 0 + 1 * (y 0).val = (y 0).val; omega
  have e2 : (((rect4 0).emb (Fin.cons ⟨0, Nat.one_pos⟩ y : S1x64x1024.Idx)) 2).val = (y 1).val := by
    show 0 + 1 * (y 1).val = (y 1).val; omega
  rw [← e3]
  show rst P 0 c (ix3 (0 : Fin 1) (⟨(y 0).val, (y 0).isLt⟩ : Fin 64) (⟨(y 1).val, (y 1).isLt⟩ : Fin 1024))
    = rst P 0 c (ix3 (0 : Fin 1) (⟨(((rect4 0).emb (Fin.cons ⟨0, Nat.one_pos⟩ y : S1x64x1024.Idx)) 1).val, _⟩ : Fin 64) (⟨(((rect4 0).emb (Fin.cons ⟨0, Nat.one_pos⟩ y : S1x64x1024.Idx)) 2).val, _⟩ : Fin 1024))
  congr 2 <;> exact Fin.ext (by first | exact e1.symm | exact e2.symm)
theorem rstage_agree1 (c : Dev nD) (fs : Vec F S4x64x1024 .bf16)
    (h : (rstageM : Memref sig .tc .vmem S4x64x1024 .bf16).view.readAt (Elt F) (rect4 1).toLoadRect fs = rst P 1 c) :
    ∀ i ∈ (slot4 rstageM 1).view.set, fs i = rstageBuf P c i := by
  intro i hi
  obtain ⟨y, rfl⟩ := View.exists_emb_of_mem_set _ hi
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot4 rstageM 1).view.emb y = (rect4 1).emb (Fin.cons ⟨0, Nat.one_pos⟩ y : S1x64x1024.Idx) := by
    show (rect4 1).emb (Shape.reshapeEquiv (s := S1x64x1024) (s' := S64x1024) squeezes_S1x64x1024_S64x1024.numel_eq y) = _
    rw [hy]
  rw [key]
  have h1 : fs ((rect4 1).emb (Fin.cons ⟨0, Nat.one_pos⟩ y : S1x64x1024.Idx)) = rst P 1 c (Fin.cons ⟨0, Nat.one_pos⟩ y) :=
    congrFun h (Fin.cons ⟨0, Nat.one_pos⟩ y)
  refine h1.trans ?_
  have e3 : (ix3 (0 : Fin 1) (⟨(y 0).val, (y 0).isLt⟩ : Fin 64) (⟨(y 1).val, (y 1).isLt⟩ : Fin 1024) : S1x64x1024.Idx) = Fin.cons ⟨0, Nat.one_pos⟩ y := by
    funext a
    match a with
    | ⟨0, _⟩ => rfl
    | ⟨1, _⟩ => rfl
    | ⟨2, _⟩ => rfl
  have e1 : (((rect4 1).emb (Fin.cons ⟨0, Nat.one_pos⟩ y : S1x64x1024.Idx)) 1).val = (y 0).val := by
    show 0 + 1 * (y 0).val = (y 0).val; omega
  have e2 : (((rect4 1).emb (Fin.cons ⟨0, Nat.one_pos⟩ y : S1x64x1024.Idx)) 2).val = (y 1).val := by
    show 0 + 1 * (y 1).val = (y 1).val; omega
  rw [← e3]
  show rst P 1 c (ix3 (0 : Fin 1) (⟨(y 0).val, (y 0).isLt⟩ : Fin 64) (⟨(y 1).val, (y 1).isLt⟩ : Fin 1024))
    = rst P 1 c (ix3 (0 : Fin 1) (⟨(((rect4 1).emb (Fin.cons ⟨0, Nat.one_pos⟩ y : S1x64x1024.Idx)) 1).val, _⟩ : Fin 64) (⟨(((rect4 1).emb (Fin.cons ⟨0, Nat.one_pos⟩ y : S1x64x1024.Idx)) 2).val, _⟩ : Fin 1024))
  congr 2 <;> exact Fin.ext (by first | exact e1.symm | exact e2.symm)
theorem rstage_agree2 (c : Dev nD) (fs : Vec F S4x64x1024 .bf16)
    (h : (rstageM : Memref sig .tc .vmem S4x64x1024 .bf16).view.readAt (Elt F) (rect4 2).toLoadRect fs = rst P 2 c) :
    ∀ i ∈ (slot4 rstageM 2).view.set, fs i = rstageBuf P c i := by
  intro i hi
  obtain ⟨y, rfl⟩ := View.exists_emb_of_mem_set _ hi
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot4 rstageM 2).view.emb y = (rect4 2).emb (Fin.cons ⟨0, Nat.one_pos⟩ y : S1x64x1024.Idx) := by
    show (rect4 2).emb (Shape.reshapeEquiv (s := S1x64x1024) (s' := S64x1024) squeezes_S1x64x1024_S64x1024.numel_eq y) = _
    rw [hy]
  rw [key]
  have h1 : fs ((rect4 2).emb (Fin.cons ⟨0, Nat.one_pos⟩ y : S1x64x1024.Idx)) = rst P 2 c (Fin.cons ⟨0, Nat.one_pos⟩ y) :=
    congrFun h (Fin.cons ⟨0, Nat.one_pos⟩ y)
  refine h1.trans ?_
  have e3 : (ix3 (0 : Fin 1) (⟨(y 0).val, (y 0).isLt⟩ : Fin 64) (⟨(y 1).val, (y 1).isLt⟩ : Fin 1024) : S1x64x1024.Idx) = Fin.cons ⟨0, Nat.one_pos⟩ y := by
    funext a
    match a with
    | ⟨0, _⟩ => rfl
    | ⟨1, _⟩ => rfl
    | ⟨2, _⟩ => rfl
  have e1 : (((rect4 2).emb (Fin.cons ⟨0, Nat.one_pos⟩ y : S1x64x1024.Idx)) 1).val = (y 0).val := by
    show 0 + 1 * (y 0).val = (y 0).val; omega
  have e2 : (((rect4 2).emb (Fin.cons ⟨0, Nat.one_pos⟩ y : S1x64x1024.Idx)) 2).val = (y 1).val := by
    show 0 + 1 * (y 1).val = (y 1).val; omega
  rw [← e3]
  show rst P 2 c (ix3 (0 : Fin 1) (⟨(y 0).val, (y 0).isLt⟩ : Fin 64) (⟨(y 1).val, (y 1).isLt⟩ : Fin 1024))
    = rst P 2 c (ix3 (0 : Fin 1) (⟨(((rect4 2).emb (Fin.cons ⟨0, Nat.one_pos⟩ y : S1x64x1024.Idx)) 1).val, _⟩ : Fin 64) (⟨(((rect4 2).emb (Fin.cons ⟨0, Nat.one_pos⟩ y : S1x64x1024.Idx)) 2).val, _⟩ : Fin 1024))
  congr 2 <;> exact Fin.ext (by first | exact e1.symm | exact e2.symm)
theorem rstage_agree3 (c : Dev nD) (fs : Vec F S4x64x1024 .bf16)
    (h : (rstageM : Memref sig .tc .vmem S4x64x1024 .bf16).view.readAt (Elt F) (rect4 3).toLoadRect fs = rst P 3 c) :
    ∀ i ∈ (slot4 rstageM 3).view.set, fs i = rstageBuf P c i := by
  intro i hi
  obtain ⟨y, rfl⟩ := View.exists_emb_of_mem_set _ hi
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot4 rstageM 3).view.emb y = (rect4 3).emb (Fin.cons ⟨0, Nat.one_pos⟩ y : S1x64x1024.Idx) := by
    show (rect4 3).emb (Shape.reshapeEquiv (s := S1x64x1024) (s' := S64x1024) squeezes_S1x64x1024_S64x1024.numel_eq y) = _
    rw [hy]
  rw [key]
  have h1 : fs ((rect4 3).emb (Fin.cons ⟨0, Nat.one_pos⟩ y : S1x64x1024.Idx)) = rst P 3 c (Fin.cons ⟨0, Nat.one_pos⟩ y) :=
    congrFun h (Fin.cons ⟨0, Nat.one_pos⟩ y)
  refine h1.trans ?_
  have e3 : (ix3 (0 : Fin 1) (⟨(y 0).val, (y 0).isLt⟩ : Fin 64) (⟨(y 1).val, (y 1).isLt⟩ : Fin 1024) : S1x64x1024.Idx) = Fin.cons ⟨0, Nat.one_pos⟩ y := by
    funext a
    match a with
    | ⟨0, _⟩ => rfl
    | ⟨1, _⟩ => rfl
    | ⟨2, _⟩ => rfl
  have e1 : (((rect4 3).emb (Fin.cons ⟨0, Nat.one_pos⟩ y : S1x64x1024.Idx)) 1).val = (y 0).val := by
    show 0 + 1 * (y 0).val = (y 0).val; omega
  have e2 : (((rect4 3).emb (Fin.cons ⟨0, Nat.one_pos⟩ y : S1x64x1024.Idx)) 2).val = (y 1).val := by
    show 0 + 1 * (y 1).val = (y 1).val; omega
  rw [← e3]
  show rst P 3 c (ix3 (0 : Fin 1) (⟨(y 0).val, (y 0).isLt⟩ : Fin 64) (⟨(y 1).val, (y 1).isLt⟩ : Fin 1024))
    = rst P 3 c (ix3 (0 : Fin 1) (⟨(((rect4 3).emb (Fin.cons ⟨0, Nat.one_pos⟩ y : S1x64x1024.Idx)) 1).val, _⟩ : Fin 64) (⟨(((rect4 3).emb (Fin.cons ⟨0, Nat.one_pos⟩ y : S1x64x1024.Idx)) 2).val, _⟩ : Fin 1024))
  congr 2 <;> exact Fin.ext (by first | exact e1.symm | exact e2.symm)
theorem lstage_agree0 (c : Dev nD) (fs : Vec F S3x64x1024 .bf16)
    (h : (lstageM : Memref sig .tc .vmem S3x64x1024 .bf16).view.readAt (Elt F) (rect3 0).toLoadRect fs = lst P 0 c) :
    ∀ i ∈ (slot3 lstageM 0).view.set, fs i = lstageBuf P c i := by
  intro i hi
  obtain ⟨y, rfl⟩ := View.exists_emb_of_mem_set _ hi
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot3 lstageM 0).view.emb y = (rect3 0).emb (Fin.cons ⟨0, Nat.one_pos⟩ y : S1x64x1024.Idx) := by
    show (rect3 0).emb (Shape.reshapeEquiv (s := S1x64x1024) (s' := S64x1024) squeezes_S1x64x1024_S64x1024.numel_eq y) = _
    rw [hy]
  rw [key]
  have h1 : fs ((rect3 0).emb (Fin.cons ⟨0, Nat.one_pos⟩ y : S1x64x1024.Idx)) = lst P 0 c (Fin.cons ⟨0, Nat.one_pos⟩ y) :=
    congrFun h (Fin.cons ⟨0, Nat.one_pos⟩ y)
  refine h1.trans ?_
  have e3 : (ix3 (0 : Fin 1) (⟨(y 0).val, (y 0).isLt⟩ : Fin 64) (⟨(y 1).val, (y 1).isLt⟩ : Fin 1024) : S1x64x1024.Idx) = Fin.cons ⟨0, Nat.one_pos⟩ y := by
    funext a
    match a with
    | ⟨0, _⟩ => rfl
    | ⟨1, _⟩ => rfl
    | ⟨2, _⟩ => rfl
  have e1 : (((rect3 0).emb (Fin.cons ⟨0, Nat.one_pos⟩ y : S1x64x1024.Idx)) 1).val = (y 0).val := by
    show 0 + 1 * (y 0).val = (y 0).val; omega
  have e2 : (((rect3 0).emb (Fin.cons ⟨0, Nat.one_pos⟩ y : S1x64x1024.Idx)) 2).val = (y 1).val := by
    show 0 + 1 * (y 1).val = (y 1).val; omega
  rw [← e3]
  show lst P 0 c (ix3 (0 : Fin 1) (⟨(y 0).val, (y 0).isLt⟩ : Fin 64) (⟨(y 1).val, (y 1).isLt⟩ : Fin 1024))
    = lst P 0 c (ix3 (0 : Fin 1) (⟨(((rect3 0).emb (Fin.cons ⟨0, Nat.one_pos⟩ y : S1x64x1024.Idx)) 1).val, _⟩ : Fin 64) (⟨(((rect3 0).emb (Fin.cons ⟨0, Nat.one_pos⟩ y : S1x64x1024.Idx)) 2).val, _⟩ : Fin 1024))
  congr 2 <;> exact Fin.ext (by first | exact e1.symm | exact e2.symm)
theorem lstage_agree1 (c : Dev nD) (fs : Vec F S3x64x1024 .bf16)
    (h : (lstageM : Memref sig .tc .vmem S3x64x1024 .bf16).view.readAt (Elt F) (rect3 1).toLoadRect fs = lst P 1 c) :
    ∀ i ∈ (slot3 lstageM 1).view.set, fs i = lstageBuf P c i := by
  intro i hi
  obtain ⟨y, rfl⟩ := View.exists_emb_of_mem_set _ hi
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot3 lstageM 1).view.emb y = (rect3 1).emb (Fin.cons ⟨0, Nat.one_pos⟩ y : S1x64x1024.Idx) := by
    show (rect3 1).emb (Shape.reshapeEquiv (s := S1x64x1024) (s' := S64x1024) squeezes_S1x64x1024_S64x1024.numel_eq y) = _
    rw [hy]
  rw [key]
  have h1 : fs ((rect3 1).emb (Fin.cons ⟨0, Nat.one_pos⟩ y : S1x64x1024.Idx)) = lst P 1 c (Fin.cons ⟨0, Nat.one_pos⟩ y) :=
    congrFun h (Fin.cons ⟨0, Nat.one_pos⟩ y)
  refine h1.trans ?_
  have e3 : (ix3 (0 : Fin 1) (⟨(y 0).val, (y 0).isLt⟩ : Fin 64) (⟨(y 1).val, (y 1).isLt⟩ : Fin 1024) : S1x64x1024.Idx) = Fin.cons ⟨0, Nat.one_pos⟩ y := by
    funext a
    match a with
    | ⟨0, _⟩ => rfl
    | ⟨1, _⟩ => rfl
    | ⟨2, _⟩ => rfl
  have e1 : (((rect3 1).emb (Fin.cons ⟨0, Nat.one_pos⟩ y : S1x64x1024.Idx)) 1).val = (y 0).val := by
    show 0 + 1 * (y 0).val = (y 0).val; omega
  have e2 : (((rect3 1).emb (Fin.cons ⟨0, Nat.one_pos⟩ y : S1x64x1024.Idx)) 2).val = (y 1).val := by
    show 0 + 1 * (y 1).val = (y 1).val; omega
  rw [← e3]
  show lst P 1 c (ix3 (0 : Fin 1) (⟨(y 0).val, (y 0).isLt⟩ : Fin 64) (⟨(y 1).val, (y 1).isLt⟩ : Fin 1024))
    = lst P 1 c (ix3 (0 : Fin 1) (⟨(((rect3 1).emb (Fin.cons ⟨0, Nat.one_pos⟩ y : S1x64x1024.Idx)) 1).val, _⟩ : Fin 64) (⟨(((rect3 1).emb (Fin.cons ⟨0, Nat.one_pos⟩ y : S1x64x1024.Idx)) 2).val, _⟩ : Fin 1024))
  congr 2 <;> exact Fin.ext (by first | exact e1.symm | exact e2.symm)
theorem lstage_agree2 (c : Dev nD) (fs : Vec F S3x64x1024 .bf16)
    (h : (lstageM : Memref sig .tc .vmem S3x64x1024 .bf16).view.readAt (Elt F) (rect3 2).toLoadRect fs = lst P 2 c) :
    ∀ i ∈ (slot3 lstageM 2).view.set, fs i = lstageBuf P c i := by
  intro i hi
  obtain ⟨y, rfl⟩ := View.exists_emb_of_mem_set _ hi
  have hy : Shape.reshapeEquiv (s := S1x64x1024) (s' := S64x1024) squeezes_S1x64x1024_S64x1024.numel_eq y = Fin.cons ⟨0, Nat.one_pos⟩ y :=
    Shape.reshapeEquiv_cons_one (d := ![64, 1024]) _ y
  have key : (slot3 lstageM 2).view.emb y = (rect3 2).emb (Fin.cons ⟨0, Nat.one_pos⟩ y : S1x64x1024.Idx) := by
    show (rect3 2).emb (Shape.reshapeEquiv (s := S1x64x1024) (s' := S64x1024) squeezes_S1x64x1024_S64x1024.numel_eq y) = _
    rw [hy]
  rw [key]
  have h1 : fs ((rect3 2).emb (Fin.cons ⟨0, Nat.one_pos⟩ y : S1x64x1024.Idx)) = lst P 2 c (Fin.cons ⟨0, Nat.one_pos⟩ y) :=
    congrFun h (Fin.cons ⟨0, Nat.one_pos⟩ y)
  refine h1.trans ?_
  have e3 : (ix3 (0 : Fin 1) (⟨(y 0).val, (y 0).isLt⟩ : Fin 64) (⟨(y 1).val, (y 1).isLt⟩ : Fin 1024) : S1x64x1024.Idx) = Fin.cons ⟨0, Nat.one_pos⟩ y := by
    funext a
    match a with
    | ⟨0, _⟩ => rfl
    | ⟨1, _⟩ => rfl
    | ⟨2, _⟩ => rfl
  have e1 : (((rect3 2).emb (Fin.cons ⟨0, Nat.one_pos⟩ y : S1x64x1024.Idx)) 1).val = (y 0).val := by
    show 0 + 1 * (y 0).val = (y 0).val; omega
  have e2 : (((rect3 2).emb (Fin.cons ⟨0, Nat.one_pos⟩ y : S1x64x1024.Idx)) 2).val = (y 1).val := by
    show 0 + 1 * (y 1).val = (y 1).val; omega
  rw [← e3]
  show lst P 2 c (ix3 (0 : Fin 1) (⟨(y 0).val, (y 0).isLt⟩ : Fin 64) (⟨(y 1).val, (y 1).isLt⟩ : Fin 1024))
    = lst P 2 c (ix3 (0 : Fin 1) (⟨(((rect3 2).emb (Fin.cons ⟨0, Nat.one_pos⟩ y : S1x64x1024.Idx)) 1).val, _⟩ : Fin 64) (⟨(((rect3 2).emb (Fin.cons ⟨0, Nat.one_pos⟩ y : S1x64x1024.Idx)) 2).val, _⟩ : Fin 1024))
  congr 2 <;> exact Fin.ext (by first | exact e1.symm | exact e2.symm)

end Agree

end Cert.KernelIdeal.Hand

end
-- ==== Proof.WaitRules.lean ====
import proofs.«900750_g7700000000000751_dist_attn_cross_gqa_kvrep_htp_b1_sq512_skv2048_d1024_hq8_dh128_v7x_i8_bf16_1_alg».proof.Proof.Sched
import proofs.«900750_g7700000000000751_dist_attn_cross_gqa_kvrep_htp_b1_sq512_skv2048_d1024_hq8_dh128_v7x_i8_bf16_1_alg».proof.Proof.Levels
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Wait
variable (P : Dev nD → Dev nD → Vec F S1x64x1024 .f32)

theorem wp_sigL (c n : Dev nD) (hn : n = sh 7 c) {κ : ℕ} (a : ℕ) (ha : a = 1)
    {α : Type} {Q : α → sProp 𝕄} {k : PUnit → Prog (TpuEff nD τ sig (Elt F) Λ₀ .tc) α}
    (O : CellTallies nD τ sig Unit) (W : Waits sig Unit) :
    iprop(cellInv ER (rd P) κ (barCell (sh 7 c)) ∗ owes (c : Thread nD τ) (O + tallyAt (barCell (sh 7 c)) () 1) W
        ∗ dutyTok ER (barCell (sh 7 c)) 0 true
        ∗ iprop((∃ f : Buf (Elt F) ((slot4 rlandM 0).view.loc (c : Thread nD τ)), ((slot4 rlandM 0).view.loc (c : Thread nD τ) ↦[(slot4 rlandM 0).view.set]{fullShare} f))
      ∗ (∃ f : Buf (Elt F) ((slot4 rlandM 1).view.loc (c : Thread nD τ)), ((slot4 rlandM 1).view.loc (c : Thread nD τ) ↦[(slot4 rlandM 1).view.set]{fullShare} f))
      ∗ (∃ f : Buf (Elt F) ((slot4 rlandM 2).view.loc (c : Thread nD τ)), ((slot4 rlandM 2).view.loc (c : Thread nD τ) ↦[(slot4 rlandM 2).view.set]{fullShare} f))
      ∗ (∃ f : Buf (Elt F) ((slot4 rlandM 3).view.loc (c : Thread nD τ)), ((slot4 rlandM 3).view.loc (c : Thread nD τ) ↦[(slot4 rlandM 3).view.set]{fullShare} f))
      ∗ (∃ f : Buf (Elt F) ((slot7 aglandM 0).view.loc (c : Thread nD τ)), ((slot7 aglandM 0).view.loc (c : Thread nD τ) ↦[(slot7 aglandM 0).view.set]{fullShare} f))
      ∗ (∃ f : Buf (Elt F) ((slot7 aglandM 1).view.loc (c : Thread nD τ)), ((slot7 aglandM 1).view.loc (c : Thread nD τ) ↦[(slot7 aglandM 1).view.set]{fullShare} f))
      ∗ (∃ f : Buf (Elt F) ((slot7 aglandM 2).view.loc (c : Thread nD τ)), ((slot7 aglandM 2).view.loc (c : Thread nD τ) ↦[(slot7 aglandM 2).view.set]{fullShare} f))
      ∗ (∃ f : Buf (Elt F) ((slot7 aglandM 3).view.loc (c : Thread nD τ)), ((slot7 aglandM 3).view.loc (c : Thread nD τ) ↦[(slot7 aglandM 3).view.set]{fullShare} f)))
        ∗ reached ER (barCell (sh 7 c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS a) k) Q) := by
  subst hn; subst ha
  rw [← payload_barT_paid P c]
  exact Rounds.wp_signal 𝒱₀ ER (rd P) (c : Thread nD τ) none (dst := (sh 7 c : Thread nD τ)) (κ := κ) (d := true)
    (by rw [duties_bar]; exact Finset.mem_univ _) (amount_bar P (sh 7 c) 0 true) () O rfl

theorem wp_sigR (c n : Dev nD) (hn : n = sh 1 c) {κ : ℕ} (a : ℕ) (ha : a = 1)
    {α : Type} {Q : α → sProp 𝕄} {k : PUnit → Prog (TpuEff nD τ sig (Elt F) Λ₀ .tc) α}
    (O : CellTallies nD τ sig Unit) (W : Waits sig Unit) :
    iprop(cellInv ER (rd P) κ (barCell (sh 1 c)) ∗ owes (c : Thread nD τ) (O + tallyAt (barCell (sh 1 c)) () 1) W
        ∗ dutyTok ER (barCell (sh 1 c)) 0 false
        ∗ iprop((∃ f : Buf (Elt F) ((slot3 llandM 0).view.loc (c : Thread nD τ)), ((slot3 llandM 0).view.loc (c : Thread nD τ) ↦[(slot3 llandM 0).view.set]{fullShare} f))
      ∗ (∃ f : Buf (Elt F) ((slot3 llandM 1).view.loc (c : Thread nD τ)), ((slot3 llandM 1).view.loc (c : Thread nD τ) ↦[(slot3 llandM 1).view.set]{fullShare} f))
      ∗ (∃ f : Buf (Elt F) ((slot3 llandM 2).view.loc (c : Thread nD τ)), ((slot3 llandM 2).view.loc (c : Thread nD τ) ↦[(slot3 llandM 2).view.set]{fullShare} f))
      ∗ (∃ f : Buf (Elt F) ((slot7 aglandM 6).view.loc (c : Thread nD τ)), ((slot7 aglandM 6).view.loc (c : Thread nD τ) ↦[(slot7 aglandM 6).view.set]{fullShare} f))
      ∗ (∃ f : Buf (Elt F) ((slot7 aglandM 5).view.loc (c : Thread nD τ)), ((slot7 aglandM 5).view.loc (c : Thread nD τ) ↦[(slot7 aglandM 5).view.set]{fullShare} f))
      ∗ (∃ f : Buf (Elt F) ((slot7 aglandM 4).view.loc (c : Thread nD τ)), ((slot7 aglandM 4).view.loc (c : Thread nD τ) ↦[(slot7 aglandM 4).view.set]{fullShare} f)))
        ∗ reached ER (barCell (sh 1 c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS a) k) Q) := by
  subst hn; subst ha
  rw [← payload_barF_paid P c]
  exact Rounds.wp_signal 𝒱₀ ER (rd P) (c : Thread nD τ) none (dst := (sh 1 c : Thread nD τ)) (κ := κ) (d := false)
    (by rw [duties_bar]; exact Finset.mem_univ _) (amount_bar P (sh 1 c) 0 false) () O rfl

theorem wp_barwait (c : Dev nD) {κ : ℕ} (a : ℕ) (ha : a = 2)
    {α : Type} {Q : α → sProp 𝕄} {k : PUnit → Prog (TpuEff nD τ sig (Elt F) Λ₀ .tc) α}
    (O : CellTallies nD τ sig Unit) (W : Waits sig Unit) :
    iprop(cellInv ER (rd P) κ (barCell c) ∗ cred (tallyAt (barCell c) () 2) ∗ owes (c : Thread nD τ) O W
        ∗ MayWait (c : Thread nD τ) (.reg barS) () O ∗ atPos ER (barCell c) 0 ∅ 0)
      ⊢ iprop(((owes (c : Thread nD τ) O (insert (SemLoc.reg barS, ()) W)
              ∗ atPos ER (barCell c) 1 ∅ 0 ∗ reached ER (barCell c) 1
              ∗ ((∃ f : Buf (Elt F) ((slot3 llandM 0).view.loc (sh 7 c : Thread nD τ)), ((slot3 llandM 0).view.loc (sh 7 c : Thread nD τ) ↦[(slot3 llandM 0).view.set]{fullShare} f))
      ∗ (∃ f : Buf (Elt F) ((slot3 llandM 1).view.loc (sh 7 c : Thread nD τ)), ((slot3 llandM 1).view.loc (sh 7 c : Thread nD τ) ↦[(slot3 llandM 1).view.set]{fullShare} f))
      ∗ (∃ f : Buf (Elt F) ((slot3 llandM 2).view.loc (sh 7 c : Thread nD τ)), ((slot3 llandM 2).view.loc (sh 7 c : Thread nD τ) ↦[(slot3 llandM 2).view.set]{fullShare} f))
      ∗ (∃ f : Buf (Elt F) ((slot7 aglandM 6).view.loc (sh 7 c : Thread nD τ)), ((slot7 aglandM 6).view.loc (sh 7 c : Thread nD τ) ↦[(slot7 aglandM 6).view.set]{fullShare} f))
      ∗ (∃ f : Buf (Elt F) ((slot7 aglandM 5).view.loc (sh 7 c : Thread nD τ)), ((slot7 aglandM 5).view.loc (sh 7 c : Thread nD τ) ↦[(slot7 aglandM 5).view.set]{fullShare} f))
      ∗ (∃ f : Buf (Elt F) ((slot7 aglandM 4).view.loc (sh 7 c : Thread nD τ)), ((slot7 aglandM 4).view.loc (sh 7 c : Thread nD τ) ↦[(slot7 aglandM 4).view.set]{fullShare} f)))
              ∗ (∃ f : Buf (Elt F) ((slot4 rlandM 0).view.loc (sh 1 c : Thread nD τ)), ((slot4 rlandM 0).view.loc (sh 1 c : Thread nD τ) ↦[(slot4 rlandM 0).view.set]{fullShare} f))
      ∗ (∃ f : Buf (Elt F) ((slot4 rlandM 1).view.loc (sh 1 c : Thread nD τ)), ((slot4 rlandM 1).view.loc (sh 1 c : Thread nD τ) ↦[(slot4 rlandM 1).view.set]{fullShare} f))
      ∗ (∃ f : Buf (Elt F) ((slot4 rlandM 2).view.loc (sh 1 c : Thread nD τ)), ((slot4 rlandM 2).view.loc (sh 1 c : Thread nD τ) ↦[(slot4 rlandM 2).view.set]{fullShare} f))
      ∗ (∃ f : Buf (Elt F) ((slot4 rlandM 3).view.loc (sh 1 c : Thread nD τ)), ((slot4 rlandM 3).view.loc (sh 1 c : Thread nD τ) ↦[(slot4 rlandM 3).view.set]{fullShare} f))
      ∗ (∃ f : Buf (Elt F) ((slot7 aglandM 0).view.loc (sh 1 c : Thread nD τ)), ((slot7 aglandM 0).view.loc (sh 1 c : Thread nD τ) ↦[(slot7 aglandM 0).view.set]{fullShare} f))
      ∗ (∃ f : Buf (Elt F) ((slot7 aglandM 1).view.loc (sh 1 c : Thread nD τ)), ((slot7 aglandM 1).view.loc (sh 1 c : Thread nD τ) ↦[(slot7 aglandM 1).view.set]{fullShare} f))
      ∗ (∃ f : Buf (Elt F) ((slot7 aglandM 2).view.loc (sh 1 c : Thread nD τ)), ((slot7 aglandM 2).view.loc (sh 1 c : Thread nD τ) ↦[(slot7 aglandM 2).view.set]{fullShare} f))
      ∗ (∃ f : Buf (Elt F) ((slot7 aglandM 3).view.loc (sh 1 c : Thread nD τ)), ((slot7 aglandM 3).view.loc (sh 1 c : Thread nD τ) ↦[(slot7 aglandM 3).view.set]{fullShare} f)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  have h := Rounds.wp_wait_rest_token (defs := defs₀ (F := F)) 𝒱₀ ER (rd P) (c : Thread nD τ) none (κ := κ) (w := .semWait barS 2)
    (wpE_semWait_eq 𝒱₀ (c : Thread nD τ) none Set.univ) (Set.mem_univ _) () (O := O) (W := W) (R := 0) (m := 0) (T := ∅) (k := k) (Q := Q)
    ((expect_bar P c).symm : 0 + 2 = (rd P).expect (barCell c) 0)
  rw [rest_bar] at h
  exact h

-- A cell with one duty: waiting for the whole amount takes the duty's payload, whatever the table says it is.
theorem wp_wait_cell (c : Dev nD) (n : ℕ) (hn : n < 36) (h8 : 8 ≤ n) (sem : DmaSem sig) (hs : sem = dq n hn)
    {Pay : sProp 𝕄} (hpay : (rd P).payload (dcell c n hn) 0 false = Pay) {κ : ℕ}
    {sp' sp : Space} {s' s : Shape} {e' e : EltTy} {κ' : Kind} {src : Memref sig .tc sp' s' e'} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W : Waits sig Unit) :
    iprop(cellInv ER (rd P) κ (dcell c n hn) ∗ cred (tallyAt (dcell c n hn) () N) ∗ owes (c : Thread nD τ) O W
        ∗ MayWait (c : Thread nD τ) (.dma (dq n hn)) () O ∗ atPos ER (dcell c n hn) 0 ∅ 0)
      ⊢ iprop(((owes (c : Thread nD τ) O (insert (SemLoc.dma (dq n hn), ()) W)
              ∗ atPos ER (dcell c n hn) 1 ∅ 0 ∗ reached ER (dcell c n hn) 1 ∗ Pay)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs hpay
  have h := Rounds.wp_wait_rest_token (defs := defs₀ (F := F)) 𝒱₀ ER (rd P) (c : Thread nD τ) none (κ := κ) (w := .waitDma2 (dq n hn) src dst hsrc hdst) (sm := SemLoc.dma (dq n hn)) (k' := dst.view.dmaCredit)
    (wpE_waitDma2_eq 𝒱₀ (c : Thread nD τ) none Set.univ) (Set.mem_univ _) () (O := O) (W := W) (R := 0) (m := 0) (T := ∅) (k := k) (Q := Q)
    (by rw [hcr, Nat.zero_add]; exact (expect_cell P c n hn h8).symm)
  rw [hcr, (rest_cell P c n hn h8).trans (payload_cell P c n hn false).symm] at h
  exact h

end Wait

end Cert.KernelIdeal.Hand

end
-- ==== Proof.InvProj.lean ====
import proofs.«900750_g7700000000000751_dist_attn_cross_gqa_kvrep_htp_b1_sq512_skv2048_d1024_hq8_dh128_v7x_i8_bf16_1_alg».proof.Proof.Iface
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Dev nD → Vec F S1x64x1024 .f32)

theorem inv_bar (K : Dev nD × Fin 29 → ℕ) (c : Dev nD) : invs P K c ⊢ (cellInv ER (rd P) (K (c, 0)) (barCell c) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I0
theorem inv_own8 (K : Dev nD × Fin 29 → ℕ) (c : Dev nD) : invs P K c ⊢ (cellInv ER (rd P) (K (c, 1)) (dcell c 8) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I1
theorem inv_own9 (K : Dev nD × Fin 29 → ℕ) (c : Dev nD) : invs P K c ⊢ (cellInv ER (rd P) (K (c, 2)) (dcell c 9) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I2
theorem inv_own10 (K : Dev nD × Fin 29 → ℕ) (c : Dev nD) : invs P K c ⊢ (cellInv ER (rd P) (K (c, 3)) (dcell c 10) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I3
theorem inv_own11 (K : Dev nD × Fin 29 → ℕ) (c : Dev nD) : invs P K c ⊢ (cellInv ER (rd P) (K (c, 4)) (dcell c 11) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I4
theorem inv_own12 (K : Dev nD × Fin 29 → ℕ) (c : Dev nD) : invs P K c ⊢ (cellInv ER (rd P) (K (c, 5)) (dcell c 12) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I5
theorem inv_own13 (K : Dev nD × Fin 29 → ℕ) (c : Dev nD) : invs P K c ⊢ (cellInv ER (rd P) (K (c, 6)) (dcell c 13) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I6
theorem inv_own14 (K : Dev nD × Fin 29 → ℕ) (c : Dev nD) : invs P K c ⊢ (cellInv ER (rd P) (K (c, 7)) (dcell c 14) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I7
theorem inv_own15 (K : Dev nD × Fin 29 → ℕ) (c : Dev nD) : invs P K c ⊢ (cellInv ER (rd P) (K (c, 8)) (dcell c 15) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I8
theorem inv_own16 (K : Dev nD × Fin 29 → ℕ) (c : Dev nD) : invs P K c ⊢ (cellInv ER (rd P) (K (c, 9)) (dcell c 16) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I9
theorem inv_own17 (K : Dev nD × Fin 29 → ℕ) (c : Dev nD) : invs P K c ⊢ (cellInv ER (rd P) (K (c, 10)) (dcell c 17) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I10
theorem inv_own18 (K : Dev nD × Fin 29 → ℕ) (c : Dev nD) : invs P K c ⊢ (cellInv ER (rd P) (K (c, 11)) (dcell c 18) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I11
theorem inv_own19 (K : Dev nD × Fin 29 → ℕ) (c : Dev nD) : invs P K c ⊢ (cellInv ER (rd P) (K (c, 12)) (dcell c 19) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I12
theorem inv_own20 (K : Dev nD × Fin 29 → ℕ) (c : Dev nD) : invs P K c ⊢ (cellInv ER (rd P) (K (c, 13)) (dcell c 20) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I13
theorem inv_own21 (K : Dev nD × Fin 29 → ℕ) (c : Dev nD) : invs P K c ⊢ (cellInv ER (rd P) (K (c, 14)) (dcell c 21) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I14
theorem inv_own22 (K : Dev nD × Fin 29 → ℕ) (c : Dev nD) : invs P K c ⊢ (cellInv ER (rd P) (K (c, 15)) (dcell c 22) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I15
theorem inv_own23 (K : Dev nD × Fin 29 → ℕ) (c : Dev nD) : invs P K c ⊢ (cellInv ER (rd P) (K (c, 16)) (dcell c 23) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I16
theorem inv_own24 (K : Dev nD × Fin 29 → ℕ) (c : Dev nD) : invs P K c ⊢ (cellInv ER (rd P) (K (c, 17)) (dcell c 24) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I17
theorem inv_own25 (K : Dev nD × Fin 29 → ℕ) (c : Dev nD) : invs P K c ⊢ (cellInv ER (rd P) (K (c, 18)) (dcell c 25) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I18
theorem inv_own26 (K : Dev nD × Fin 29 → ℕ) (c : Dev nD) : invs P K c ⊢ (cellInv ER (rd P) (K (c, 19)) (dcell c 26) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I19
theorem inv_own27 (K : Dev nD × Fin 29 → ℕ) (c : Dev nD) : invs P K c ⊢ (cellInv ER (rd P) (K (c, 20)) (dcell c 27) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I20
theorem inv_own28 (K : Dev nD × Fin 29 → ℕ) (c : Dev nD) : invs P K c ⊢ (cellInv ER (rd P) (K (c, 21)) (dcell c 28) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I21
theorem inv_own29 (K : Dev nD × Fin 29 → ℕ) (c : Dev nD) : invs P K c ⊢ (cellInv ER (rd P) (K (c, 22)) (dcell c 29) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I22
theorem inv_own30 (K : Dev nD × Fin 29 → ℕ) (c : Dev nD) : invs P K c ⊢ (cellInv ER (rd P) (K (c, 23)) (dcell c 30) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I23
theorem inv_own31 (K : Dev nD × Fin 29 → ℕ) (c : Dev nD) : invs P K c ⊢ (cellInv ER (rd P) (K (c, 24)) (dcell c 31) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I24
theorem inv_own32 (K : Dev nD × Fin 29 → ℕ) (c : Dev nD) : invs P K c ⊢ (cellInv ER (rd P) (K (c, 25)) (dcell c 32) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I25
theorem inv_own33 (K : Dev nD × Fin 29 → ℕ) (c : Dev nD) : invs P K c ⊢ (cellInv ER (rd P) (K (c, 26)) (dcell c 33) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I26
theorem inv_own34 (K : Dev nD × Fin 29 → ℕ) (c : Dev nD) : invs P K c ⊢ (cellInv ER (rd P) (K (c, 27)) (dcell c 34) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I27
theorem inv_own35 (K : Dev nD × Fin 29 → ℕ) (c : Dev nD) : invs P K c ⊢ (cellInv ER (rd P) (K (c, 28)) (dcell c 35) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I28
theorem inv_barL (K : Dev nD × Fin 29 → ℕ) (c : Dev nD) : invs P K c ⊢ (cellInv ER (rd P) (K (sh 7 c, 0)) (barCell (sh 7 c)) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I29
theorem inv_barR (K : Dev nD × Fin 29 → ℕ) (c : Dev nD) : invs P K c ⊢ (cellInv ER (rd P) (K (sh 1 c, 0)) (barCell (sh 1 c)) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I30
theorem inv_r0 (K : Dev nD × Fin 29 → ℕ) (c : Dev nD) : invs P K c ⊢ (cellInv ER (rd P) (K (sh 1 c, 5)) (dcell (sh 1 c) 12) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I31
theorem inv_r1 (K : Dev nD × Fin 29 → ℕ) (c : Dev nD) : invs P K c ⊢ (cellInv ER (rd P) (K (sh 1 c, 6)) (dcell (sh 1 c) 13) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I32
theorem inv_r2 (K : Dev nD × Fin 29 → ℕ) (c : Dev nD) : invs P K c ⊢ (cellInv ER (rd P) (K (sh 1 c, 7)) (dcell (sh 1 c) 14) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I33
theorem inv_r3 (K : Dev nD × Fin 29 → ℕ) (c : Dev nD) : invs P K c ⊢ (cellInv ER (rd P) (K (sh 1 c, 8)) (dcell (sh 1 c) 15) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I34
theorem inv_l0 (K : Dev nD × Fin 29 → ℕ) (c : Dev nD) : invs P K c ⊢ (cellInv ER (rd P) (K (sh 7 c, 12)) (dcell (sh 7 c) 19) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I35
theorem inv_l1 (K : Dev nD × Fin 29 → ℕ) (c : Dev nD) : invs P K c ⊢ (cellInv ER (rd P) (K (sh 7 c, 13)) (dcell (sh 7 c) 20) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I36
theorem inv_l2 (K : Dev nD × Fin 29 → ℕ) (c : Dev nD) : invs P K c ⊢ (cellInv ER (rd P) (K (sh 7 c, 14)) (dcell (sh 7 c) 21) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I37
theorem inv_ag0 (K : Dev nD × Fin 29 → ℕ) (c : Dev nD) : invs P K c ⊢ (cellInv ER (rd P) (K (sh 1 c, 22)) (dcell (sh 1 c) 29) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I38
theorem inv_ag1 (K : Dev nD × Fin 29 → ℕ) (c : Dev nD) : invs P K c ⊢ (cellInv ER (rd P) (K (sh 2 c, 23)) (dcell (sh 2 c) 30) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I39
theorem inv_ag2 (K : Dev nD × Fin 29 → ℕ) (c : Dev nD) : invs P K c ⊢ (cellInv ER (rd P) (K (sh 3 c, 24)) (dcell (sh 3 c) 31) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I40
theorem inv_ag3 (K : Dev nD × Fin 29 → ℕ) (c : Dev nD) : invs P K c ⊢ (cellInv ER (rd P) (K (sh 4 c, 25)) (dcell (sh 4 c) 32) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I41
theorem inv_ag4 (K : Dev nD × Fin 29 → ℕ) (c : Dev nD) : invs P K c ⊢ (cellInv ER (rd P) (K (sh 5 c, 26)) (dcell (sh 5 c) 33) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I42
theorem inv_ag5 (K : Dev nD × Fin 29 → ℕ) (c : Dev nD) : invs P K c ⊢ (cellInv ER (rd P) (K (sh 6 c, 27)) (dcell (sh 6 c) 34) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I43
theorem inv_ag6 (K : Dev nD × Fin 29 → ℕ) (c : Dev nD) : invs P K c ⊢ (cellInv ER (rd P) (K (sh 7 c, 28)) (dcell (sh 7 c) 35) : sProp 𝕄) := by
  unfold invs; iintro ⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩; iexact I44

end Cert.KernelIdeal.Hand

end
-- ==== Proof.Close.lean ====
import proofs.«900750_g7700000000000751_dist_attn_cross_gqa_kvrep_htp_b1_sq512_skv2048_d1024_hq8_dh128_v7x_i8_bf16_1_alg».proof.Proof.Iface
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Dev nD → Vec F S1x64x1024 .f32)

theorem close_one (c : Dev nD) (κ : ℕ) (n : ℕ) (h : n < 36) :
    iprop(cellInv ER (rd P) κ (dcell c n h) ∗ atPos ER (dcell c n h) 1 ∅ 0) ⊢ (|={Set.univ}=> semVal (dcell c n h) 0 : sProp 𝕄) :=
  Rounds.cell_close ER (rd P) (Set.mem_univ κ) (fun hu => hu) (duties_later P (dcell c n h))

def at1 (c : Dev nD) : sProp 𝕄 :=
  iprop(atPos ER (dcell c 8) 1 ∅ 0
    ∗ atPos ER (dcell c 9) 1 ∅ 0
    ∗ atPos ER (dcell c 10) 1 ∅ 0
    ∗ atPos ER (dcell c 11) 1 ∅ 0
    ∗ atPos ER (dcell c 12) 1 ∅ 0
    ∗ atPos ER (dcell c 13) 1 ∅ 0
    ∗ atPos ER (dcell c 14) 1 ∅ 0
    ∗ atPos ER (dcell c 15) 1 ∅ 0
    ∗ atPos ER (dcell c 16) 1 ∅ 0
    ∗ atPos ER (dcell c 17) 1 ∅ 0
    ∗ atPos ER (dcell c 18) 1 ∅ 0
    ∗ atPos ER (dcell c 19) 1 ∅ 0
    ∗ atPos ER (dcell c 20) 1 ∅ 0
    ∗ atPos ER (dcell c 21) 1 ∅ 0
    ∗ atPos ER (dcell c 22) 1 ∅ 0
    ∗ atPos ER (dcell c 23) 1 ∅ 0
    ∗ atPos ER (dcell c 24) 1 ∅ 0
    ∗ atPos ER (dcell c 25) 1 ∅ 0
    ∗ atPos ER (dcell c 26) 1 ∅ 0
    ∗ atPos ER (dcell c 27) 1 ∅ 0
    ∗ atPos ER (dcell c 28) 1 ∅ 0
    ∗ atPos ER (dcell c 29) 1 ∅ 0
    ∗ atPos ER (dcell c 30) 1 ∅ 0
    ∗ atPos ER (dcell c 31) 1 ∅ 0
    ∗ atPos ER (dcell c 32) 1 ∅ 0
    ∗ atPos ER (dcell c 33) 1 ∅ 0
    ∗ atPos ER (dcell c 34) 1 ∅ 0
    ∗ atPos ER (dcell c 35) 1 ∅ 0)

def zero28 (c : Dev nD) : sProp 𝕄 :=
  iprop(semVal (dcell c 8) 0
    ∗ semVal (dcell c 9) 0
    ∗ semVal (dcell c 10) 0
    ∗ semVal (dcell c 11) 0
    ∗ semVal (dcell c 12) 0
    ∗ semVal (dcell c 13) 0
    ∗ semVal (dcell c 14) 0
    ∗ semVal (dcell c 15) 0
    ∗ semVal (dcell c 16) 0
    ∗ semVal (dcell c 17) 0
    ∗ semVal (dcell c 18) 0
    ∗ semVal (dcell c 19) 0
    ∗ semVal (dcell c 20) 0
    ∗ semVal (dcell c 21) 0
    ∗ semVal (dcell c 22) 0
    ∗ semVal (dcell c 23) 0
    ∗ semVal (dcell c 24) 0
    ∗ semVal (dcell c 25) 0
    ∗ semVal (dcell c 26) 0
    ∗ semVal (dcell c 27) 0
    ∗ semVal (dcell c 28) 0
    ∗ semVal (dcell c 29) 0
    ∗ semVal (dcell c 30) 0
    ∗ semVal (dcell c 31) 0
    ∗ semVal (dcell c 32) 0
    ∗ semVal (dcell c 33) 0
    ∗ semVal (dcell c 34) 0
    ∗ semVal (dcell c 35) 0)

set_option maxHeartbeats 1600000 in

theorem close28 (K : Dev nD × Fin 29 → ℕ) (c : Dev nD) : iprop(invs P K c ∗ at1 c) ⊢ (|={Set.univ}=> zero28 c : sProp 𝕄) := by
  unfold invs at1 zero28
  iintro ⟨⟨#I0, #I1, #I2, #I3, #I4, #I5, #I6, #I7, #I8, #I9, #I10, #I11, #I12, #I13, #I14, #I15, #I16, #I17, #I18, #I19, #I20, #I21, #I22, #I23, #I24, #I25, #I26, #I27, #I28, #I29, #I30, #I31, #I32, #I33, #I34, #I35, #I36, #I37, #I38, #I39, #I40, #I41, #I42, #I43, #I44⟩, A8, A9, A10, A11, A12, A13, A14, A15, A16, A17, A18, A19, A20, A21, A22, A23, A24, A25, A26, A27, A28, A29, A30, A31, A32, A33, A34, A35⟩
  imod (close_one P c (K (c, 1)) 8 (by decide)) $$ [A8] with Z8
  · isplitr; · iexact I1
    iexact A8
  imod (close_one P c (K (c, 2)) 9 (by decide)) $$ [A9] with Z9
  · isplitr; · iexact I2
    iexact A9
  imod (close_one P c (K (c, 3)) 10 (by decide)) $$ [A10] with Z10
  · isplitr; · iexact I3
    iexact A10
  imod (close_one P c (K (c, 4)) 11 (by decide)) $$ [A11] with Z11
  · isplitr; · iexact I4
    iexact A11
  imod (close_one P c (K (c, 5)) 12 (by decide)) $$ [A12] with Z12
  · isplitr; · iexact I5
    iexact A12
  imod (close_one P c (K (c, 6)) 13 (by decide)) $$ [A13] with Z13
  · isplitr; · iexact I6
    iexact A13
  imod (close_one P c (K (c, 7)) 14 (by decide)) $$ [A14] with Z14
  · isplitr; · iexact I7
    iexact A14
  imod (close_one P c (K (c, 8)) 15 (by decide)) $$ [A15] with Z15
  · isplitr; · iexact I8
    iexact A15
  imod (close_one P c (K (c, 9)) 16 (by decide)) $$ [A16] with Z16
  · isplitr; · iexact I9
    iexact A16
  imod (close_one P c (K (c, 10)) 17 (by decide)) $$ [A17] with Z17
  · isplitr; · iexact I10
    iexact A17
  imod (close_one P c (K (c, 11)) 18 (by decide)) $$ [A18] with Z18
  · isplitr; · iexact I11
    iexact A18
  imod (close_one P c (K (c, 12)) 19 (by decide)) $$ [A19] with Z19
  · isplitr; · iexact I12
    iexact A19
  imod (close_one P c (K (c, 13)) 20 (by decide)) $$ [A20] with Z20
  · isplitr; · iexact I13
    iexact A20
  imod (close_one P c (K (c, 14)) 21 (by decide)) $$ [A21] with Z21
  · isplitr; · iexact I14
    iexact A21
  imod (close_one P c (K (c, 15)) 22 (by decide)) $$ [A22] with Z22
  · isplitr; · iexact I15
    iexact A22
  imod (close_one P c (K (c, 16)) 23 (by decide)) $$ [A23] with Z23
  · isplitr; · iexact I16
    iexact A23
  imod (close_one P c (K (c, 17)) 24 (by decide)) $$ [A24] with Z24
  · isplitr; · iexact I17
    iexact A24
  imod (close_one P c (K (c, 18)) 25 (by decide)) $$ [A25] with Z25
  · isplitr; · iexact I18
    iexact A25
  imod (close_one P c (K (c, 19)) 26 (by decide)) $$ [A26] with Z26
  · isplitr; · iexact I19
    iexact A26
  imod (close_one P c (K (c, 20)) 27 (by decide)) $$ [A27] with Z27
  · isplitr; · iexact I20
    iexact A27
  imod (close_one P c (K (c, 21)) 28 (by decide)) $$ [A28] with Z28
  · isplitr; · iexact I21
    iexact A28
  imod (close_one P c (K (c, 22)) 29 (by decide)) $$ [A29] with Z29
  · isplitr; · iexact I22
    iexact A29
  imod (close_one P c (K (c, 23)) 30 (by decide)) $$ [A30] with Z30
  · isplitr; · iexact I23
    iexact A30
  imod (close_one P c (K (c, 24)) 31 (by decide)) $$ [A31] with Z31
  · isplitr; · iexact I24
    iexact A31
  imod (close_one P c (K (c, 25)) 32 (by decide)) $$ [A32] with Z32
  · isplitr; · iexact I25
    iexact A32
  imod (close_one P c (K (c, 26)) 33 (by decide)) $$ [A33] with Z33
  · isplitr; · iexact I26
    iexact A33
  imod (close_one P c (K (c, 27)) 34 (by decide)) $$ [A34] with Z34
  · isplitr; · iexact I27
    iexact A34
  imod (close_one P c (K (c, 28)) 35 (by decide)) $$ [A35] with Z35
  · isplitr; · iexact I28
    iexact A35
  imodintro
  isplitl [Z8]; · iexact Z8
  isplitl [Z9]; · iexact Z9
  isplitl [Z10]; · iexact Z10
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  isplitl [Z18]; · iexact Z18
  isplitl [Z19]; · iexact Z19
  isplitl [Z20]; · iexact Z20
  isplitl [Z21]; · iexact Z21
  isplitl [Z22]; · iexact Z22
  isplitl [Z23]; · iexact Z23
  isplitl [Z24]; · iexact Z24
  isplitl [Z25]; · iexact Z25
  isplitl [Z26]; · iexact Z26
  isplitl [Z27]; · iexact Z27
  isplitl [Z28]; · iexact Z28
  isplitl [Z29]; · iexact Z29
  isplitl [Z30]; · iexact Z30
  isplitl [Z31]; · iexact Z31
  isplitl [Z32]; · iexact Z32
  isplitl [Z33]; · iexact Z33
  isplitl [Z34]; · iexact Z34
  iexact Z35

theorem own32_intro (c : Dev nD) : iprop(locals0 c ∗ zero28 c) ⊢ (own32 c : sProp 𝕄) := by
  unfold locals0 zero28 own32
  iintro ⟨⟨L4, L5, L6, L7⟩, Z8, Z9, Z10, Z11, Z12, Z13, Z14, Z15, Z16, Z17, Z18, Z19, Z20, Z21, Z22, Z23, Z24, Z25, Z26, Z27, Z28, Z29, Z30, Z31, Z32, Z33, Z34, Z35⟩
  isplitl [L4]; · iexact L4
  isplitl [L5]; · iexact L5
  isplitl [L6]; · iexact L6
  isplitl [L7]; · iexact L7
  isplitl [Z8]; · iexact Z8
  isplitl [Z9]; · iexact Z9
  isplitl [Z10]; · iexact Z10
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  isplitl [Z18]; · iexact Z18
  isplitl [Z19]; · iexact Z19
  isplitl [Z20]; · iexact Z20
  isplitl [Z21]; · iexact Z21
  isplitl [Z22]; · iexact Z22
  isplitl [Z23]; · iexact Z23
  isplitl [Z24]; · iexact Z24
  isplitl [Z25]; · iexact Z25
  isplitl [Z26]; · iexact Z26
  isplitl [Z27]; · iexact Z27
  isplitl [Z28]; · iexact Z28
  isplitl [Z29]; · iexact Z29
  isplitl [Z30]; · iexact Z30
  isplitl [Z31]; · iexact Z31
  isplitl [Z32]; · iexact Z32
  isplitl [Z33]; · iexact Z33
  isplitl [Z34]; · iexact Z34
  iexact Z35

end Cert.KernelIdeal.Hand

end
-- ==== Proof.BeforeIn.lean ====
import proofs.«900750_g7700000000000751_dist_attn_cross_gqa_kvrep_htp_b1_sq512_skv2048_d1024_hq8_dh128_v7x_i8_bf16_1_alg».proof.Proof.Iface
import Idealize.ShloMosaic.Lib.Pipeline.FrameBody
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (P : Dev nD → Dev nD → Vec F S1x64x1024 .f32)

theorem before_in0 (c : Dev nD) (t : Fin cfg0.N) (d) : (dats m P 0 c).before 0 t d = Gen.iblk m c 0 t :=
  ((dats m P 0 c).before_in_eq_fetched 0 rfl (fun _ => rfl) (fun _ _ _ => rfl) (fun t => by unfold Dat.blockOf; first | rfl | (simp only [dats]; unfold Gen.iblk; rfl)) t d).trans
    (by unfold Dat.fetched Dat.blockOf Gen.iblk; rfl)
theorem before_in1 (c : Dev nD) (t : Fin cfg0.N) (d) : (dats m P 0 c).before 1 t d = Gen.iblk m c 1 t :=
  ((dats m P 0 c).before_in_eq_fetched 1 rfl (fun _ => rfl) (fun _ _ _ => rfl) (fun t => by unfold Dat.blockOf; first | rfl | (simp only [dats]; unfold Gen.iblk; rfl)) t d).trans
    (by unfold Dat.fetched Dat.blockOf Gen.iblk; rfl)
theorem before_in2 (c : Dev nD) (t : Fin cfg0.N) (d) : (dats m P 0 c).before 2 t d = Gen.iblk m c 2 t :=
  ((dats m P 0 c).before_in_eq_fetched 2 rfl (fun _ => rfl) (fun _ _ _ => rfl) (fun t => by unfold Dat.blockOf; first | rfl | (simp only [dats]; unfold Gen.iblk; rfl)) t d).trans
    (by unfold Dat.fetched Dat.blockOf Gen.iblk; rfl)

end Cert.KernelIdeal.Hand

end
-- ==== Proof.PostIntro.lean ====
import proofs.«900750_g7700000000000751_dist_attn_cross_gqa_kvrep_htp_b1_sq512_skv2048_d1024_hq8_dh128_v7x_i8_bf16_1_alg».proof.Proof.Close
import proofs.«900750_g7700000000000751_dist_attn_cross_gqa_kvrep_htp_b1_sq512_skv2048_d1024_hq8_dh128_v7x_i8_bf16_1_alg».proof.Proof.BeforeIn
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (P : Dev nD → Dev nD → Vec F S1x64x1024 .f32)

theorem post_intro (K : Dev nD × Fin 29 → ℕ) (c : Dev nD) (W : Waits sig Unit) :
    iprop(invs P K c ∗ at1 c ∗ locals0 c ∗ scratch11 c ∗ kvPts m c ∗ owes (c : Thread nD τ) (0 : CellTallies nD τ sig Unit) W
      ∗ stg c cc0_stg0_0 (Gen.iblk m c 0 t₀) ∗ stg c cc0_stg1_0 (Gen.iblk m c 1 t₀) ∗ stg c cc0_stg2_0 (Gen.iblk m c 2 t₀) ∗ stg c cc0_stg3_0 (outFin P c))
      ⊢ (|={Set.univ}=> bodyPost m P c : sProp 𝕄) := by
  iintro ⟨#HI, Hat, Hloc, Hscr, Hkv, HO, Hx, Hwq, Hwo, Hout⟩
  imod (close28 P K c) $$ [Hat] with Hz
  · isplitr; · iexact HI
    iexact Hat
  imodintro
  ihave H32 := (own32_intro (F := F) c) $$ [Hloc Hz]
  · isplitl [Hloc] <;> iassumption
  unfold bodyPost Φ₁
  isplitl [Hscr H32 Hkv]
  · isplitl [Hscr]; · iexact Hscr
    isplitl [H32]; · iexact H32
    iexact Hkv
  isplitl [HO]
  · iexists W
    isplitr; · ipureintro; exact fun _ _ => Or.inl trivial
    iexact HO
  isplitl [Hx]; · iexact Hx
  isplitl [Hwq]; · iexact Hwq
  isplitl [Hwo]; · iexact Hwo
  iexact Hout

end Cert.KernelIdeal.Hand

end
-- ==== Proof.Pt.lean ====
import proofs.«900750_g7700000000000751_dist_attn_cross_gqa_kvrep_htp_b1_sq512_skv2048_d1024_hq8_dh128_v7x_i8_bf16_1_alg».proof.Proof.Alg
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

abbrev Bf (c : Dev nD) {sp : Space} {S : Shape} {e : EltTy} (M : Memref sig .tc sp S e) : Type := Buf (Elt F) (M.view.loc (c : Thread nD τ))

abbrev pt (c : Dev nD) {sp : Space} {S : Shape} {e : EltTy} (M : Memref sig .tc sp S e) (f : Bf (F := F) c M) : sProp 𝕄 :=
  M.view.loc (c : Thread nD τ) ↦{fullShare} f

end Cert.KernelIdeal.Hand

end
-- ==== Proof.Finish.lean ====
import proofs.«900750_g7700000000000751_dist_attn_cross_gqa_kvrep_htp_b1_sq512_skv2048_d1024_hq8_dh128_v7x_i8_bf16_1_alg».proof.Proof.PostIntro
import proofs.«900750_g7700000000000751_dist_attn_cross_gqa_kvrep_htp_b1_sq512_skv2048_d1024_hq8_dh128_v7x_i8_bf16_1_alg».proof.Proof.SlotSplit
import proofs.«900750_g7700000000000751_dist_attn_cross_gqa_kvrep_htp_b1_sq512_skv2048_d1024_hq8_dh128_v7x_i8_bf16_1_alg».proof.Proof.Pt
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (P : Dev nD → Dev nD → Vec F S1x64x1024 .f32)

theorem finish (K : Dev nD × Fin 29 → ℕ) (c : Dev nD) (W : Waits sig Unit)
    (f0 : Bf (F := F) c kvM) (f1 : Bf (F := F) c wqbM) (f2 : Bf (F := F) c wobM) (f3 : Bf (F := F) c kvbM) (f4 : Bf (F := F) c qM)
    (f6 : Bf (F := F) c rstageM) (f8 : Bf (F := F) c lstageM) (f9 : Bf (F := F) c ownM)
    (g0 : Bf (F := F) c xM) (g1 : Bf (F := F) c wqM) (g2 : Bf (F := F) c woM) (d0) (d1) (d2)
    (hg0 : g0 = (dats m P 0 c).before 0 t₀ d0) (hg1 : g1 = (dats m P 0 c).before 1 t₀ d1) (hg2 : g2 = (dats m P 0 c).before 2 t₀ d2) :
    iprop(invs P K c ∗ at1 c ∗ locals0 c
      ∗ pt c kvM f0 ∗ pt c wqbM f1 ∗ pt c wobM f2 ∗ pt c kvbM f3 ∗ pt c qM f4
      ∗ (rlandPt 0 c (rlandBuf P c) ∗ rlandPt 1 c (rlandBuf P c) ∗ rlandPt 2 c (rlandBuf P c) ∗ rlandPt 3 c (rlandBuf P c))
      ∗ pt c rstageM f6
      ∗ (llandPt 0 c (llandBuf P c) ∗ llandPt 1 c (llandBuf P c) ∗ llandPt 2 c (llandBuf P c))
      ∗ pt c lstageM f8 ∗ pt c ownM f9
      ∗ (aglandPt 0 c (aglandBuf P c) ∗ aglandPt 1 c (aglandBuf P c) ∗ aglandPt 2 c (aglandBuf P c) ∗ aglandPt 3 c (aglandBuf P c) ∗ aglandPt 4 c (aglandBuf P c) ∗ aglandPt 5 c (aglandBuf P c) ∗ aglandPt 6 c (aglandBuf P c))
      ∗ pt c kM (m ((c : Thread nD τ).loc main_arg3)) ∗ pt c vM (m ((c : Thread nD τ).loc main_arg4))
      ∗ owes (c : Thread nD τ) (owe 16 c) W
      ∗ pt c xM g0 ∗ pt c wqM g1 ∗ pt c woM g2 ∗ pt c outM (outFin P c))
      ⊢ (|={Set.univ}=> bodyPost m P c : sProp 𝕄) := by
  subst hg0 hg1 hg2
  iintro ⟨#HI, Hat, Hloc, H0, H1, H2, H3, H4, ⟨R0, R1, R2, R3⟩, H6, ⟨L0, L1, L2⟩, H8, H9, ⟨A0, A1, A2, A3, A4, A5, A6⟩, Hk, Hv, HO, Hx, Hwq, Hwo, Hout⟩
  ihave H5 := (rland_join (F := F) c (rlandBuf P c)) $$ [R0 R1 R2 R3]
  ·
    isplitl [R0]; · iexact R0
    isplitl [R1]; · iexact R1
    isplitl [R2]; · iexact R2
    iexact R3
  ihave H7 := (lland_join (F := F) c (llandBuf P c)) $$ [L0 L1 L2]
  ·
    isplitl [L0]; · iexact L0
    isplitl [L1]; · iexact L1
    iexact L2
  ihave H10 := (agland_join (F := F) c (aglandBuf P c)) $$ [A0 A1 A2 A3 A4 A5 A6]
  ·
    isplitl [A0]; · iexact A0
    isplitl [A1]; · iexact A1
    isplitl [A2]; · iexact A2
    isplitl [A3]; · iexact A3
    isplitl [A4]; · iexact A4
    isplitl [A5]; · iexact A5
    iexact A6
  iapply (post_intro m P K c W)
  isplitr; · iexact HI
  isplitl [Hat]; · iexact Hat
  isplitl [Hloc]; · iexact Hloc
  isplitl [H0 H1 H2 H3 H4 H5 H6 H7 H8 H9 H10]
  · unfold scratch11
    isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists (rlandBuf P c); iexact H5
    isplitl [H6]; · iexists f6; iexact H6
    isplitl [H7]; · iexists (llandBuf P c); iexact H7
    isplitl [H8]; · iexists f8; iexact H8
    isplitl [H9]; · iexists f9; iexact H9
    iexists (aglandBuf P c); iexact H10
  isplitl [Hk Hv]
  · unfold kvPts
    isplitl [Hk]; · iexact Hk
    iexact Hv
  isplitl [HO]; · iexact HO
  isplitl [Hx]
  · iexists _; isplitr; · (ipureintro; exact before_in0 m P c t₀ d0)
    iexact Hx
  isplitl [Hwq]
  · iexists _; isplitr; · (ipureintro; exact before_in1 m P c t₀ d1)
    iexact Hwq
  isplitl [Hwo]
  · iexists _; isplitr; · (ipureintro; exact before_in2 m P c t₀ d2)
    iexact Hwo
  iexists _; isplitr; · (ipureintro; rfl)
  iexact Hout

end Cert.KernelIdeal.Hand

end
-- ==== Proof.Chunk.lean ====
import proofs.«900750_g7700000000000751_dist_attn_cross_gqa_kvrep_htp_b1_sq512_skv2048_d1024_hq8_dh128_v7x_i8_bf16_1_alg».proof.Proof.Gen.KernelIdeal.Skeleton

noncomputable section

namespace Cert.KernelIdeal.Hand

open Cert.KernelIdeal Cert.KernelIdeal.Gen Idealize.ShloMosaic Idealize.ShloMosaic.TcCoe

variable {F : FTy → Type} [FloatOps F]

def chunkF (qb : Vec F S64x1024 .bf16) (k0 v0 k1 v1 : Vec F S1x1x2048x128 .bf16) (wo : Vec F S1024x1024 .bf16) :
    FVec F S1x64x1024 .f32 :=
  k0_pay9 (k0_pay7 (k0_pay6 qb) k0 v0) (k0_pay8 qb k1 v1) wo

def qs0 (qb : Vec F S64x1024 .bf16) : FVec F S256x128 .bf16 := k0_pay6 qb

def qs1 (qb : Vec F S64x1024 .bf16) : FVec F S256x128 .bf16 := k0_pay33 qb

def core (qs : FVec F S256x128 .bf16) (k v : Vec F S1x1x2048x128 .bf16) : FVec F S64x512 .bf16 := k0_pay7 qs k v

def joined (a0 a1 : FVec F S64x512 .bf16) : FVec F S64x1024 .bf16 :=
  concatenate S64x1024 1 [⟨S64x512, a0⟩, ⟨S64x512, a1⟩] concatenates_S64x512_S64x512_S64x1024_d1

def fin (a : FVec F S64x1024 .bf16) (wo : Vec F S1024x1024 .bf16) : FVec F S1x64x1024 .f32 := k0_pay38 a wo

variable (qb : Vec F S64x1024 .bf16) (k0 v0 k1 v1 : Vec F S1x1x2048x128 .bf16) (wo : Vec F S1024x1024 .bf16)

theorem chunkF_eq :
    chunkF qb k0 v0 k1 v1 wo = fin (joined (core (qs0 qb) k0 v0) (core (qs1 qb) k1 v1)) wo := rfl

end Cert.KernelIdeal.Hand

end
-- ==== Proof.Partial.lean ====
import proofs.«900750_g7700000000000751_dist_attn_cross_gqa_kvrep_htp_b1_sq512_skv2048_d1024_hq8_dh128_v7x_i8_bf16_1_alg».proof.Proof.Chunk
import proofs.«900750_g7700000000000751_dist_attn_cross_gqa_kvrep_htp_b1_sq512_skv2048_d1024_hq8_dh128_v7x_i8_bf16_1_alg».proof.Proof.Contents

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

abbrev xA (c : Dev nD) : Vec F S1x512x1024 .f32 := m ((c : Thread nD τ).loc main_arg0)
abbrev wqA (c : Dev nD) : Vec F S1024x1024 .f32 := m ((c : Thread nD τ).loc main_arg1)
abbrev woA (c : Dev nD) : Vec F S1024x1024 .f32 := m ((c : Thread nD τ).loc main_arg2)
abbrev kA (c : Dev nD) : Vec F S1x2048x16x128 .f32 := m ((c : Thread nD τ).loc main_arg3)
abbrev vA (c : Dev nD) : Vec F S1x2048x16x128 .f32 := m ((c : Thread nD τ).loc main_arg4)

def wqb (c : Dev nD) : FVec F S1024x1024 .bf16 := k0_pay2 (wqA m c)
def wob (c : Dev nD) : FVec F S1024x1024 .bf16 := k0_pay3 (woA m c)

def kvv (c : Dev nD) : Vec F S2x2x2048x128 .f32 := fun i =>
  (if (i 0).val = 0 then kA m c else vA m c)
    (ix4 (0 : Fin 1) (⟨(i 2).val, (i 2).isLt⟩ : Fin 2048) (⟨2 * c.val + (i 1).val, by have hc : c.val < 8 := c.isLt; have hi : (i 1).val < 2 := (i 1).isLt; omega⟩ : Fin 16) (⟨(i 3).val, (i 3).isLt⟩ : Fin 128))

def kvb (c : Dev nD) : FVec F S2x2x2048x128 .bf16 := k0_pay4 (kvv m c)

def kvblk (c : Dev nD) (t h : Fin 2) : Vec F S1x1x2048x128 .bf16 := fun i =>
  kvb m c (ix4 t h (⟨(i 2).val, (i 2).isLt⟩ : Fin 2048) (⟨(i 3).val, (i 3).isLt⟩ : Fin 128))

def qall (c : Dev nD) : FVec F S512x1024 .bf16 := k0_pay5 (xA m c) (wqb m c)

def qrows (c j : Dev nD) : Vec F S64x1024 .bf16 := fun i =>
  qall m c (ix2 (⟨64 * j.val + (i 0).val, by have hj : j.val < 8 := j.isLt; have hi : (i 0).val < 64 := (i 0).isLt; omega⟩ : Fin 512) (⟨(i 1).val, (i 1).isLt⟩ : Fin 1024))

def Pc (c j : Dev nD) : Vec F S1x64x1024 .f32 :=
  chunkF (qrows m c j) (kvblk m c 0 0) (kvblk m c 1 0) (kvblk m c 0 1) (kvblk m c 1 1) (wob m c)

end Cert.KernelIdeal.Hand

end
-- ==== Proof.BodyLemmas.lean ====
import proofs.«900750_g7700000000000751_dist_attn_cross_gqa_kvrep_htp_b1_sq512_skv2048_d1024_hq8_dh128_v7x_i8_bf16_1_alg».proof.Proof.Sched
import proofs.«900750_g7700000000000751_dist_attn_cross_gqa_kvrep_htp_b1_sq512_skv2048_d1024_hq8_dh128_v7x_i8_bf16_1_alg».proof.Proof.SlotSplit

noncomputable section

namespace Cert.KernelIdeal.Hand

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section StageHelpers
omit [FloatOps F] in
theorem agP_of (e : Dev nD) (j : Fin 7) (f : Buf (Elt F) ((slot7 aglandM j).view.loc (e : Thread nD τ))) :
    ((slot7 aglandM j).view.loc (e : Thread nD τ) ↦[(slot7 aglandM j).view.set]{fullShare} f : sProp 𝕄) ⊢ agP (F := F) e j := by
  unfold agP slotP; iintro H; iexists f; iexact H

omit [FloatOps F] in

theorem rstage_open (c : Dev nD) (f : Vec F S4x64x1024 .bf16) :
    (rstageM.view.loc (c : Thread nD τ) ↦{fullShare} f : sProp 𝕄)
      ⊢ iprop(∃ g : Vec F S4x64x1024 .bf16, ⌜g = f⌝
          ∗ ((slot4 rstageM 0).view.loc (c : Thread nD τ) ↦[(slot4 rstageM 0).view.set]{fullShare} g) ∗ ((slot4 rstageM 1).view.loc (c : Thread nD τ) ↦[(slot4 rstageM 1).view.set]{fullShare} g)
          ∗ ((slot4 rstageM 2).view.loc (c : Thread nD τ) ↦[(slot4 rstageM 2).view.set]{fullShare} g) ∗ ((slot4 rstageM 3).view.loc (c : Thread nD τ) ↦[(slot4 rstageM 3).view.set]{fullShare} g)) := by
  iintro H
  ihave H := (Entails.of_eq (rstage_split (F := F) c f)) $$ H
  iexists f
  isplitr; · ipureintro; rfl
  iexact H
omit [FloatOps F] in
theorem rstage_close (c : Dev nD) (g : Vec F S4x64x1024 .bf16) :
    iprop(((slot4 rstageM 0).view.loc (c : Thread nD τ) ↦[(slot4 rstageM 0).view.set]{fullShare} g) ∗ ((slot4 rstageM 1).view.loc (c : Thread nD τ) ↦[(slot4 rstageM 1).view.set]{fullShare} g)
          ∗ ((slot4 rstageM 2).view.loc (c : Thread nD τ) ↦[(slot4 rstageM 2).view.set]{fullShare} g) ∗ ((slot4 rstageM 3).view.loc (c : Thread nD τ) ↦[(slot4 rstageM 3).view.set]{fullShare} g))
      ⊢ (rstageM.view.loc (c : Thread nD τ) ↦{fullShare} g : sProp 𝕄) := rstage_join (F := F) c g
omit [FloatOps F] in
theorem lstage_open (c : Dev nD) (f : Vec F S3x64x1024 .bf16) :
    (lstageM.view.loc (c : Thread nD τ) ↦{fullShare} f : sProp 𝕄)
      ⊢ iprop(∃ g : Vec F S3x64x1024 .bf16, ⌜g = f⌝
          ∗ ((slot3 lstageM 0).view.loc (c : Thread nD τ) ↦[(slot3 lstageM 0).view.set]{fullShare} g) ∗ ((slot3 lstageM 1).view.loc (c : Thread nD τ) ↦[(slot3 lstageM 1).view.set]{fullShare} g) ∗ ((slot3 lstageM 2).view.loc (c : Thread nD τ) ↦[(slot3 lstageM 2).view.set]{fullShare} g)) := by
  iintro H
  ihave H := (Entails.of_eq (lstage_split (F := F) c f)) $$ H
  iexists f
  isplitr; · ipureintro; rfl
  iexact H
omit [FloatOps F] in
theorem lstage_close (c : Dev nD) (g : Vec F S3x64x1024 .bf16) :
    iprop(((slot3 lstageM 0).view.loc (c : Thread nD τ) ↦[(slot3 lstageM 0).view.set]{fullShare} g) ∗ ((slot3 lstageM 1).view.loc (c : Thread nD τ) ↦[(slot3 lstageM 1).view.set]{fullShare} g) ∗ ((slot3 lstageM 2).view.loc (c : Thread nD τ) ↦[(slot3 lstageM 2).view.set]{fullShare} g))
      ⊢ (lstageM.view.loc (c : Thread nD τ) ↦{fullShare} g : sProp 𝕄) := lstage_join (F := F) c g
end StageHelpers

section OwnHelpers
theorem own_open (c : Dev nD) (f : FVec F S64x1024 .bf16) :
    ((ownM : Memref sig .tc .vmem S64x1024 .bf16).view.loc (c : Thread nD τ) ↦{fullShare} f : sProp 𝕄)
      ⊢ iprop(∃ g : FVec F S64x1024 .bf16, ⌜g = f⌝
          ∗ ((ownM : Memref sig .tc .vmem S64x1024 .bf16).view.loc (c : Thread nD τ) ↦[(ownM : Memref sig .tc .vmem S64x1024 .bf16).view.set]{agRest} g)
          ∗ ((ownM : Memref sig .tc .vmem S64x1024 .bf16).view.loc (c : Thread nD τ) ↦[(ownM : Memref sig .tc .vmem S64x1024 .bf16).view.set]{agShare 0} g)
          ∗ ((ownM : Memref sig .tc .vmem S64x1024 .bf16).view.loc (c : Thread nD τ) ↦[(ownM : Memref sig .tc .vmem S64x1024 .bf16).view.set]{agShare 1} g)
          ∗ ((ownM : Memref sig .tc .vmem S64x1024 .bf16).view.loc (c : Thread nD τ) ↦[(ownM : Memref sig .tc .vmem S64x1024 .bf16).view.set]{agShare 2} g)
          ∗ ((ownM : Memref sig .tc .vmem S64x1024 .bf16).view.loc (c : Thread nD τ) ↦[(ownM : Memref sig .tc .vmem S64x1024 .bf16).view.set]{agShare 3} g)
          ∗ ((ownM : Memref sig .tc .vmem S64x1024 .bf16).view.loc (c : Thread nD τ) ↦[(ownM : Memref sig .tc .vmem S64x1024 .bf16).view.set]{agShare 4} g)
          ∗ ((ownM : Memref sig .tc .vmem S64x1024 .bf16).view.loc (c : Thread nD τ) ↦[(ownM : Memref sig .tc .vmem S64x1024 .bf16).view.set]{agShare 5} g)
          ∗ ((ownM : Memref sig .tc .vmem S64x1024 .bf16).view.loc (c : Thread nD τ) ↦[(ownM : Memref sig .tc .vmem S64x1024 .bf16).view.set]{agShare 6} g)) := by
  have e : (ownM : Memref sig .tc .vmem S64x1024 .bf16).view.set = Finset.univ := View.set_whole _
  iintro H
  ihave H := (Entails.of_eq (show ((ownM : Memref sig .tc .vmem S64x1024 .bf16).view.loc (c : Thread nD τ) ↦{fullShare} f : sProp 𝕄)
      = ((ownM : Memref sig .tc .vmem S64x1024 .bf16).view.loc (c : Thread nD τ) ↦[(ownM : Memref sig .tc .vmem S64x1024 .bf16).view.set]{fullShare} f) from by rw [e])) $$ H
  ihave H := ((own_shares7 (F := F) c f).1) $$ H
  iexists f
  isplitr; · ipureintro; rfl
  iexact H
theorem own_close (c : Dev nD) (g : FVec F S64x1024 .bf16) :
    iprop(((ownM : Memref sig .tc .vmem S64x1024 .bf16).view.loc (c : Thread nD τ) ↦[(ownM : Memref sig .tc .vmem S64x1024 .bf16).view.set]{agRest} g)
          ∗ ((ownM : Memref sig .tc .vmem S64x1024 .bf16).view.loc (c : Thread nD τ) ↦[(ownM : Memref sig .tc .vmem S64x1024 .bf16).view.set]{agShare 0} g)
          ∗ ((ownM : Memref sig .tc .vmem S64x1024 .bf16).view.loc (c : Thread nD τ) ↦[(ownM : Memref sig .tc .vmem S64x1024 .bf16).view.set]{agShare 1} g)
          ∗ ((ownM : Memref sig .tc .vmem S64x1024 .bf16).view.loc (c : Thread nD τ) ↦[(ownM : Memref sig .tc .vmem S64x1024 .bf16).view.set]{agShare 2} g)
          ∗ ((ownM : Memref sig .tc .vmem S64x1024 .bf16).view.loc (c : Thread nD τ) ↦[(ownM : Memref sig .tc .vmem S64x1024 .bf16).view.set]{agShare 3} g)
          ∗ ((ownM : Memref sig .tc .vmem S64x1024 .bf16).view.loc (c : Thread nD τ) ↦[(ownM : Memref sig .tc .vmem S64x1024 .bf16).view.set]{agShare 4} g)
          ∗ ((ownM : Memref sig .tc .vmem S64x1024 .bf16).view.loc (c : Thread nD τ) ↦[(ownM : Memref sig .tc .vmem S64x1024 .bf16).view.set]{agShare 5} g)
          ∗ ((ownM : Memref sig .tc .vmem S64x1024 .bf16).view.loc (c : Thread nD τ) ↦[(ownM : Memref sig .tc .vmem S64x1024 .bf16).view.set]{agShare 6} g))
      ⊢ ((ownM : Memref sig .tc .vmem S64x1024 .bf16).view.loc (c : Thread nD τ) ↦{fullShare} g : sProp 𝕄) := by
  have e : (ownM : Memref sig .tc .vmem S64x1024 .bf16).view.set = Finset.univ := View.set_whole _
  iintro H
  ihave H := ((own_shares7 (F := F) c g).2) $$ H
  iapply (Entails.of_eq (show ((ownM : Memref sig .tc .vmem S64x1024 .bf16).view.loc (c : Thread nD τ) ↦[(ownM : Memref sig .tc .vmem S64x1024 .bf16).view.set]{fullShare} g)
      = ((ownM : Memref sig .tc .vmem S64x1024 .bf16).view.loc (c : Thread nD τ) ↦{fullShare} g : sProp 𝕄) from by rw [e]))
  iexact H
end OwnHelpers

end Cert.KernelIdeal.Hand

end
-- ==== Proof.LoadValues.lean ====
import proofs.«900750_g7700000000000751_dist_attn_cross_gqa_kvrep_htp_b1_sq512_skv2048_d1024_hq8_dh128_v7x_i8_bf16_1_alg».proof.Proof.Contents
import proofs.«900750_g7700000000000751_dist_attn_cross_gqa_kvrep_htp_b1_sq512_skv2048_d1024_hq8_dh128_v7x_i8_bf16_1_alg».proof.Proof.Slots
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

theorem blk_congr {β : Type} {n : ℕ} {S : Shape} (G : Fin n → S.Idx → β) (a a' : Fin n) (x x' : S.Idx)
    (ha : a.val = a'.val) (hx : ∀ d, (x d : ℕ) = x' d) : G a x = G a' x' := by
  have e : a = a' := Fin.ext ha
  subst e
  have e' : x = x' := funext fun d => Fin.ext (hx d)
  subst e'
  rfl

theorem read_block {β : Type} {n : ℕ} (G : Fin n → S1x64x1024.Idx → β) (k : ℕ) (hk : k < n)
    (inb : ∀ a, (![k, 0, 0] : Fin 3 → ℕ) a + (![1, 64, 1024] : Fin 3 → ℕ) a ≤ (⟨3, ![n, 64, 1024]⟩ : Shape).size a)
    (j : S1x64x1024.Idx) :
    (fun i : (⟨3, ![n, 64, 1024]⟩ : Shape).Idx =>
        G ⟨(i 0).val, (i 0).isLt⟩ (ix3 (0 : Fin 1) (⟨(i 1).val, (i 1).isLt⟩ : Fin 64) (⟨(i 2).val, (i 2).isLt⟩ : Fin 1024)))
      ((Rect.unit (s := ⟨3, ![n, 64, 1024]⟩) ![k, 0, 0] ![1, 64, 1024] inb).toLoadRect.idx j) = G ⟨k, hk⟩ j := by
  have h0 : (j 0 : ℕ) = 0 := by have h : (j 0 : ℕ) < 1 := (j 0).isLt; omega
  refine blk_congr G _ _ _ _ (by show k + 1 * (j 0 : ℕ) = k; omega) fun d => ?_
  match d with
  | ⟨0, _⟩ => show (0 : ℕ) = (j 0 : ℕ); omega
  | ⟨1, _⟩ => show 0 + 1 * (j 1 : ℕ) = (j 1 : ℕ); omega
  | ⟨2, _⟩ => show 0 + 1 * (j 2 : ℕ) = (j 2 : ℕ); omega

theorem read_block2 {β : Type} {n : ℕ} (G : ℕ → S64x1024.Idx → β) (k : ℕ)
    (inb : ∀ a, (![k, 0, 0] : Fin 3 → ℕ) a + (![1, 64, 1024] : Fin 3 → ℕ) a ≤ (⟨3, ![n, 64, 1024]⟩ : Shape).size a)
    (j : S1x64x1024.Idx) :
    (fun i : (⟨3, ![n, 64, 1024]⟩ : Shape).Idx =>
        G (i 0).val (ix2 (⟨(i 1).val, (i 1).isLt⟩ : Fin 64) (⟨(i 2).val, (i 2).isLt⟩ : Fin 1024)))
      ((Rect.unit (s := ⟨3, ![n, 64, 1024]⟩) ![k, 0, 0] ![1, 64, 1024] inb).toLoadRect.idx j)
      = shapeCast S1x64x1024 (G k) shapeCasts_S64x1024_S1x64x1024 j := by
  have h0 : (j 0 : ℕ) = 0 := by have h : (j 0 : ℕ) < 1 := (j 0).isLt; omega
  have hR : shapeCast S1x64x1024 (G k) shapeCasts_S64x1024_S1x64x1024 j = G k (ix2 (j 1) (j 2)) :=
    (congrArg (shapeCast S1x64x1024 (G k) shapeCasts_S64x1024_S1x64x1024) (eq_ix3 j)).trans
      (shapeCast_ab_1ab_apply (G k) shapeCasts_S64x1024_S1x64x1024 (j 0) (j 1) (j 2))
  refine Eq.trans ?_ hR.symm
  have hk : k + 1 * (j 0 : ℕ) = k := by omega
  show G (k + 1 * (j 0 : ℕ)) _ = G k _
  rw [hk]
  refine congrArg (G k) (funext fun d => ?_)
  match d with
  | ⟨0, _⟩ => exact Fin.ext (by show 0 + 1 * (j 1 : ℕ) = (j 1 : ℕ); omega)
  | ⟨1, _⟩ => exact Fin.ext (by show 0 + 1 * (j 2 : ℕ) = (j 2 : ℕ); omega)

section Ring
variable (P : Dev nD → Dev nD → Vec F S1x64x1024 .f32)

theorem read_rland0 (c : Dev nD) : rlandM.view.readAt (Elt F) (rect4 0).toLoadRect (rlandBuf P c) = rst0 P (sh 7 c) :=
  funext fun j => read_block (n := 4) (fun s => rst P s (sh 7 c)) 0 (by decide) _ j
theorem read_rland1 (c : Dev nD) : rlandM.view.readAt (Elt F) (rect4 1).toLoadRect (rlandBuf P c) = rst1 P (sh 7 c) :=
  funext fun j => read_block (n := 4) (fun s => rst P s (sh 7 c)) 1 (by decide) _ j
theorem read_rland2 (c : Dev nD) : rlandM.view.readAt (Elt F) (rect4 2).toLoadRect (rlandBuf P c) = rst2 P (sh 7 c) :=
  funext fun j => read_block (n := 4) (fun s => rst P s (sh 7 c)) 2 (by decide) _ j
theorem read_rland3 (c : Dev nD) : rlandM.view.readAt (Elt F) (rect4 3).toLoadRect (rlandBuf P c) = rst3 P (sh 7 c) :=
  funext fun j => read_block (n := 4) (fun s => rst P s (sh 7 c)) 3 (by decide) _ j

theorem read_lland0 (c : Dev nD) : llandM.view.readAt (Elt F) (rect3 0).toLoadRect (llandBuf P c) = lst0 P (sh 1 c) :=
  funext fun j => read_block (n := 3) (fun s => lst P s (sh 1 c)) 0 (by decide) _ j
theorem read_lland1 (c : Dev nD) : llandM.view.readAt (Elt F) (rect3 1).toLoadRect (llandBuf P c) = lst1 P (sh 1 c) :=
  funext fun j => read_block (n := 3) (fun s => lst P s (sh 1 c)) 1 (by decide) _ j
theorem read_lland2 (c : Dev nD) : llandM.view.readAt (Elt F) (rect3 2).toLoadRect (llandBuf P c) = lst2 P (sh 1 c) :=
  funext fun j => read_block (n := 3) (fun s => lst P s (sh 1 c)) 2 (by decide) _ j

theorem read_agland0 (c : Dev nD) : aglandM.view.readAt (Elt F) (rect7 0).toLoadRect (aglandBuf P c) = ownL P (sh 7 c) :=
  funext fun j => read_block2 (n := 7) (fun m => own P (sh (7 - m) c)) 0 _ j
theorem read_agland1 (c : Dev nD) : aglandM.view.readAt (Elt F) (rect7 1).toLoadRect (aglandBuf P c) = ownL P (sh 6 c) :=
  funext fun j => read_block2 (n := 7) (fun m => own P (sh (7 - m) c)) 1 _ j
theorem read_agland2 (c : Dev nD) : aglandM.view.readAt (Elt F) (rect7 2).toLoadRect (aglandBuf P c) = ownL P (sh 5 c) :=
  funext fun j => read_block2 (n := 7) (fun m => own P (sh (7 - m) c)) 2 _ j
theorem read_agland3 (c : Dev nD) : aglandM.view.readAt (Elt F) (rect7 3).toLoadRect (aglandBuf P c) = ownL P (sh 4 c) :=
  funext fun j => read_block2 (n := 7) (fun m => own P (sh (7 - m) c)) 3 _ j
theorem read_agland4 (c : Dev nD) : aglandM.view.readAt (Elt F) (rect7 4).toLoadRect (aglandBuf P c) = ownL P (sh 3 c) :=
  funext fun j => read_block2 (n := 7) (fun m => own P (sh (7 - m) c)) 4 _ j
theorem read_agland5 (c : Dev nD) : aglandM.view.readAt (Elt F) (rect7 5).toLoadRect (aglandBuf P c) = ownL P (sh 2 c) :=
  funext fun j => read_block2 (n := 7) (fun m => own P (sh (7 - m) c)) 5 _ j
theorem read_agland6 (c : Dev nD) : aglandM.view.readAt (Elt F) (rect7 6).toLoadRect (aglandBuf P c) = ownL P (sh 1 c) :=
  funext fun j => read_block2 (n := 7) (fun m => own P (sh (7 - m) c)) 6 _ j

end Ring

end Cert.KernelIdeal.Hand

end
-- ==== Proof.WritesHead.lean ====
import Idealize.ShloMosaic.Lib.Writes

namespace Cert.KernelIdeal.Hand

open Idealize.ShloMosaic

variable {sig : RefSig} {κ : Kind} {sp : Space} {s : Shape} {e : EltTy} {Val : EltTy → Type}

theorem readAt_writes_head (v : View sig κ sp s e) (f : v.ty.Contents Val) (r : Rect s) (w : r.shape.Idx → Val e)
    (L : List (View.Piece Val s e)) :
    v.readAt Val r.toLoadRect (v.writes Val f ((⟨r, w⟩ : View.Piece Val s e) :: L)) = w :=
  funext fun x => View.read_writes_cons_emb v f r w L x

end Cert.KernelIdeal.Hand
-- ==== Proof.GatValues.lean ====
import proofs.«900750_g7700000000000751_dist_attn_cross_gqa_kvrep_htp_b1_sq512_skv2048_d1024_hq8_dh128_v7x_i8_bf16_1_alg».proof.Proof.LoadValues

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (P : Dev nD → Dev nD → Vec F S1x64x1024 .f32)

theorem red_read (c : Dev nD) (x : Vec F S1x64x1024 .f32) (hx : x = P c c) :
    k0_pay41 (k0_pay40 x) (rlandM.view.readAt (Elt F) (rect4 3).toLoadRect (rlandBuf P c))
        (llandM.view.readAt (Elt F) (rect3 2).toLoadRect (llandBuf P c)) = red P c := by
  rw [read_rland3 P c, read_lland2 P c, hx]; rfl

theorem gat_read0 (c : Dev nD) : k0_pay43 (aglandM.view.readAt (Elt F) (rect7 0).toLoadRect (aglandBuf P c)) = gat P 0 c := by
  rw [read_agland0 P c]; rfl
theorem gat_read1 (c : Dev nD) : k0_pay44 (aglandM.view.readAt (Elt F) (rect7 1).toLoadRect (aglandBuf P c)) = gat P 1 c := by
  rw [read_agland1 P c]; rfl
theorem gat_read2 (c : Dev nD) : k0_pay46 (k0_pay45 (aglandM.view.readAt (Elt F) (rect7 2).toLoadRect (aglandBuf P c))) = gat P 2 c := by
  rw [read_agland2 P c]; rfl
theorem gat_read3 (c : Dev nD) : k0_pay47 (aglandM.view.readAt (Elt F) (rect7 3).toLoadRect (aglandBuf P c)) = gat P 3 c := by
  rw [read_agland3 P c]; rfl
theorem gat_read4 (c : Dev nD) : k0_pay48 (aglandM.view.readAt (Elt F) (rect7 4).toLoadRect (aglandBuf P c)) = gat P 4 c := by
  rw [read_agland4 P c]; rfl
theorem gat_read5 (c : Dev nD) : k0_pay49 (aglandM.view.readAt (Elt F) (rect7 5).toLoadRect (aglandBuf P c)) = gat P 5 c := by
  rw [read_agland5 P c]; rfl
theorem gat_read6 (c : Dev nD) : k0_pay1 (aglandM.view.readAt (Elt F) (rect7 6).toLoadRect (aglandBuf P c)) = gat P 6 c := by
  rw [read_agland6 P c]; rfl

end Cert.KernelIdeal.Hand

end
-- ==== Proof.EndValues.lean ====
import proofs.«900750_g7700000000000751_dist_attn_cross_gqa_kvrep_htp_b1_sq512_skv2048_d1024_hq8_dh128_v7x_i8_bf16_1_alg».proof.Proof.GatValues
import Idealize.ShloMosaic.Lib.Writes

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (P : Dev nD → Dev nD → Vec F S1x64x1024 .f32)

theorem hz2 : (![0, 0] : Fin 2 → Nat) = fun _ => 0 := funext fun a => by fin_cases a <;> rfl

theorem own_writes_whole (f w : (cc0_scratch9 : Ref sig .tc).ty.Contents (Elt F)) :
    (ownM : Memref sig .tc .vmem S64x1024 .bf16).view.writes (Elt F) f
      [⟨Rect.unit (s := S64x1024) ![0, 0] S64x1024.size inb_S64x1024_S64x1024_0_0, w⟩] = w := by
  rw [View.writes_singleton]
  exact Memref.write_access_unit_zero_univ (Elt F) cc0_scratch9 hz2 _ f w

theorem own_store (c : Dev nD) (f : (cc0_scratch9 : Ref sig .tc).ty.Contents (Elt F)) (v : Vec F S1x64x1024 .f32) (hv : v = red P c) :
    (ownM : Memref sig .tc .vmem S64x1024 .bf16).view.writes (Elt F) f
      [⟨Rect.unit (s := S64x1024) ![0, 0] S64x1024.size inb_S64x1024_S64x1024_0_0, k0_pay42 v⟩] = own P c := by
  rw [own_writes_whole, hv]; rfl

end Cert.KernelIdeal.Hand

end
-- ==== Proof.OutFinal.lean ====
import proofs.«900750_g7700000000000751_dist_attn_cross_gqa_kvrep_htp_b1_sq512_skv2048_d1024_hq8_dh128_v7x_i8_bf16_1_alg».proof.Proof.Contents
import Idealize.ShloMosaic.Lib.WritesUnit
import Idealize.ShloMosaic.Lib.ValueIdx
import Mathlib.Tactic.IntervalCases

noncomputable section

namespace Cert.KernelIdeal.Hand

open Cert.KernelIdeal Cert.KernelIdeal.Gen
open Idealize.ShloMosaic Idealize.ShloMosaic.TcCoe Idealize.ShloMosaic.ValueIdx

section General
variable {sg : RefSig} {κ : Kind} {sp : Space} {e : EltTy} {Val : EltTy → Type}
  (v : View sg κ sp S1x512x1024 e) (f : v.ty.Contents Val)

theorem read_chunk_hit {off : Fin 3 → ℕ} (inb : ∀ a, off a + S1x64x1024.size a ≤ S1x512x1024.size a)
    (w : S1x64x1024.Idx → Val e) (L : List (View.Piece Val S1x512x1024 e)) (j : ℕ) (hoff : off = ![0, 64 * j, 0])
    (a : Fin 1) (row : Fin 512) (n : Fin 1024) (hj : row.val / 64 = j) :
    v.read Val (v.writes Val f ((⟨Rect.unit off S1x64x1024.size inb, w⟩ : View.Piece Val S1x512x1024 e) :: L))
        (ix3 a row n)
      = w (ix3 (0 : Fin 1) (⟨row.val % 64, Nat.mod_lt _ (by decide)⟩ : Fin 64) n) := by
  refine View.read_writes_cons_unit_of_mem v f inb w L (ix3 a row n)
    (ix3 (0 : Fin 1) (⟨row.val % 64, Nat.mod_lt _ (by decide)⟩ : Fin 64) n) hoff fun ax => ?_
  match ax with
  | ⟨0, _⟩ => show a.val = 0 + 0; omega
  | ⟨1, _⟩ => show row.val = 64 * j + row.val % 64; omega
  | ⟨2, _⟩ => show n.val = 0 + n.val; omega

theorem read_chunk_miss {off : Fin 3 → ℕ} (inb : ∀ a, off a + S1x64x1024.size a ≤ S1x512x1024.size a)
    (w : S1x64x1024.Idx → Val e) (L : List (View.Piece Val S1x512x1024 e)) (j : ℕ) (hoff : off = ![0, 64 * j, 0])
    (a : Fin 1) (row : Fin 512) (n : Fin 1024) (hj : row.val / 64 ≠ j) :
    v.read Val (v.writes Val f ((⟨Rect.unit off S1x64x1024.size inb, w⟩ : View.Piece Val S1x512x1024 e) :: L))
        (ix3 a row n)
      = v.read Val (v.writes Val f L) (ix3 a row n) := by
  refine View.read_writes_cons_unit_of_not_mem v f inb w L (ix3 a row n) hoff 1 ?_
  show row.val < 64 * j ∨ 64 * j + 64 ≤ row.val
  omega

end General

variable {F : FTy → Type} [FloatOps F]

theorem out_final_at (P : Dev nD → Dev nD → Vec F S1x64x1024 .f32) (c : Dev nD) (g : (outM : Memref sig .tc .vmem S1x512x1024 .f32).view.ty.Contents (Elt F))
    (w1 w2 w3 w4 w5 w6 w7 w8 : Vec F S1x64x1024 .f32)
    (i1 : ∀ a, (k0_off3 c 4#32) a + S1x64x1024.size a ≤ S1x512x1024.size a)
    (i2 : ∀ a, (k0_off5 c 3#32) a + S1x64x1024.size a ≤ S1x512x1024.size a)
    (i3 : ∀ a, (k0_off3 c 3#32) a + S1x64x1024.size a ≤ S1x512x1024.size a)
    (i4 : ∀ a, (k0_off5 c 2#32) a + S1x64x1024.size a ≤ S1x512x1024.size a)
    (i5 : ∀ a, (k0_off3 c 2#32) a + S1x64x1024.size a ≤ S1x512x1024.size a)
    (i6 : ∀ a, (k0_off5 c 1#32) a + S1x64x1024.size a ≤ S1x512x1024.size a)
    (i7 : ∀ a, (k0_off3 c 1#32) a + S1x64x1024.size a ≤ S1x512x1024.size a)
    (i8 : ∀ a, (k0_off9 c) a + S1x64x1024.size a ≤ S1x512x1024.size a)
    (i9 : ∀ a, (k0_off9 c) a + S1x64x1024.size a ≤ S1x512x1024.size a)
    (i10 : ∀ a, (k0_off5 c 1#32) a + S1x64x1024.size a ≤ S1x512x1024.size a)
    (i11 : ∀ a, (k0_off5 c 2#32) a + S1x64x1024.size a ≤ S1x512x1024.size a)
    (i12 : ∀ a, (k0_off5 c 3#32) a + S1x64x1024.size a ≤ S1x512x1024.size a)
    (i13 : ∀ a, (k0_off5 c 4#32) a + S1x64x1024.size a ≤ S1x512x1024.size a)
    (i14 : ∀ a, (k0_off5 c 5#32) a + S1x64x1024.size a ≤ S1x512x1024.size a)
    (i15 : ∀ a, (k0_off5 c 6#32) a + S1x64x1024.size a ≤ S1x512x1024.size a)
    (i16 : ∀ a, (k0_off5 c 7#32) a + S1x64x1024.size a ≤ S1x512x1024.size a)
    (a : Fin 1) (row : Fin 512) (n : Fin 1024) (j : Dev nD) (hj : j.val = row.val / 64) :
    (outM : Memref sig .tc .vmem S1x512x1024 .f32).view.read (Elt F)
        ((outM : Memref sig .tc .vmem S1x512x1024 .f32).view.writes (Elt F) g
          ([⟨Rect.unit (k0_off5 c 7#32) S1x64x1024.size i16, gat P 6 c⟩,
           ⟨Rect.unit (k0_off5 c 6#32) S1x64x1024.size i15, gat P 5 c⟩,
           ⟨Rect.unit (k0_off5 c 5#32) S1x64x1024.size i14, gat P 4 c⟩,
           ⟨Rect.unit (k0_off5 c 4#32) S1x64x1024.size i13, gat P 3 c⟩,
           ⟨Rect.unit (k0_off5 c 3#32) S1x64x1024.size i12, gat P 2 c⟩,
           ⟨Rect.unit (k0_off5 c 2#32) S1x64x1024.size i11, gat P 1 c⟩,
           ⟨Rect.unit (k0_off5 c 1#32) S1x64x1024.size i10, gat P 0 c⟩,
           ⟨Rect.unit (k0_off9 c) S1x64x1024.size i9, red P c⟩,
           ⟨Rect.unit (k0_off9 c) S1x64x1024.size i8, w8⟩,
           ⟨Rect.unit (k0_off3 c 1#32) S1x64x1024.size i7, w7⟩,
           ⟨Rect.unit (k0_off5 c 1#32) S1x64x1024.size i6, w6⟩,
           ⟨Rect.unit (k0_off3 c 2#32) S1x64x1024.size i5, w5⟩,
           ⟨Rect.unit (k0_off5 c 2#32) S1x64x1024.size i4, w4⟩,
           ⟨Rect.unit (k0_off3 c 3#32) S1x64x1024.size i3, w3⟩,
           ⟨Rect.unit (k0_off5 c 3#32) S1x64x1024.size i2, w2⟩,
           ⟨Rect.unit (k0_off3 c 4#32) S1x64x1024.size i1, w1⟩]
           : List (View.Piece (Elt F) S1x512x1024 .f32)))
        (ix3 a row n)
      = finBlk P c j (ix3 (0 : Fin 1) (⟨row.val % 64, Nat.mod_lt _ (by decide)⟩ : Fin 64) n) := by
  have hc : c.val < 8 := c.isLt
  have hjl : j.val < 8 := j.isLt
  have hrow : row.val < 512 := row.isLt
  unfold finBlk
  have hlt : (c.val + 8 - j.val) % 8 < 8 := Nat.mod_lt _ (by decide)
  generalize hm : (c.val + 8 - j.val) % 8 = m at hlt
  interval_cases m
  ·
    refine (read_chunk_miss _ _ _ _ _ ((c.val + 15 - 6) % 8) (k0_off5_eq c ⟨6, by decide⟩) a row n (by omega)).trans ?_
    refine (read_chunk_miss _ _ _ _ _ ((c.val + 15 - 5) % 8) (k0_off5_eq c ⟨5, by decide⟩) a row n (by omega)).trans ?_
    refine (read_chunk_miss _ _ _ _ _ ((c.val + 15 - 4) % 8) (k0_off5_eq c ⟨4, by decide⟩) a row n (by omega)).trans ?_
    refine (read_chunk_miss _ _ _ _ _ ((c.val + 15 - 3) % 8) (k0_off5_eq c ⟨3, by decide⟩) a row n (by omega)).trans ?_
    refine (read_chunk_miss _ _ _ _ _ ((c.val + 15 - 2) % 8) (k0_off5_eq c ⟨2, by decide⟩) a row n (by omega)).trans ?_
    refine (read_chunk_miss _ _ _ _ _ ((c.val + 15 - 1) % 8) (k0_off5_eq c ⟨1, by decide⟩) a row n (by omega)).trans ?_
    refine (read_chunk_miss _ _ _ _ _ ((c.val + 15 - 0) % 8) (k0_off5_eq c ⟨0, by decide⟩) a row n (by omega)).trans ?_
    exact read_chunk_hit _ _ _ _ _ ((c.val + 16) % 8) (k0_off9_eq c) a row n (by omega)
  ·
    refine (read_chunk_miss _ _ _ _ _ ((c.val + 15 - 6) % 8) (k0_off5_eq c ⟨6, by decide⟩) a row n (by omega)).trans ?_
    refine (read_chunk_miss _ _ _ _ _ ((c.val + 15 - 5) % 8) (k0_off5_eq c ⟨5, by decide⟩) a row n (by omega)).trans ?_
    refine (read_chunk_miss _ _ _ _ _ ((c.val + 15 - 4) % 8) (k0_off5_eq c ⟨4, by decide⟩) a row n (by omega)).trans ?_
    refine (read_chunk_miss _ _ _ _ _ ((c.val + 15 - 3) % 8) (k0_off5_eq c ⟨3, by decide⟩) a row n (by omega)).trans ?_
    refine (read_chunk_miss _ _ _ _ _ ((c.val + 15 - 2) % 8) (k0_off5_eq c ⟨2, by decide⟩) a row n (by omega)).trans ?_
    refine (read_chunk_miss _ _ _ _ _ ((c.val + 15 - 1) % 8) (k0_off5_eq c ⟨1, by decide⟩) a row n (by omega)).trans ?_
    exact read_chunk_hit _ _ _ _ _ ((c.val + 15 - 0) % 8) (k0_off5_eq c ⟨0, by decide⟩) a row n (by omega)
  ·
    refine (read_chunk_miss _ _ _ _ _ ((c.val + 15 - 6) % 8) (k0_off5_eq c ⟨6, by decide⟩) a row n (by omega)).trans ?_
    refine (read_chunk_miss _ _ _ _ _ ((c.val + 15 - 5) % 8) (k0_off5_eq c ⟨5, by decide⟩) a row n (by omega)).trans ?_
    refine (read_chunk_miss _ _ _ _ _ ((c.val + 15 - 4) % 8) (k0_off5_eq c ⟨4, by decide⟩) a row n (by omega)).trans ?_
    refine (read_chunk_miss _ _ _ _ _ ((c.val + 15 - 3) % 8) (k0_off5_eq c ⟨3, by decide⟩) a row n (by omega)).trans ?_
    refine (read_chunk_miss _ _ _ _ _ ((c.val + 15 - 2) % 8) (k0_off5_eq c ⟨2, by decide⟩) a row n (by omega)).trans ?_
    exact read_chunk_hit _ _ _ _ _ ((c.val + 15 - 1) % 8) (k0_off5_eq c ⟨1, by decide⟩) a row n (by omega)
  ·
    refine (read_chunk_miss _ _ _ _ _ ((c.val + 15 - 6) % 8) (k0_off5_eq c ⟨6, by decide⟩) a row n (by omega)).trans ?_
    refine (read_chunk_miss _ _ _ _ _ ((c.val + 15 - 5) % 8) (k0_off5_eq c ⟨5, by decide⟩) a row n (by omega)).trans ?_
    refine (read_chunk_miss _ _ _ _ _ ((c.val + 15 - 4) % 8) (k0_off5_eq c ⟨4, by decide⟩) a row n (by omega)).trans ?_
    refine (read_chunk_miss _ _ _ _ _ ((c.val + 15 - 3) % 8) (k0_off5_eq c ⟨3, by decide⟩) a row n (by omega)).trans ?_
    exact read_chunk_hit _ _ _ _ _ ((c.val + 15 - 2) % 8) (k0_off5_eq c ⟨2, by decide⟩) a row n (by omega)
  ·
    refine (read_chunk_miss _ _ _ _ _ ((c.val + 15 - 6) % 8) (k0_off5_eq c ⟨6, by decide⟩) a row n (by omega)).trans ?_
    refine (read_chunk_miss _ _ _ _ _ ((c.val + 15 - 5) % 8) (k0_off5_eq c ⟨5, by decide⟩) a row n (by omega)).trans ?_
    refine (read_chunk_miss _ _ _ _ _ ((c.val + 15 - 4) % 8) (k0_off5_eq c ⟨4, by decide⟩) a row n (by omega)).trans ?_
    exact read_chunk_hit _ _ _ _ _ ((c.val + 15 - 3) % 8) (k0_off5_eq c ⟨3, by decide⟩) a row n (by omega)
  ·
    refine (read_chunk_miss _ _ _ _ _ ((c.val + 15 - 6) % 8) (k0_off5_eq c ⟨6, by decide⟩) a row n (by omega)).trans ?_
    refine (read_chunk_miss _ _ _ _ _ ((c.val + 15 - 5) % 8) (k0_off5_eq c ⟨5, by decide⟩) a row n (by omega)).trans ?_
    exact read_chunk_hit _ _ _ _ _ ((c.val + 15 - 4) % 8) (k0_off5_eq c ⟨4, by decide⟩) a row n (by omega)
  ·
    refine (read_chunk_miss _ _ _ _ _ ((c.val + 15 - 6) % 8) (k0_off5_eq c ⟨6, by decide⟩) a row n (by omega)).trans ?_
    exact read_chunk_hit _ _ _ _ _ ((c.val + 15 - 5) % 8) (k0_off5_eq c ⟨5, by decide⟩) a row n (by omega)
  ·
    exact read_chunk_hit _ _ _ _ _ ((c.val + 15 - 6) % 8) (k0_off5_eq c ⟨6, by decide⟩) a row n (by omega)

theorem out_final (P : Dev nD → Dev nD → Vec F S1x64x1024 .f32) (c : Dev nD) (g : (outM : Memref sig .tc .vmem S1x512x1024 .f32).view.ty.Contents (Elt F))
    (w1 w2 w3 w4 w5 w6 w7 w8 : Vec F S1x64x1024 .f32)
    (i1 : ∀ a, (k0_off3 c 4#32) a + S1x64x1024.size a ≤ S1x512x1024.size a)
    (i2 : ∀ a, (k0_off5 c 3#32) a + S1x64x1024.size a ≤ S1x512x1024.size a)
    (i3 : ∀ a, (k0_off3 c 3#32) a + S1x64x1024.size a ≤ S1x512x1024.size a)
    (i4 : ∀ a, (k0_off5 c 2#32) a + S1x64x1024.size a ≤ S1x512x1024.size a)
    (i5 : ∀ a, (k0_off3 c 2#32) a + S1x64x1024.size a ≤ S1x512x1024.size a)
    (i6 : ∀ a, (k0_off5 c 1#32) a + S1x64x1024.size a ≤ S1x512x1024.size a)
    (i7 : ∀ a, (k0_off3 c 1#32) a + S1x64x1024.size a ≤ S1x512x1024.size a)
    (i8 : ∀ a, (k0_off9 c) a + S1x64x1024.size a ≤ S1x512x1024.size a)
    (i9 : ∀ a, (k0_off9 c) a + S1x64x1024.size a ≤ S1x512x1024.size a)
    (i10 : ∀ a, (k0_off5 c 1#32) a + S1x64x1024.size a ≤ S1x512x1024.size a)
    (i11 : ∀ a, (k0_off5 c 2#32) a + S1x64x1024.size a ≤ S1x512x1024.size a)
    (i12 : ∀ a, (k0_off5 c 3#32) a + S1x64x1024.size a ≤ S1x512x1024.size a)
    (i13 : ∀ a, (k0_off5 c 4#32) a + S1x64x1024.size a ≤ S1x512x1024.size a)
    (i14 : ∀ a, (k0_off5 c 5#32) a + S1x64x1024.size a ≤ S1x512x1024.size a)
    (i15 : ∀ a, (k0_off5 c 6#32) a + S1x64x1024.size a ≤ S1x512x1024.size a)
    (i16 : ∀ a, (k0_off5 c 7#32) a + S1x64x1024.size a ≤ S1x512x1024.size a) :
    (outM : Memref sig .tc .vmem S1x512x1024 .f32).view.writes (Elt F) g
        ([⟨Rect.unit (k0_off5 c 7#32) S1x64x1024.size i16, gat P 6 c⟩,
         ⟨Rect.unit (k0_off5 c 6#32) S1x64x1024.size i15, gat P 5 c⟩,
         ⟨Rect.unit (k0_off5 c 5#32) S1x64x1024.size i14, gat P 4 c⟩,
         ⟨Rect.unit (k0_off5 c 4#32) S1x64x1024.size i13, gat P 3 c⟩,
         ⟨Rect.unit (k0_off5 c 3#32) S1x64x1024.size i12, gat P 2 c⟩,
         ⟨Rect.unit (k0_off5 c 2#32) S1x64x1024.size i11, gat P 1 c⟩,
         ⟨Rect.unit (k0_off5 c 1#32) S1x64x1024.size i10, gat P 0 c⟩,
         ⟨Rect.unit (k0_off9 c) S1x64x1024.size i9, red P c⟩,
         ⟨Rect.unit (k0_off9 c) S1x64x1024.size i8, w8⟩,
         ⟨Rect.unit (k0_off3 c 1#32) S1x64x1024.size i7, w7⟩,
         ⟨Rect.unit (k0_off5 c 1#32) S1x64x1024.size i6, w6⟩,
         ⟨Rect.unit (k0_off3 c 2#32) S1x64x1024.size i5, w5⟩,
         ⟨Rect.unit (k0_off5 c 2#32) S1x64x1024.size i4, w4⟩,
         ⟨Rect.unit (k0_off3 c 3#32) S1x64x1024.size i3, w3⟩,
         ⟨Rect.unit (k0_off5 c 3#32) S1x64x1024.size i2, w2⟩,
         ⟨Rect.unit (k0_off3 c 4#32) S1x64x1024.size i1, w1⟩]
         : List (View.Piece (Elt F) S1x512x1024 .f32))
      = outFin P c := by
  have hread : ∀ X : (outM : Memref sig .tc .vmem S1x512x1024 .f32).view.ty.Contents (Elt F),
      (outM : Memref sig .tc .vmem S1x512x1024 .f32).view.read (Elt F) X = X := fun _ => rfl
  refine (hread _).symm.trans ?_
  funext i
  obtain ⟨a, row, n, rfl⟩ : ∃ (a : Fin 1) (row : Fin 512) (n : Fin 1024), i = ix3 a row n :=
    ⟨i 0, i 1, i 2, eq_ix3 i⟩
  exact out_final_at P c g w1 w2 w3 w4 w5 w6 w7 w8 i1 i2 i3 i4 i5 i6 i7 i8 i9 i10 i11 i12 i13 i14 i15 i16 a row n ⟨row.val / 64, Nat.div_lt_of_lt_mul row.isLt⟩ rfl

end Cert.KernelIdeal.Hand

end
-- ==== Proof.KvValue.lean ====
import proofs.«900750_g7700000000000751_dist_attn_cross_gqa_kvrep_htp_b1_sq512_skv2048_d1024_hq8_dh128_v7x_i8_bf16_1_alg».proof.Proof.Slots
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

theorem reshape_dst (hn : S2048x128.numel = S1x1x2048x128.numel) (j : Fin 2048) (d : Fin 128) :
    Shape.reshapeEquiv hn (ix2 j d) = (ix4 (0 : Fin 1) (0 : Fin 1) j d : S1x1x2048x128.Idx) := by
  refine Shape.reshapeEquiv_eq_of_rowMajor hn ?_
  rw [Shape.rowMajor_val_four, Shape.rowMajor_val_two]
  show ((0 * 1 + 0) * 2048 + j.val) * 128 + d.val = j.val * 128 + d.val
  omega

theorem reshape_src (hn : S2048x128.numel = S1x2048x1x128.numel) (j : Fin 2048) (d : Fin 128) :
    Shape.reshapeEquiv hn (ix2 j d) = (ix4 (0 : Fin 1) j (0 : Fin 1) d : S1x2048x1x128.Idx) := by
  refine Shape.reshapeEquiv_eq_of_rowMajor hn ?_
  rw [Shape.rowMajor_val_four, Shape.rowMajor_val_two]
  show ((0 * 2048 + j.val) * 1 + 0) * 128 + d.val = j.val * 128 + d.val
  omega

theorem dst_emb (off : Fin 4 → Nat) (inb : ∀ a, off a + S1x1x2048x128.size a ≤ S2x2x2048x128.size a)
    (hr : ∀ a, (Rect.unit (s := S2x2x2048x128) off S1x1x2048x128.size inb).stride a = 1)
    (hsq : (Rect.unit (s := S2x2x2048x128) off S1x1x2048x128.size inb).shape.Squeezes S2048x128)
    (t h : Fin 2) (h0 : off 0 = t.val) (h1 : off 1 = h.val) (h2 : off 2 = 0) (h3 : off 3 = 0) (j : Fin 2048) (d : Fin 128) :
    ((kvM.slice (Rect.unit (s := S2x2x2048x128) off S1x1x2048x128.size inb) hr).squeeze S2048x128 hsq).view.emb (ix2 j d)
      = (ix4 t h j d : S2x2x2048x128.Idx) := by
  show (Rect.unit (s := S2x2x2048x128) off S1x1x2048x128.size inb).emb (Shape.reshapeEquiv hsq.numel_eq (ix2 j d)) = _
  rw [reshape_dst]
  funext a
  apply Fin.ext
  rw [Rect.emb_apply]
  match a with
  | ⟨0, _⟩ => show off 0 + 1 * 0 = t.val; omega
  | ⟨1, _⟩ => show off 1 + 1 * 0 = h.val; omega
  | ⟨2, _⟩ => show off 2 + 1 * j.val = j.val; omega
  | ⟨3, _⟩ => show off 3 + 1 * d.val = d.val; omega

theorem dst_not_mem (off : Fin 4 → Nat) (inb : ∀ a, off a + S1x1x2048x128.size a ≤ S2x2x2048x128.size a)
    (hr : ∀ a, (Rect.unit (s := S2x2x2048x128) off S1x1x2048x128.size inb).stride a = 1)
    (hsq : (Rect.unit (s := S2x2x2048x128) off S1x1x2048x128.size inb).shape.Squeezes S2048x128)
    (t h t' h' : Fin 2) (h0 : off 0 = t'.val) (h1 : off 1 = h'.val) (hne : t ≠ t' ∨ h ≠ h') (j : Fin 2048) (d : Fin 128) :
    (ix4 t h j d : S2x2x2048x128.Idx)
      ∉ ((kvM.slice (Rect.unit (s := S2x2x2048x128) off S1x1x2048x128.size inb) hr).squeeze S2048x128 hsq).view.set := by
  intro hm
  obtain ⟨y, hy⟩ := View.exists_emb_of_mem_set _ hm
  have b0 : ((Shape.reshapeEquiv hsq.numel_eq y) 0).val < 1 := ((Shape.reshapeEquiv hsq.numel_eq y) 0).isLt
  have b1 : ((Shape.reshapeEquiv hsq.numel_eq y) 1).val < 1 := ((Shape.reshapeEquiv hsq.numel_eq y) 1).isLt
  have e0 : off 0 + 1 * ((Shape.reshapeEquiv hsq.numel_eq y) 0).val = t.val :=
    congrArg (fun i : S2x2x2048x128.Idx => (i 0).val) hy
  have e1 : off 1 + 1 * ((Shape.reshapeEquiv hsq.numel_eq y) 1).val = h.val :=
    congrArg (fun i : S2x2x2048x128.Idx => (i 1).val) hy
  rcases hne with hne | hne
  · exact hne (Fin.ext (by omega))
  · exact hne (Fin.ext (by omega))

def kvHead (c : Dev nD) (h : Fin 2) : Fin 16 :=
  ⟨2 * c.val + h.val, by have hc : c.val < 8 := c.isLt; have := h.isLt; omega⟩

theorem srcK_read (off : Fin 4 → Nat) (inb : ∀ a, off a + S1x2048x1x128.size a ≤ S1x2048x16x128.size a)
    (hr : ∀ a, (Rect.unit (s := S1x2048x16x128) off S1x2048x1x128.size inb).stride a = 1)
    (hsq : (Rect.unit (s := S1x2048x16x128) off S1x2048x1x128.size inb).shape.Squeezes S2048x128)
    (g : Fin 16) (h0 : off 0 = 0) (h1 : off 1 = 0) (h2 : off 2 = g.val) (h3 : off 3 = 0)
    (f : Vec F S1x2048x16x128 .f32) (j : Fin 2048) (d : Fin 128) :
    ((kM.slice (Rect.unit (s := S1x2048x16x128) off S1x2048x1x128.size inb) hr).squeeze S2048x128 hsq).view.read (Elt F) f (ix2 j d)
      = f (ix4 0 j g d) := by
  have he : ((kM.slice (Rect.unit (s := S1x2048x16x128) off S1x2048x1x128.size inb) hr).squeeze S2048x128 hsq).view.emb (ix2 j d)
      = (ix4 (0 : Fin 1) j g d : S1x2048x16x128.Idx) := by
    show (Rect.unit (s := S1x2048x16x128) off S1x2048x1x128.size inb).emb (Shape.reshapeEquiv hsq.numel_eq (ix2 j d)) = _
    rw [reshape_src]
    funext a
    apply Fin.ext
    rw [Rect.emb_apply]
    match a with
    | ⟨0, _⟩ => show off 0 + 1 * 0 = 0; omega
    | ⟨1, _⟩ => show off 1 + 1 * j.val = j.val; omega
    | ⟨2, _⟩ => show off 2 + 1 * 0 = g.val; omega
    | ⟨3, _⟩ => show off 3 + 1 * d.val = d.val; omega
  rw [View.read_apply, he]
  rfl

theorem srcV_read (off : Fin 4 → Nat) (inb : ∀ a, off a + S1x2048x1x128.size a ≤ S1x2048x16x128.size a)
    (hr : ∀ a, (Rect.unit (s := S1x2048x16x128) off S1x2048x1x128.size inb).stride a = 1)
    (hsq : (Rect.unit (s := S1x2048x16x128) off S1x2048x1x128.size inb).shape.Squeezes S2048x128)
    (g : Fin 16) (h0 : off 0 = 0) (h1 : off 1 = 0) (h2 : off 2 = g.val) (h3 : off 3 = 0)
    (f : Vec F S1x2048x16x128 .f32) (j : Fin 2048) (d : Fin 128) :
    ((vM.slice (Rect.unit (s := S1x2048x16x128) off S1x2048x1x128.size inb) hr).squeeze S2048x128 hsq).view.read (Elt F) f (ix2 j d)
      = f (ix4 0 j g d) := by
  have he : ((vM.slice (Rect.unit (s := S1x2048x16x128) off S1x2048x1x128.size inb) hr).squeeze S2048x128 hsq).view.emb (ix2 j d)
      = (ix4 (0 : Fin 1) j g d : S1x2048x16x128.Idx) := by
    show (Rect.unit (s := S1x2048x16x128) off S1x2048x1x128.size inb).emb (Shape.reshapeEquiv hsq.numel_eq (ix2 j d)) = _
    rw [reshape_src]
    funext a
    apply Fin.ext
    rw [Rect.emb_apply]
    match a with
    | ⟨0, _⟩ => show off 0 + 1 * 0 = 0; omega
    | ⟨1, _⟩ => show off 1 + 1 * j.val = j.val; omega
    | ⟨2, _⟩ => show off 2 + 1 * 0 = g.val; omega
    | ⟨3, _⟩ => show off 3 + 1 * d.val = d.val; omega
  rw [View.read_apply, he]
  rfl

theorem off1_at (c : Dev nD) (h : Fin 2) :
    k0_off1 c (BitVec.ofNat 32 h.val) 0 = 0 ∧ k0_off1 c (BitVec.ofNat 32 h.val) 1 = 0
      ∧ k0_off1 c (BitVec.ofNat 32 h.val) 2 = (kvHead c h).val ∧ k0_off1 c (BitVec.ofNat 32 h.val) 3 = 0 := by
  rw [k0_off1_eq c h]
  exact ⟨rfl, rfl, rfl, rfl⟩

theorem fin2_cases (t : Fin 2) : t = 0 ∨ t = 1 := by revert t; decide

theorem write_dst_hit (off : Fin 4 → Nat) (inb : ∀ a, off a + S1x1x2048x128.size a ≤ S2x2x2048x128.size a)
    (hr : ∀ a, (Rect.unit (s := S2x2x2048x128) off S1x1x2048x128.size inb).stride a = 1)
    (hsq : (Rect.unit (s := S2x2x2048x128) off S1x1x2048x128.size inb).shape.Squeezes S2048x128)
    (t h : Fin 2) (h0 : off 0 = t.val) (h1 : off 1 = h.val) (h2 : off 2 = 0) (h3 : off 3 = 0)
    (g : Vec F S2x2x2048x128 .f32) (w : S2048x128.Idx → Elt F .f32) (j : Fin 2048) (d : Fin 128) :
    View.write (Elt F) ((kvM.slice (Rect.unit (s := S2x2x2048x128) off S1x1x2048x128.size inb) hr).squeeze S2048x128 hsq).view
      g w Finset.univ (ix4 t h j d) = w (ix2 j d) := by
  have e := View.write_emb_of_mem
    (v := ((kvM.slice (Rect.unit (s := S2x2x2048x128) off S1x1x2048x128.size inb) hr).squeeze S2048x128 hsq).view)
    (Val := Elt F) g w (M := Finset.univ) (x := ix2 j d) (Finset.mem_univ _)
  rw [dst_emb off inb hr hsq t h h0 h1 h2 h3 j d] at e
  exact e

theorem write_dst_miss (off : Fin 4 → Nat) (inb : ∀ a, off a + S1x1x2048x128.size a ≤ S2x2x2048x128.size a)
    (hr : ∀ a, (Rect.unit (s := S2x2x2048x128) off S1x1x2048x128.size inb).stride a = 1)
    (hsq : (Rect.unit (s := S2x2x2048x128) off S1x1x2048x128.size inb).shape.Squeezes S2048x128)
    (t h t' h' : Fin 2) (h0 : off 0 = t'.val) (h1 : off 1 = h'.val) (hne : t ≠ t' ∨ h ≠ h')
    (g : Vec F S2x2x2048x128 .f32) (w : S2048x128.Idx → Elt F .f32) (j : Fin 2048) (d : Fin 128) :
    View.write (Elt F) ((kvM.slice (Rect.unit (s := S2x2x2048x128) off S1x1x2048x128.size inb) hr).squeeze S2048x128 hsq).view
      g w Finset.univ (ix4 t h j d) = g (ix4 t h j d) :=
  View.write_of_not_mem (v := ((kvM.slice (Rect.unit (s := S2x2x2048x128) off S1x1x2048x128.size inb) hr).squeeze S2048x128 hsq).view)
    (Val := Elt F) g w Finset.univ (i := ix4 t h j d)
    (by rw [View.setOn_univ]; exact dst_not_mem off inb hr hsq t h t' h' h0 h1 hne j d)

def kvOf (c : Dev nD) (fk fv : Vec F S1x2048x16x128 .f32) (f0 : Vec F S2x2x2048x128 .f32) : Vec F S2x2x2048x128 .f32 :=
  View.write (Elt F) ((kvM.slice (Rect.unit (s := S2x2x2048x128) ![1, 1, 0, 0] S1x1x2048x128.size inb_S2x2x2048x128_S1x1x2048x128_1_1_0_0) (fun _ => rfl)).squeeze S2048x128 squeezes_S1x1x2048x128_S2048x128).view
    (View.write (Elt F) ((kvM.slice (Rect.unit (s := S2x2x2048x128) ![1, 0, 0, 0] S1x1x2048x128.size inb_S2x2x2048x128_S1x1x2048x128_1_0_0_0) (fun _ => rfl)).squeeze S2048x128 squeezes_S1x1x2048x128_S2048x128).view
      (View.write (Elt F) ((kvM.slice (Rect.unit (s := S2x2x2048x128) ![0, 1, 0, 0] S1x1x2048x128.size inb_S2x2x2048x128_S1x1x2048x128_0_1_0_0) (fun _ => rfl)).squeeze S2048x128 squeezes_S1x1x2048x128_S2048x128).view
        (View.write (Elt F) ((kvM.slice (Rect.unit (s := S2x2x2048x128) ![0, 0, 0, 0] S1x1x2048x128.size inb_S2x2x2048x128_S1x1x2048x128_0_0_0_0) (fun _ => rfl)).squeeze S2048x128 squeezes_S1x1x2048x128_S2048x128).view
          f0
          (ReadAs.same.apply (View.read (Elt F) ((kM.slice (Rect.unit (s := S1x2048x16x128) (k0_off1 c 0#32) S1x2048x1x128.size (k0_off1_inb c 0)) (fun _ => rfl)).squeeze S2048x128 squeezes_S1x2048x1x128_S2048x128).view fk)) Finset.univ)
        (ReadAs.same.apply (View.read (Elt F) ((kM.slice (Rect.unit (s := S1x2048x16x128) (k0_off1 c 1#32) S1x2048x1x128.size (k0_off1_inb c 1)) (fun _ => rfl)).squeeze S2048x128 squeezes_S1x2048x1x128_S2048x128).view fk)) Finset.univ)
      (ReadAs.same.apply (View.read (Elt F) ((vM.slice (Rect.unit (s := S1x2048x16x128) (k0_off1 c 0#32) S1x2048x1x128.size (k0_off1_inb c 0)) (fun _ => rfl)).squeeze S2048x128 squeezes_S1x2048x1x128_S2048x128).view fv)) Finset.univ)
    (ReadAs.same.apply (View.read (Elt F) ((vM.slice (Rect.unit (s := S1x2048x16x128) (k0_off1 c 1#32) S1x2048x1x128.size (k0_off1_inb c 1)) (fun _ => rfl)).squeeze S2048x128 squeezes_S1x2048x1x128_S2048x128).view fv)) Finset.univ

theorem kvOf_apply (c : Dev nD) (fk fv : Vec F S1x2048x16x128 .f32) (f0 : Vec F S2x2x2048x128 .f32)
    (t h : Fin 2) (j : Fin 2048) (d : Fin 128) :
    kvOf c fk fv f0 (ix4 t h j d) = (if t = 0 then fk else fv) (ix4 0 j (kvHead c h) d) := by
  obtain ⟨a0, a1, a2, a3⟩ := off1_at c 0
  obtain ⟨b0, b1, b2, b3⟩ := off1_at c 1
  unfold kvOf
  rcases fin2_cases t with rfl | rfl <;> rcases fin2_cases h with rfl | rfl
  · rw [write_dst_miss ![1, 1, 0, 0] _ _ _ 0 0 1 1 rfl rfl (Or.inl (by decide)),
      write_dst_miss ![1, 0, 0, 0] _ _ _ 0 0 1 0 rfl rfl (Or.inl (by decide)),
      write_dst_miss ![0, 1, 0, 0] _ _ _ 0 0 0 1 rfl rfl (Or.inr (by decide)),
      write_dst_hit ![0, 0, 0, 0] _ _ _ 0 0 rfl rfl rfl rfl, if_pos rfl]
    exact srcK_read _ _ _ _ (kvHead c 0) a0 a1 a2 a3 fk j d
  · rw [write_dst_miss ![1, 1, 0, 0] _ _ _ 0 1 1 1 rfl rfl (Or.inl (by decide)),
      write_dst_miss ![1, 0, 0, 0] _ _ _ 0 1 1 0 rfl rfl (Or.inl (by decide)),
      write_dst_hit ![0, 1, 0, 0] _ _ _ 0 1 rfl rfl rfl rfl, if_pos rfl]
    exact srcK_read _ _ _ _ (kvHead c 1) b0 b1 b2 b3 fk j d
  · rw [write_dst_miss ![1, 1, 0, 0] _ _ _ 1 0 1 1 rfl rfl (Or.inr (by decide)),
      write_dst_hit ![1, 0, 0, 0] _ _ _ 1 0 rfl rfl rfl rfl, if_neg (by decide)]
    exact srcV_read _ _ _ _ (kvHead c 0) a0 a1 a2 a3 fv j d
  · rw [write_dst_hit ![1, 1, 0, 0] _ _ _ 1 1 rfl rfl rfl rfl, if_neg (by decide)]
    exact srcV_read _ _ _ _ (kvHead c 1) b0 b1 b2 b3 fv j d

theorem kvb_loadCov [∀ e, Nonempty (Elt F e)] (off0 : Fin 4 → Nat) (hz : off0 = fun _ => 0)
    (inb0 : ∀ a, off0 a + S2x2x2048x128.size a ≤ S2x2x2048x128.size a) (w : Vec F S2x2x2048x128 .bf16)
    (off : Fin 4 → Nat) (inb : ∀ a, off a + S1x1x2048x128.size a ≤ S2x2x2048x128.size a)
    (t h : Fin 2) (h0 : off 0 = t.val) (h1 : off 1 = h.val) (h2 : off 2 = 0) (h3 : off 3 = 0) (j : Fin 2048) (d : Fin 128) :
    kvbM.view.readCov [(⟨Rect.unit (s := S2x2x2048x128) off0 S2x2x2048x128.size inb0, w⟩ : View.Piece (Elt F) S2x2x2048x128 .bf16)]
        (Rect.unit (s := S2x2x2048x128) off S1x1x2048x128.size inb).toLoadRect (ix4 (0 : Fin 1) (0 : Fin 1) j d)
      = w (ix4 t h j d) := by
  rw [View.readCov_eq_canon_ld _ _ _ (fun y => ⟨_, List.mem_singleton_self _, View.mem_set_unit_zero hz inb0 y⟩),
    View.canon_unit_zero hz]
  show w ((Rect.unit (s := S2x2x2048x128) off S1x1x2048x128.size inb).idx (ix4 (0 : Fin 1) (0 : Fin 1) j d)) = _
  refine congrArg w (funext fun a => Fin.ext ?_)
  match a with
  | ⟨0, _⟩ => show off 0 + 1 * 0 = t.val; omega
  | ⟨1, _⟩ => show off 1 + 1 * 0 = h.val; omega
  | ⟨2, _⟩ => show off 2 + 1 * j.val = j.val; omega
  | ⟨3, _⟩ => show off 3 + 1 * d.val = d.val; omega

end Cert.KernelIdeal.Hand

end
-- ==== Proof.KvBridge.lean ====
import proofs.«900750_g7700000000000751_dist_attn_cross_gqa_kvrep_htp_b1_sq512_skv2048_d1024_hq8_dh128_v7x_i8_bf16_1_alg».proof.Proof.KvValue
import proofs.«900750_g7700000000000751_dist_attn_cross_gqa_kvrep_htp_b1_sq512_skv2048_d1024_hq8_dh128_v7x_i8_bf16_1_alg».proof.Proof.Partial

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

theorem kvOf_eq_kvv (c : Dev nD) (f0 : Vec F S2x2x2048x128 .f32) : kvOf c (kA m c) (vA m c) f0 = kvv m c := by
  funext i
  obtain ⟨t, h, j, d, rfl⟩ : ∃ (t : Fin 2) (h : Fin 2) (j : Fin 2048) (d : Fin 128), i = ix4 t h j d :=
    ⟨i 0, i 1, i 2, i 3, eq_ix4 i⟩
  rw [kvOf_apply]
  show (if t = 0 then kA m c else vA m c) (ix4 0 j (kvHead c h) d)
    = (if t.val = 0 then kA m c else vA m c) (ix4 0 j (kvHead c h) d)
  rcases fin2_cases t with rfl | rfl
  · rw [if_pos rfl]; rfl
  · rw [if_neg (by decide)]; rfl

theorem kvblk_load [∀ e, Nonempty (Elt F e)] (c : Dev nD) (f0 : Vec F S2x2x2048x128 .f32)
    (off0 : Fin 4 → Nat) (hz : off0 = fun _ => 0) (inb0 : ∀ a, off0 a + S2x2x2048x128.size a ≤ S2x2x2048x128.size a)
    (off : Fin 4 → Nat) (inb : ∀ a, off a + S1x1x2048x128.size a ≤ S2x2x2048x128.size a)
    (t h : Fin 2) (h0 : off 0 = t.val) (h1 : off 1 = h.val) (h2 : off 2 = 0) (h3 : off 3 = 0) :
    kvbM.view.readCov
        [(⟨Rect.unit (s := S2x2x2048x128) off0 S2x2x2048x128.size inb0, k0_pay4 (kvOf c (kA m c) (vA m c) f0)⟩ :
          View.Piece (Elt F) S2x2x2048x128 .bf16)]
        (Rect.unit (s := S2x2x2048x128) off S1x1x2048x128.size inb).toLoadRect
      = kvblk m c t h := by
  funext i
  obtain ⟨a, b, j, d, rfl⟩ : ∃ (a b : Fin 1) (j : Fin 2048) (d : Fin 128), i = ix4 a b j d :=
    ⟨i 0, i 1, i 2, i 3, eq_ix4 i⟩
  obtain rfl : a = 0 := Subsingleton.elim _ _
  obtain rfl : b = 0 := Subsingleton.elim _ _
  rw [kvb_loadCov off0 hz inb0 _ off inb t h h0 h1 h2 h3 j d, kvOf_eq_kvv]
  rfl

end Cert.KernelIdeal.Hand

end
-- ==== Proof.Bridge.lean ====
import proofs.«900750_g7700000000000751_dist_attn_cross_gqa_kvrep_htp_b1_sq512_skv2048_d1024_hq8_dh128_v7x_i8_bf16_1_alg».proof.Proof.KvBridge
import proofs.«900750_g7700000000000751_dist_attn_cross_gqa_kvrep_htp_b1_sq512_skv2048_d1024_hq8_dh128_v7x_i8_bf16_1_alg».proof.Proof.Partial
import proofs.«900750_g7700000000000751_dist_attn_cross_gqa_kvrep_htp_b1_sq512_skv2048_d1024_hq8_dh128_v7x_i8_bf16_1_alg».proof.Proof.Contents
import proofs.«900750_g7700000000000751_dist_attn_cross_gqa_kvrep_htp_b1_sq512_skv2048_d1024_hq8_dh128_v7x_i8_bf16_1_alg».proof.Proof.Gen.KernelIdeal.Frame
import Idealize.ShloMosaic.Lib.Writes
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

section Generic
variable {sig' : RefSig} {κ : Kind} {sp : Space} {s : Shape} {e : EltTy} {Val : EltTy → Type}

theorem readAt_writes_hit (v : View sig' κ sp s e) (f : v.ty.Contents Val) (r : Rect s) (w : r.shape.Idx → Val e)
    (L₂ : List (View.Piece Val s e)) :
    ∀ L₁ : List (View.Piece Val s e), (∀ p ∈ L₁, Disjoint p.1.set r.set) →
      v.readAt Val r.toLoadRect (v.writes Val f (L₁ ++ ⟨r, w⟩ :: L₂)) = w
  | [], _ => funext fun x => View.read_writes_cons_emb v f r w L₂ x
  | p :: L₁, h => funext fun x => by
      have hx : r.emb x ∉ Finset.univ.map p.1.emb := by
        rw [Rect.map_emb_univ]
        exact fun hm => Finset.disjoint_left.mp (h p List.mem_cons_self) hm (r.idx_mem x)
      show v.read Val (v.writes Val f (p :: (L₁ ++ ⟨r, w⟩ :: L₂))) (r.emb x) = w x
      rw [View.writes_cons, View.read_slice_write_of_not_mem p.1 _ _ _ hx]
      exact congrFun (readAt_writes_hit v f r w L₂ L₁ fun q hq => h q (List.mem_cons_of_mem _ hq)) x

theorem readAt_writes_unit_hit (v : View sig' κ sp s e) (f : v.ty.Contents Val) {off off' size : Fin s.rank → Nat}
    (hoff : off = off') (inb : ∀ a, off a + size a ≤ s.size a) (inb' : ∀ a, off' a + size a ≤ s.size a)
    (w : (Rect.unit off' size inb').shape.Idx → Val e) (L₁ L₂ : List (View.Piece Val s e))
    (h : ∀ p ∈ L₁, Disjoint p.1.set (Rect.unit off size inb).set) :
    v.readAt Val (Rect.unit off size inb).toLoadRect (v.writes Val f (L₁ ++ ⟨Rect.unit off' size inb', w⟩ :: L₂)) = w := by
  subst hoff
  exact readAt_writes_hit v f (Rect.unit off size inb) w L₂ L₁ h

end Generic

section Generic2
variable {sig' : RefSig} {κ : Kind} {sp : Space} {s : Shape} {e : EltTy} {Val : EltTy → Type}

theorem readAt_writes_skip (v : View sig' κ sp s e) (f : v.ty.Contents Val) (r : Rect s) (p : View.Piece Val s e)
    (L : List (View.Piece Val s e)) (hd : Disjoint p.1.set r.set) :
    v.readAt Val r.toLoadRect (v.writes Val f (p :: L)) = v.readAt Val r.toLoadRect (v.writes Val f L) :=
  funext fun x => by
    have hx : r.emb x ∉ Finset.univ.map p.1.emb := by
      rw [Rect.map_emb_univ]
      exact fun hm => Finset.disjoint_left.mp hd hm (r.idx_mem x)
    show v.read Val (v.writes Val f (p :: L)) (r.emb x) = v.read Val (v.writes Val f L) (r.emb x)
    rw [View.writes_cons, View.read_slice_write_of_not_mem p.1 _ _ _ hx]

end Generic2

def rowOff (j : Dev nD) : Fin 3 → Nat := ![0, 64 * j.val, 0]
def rowOff2 (j : Dev nD) : Fin 2 → Nat := ![64 * j.val, 0]

theorem off2_row (c : Dev nD) (r : Fin 4) : k0_off2 c (BitVec.ofNat 32 (1 + r.val)) = rowOff2 (sh (1 + r.val) c) := by
  rw [k0_off2_eq c r]; funext a
  match a with
  | ⟨0, _⟩ => show 64 * ((c.val + r.val + 17) % 8) = 64 * ((c.val + (1 + r.val)) % 8); omega
  | ⟨1, _⟩ => rfl
theorem off3_row (c : Dev nD) (r : Fin 4) : k0_off3 c (BitVec.ofNat 32 (1 + r.val)) = rowOff (sh (1 + r.val) c) := by
  rw [k0_off3_eq c r]; funext a
  match a with
  | ⟨0, _⟩ => rfl
  | ⟨1, _⟩ => show 64 * ((c.val + r.val + 17) % 8) = 64 * ((c.val + (1 + r.val)) % 8); omega
  | ⟨2, _⟩ => rfl
theorem off4_row (c : Dev nD) (r : Fin 3) : k0_off4 c (BitVec.ofNat 32 (1 + r.val)) = rowOff2 (sh (7 - r.val) c) := by
  have hr := r.isLt
  rw [k0_off4_eq c r]; funext a
  match a with
  | ⟨0, _⟩ => show 64 * (((c.val + 15) - r.val) % 8) = 64 * ((c.val + (7 - r.val)) % 8); omega
  | ⟨1, _⟩ => rfl
theorem off5_row (c : Dev nD) (r : Fin 7) : k0_off5 c (BitVec.ofNat 32 (1 + r.val)) = rowOff (sh (7 - r.val) c) := by
  have hr := r.isLt
  rw [k0_off5_eq c r]; funext a
  match a with
  | ⟨0, _⟩ => rfl
  | ⟨1, _⟩ => show 64 * (((c.val + 15) - r.val) % 8) = 64 * ((c.val + (7 - r.val)) % 8); omega
  | ⟨2, _⟩ => rfl
theorem off6_row (c : Dev nD) (r : Fin 4) : k0_off6 c (BitVec.ofNat 32 r.val) = rowOff (sh (4 - r.val) c) := by
  have hr := r.isLt
  rw [k0_off6_eq c r]; funext a
  match a with
  | ⟨0, _⟩ => rfl
  | ⟨1, _⟩ => show 64 * (((c.val + 20) - r.val) % 8) = 64 * ((c.val + (4 - r.val)) % 8); omega
  | ⟨2, _⟩ => rfl
theorem off7_row (c : Dev nD) (r : Fin 3) : k0_off7 c (BitVec.ofNat 32 r.val) = rowOff (sh (5 + r.val) c) := by
  rw [k0_off7_eq c r]; funext a
  match a with
  | ⟨0, _⟩ => rfl
  | ⟨1, _⟩ => show 64 * ((c.val + r.val + 13) % 8) = 64 * ((c.val + (5 + r.val)) % 8); omega
  | ⟨2, _⟩ => rfl
theorem off8_row (c : Dev nD) : k0_off8 c = rowOff2 c := by
  have hc : c.val < 8 := c.isLt
  rw [k0_off8_eq c]; funext a
  match a with
  | ⟨0, _⟩ => show 64 * ((c.val + 16) % 8) = 64 * c.val; omega
  | ⟨1, _⟩ => rfl
theorem off9_row (c : Dev nD) : k0_off9 c = rowOff c := by
  have hc : c.val < 8 := c.isLt
  rw [k0_off9_eq c]; funext a
  match a with
  | ⟨0, _⟩ => rfl
  | ⟨1, _⟩ => show 64 * ((c.val + 16) % 8) = 64 * c.val; omega
  | ⟨2, _⟩ => rfl

theorem sh_ne_sh (a b : ℕ) (c : Dev nD) (h : a % 8 ≠ b % 8) : sh a c ≠ sh b c := by
  intro e
  have := congrArg Fin.val e
  simp only [sh] at this
  omega

theorem rows_disjoint {off off' : Fin 3 → Nat} (j k : Dev nD) (h : off = rowOff j) (h' : off' = rowOff k) (hjk : j ≠ k)
    (inb : ∀ a, off a + S1x64x1024.size a ≤ S1x512x1024.size a) (inb' : ∀ a, off' a + S1x64x1024.size a ≤ S1x512x1024.size a) :
    Disjoint (Rect.unit (s := S1x512x1024) off S1x64x1024.size inb).set (Rect.unit (s := S1x512x1024) off' S1x64x1024.size inb').set := by
  subst h h'
  refine Rect.unit_disjoint 1 ?_
  show 64 * j.val + 64 ≤ 64 * k.val ∨ 64 * k.val + 64 ≤ 64 * j.val
  have : j.val ≠ k.val := fun e => hjk (Fin.ext e)
  omega

theorem out_readAt_here {off off' : Fin 3 → Nat} (j : Dev nD) (h : off = rowOff j) (h' : off' = rowOff j)
    (inb : ∀ a, off a + S1x64x1024.size a ≤ S1x512x1024.size a) (inb' : ∀ a, off' a + S1x64x1024.size a ≤ S1x512x1024.size a)
    (g : Vec F S1x512x1024 .f32) (w : Vec F S1x64x1024 .f32) (L : List (View.Piece (Elt F) S1x512x1024 .f32)) :
    outM.view.readAt (Elt F) (Rect.unit (s := S1x512x1024) off S1x64x1024.size inb).toLoadRect
        (outM.view.writes (Elt F) g (⟨Rect.unit (s := S1x512x1024) off' S1x64x1024.size inb', w⟩ :: L)) = w :=
  readAt_writes_unit_hit outM.view g (h.trans h'.symm) inb inb' w [] L (fun _ hp => absurd hp List.not_mem_nil)

theorem out_readAt_skip {off off' : Fin 3 → Nat} (j k : Dev nD) (h : off = rowOff j) (h' : off' = rowOff k) (hjk : k ≠ j)
    (inb : ∀ a, off a + S1x64x1024.size a ≤ S1x512x1024.size a) (inb' : ∀ a, off' a + S1x64x1024.size a ≤ S1x512x1024.size a)
    (g : Vec F S1x512x1024 .f32) (w : Vec F S1x64x1024 .f32) (L : List (View.Piece (Elt F) S1x512x1024 .f32)) :
    outM.view.readAt (Elt F) (Rect.unit (s := S1x512x1024) off S1x64x1024.size inb).toLoadRect
        (outM.view.writes (Elt F) g (⟨Rect.unit (s := S1x512x1024) off' S1x64x1024.size inb', w⟩ :: L))
      = outM.view.readAt (Elt F) (Rect.unit (s := S1x512x1024) off S1x64x1024.size inb).toLoadRect (outM.view.writes (Elt F) g L) :=
  readAt_writes_skip outM.view g (Rect.unit (s := S1x512x1024) off S1x64x1024.size inb) _ L
    (rows_disjoint k j h' h hjk inb' inb)

theorem off2_at1 (c : Dev nD) : k0_off2 c 1#32 = rowOff2 (sh 1 c) := off2_row c (0 : Fin 4)
theorem off2_at2 (c : Dev nD) : k0_off2 c 2#32 = rowOff2 (sh 2 c) := off2_row c (1 : Fin 4)
theorem off2_at3 (c : Dev nD) : k0_off2 c 3#32 = rowOff2 (sh 3 c) := off2_row c (2 : Fin 4)
theorem off2_at4 (c : Dev nD) : k0_off2 c 4#32 = rowOff2 (sh 4 c) := off2_row c (3 : Fin 4)
theorem off3_at1 (c : Dev nD) : k0_off3 c 1#32 = rowOff (sh 1 c) := off3_row c (0 : Fin 4)
theorem off3_at2 (c : Dev nD) : k0_off3 c 2#32 = rowOff (sh 2 c) := off3_row c (1 : Fin 4)
theorem off3_at3 (c : Dev nD) : k0_off3 c 3#32 = rowOff (sh 3 c) := off3_row c (2 : Fin 4)
theorem off3_at4 (c : Dev nD) : k0_off3 c 4#32 = rowOff (sh 4 c) := off3_row c (3 : Fin 4)
theorem off4_at1 (c : Dev nD) : k0_off4 c 1#32 = rowOff2 (sh 7 c) := off4_row c (0 : Fin 3)
theorem off4_at2 (c : Dev nD) : k0_off4 c 2#32 = rowOff2 (sh 6 c) := off4_row c (1 : Fin 3)
theorem off4_at3 (c : Dev nD) : k0_off4 c 3#32 = rowOff2 (sh 5 c) := off4_row c (2 : Fin 3)
theorem off5_at1 (c : Dev nD) : k0_off5 c 1#32 = rowOff (sh 7 c) := off5_row c (0 : Fin 7)
theorem off5_at2 (c : Dev nD) : k0_off5 c 2#32 = rowOff (sh 6 c) := off5_row c (1 : Fin 7)
theorem off5_at3 (c : Dev nD) : k0_off5 c 3#32 = rowOff (sh 5 c) := off5_row c (2 : Fin 7)
theorem off6_at0 (c : Dev nD) : k0_off6 c 0#32 = rowOff (sh 4 c) := off6_row c (0 : Fin 4)
theorem off6_at1 (c : Dev nD) : k0_off6 c 1#32 = rowOff (sh 3 c) := off6_row c (1 : Fin 4)
theorem off6_at2 (c : Dev nD) : k0_off6 c 2#32 = rowOff (sh 2 c) := off6_row c (2 : Fin 4)
theorem off6_at3 (c : Dev nD) : k0_off6 c 3#32 = rowOff (sh 1 c) := off6_row c (3 : Fin 4)
theorem off7_at0 (c : Dev nD) : k0_off7 c 0#32 = rowOff (sh 5 c) := off7_row c (0 : Fin 3)
theorem off7_at1 (c : Dev nD) : k0_off7 c 1#32 = rowOff (sh 6 c) := off7_row c (1 : Fin 3)
theorem off7_at2 (c : Dev nD) : k0_off7 c 2#32 = rowOff (sh 7 c) := off7_row c (2 : Fin 3)

theorem z2 : (![0, 0] : Fin 2 → Nat) = fun _ => 0 := by
  funext a; match a with | ⟨0, _⟩ => rfl | ⟨1, _⟩ => rfl
theorem z3 : (![0, 0, 0] : Fin 3 → Nat) = fun _ => 0 := by
  funext a; match a with | ⟨0, _⟩ => rfl | ⟨1, _⟩ => rfl | ⟨2, _⟩ => rfl
theorem z4 : (![0, 0, 0, 0] : Fin 4 → Nat) = fun _ => 0 := by
  funext a; match a with | ⟨0, _⟩ => rfl | ⟨1, _⟩ => rfl | ⟨2, _⟩ => rfl | ⟨3, _⟩ => rfl

theorem xM_read (inb : ∀ a, (![0, 0, 0] : Fin 3 → Nat) a + S1x512x1024.size a ≤ S1x512x1024.size a) (g : Vec F S1x512x1024 .f32) :
    View.readAt (Elt F) xM.view (Rect.unit (s := S1x512x1024) ![0, 0, 0] S1x512x1024.size inb).toLoadRect g = g :=
  Memref.readAt_unit_zero (Elt F) cc0_stg0_0 z3 inb g
theorem wqM_read (inb : ∀ a, (![0, 0] : Fin 2 → Nat) a + S1024x1024.size a ≤ S1024x1024.size a) (g : Vec F S1024x1024 .f32) :
    View.readAt (Elt F) wqM.view (Rect.unit (s := S1024x1024) ![0, 0] S1024x1024.size inb).toLoadRect g = g :=
  Memref.readAt_unit_zero (Elt F) cc0_stg1_0 z2 inb g
theorem woM_read (inb : ∀ a, (![0, 0] : Fin 2 → Nat) a + S1024x1024.size a ≤ S1024x1024.size a) (g : Vec F S1024x1024 .f32) :
    View.readAt (Elt F) woM.view (Rect.unit (s := S1024x1024) ![0, 0] S1024x1024.size inb).toLoadRect g = g :=
  Memref.readAt_unit_zero (Elt F) cc0_stg2_0 z2 inb g
theorem kvM_read (inb : ∀ a, (![0, 0, 0, 0] : Fin 4 → Nat) a + S2x2x2048x128.size a ≤ S2x2x2048x128.size a)
    (g : Vec F S2x2x2048x128 .f32) :
    View.readAt (Elt F) kvM.view (Rect.unit (s := S2x2x2048x128) ![0, 0, 0, 0] S2x2x2048x128.size inb).toLoadRect g = g :=
  Memref.readAt_unit_zero (Elt F) cc0_scratch0 z4 inb g

section Loads
variable [∀ e, Nonempty (Elt F e)]
variable (m : (ℓ : Loc nD τ sig) → Buf (Elt F) ℓ)

theorem wqb_load (c : Dev nD) (inb : ∀ a, (![0, 0] : Fin 2 → Nat) a + S1024x1024.size a ≤ S1024x1024.size a)
    (g1 : Vec F S1024x1024 .f32) (hg1 : g1 = wqA m c) :
    wqbM.view.readCov
        [(⟨Rect.unit (s := S1024x1024) ![0, 0] S1024x1024.size inb,
            k0_pay2 (View.readAt (Elt F) wqM.view (Rect.unit (s := S1024x1024) ![0, 0] S1024x1024.size inb).toLoadRect g1)⟩ :
          View.Piece (Elt F) S1024x1024 .bf16)]
        (Rect.unit (s := S1024x1024) ![0, 0] S1024x1024.size inb).toLoadRect
      = wqb m c := by
  rw [View.readCov_unit_zero _ z2, wqM_read, hg1]
  rfl

theorem wob_load (c : Dev nD) (inb : ∀ a, (![0, 0] : Fin 2 → Nat) a + S1024x1024.size a ≤ S1024x1024.size a)
    (g2 : Vec F S1024x1024 .f32) (hg2 : g2 = woA m c) :
    wobM.view.readCov
        [(⟨Rect.unit (s := S1024x1024) ![0, 0] S1024x1024.size inb,
            k0_pay3 (View.readAt (Elt F) woM.view (Rect.unit (s := S1024x1024) ![0, 0] S1024x1024.size inb).toLoadRect g2)⟩ :
          View.Piece (Elt F) S1024x1024 .bf16)]
        (Rect.unit (s := S1024x1024) ![0, 0] S1024x1024.size inb).toLoadRect
      = wob m c := by
  rw [View.readCov_unit_zero _ z2, woM_read, hg2]
  rfl

theorem kvblk_cov (c : Dev nD) (f0 : Vec F S2x2x2048x128 .f32) (X : Vec F S2x2x2048x128 .f32)
    (hX : X = kvOf c (kA m c) (vA m c) f0)
    (inb0 : ∀ a, (![0, 0, 0, 0] : Fin 4 → Nat) a + S2x2x2048x128.size a ≤ S2x2x2048x128.size a)
    (off : Fin 4 → Nat) (inb : ∀ a, off a + S1x1x2048x128.size a ≤ S2x2x2048x128.size a)
    (t h : Fin 2) (h0 : off 0 = t.val) (h1 : off 1 = h.val) (h2 : off 2 = 0) (h3 : off 3 = 0) :
    kvbM.view.readCov
        [(⟨Rect.unit (s := S2x2x2048x128) ![0, 0, 0, 0] S2x2x2048x128.size inb0,
            k0_pay4 (View.readAt (Elt F) kvM.view (Rect.unit (s := S2x2x2048x128) ![0, 0, 0, 0] S2x2x2048x128.size inb0).toLoadRect X)⟩ :
          View.Piece (Elt F) S2x2x2048x128 .bf16)]
        (Rect.unit (s := S2x2x2048x128) off S1x1x2048x128.size inb).toLoadRect
      = kvblk m c t h := by
  rw [kvM_read, hX]
  exact kvblk_load m c f0 _ z4 inb0 off inb t h h0 h1 h2 h3

end Loads

theorem q_rows_read {off0 : Fin 2 → Nat} (hz : off0 = fun _ => 0) (inb0 : ∀ a, off0 a + S512x1024.size a ≤ S512x1024.size a)
    {off : Fin 2 → Nat} (j : Dev nD) (h : off = rowOff2 j) (inb : ∀ a, off a + S64x1024.size a ≤ S512x1024.size a)
    (base : Vec F S512x1024 .bf16) (qa : Vec F S512x1024 .bf16) :
    View.readAt (Elt F) qM.view (Rect.unit (s := S512x1024) off S64x1024.size inb).toLoadRect
        (qM.view.writes (Elt F) base [(⟨Rect.unit (s := S512x1024) off0 S512x1024.size inb0, qa⟩ : View.Piece (Elt F) S512x1024 .bf16)])
      = fun i : S64x1024.Idx => qa (ix2 (⟨64 * j.val + (i 0).val, by
          have hj : j.val < 8 := j.isLt; have hi : (i 0).val < 64 := (i 0).isLt; omega⟩ : Fin 512)
          (⟨(i 1).val, (i 1).isLt⟩ : Fin 1024)) := by
  subst hz h
  funext i
  have e := View.read_writes_cons_emb qM.view base (Rect.unit (s := S512x1024) (fun _ => 0) S512x1024.size inb0) qa []
    ((Rect.unit (s := S512x1024) (rowOff2 j) S64x1024.size inb).idx i)
  rw [show (Rect.unit (s := S512x1024) (fun _ => 0) S512x1024.size inb0).emb
      ((Rect.unit (s := S512x1024) (rowOff2 j) S64x1024.size inb).idx i)
      = (Rect.unit (s := S512x1024) (rowOff2 j) S64x1024.size inb).idx i from Rect.emb_whole_apply S512x1024 _] at e
  refine e.trans (congrArg qa (funext fun a => Fin.ext ?_))
  match a with
  | ⟨0, _⟩ => show 64 * j.val + 1 * (i 0).val = 64 * j.val + (i 0).val; omega
  | ⟨1, _⟩ => show 0 + 1 * (i 1).val = (i 1).val; omega

theorem qrows_read [∀ e, Nonempty (Elt F e)] (m : (ℓ : Loc nD τ sig) → Buf (Elt F) ℓ) (c : Dev nD)
    (inb3 : ∀ a, (![0, 0, 0] : Fin 3 → Nat) a + S1x512x1024.size a ≤ S1x512x1024.size a)
    (inb0 : ∀ a, (![0, 0] : Fin 2 → Nat) a + S512x1024.size a ≤ S512x1024.size a)
    {off : Fin 2 → Nat} (j : Dev nD) (h : off = rowOff2 j) (inb : ∀ a, off a + S64x1024.size a ≤ S512x1024.size a)
    (base : Vec F S512x1024 .bf16) (g0 : Vec F S1x512x1024 .f32) (hg0 : g0 = xA m c)
    (wq : Vec F S1024x1024 .bf16) (hwq : wq = wqb m c) :
    View.readAt (Elt F) qM.view (Rect.unit (s := S512x1024) off S64x1024.size inb).toLoadRect
        (qM.view.writes (Elt F) base
          [(⟨Rect.unit (s := S512x1024) ![0, 0] S512x1024.size inb0,
              k0_pay5 (View.readAt (Elt F) xM.view (Rect.unit (s := S1x512x1024) ![0, 0, 0] S1x512x1024.size inb3).toLoadRect g0) wq⟩ :
            View.Piece (Elt F) S512x1024 .bf16)])
      = qrows m c j := by
  rw [q_rows_read z2 inb0 j h inb, xM_read, hg0, hwq]
  rfl

section Iblk
variable (m : (ℓ : Loc nD τ sig) → Buf (Elt F) ℓ)

theorem iblk0_eq (c : Dev nD) (t : Fin cfg0.N) : Gen.iblk m c 0 t = xA m c := by
  funext y
  unfold Gen.iblk
  rw [View.read_apply]
  show m ((c : Thread nD τ).loc main_arg0) (((cfg0.win 0).rect t).emb y) = m ((c : Thread nD τ).loc main_arg0) y
  refine congrArg (m ((c : Thread nD τ).loc main_arg0)) (funext fun a => Fin.ext ?_)
  show 0 * S1x512x1024.size a + 1 * (y a).val = (y a).val
  omega

theorem iblk1_eq (c : Dev nD) (t : Fin cfg0.N) : Gen.iblk m c 1 t = wqA m c := by
  funext y
  unfold Gen.iblk
  rw [View.read_apply]
  show m ((c : Thread nD τ).loc main_arg1) (((cfg0.win 1).rect t).emb y) = m ((c : Thread nD τ).loc main_arg1) y
  refine congrArg (m ((c : Thread nD τ).loc main_arg1)) (funext fun a => Fin.ext ?_)
  show 0 * S1024x1024.size a + 1 * (y a).val = (y a).val
  omega

theorem iblk2_eq (c : Dev nD) (t : Fin cfg0.N) : Gen.iblk m c 2 t = woA m c := by
  funext y
  unfold Gen.iblk
  rw [View.read_apply]
  show m ((c : Thread nD τ).loc main_arg2) (((cfg0.win 2).rect t).emb y) = m ((c : Thread nD τ).loc main_arg2) y
  refine congrArg (m ((c : Thread nD τ).loc main_arg2)) (funext fun a => Fin.ext ?_)
  show 0 * S1024x1024.size a + 1 * (y a).val = (y a).val
  omega

end Iblk

end Cert.KernelIdeal.Hand

end
-- ==== Proof.Bridge2.lean ====
import proofs.«900750_g7700000000000751_dist_attn_cross_gqa_kvrep_htp_b1_sq512_skv2048_d1024_hq8_dh128_v7x_i8_bf16_1_alg».proof.Proof.Bridge
import proofs.«900750_g7700000000000751_dist_attn_cross_gqa_kvrep_htp_b1_sq512_skv2048_d1024_hq8_dh128_v7x_i8_bf16_1_alg».proof.Proof.Chunk

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

section LoadForms

abbrev wqLd (g1 : Vec F S1024x1024 .f32) : Vec F S1024x1024 .bf16 :=
  wqbM.view.readCov
    [(⟨Rect.unit (s := S1024x1024) ![0, 0] S1024x1024.size inb_S1024x1024_S1024x1024_0_0,
        k0_pay2 (View.readAt (Elt F) wqM.view (Rect.unit (s := S1024x1024) ![0, 0] S1024x1024.size inb_S1024x1024_S1024x1024_0_0).toLoadRect g1)⟩ :
      View.Piece (Elt F) S1024x1024 .bf16)]
    (Rect.unit (s := S1024x1024) ![0, 0] S1024x1024.size inb_S1024x1024_S1024x1024_0_0).toLoadRect

abbrev woLd (g2 : Vec F S1024x1024 .f32) : Vec F S1024x1024 .bf16 :=
  wobM.view.readCov
    [(⟨Rect.unit (s := S1024x1024) ![0, 0] S1024x1024.size inb_S1024x1024_S1024x1024_0_0,
        k0_pay3 (View.readAt (Elt F) woM.view (Rect.unit (s := S1024x1024) ![0, 0] S1024x1024.size inb_S1024x1024_S1024x1024_0_0).toLoadRect g2)⟩ :
      View.Piece (Elt F) S1024x1024 .bf16)]
    (Rect.unit (s := S1024x1024) ![0, 0] S1024x1024.size inb_S1024x1024_S1024x1024_0_0).toLoadRect

abbrev qLd (g0 : Vec F S1x512x1024 .f32) (g1 : Vec F S1024x1024 .f32) (off : Fin 2 → Nat)
    (inb : ∀ a, off a + S64x1024.size a ≤ S512x1024.size a) : Vec F S64x1024 .bf16 :=
  View.readAt (Elt F) qM.view (Rect.unit (s := S512x1024) off S64x1024.size inb).toLoadRect
    (qM.view.writes (Elt F) qM.view.junk
      [(⟨Rect.unit (s := S512x1024) ![0, 0] S512x1024.size inb_S512x1024_S512x1024_0_0,
          k0_pay5
            (View.readAt (Elt F) xM.view (Rect.unit (s := S1x512x1024) ![0, 0, 0] S1x512x1024.size inb_S1x512x1024_S1x512x1024_0_0_0).toLoadRect g0)
            (wqLd g1)⟩ : View.Piece (Elt F) S512x1024 .bf16)])

abbrev kvLd (X : Vec F S2x2x2048x128 .f32) (off : Fin 4 → Nat)
    (inb : ∀ a, off a + S1x1x2048x128.size a ≤ S2x2x2048x128.size a) : Vec F S1x1x2048x128 .bf16 :=
  kvbM.view.readCov
    [(⟨Rect.unit (s := S2x2x2048x128) ![0, 0, 0, 0] S2x2x2048x128.size inb_S2x2x2048x128_S2x2x2048x128_0_0_0_0,
        k0_pay4 (View.readAt (Elt F) kvM.view
          (Rect.unit (s := S2x2x2048x128) ![0, 0, 0, 0] S2x2x2048x128.size inb_S2x2x2048x128_S2x2x2048x128_0_0_0_0).toLoadRect X)⟩ :
      View.Piece (Elt F) S2x2x2048x128 .bf16)]
    (Rect.unit (s := S2x2x2048x128) off S1x1x2048x128.size inb).toLoadRect

end LoadForms

section Cuts
variable [∀ e, Nonempty (Elt F e)] (m : (ℓ : Loc nD τ sig) → Buf (Elt F) ℓ)
variable (c : Dev nD) (f0 : Vec F S2x2x2048x128 .f32) (g0 : Vec F S1x512x1024 .f32) (g1 g2 : Vec F S1024x1024 .f32)
  (e0 : g0 = xA m c) (e1 : g1 = wqA m c) (e2 : g2 = woA m c)
  (X : Vec F S2x2x2048x128 .f32) (hX : X = kvOf c (kA m c) (vA m c) f0)
include e0 e1 e2 hX

theorem qLd_eq (j : Dev nD) {off : Fin 2 → Nat} (h : off = rowOff2 j) (inb : ∀ a, off a + S64x1024.size a ≤ S512x1024.size a) :
    qLd g0 g1 off inb = qrows m c j :=
  qrows_read m c _ _ j h inb _ g0 e0 _ (wqb_load m c _ g1 e1)

theorem woLd_eq : woLd g2 = wob m c := wob_load m c _ g2 e2

theorem kvLd_eq (off : Fin 4 → Nat) (inb : ∀ a, off a + S1x1x2048x128.size a ≤ S2x2x2048x128.size a)
    (t h : Fin 2) (h0 : off 0 = t.val) (h1 : off 1 = h.val) (h2 : off 2 = 0) (h3 : off 3 = 0) :
    kvLd X off inb = kvblk m c t h :=
  kvblk_cov m c f0 X hX _ off inb t h h0 h1 h2 h3

theorem cut1_val (j : Dev nD) {off : Fin 2 → Nat} (h : off = rowOff2 j) (inb : ∀ a, off a + S64x1024.size a ≤ S512x1024.size a) :
    k0_pay9 (k0_pay7 (k0_pay6 (qLd g0 g1 off inb)) (kvLd X ![0, 0, 0, 0] inb_S2x2x2048x128_S1x1x2048x128_0_0_0_0) (kvLd X ![1, 0, 0, 0] inb_S2x2x2048x128_S1x1x2048x128_1_0_0_0)) (k0_pay8 (qLd g0 g1 off inb) (kvLd X ![0, 1, 0, 0] inb_S2x2x2048x128_S1x1x2048x128_0_1_0_0) (kvLd X ![1, 1, 0, 0] inb_S2x2x2048x128_S1x1x2048x128_1_1_0_0)) (woLd g2)
      = Pc m c j := by
  rw [qLd_eq m c f0 g0 g1 g2 e0 e1 e2 X hX j h inb, woLd_eq m c f0 g0 g1 g2 e0 e1 e2 X hX,
    kvLd_eq m c f0 g0 g1 g2 e0 e1 e2 X hX ![0, 0, 0, 0] _ 0 0 rfl rfl rfl rfl,
    kvLd_eq m c f0 g0 g1 g2 e0 e1 e2 X hX ![1, 0, 0, 0] _ 1 0 rfl rfl rfl rfl,
    kvLd_eq m c f0 g0 g1 g2 e0 e1 e2 X hX ![0, 1, 0, 0] _ 0 1 rfl rfl rfl rfl,
    kvLd_eq m c f0 g0 g1 g2 e0 e1 e2 X hX ![1, 1, 0, 0] _ 1 1 rfl rfl rfl rfl]
  rfl

theorem cut2_val (j : Dev nD) {off : Fin 2 → Nat} (h : off = rowOff2 j) (inb : ∀ a, off a + S64x1024.size a ≤ S512x1024.size a) :
    k0_pay11 (qLd g0 g1 off inb) (k0_pay10 (qLd g0 g1 off inb) (kvLd X ![0, 0, 0, 0] inb_S2x2x2048x128_S1x1x2048x128_0_0_0_0) (kvLd X ![1, 0, 0, 0] inb_S2x2x2048x128_S1x1x2048x128_1_0_0_0)) (kvLd X ![0, 1, 0, 0] inb_S2x2x2048x128_S1x1x2048x128_0_1_0_0) (kvLd X ![1, 1, 0, 0] inb_S2x2x2048x128_S1x1x2048x128_1_1_0_0) (woLd g2)
      = Pc m c j := by
  rw [qLd_eq m c f0 g0 g1 g2 e0 e1 e2 X hX j h inb, woLd_eq m c f0 g0 g1 g2 e0 e1 e2 X hX,
    kvLd_eq m c f0 g0 g1 g2 e0 e1 e2 X hX ![0, 0, 0, 0] _ 0 0 rfl rfl rfl rfl,
    kvLd_eq m c f0 g0 g1 g2 e0 e1 e2 X hX ![1, 0, 0, 0] _ 1 0 rfl rfl rfl rfl,
    kvLd_eq m c f0 g0 g1 g2 e0 e1 e2 X hX ![0, 1, 0, 0] _ 0 1 rfl rfl rfl rfl,
    kvLd_eq m c f0 g0 g1 g2 e0 e1 e2 X hX ![1, 1, 0, 0] _ 1 1 rfl rfl rfl rfl]
  rfl

theorem cut3_val (j : Dev nD) {off : Fin 2 → Nat} (h : off = rowOff2 j) (inb : ∀ a, off a + S64x1024.size a ≤ S512x1024.size a) :
    k0_pay15 (qLd g0 g1 off inb) (k0_pay14 (qLd g0 g1 off inb) (kvLd X ![0, 0, 0, 0] inb_S2x2x2048x128_S1x1x2048x128_0_0_0_0) (kvLd X ![1, 0, 0, 0] inb_S2x2x2048x128_S1x1x2048x128_1_0_0_0)) (kvLd X ![0, 1, 0, 0] inb_S2x2x2048x128_S1x1x2048x128_0_1_0_0) (kvLd X ![1, 1, 0, 0] inb_S2x2x2048x128_S1x1x2048x128_1_1_0_0) (woLd g2)
      = Pc m c j := by
  rw [qLd_eq m c f0 g0 g1 g2 e0 e1 e2 X hX j h inb, woLd_eq m c f0 g0 g1 g2 e0 e1 e2 X hX,
    kvLd_eq m c f0 g0 g1 g2 e0 e1 e2 X hX ![0, 0, 0, 0] _ 0 0 rfl rfl rfl rfl,
    kvLd_eq m c f0 g0 g1 g2 e0 e1 e2 X hX ![1, 0, 0, 0] _ 1 0 rfl rfl rfl rfl,
    kvLd_eq m c f0 g0 g1 g2 e0 e1 e2 X hX ![0, 1, 0, 0] _ 0 1 rfl rfl rfl rfl,
    kvLd_eq m c f0 g0 g1 g2 e0 e1 e2 X hX ![1, 1, 0, 0] _ 1 1 rfl rfl rfl rfl]
  rfl

theorem cut4_val (j : Dev nD) {off : Fin 2 → Nat} (h : off = rowOff2 j) (inb : ∀ a, off a + S64x1024.size a ≤ S512x1024.size a) :
    k0_pay20 (k0_pay16 (qLd g0 g1 off inb) (kvLd X ![0, 0, 0, 0] inb_S2x2x2048x128_S1x1x2048x128_0_0_0_0) (kvLd X ![1, 0, 0, 0] inb_S2x2x2048x128_S1x1x2048x128_1_0_0_0)) (k0_pay18 (qLd g0 g1 off inb) (kvLd X ![0, 1, 0, 0] inb_S2x2x2048x128_S1x1x2048x128_0_1_0_0)) (k0_pay19 (qLd g0 g1 off inb) (kvLd X ![0, 1, 0, 0] inb_S2x2x2048x128_S1x1x2048x128_0_1_0_0) (kvLd X ![1, 1, 0, 0] inb_S2x2x2048x128_S1x1x2048x128_1_1_0_0)) (Scalar.ofBits .f32 0x3F800000#32) (woLd g2)
      = Pc m c j := by
  rw [qLd_eq m c f0 g0 g1 g2 e0 e1 e2 X hX j h inb, woLd_eq m c f0 g0 g1 g2 e0 e1 e2 X hX,
    kvLd_eq m c f0 g0 g1 g2 e0 e1 e2 X hX ![0, 0, 0, 0] _ 0 0 rfl rfl rfl rfl,
    kvLd_eq m c f0 g0 g1 g2 e0 e1 e2 X hX ![1, 0, 0, 0] _ 1 0 rfl rfl rfl rfl,
    kvLd_eq m c f0 g0 g1 g2 e0 e1 e2 X hX ![0, 1, 0, 0] _ 0 1 rfl rfl rfl rfl,
    kvLd_eq m c f0 g0 g1 g2 e0 e1 e2 X hX ![1, 1, 0, 0] _ 1 1 rfl rfl rfl rfl]
  rfl

theorem cut5_val (j : Dev nD) {off : Fin 2 → Nat} (h : off = rowOff2 j) (inb : ∀ a, off a + S64x1024.size a ≤ S512x1024.size a) :
    k0_pay25 (k0_pay23 (qLd g0 g1 off inb) (kvLd X ![0, 0, 0, 0] inb_S2x2x2048x128_S1x1x2048x128_0_0_0_0) (kvLd X ![1, 0, 0, 0] inb_S2x2x2048x128_S1x1x2048x128_1_0_0_0)) (k0_pay24 (qLd g0 g1 off inb)) (kvLd X ![0, 1, 0, 0] inb_S2x2x2048x128_S1x1x2048x128_0_1_0_0) (kvLd X ![1, 1, 0, 0] inb_S2x2x2048x128_S1x1x2048x128_1_1_0_0) (woLd g2)
      = Pc m c j := by
  rw [qLd_eq m c f0 g0 g1 g2 e0 e1 e2 X hX j h inb, woLd_eq m c f0 g0 g1 g2 e0 e1 e2 X hX,
    kvLd_eq m c f0 g0 g1 g2 e0 e1 e2 X hX ![0, 0, 0, 0] _ 0 0 rfl rfl rfl rfl,
    kvLd_eq m c f0 g0 g1 g2 e0 e1 e2 X hX ![1, 0, 0, 0] _ 1 0 rfl rfl rfl rfl,
    kvLd_eq m c f0 g0 g1 g2 e0 e1 e2 X hX ![0, 1, 0, 0] _ 0 1 rfl rfl rfl rfl,
    kvLd_eq m c f0 g0 g1 g2 e0 e1 e2 X hX ![1, 1, 0, 0] _ 1 1 rfl rfl rfl rfl]
  rfl

theorem cut6_val (j : Dev nD) {off : Fin 2 → Nat} (h : off = rowOff2 j) (inb : ∀ a, off a + S64x1024.size a ≤ S512x1024.size a) :
    k0_pay29 (k0_pay27 (k0_pay26 (qLd g0 g1 off inb)) (kvLd X ![0, 0, 0, 0] inb_S2x2x2048x128_S1x1x2048x128_0_0_0_0) (kvLd X ![1, 0, 0, 0] inb_S2x2x2048x128_S1x1x2048x128_1_0_0_0)) (k0_pay28 (qLd g0 g1 off inb) (kvLd X ![0, 1, 0, 0] inb_S2x2x2048x128_S1x1x2048x128_0_1_0_0) (kvLd X ![1, 1, 0, 0] inb_S2x2x2048x128_S1x1x2048x128_1_1_0_0)) (woLd g2)
      = Pc m c j := by
  rw [qLd_eq m c f0 g0 g1 g2 e0 e1 e2 X hX j h inb, woLd_eq m c f0 g0 g1 g2 e0 e1 e2 X hX,
    kvLd_eq m c f0 g0 g1 g2 e0 e1 e2 X hX ![0, 0, 0, 0] _ 0 0 rfl rfl rfl rfl,
    kvLd_eq m c f0 g0 g1 g2 e0 e1 e2 X hX ![1, 0, 0, 0] _ 1 0 rfl rfl rfl rfl,
    kvLd_eq m c f0 g0 g1 g2 e0 e1 e2 X hX ![0, 1, 0, 0] _ 0 1 rfl rfl rfl rfl,
    kvLd_eq m c f0 g0 g1 g2 e0 e1 e2 X hX ![1, 1, 0, 0] _ 1 1 rfl rfl rfl rfl]
  rfl

theorem cut7_val (j : Dev nD) {off : Fin 2 → Nat} (h : off = rowOff2 j) (inb : ∀ a, off a + S64x1024.size a ≤ S512x1024.size a) :
    k0_pay34 (k0_pay32 (qLd g0 g1 off inb) (kvLd X ![0, 0, 0, 0] inb_S2x2x2048x128_S1x1x2048x128_0_0_0_0) (kvLd X ![1, 0, 0, 0] inb_S2x2x2048x128_S1x1x2048x128_1_0_0_0)) (k0_pay33 (qLd g0 g1 off inb)) (kvLd X ![0, 1, 0, 0] inb_S2x2x2048x128_S1x1x2048x128_0_1_0_0) (kvLd X ![1, 1, 0, 0] inb_S2x2x2048x128_S1x1x2048x128_1_1_0_0) (woLd g2)
      = Pc m c j := by
  rw [qLd_eq m c f0 g0 g1 g2 e0 e1 e2 X hX j h inb, woLd_eq m c f0 g0 g1 g2 e0 e1 e2 X hX,
    kvLd_eq m c f0 g0 g1 g2 e0 e1 e2 X hX ![0, 0, 0, 0] _ 0 0 rfl rfl rfl rfl,
    kvLd_eq m c f0 g0 g1 g2 e0 e1 e2 X hX ![1, 0, 0, 0] _ 1 0 rfl rfl rfl rfl,
    kvLd_eq m c f0 g0 g1 g2 e0 e1 e2 X hX ![0, 1, 0, 0] _ 0 1 rfl rfl rfl rfl,
    kvLd_eq m c f0 g0 g1 g2 e0 e1 e2 X hX ![1, 1, 0, 0] _ 1 1 rfl rfl rfl rfl]
  rfl

theorem cut8_val (j : Dev nD) {off : Fin 2 → Nat} (h : off = rowOff2 j) (inb : ∀ a, off a + S64x1024.size a ≤ S512x1024.size a) :
    k0_pay38 (k0_pay37 (qLd g0 g1 off inb) (k0_pay35 (qLd g0 g1 off inb)) (k0_pay36 (kvLd X ![0, 0, 0, 0] inb_S2x2x2048x128_S1x1x2048x128_0_0_0_0)) (kvLd X ![1, 0, 0, 0] inb_S2x2x2048x128_S1x1x2048x128_1_0_0_0) (kvLd X ![0, 1, 0, 0] inb_S2x2x2048x128_S1x1x2048x128_0_1_0_0) (kvLd X ![1, 1, 0, 0] inb_S2x2x2048x128_S1x1x2048x128_1_1_0_0)) (woLd g2)
      = Pc m c j := by
  rw [qLd_eq m c f0 g0 g1 g2 e0 e1 e2 X hX j h inb, woLd_eq m c f0 g0 g1 g2 e0 e1 e2 X hX,
    kvLd_eq m c f0 g0 g1 g2 e0 e1 e2 X hX ![0, 0, 0, 0] _ 0 0 rfl rfl rfl rfl,
    kvLd_eq m c f0 g0 g1 g2 e0 e1 e2 X hX ![1, 0, 0, 0] _ 1 0 rfl rfl rfl rfl,
    kvLd_eq m c f0 g0 g1 g2 e0 e1 e2 X hX ![0, 1, 0, 0] _ 0 1 rfl rfl rfl rfl,
    kvLd_eq m c f0 g0 g1 g2 e0 e1 e2 X hX ![1, 1, 0, 0] _ 1 1 rfl rfl rfl rfl]
  rfl

end Cuts

end Cert.KernelIdeal.Hand

end
-- ==== Proof.Bridge3.lean ====
import proofs.«900750_g7700000000000751_dist_attn_cross_gqa_kvrep_htp_b1_sq512_skv2048_d1024_hq8_dh128_v7x_i8_bf16_1_alg».proof.Proof.Bridge2
import proofs.«900750_g7700000000000751_dist_attn_cross_gqa_kvrep_htp_b1_sq512_skv2048_d1024_hq8_dh128_v7x_i8_bf16_1_alg».proof.Proof.LoadValues

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

section Stages
variable [∀ e, Nonempty (Elt F e)] (m : (ℓ : Loc nD τ sig) → Buf (Elt F) ℓ)
variable (c : Dev nD) (f0 : Vec F S2x2x2048x128 .f32) (g0 : Vec F S1x512x1024 .f32) (g1 g2 : Vec F S1024x1024 .f32)
  (e0 : g0 = xA m c) (e1 : g1 = wqA m c) (e2 : g2 = woA m c)
  (X : Vec F S2x2x2048x128 .f32) (hX : X = kvOf c (kA m c) (vA m c) f0)
include e0 e1 e2 hX

set_option maxHeartbeats 4000000 in
theorem hv_r1_val (P : Dev nD → Dev nD → Vec F S1x64x1024 .f32) (hP : P = Pc m)
    (g3 : Vec F S1x512x1024 .f32) (L : List (View.Piece (Elt F) S1x512x1024 .f32))
    (fS : Vec F S4x64x1024 .bf16) (LS : List (View.Piece (Elt F) S4x64x1024 .bf16))
    (inbS : ∀ a, (![1, 0, 0] : Fin 3 → Nat) a + S1x64x1024.size a ≤ S4x64x1024.size a)
    (inbRead : ∀ a, (k0_off6 c 1#32) a + S1x64x1024.size a ≤ S1x512x1024.size a)
    (inbStore : ∀ a, (k0_off3 c 3#32) a + S1x64x1024.size a ≤ S1x512x1024.size a)
    (inbq : ∀ a, (k0_off2 c 3#32) a + S64x1024.size a ≤ S512x1024.size a) (wSkip : Vec F S1x64x1024 .f32) (inbSkip : ∀ a, (k0_off5 c 2#32) a + S1x64x1024.size a ≤ S1x512x1024.size a) (inbLand : ∀ a, (![0, 0, 0] : Fin 3 → Nat) a + S1x64x1024.size a ≤ S4x64x1024.size a)
    (FS : Vec F S4x64x1024 .bf16)
    (hFS : FS = rstageM.view.writes (Elt F) fS
      ((⟨Rect.unit (s := S4x64x1024) ![1, 0, 0] S1x64x1024.size inbS,
          k0_pay21
            (View.readAt (Elt F) outM.view (Rect.unit (s := S1x512x1024) (k0_off6 c 1#32) S1x64x1024.size inbRead).toLoadRect
              (outM.view.writes (Elt F) g3
                ((⟨Rect.unit (s := S1x512x1024) (k0_off5 c 2#32) S1x64x1024.size inbSkip, wSkip⟩ : View.Piece (Elt F) S1x512x1024 .f32) :: (⟨Rect.unit (s := S1x512x1024) (k0_off3 c 3#32) S1x64x1024.size inbStore,
                    k0_pay15 (qLd g0 g1 (k0_off2 c 3#32) inbq) (k0_pay14 (qLd g0 g1 (k0_off2 c 3#32) inbq) (kvLd X ![0, 0, 0, 0] inb_S2x2x2048x128_S1x1x2048x128_0_0_0_0) (kvLd X ![1, 0, 0, 0] inb_S2x2x2048x128_S1x1x2048x128_1_0_0_0)) (kvLd X ![0, 1, 0, 0] inb_S2x2x2048x128_S1x1x2048x128_0_1_0_0) (kvLd X ![1, 1, 0, 0] inb_S2x2x2048x128_S1x1x2048x128_1_1_0_0) (woLd g2)⟩ : View.Piece (Elt F) S1x512x1024 .f32) :: L)))
            (View.readAt (Elt F) rlandM.view (Rect.unit (s := S4x64x1024) ![0, 0, 0] S1x64x1024.size inbLand).toLoadRect (rlandBuf P c))⟩ :
        View.Piece (Elt F) S4x64x1024 .bf16) :: LS)) :
    rstageM.view.readAt (Elt F) (rect4 1).toLoadRect FS = rst P 1 c := by
  subst hFS hP
  refine (readAt_writes_hit rstageM.view fS (rect4 1) _ LS [] (fun _ hp => absurd hp List.not_mem_nil)).trans ?_
  show k0_pay21 _ _ = k0_pay21 (Pc m c (sh 3 c)) (rst0 (Pc m) (sh 7 c))
  refine congrArg₂ k0_pay21 ?_ (read_rland0 (Pc m) c)
  rw [out_readAt_skip (sh 3 c) (sh 6 c) (off6_at1 c) (off5_at2 c) (sh_ne_sh 6 3 c (by decide)), out_readAt_here (sh 3 c) (off6_at1 c) (off3_at3 c)]
  exact cut3_val m c f0 g0 g1 g2 e0 e1 e2 X hX (sh 3 c) (off2_at3 c) _

set_option maxHeartbeats 4000000 in
theorem hv_r2_val (P : Dev nD → Dev nD → Vec F S1x64x1024 .f32) (hP : P = Pc m)
    (g3 : Vec F S1x512x1024 .f32) (L : List (View.Piece (Elt F) S1x512x1024 .f32))
    (fS : Vec F S4x64x1024 .bf16) (LS : List (View.Piece (Elt F) S4x64x1024 .bf16))
    (inbS : ∀ a, (![2, 0, 0] : Fin 3 → Nat) a + S1x64x1024.size a ≤ S4x64x1024.size a)
    (inbRead : ∀ a, (k0_off6 c 2#32) a + S1x64x1024.size a ≤ S1x512x1024.size a)
    (inbStore : ∀ a, (k0_off3 c 2#32) a + S1x64x1024.size a ≤ S1x512x1024.size a)
    (inbq : ∀ a, (k0_off2 c 2#32) a + S64x1024.size a ≤ S512x1024.size a) (wSkip : Vec F S1x64x1024 .f32) (inbSkip : ∀ a, (k0_off5 c 1#32) a + S1x64x1024.size a ≤ S1x512x1024.size a) (inbLand : ∀ a, (![1, 0, 0] : Fin 3 → Nat) a + S1x64x1024.size a ≤ S4x64x1024.size a)
    (FS : Vec F S4x64x1024 .bf16)
    (hFS : FS = rstageM.view.writes (Elt F) fS
      ((⟨Rect.unit (s := S4x64x1024) ![2, 0, 0] S1x64x1024.size inbS,
          k0_pay30
            (View.readAt (Elt F) outM.view (Rect.unit (s := S1x512x1024) (k0_off6 c 2#32) S1x64x1024.size inbRead).toLoadRect
              (outM.view.writes (Elt F) g3
                ((⟨Rect.unit (s := S1x512x1024) (k0_off5 c 1#32) S1x64x1024.size inbSkip, wSkip⟩ : View.Piece (Elt F) S1x512x1024 .f32) :: (⟨Rect.unit (s := S1x512x1024) (k0_off3 c 2#32) S1x64x1024.size inbStore,
                    k0_pay25 (k0_pay23 (qLd g0 g1 (k0_off2 c 2#32) inbq) (kvLd X ![0, 0, 0, 0] inb_S2x2x2048x128_S1x1x2048x128_0_0_0_0) (kvLd X ![1, 0, 0, 0] inb_S2x2x2048x128_S1x1x2048x128_1_0_0_0)) (k0_pay24 (qLd g0 g1 (k0_off2 c 2#32) inbq)) (kvLd X ![0, 1, 0, 0] inb_S2x2x2048x128_S1x1x2048x128_0_1_0_0) (kvLd X ![1, 1, 0, 0] inb_S2x2x2048x128_S1x1x2048x128_1_1_0_0) (woLd g2)⟩ : View.Piece (Elt F) S1x512x1024 .f32) :: L)))
            (View.readAt (Elt F) rlandM.view (Rect.unit (s := S4x64x1024) ![1, 0, 0] S1x64x1024.size inbLand).toLoadRect (rlandBuf P c))⟩ :
        View.Piece (Elt F) S4x64x1024 .bf16) :: LS)) :
    rstageM.view.readAt (Elt F) (rect4 2).toLoadRect FS = rst P 2 c := by
  subst hFS hP
  refine (readAt_writes_hit rstageM.view fS (rect4 2) _ LS [] (fun _ hp => absurd hp List.not_mem_nil)).trans ?_
  show k0_pay30 _ _ = k0_pay30 (Pc m c (sh 2 c)) (rst1 (Pc m) (sh 7 c))
  refine congrArg₂ k0_pay30 ?_ (read_rland1 (Pc m) c)
  rw [out_readAt_skip (sh 2 c) (sh 7 c) (off6_at2 c) (off5_at1 c) (sh_ne_sh 7 2 c (by decide)), out_readAt_here (sh 2 c) (off6_at2 c) (off3_at2 c)]
  exact cut5_val m c f0 g0 g1 g2 e0 e1 e2 X hX (sh 2 c) (off2_at2 c) _

end Stages

end Cert.KernelIdeal.Hand

end
-- ==== Proof.Bridge3L.lean ====
import proofs.«900750_g7700000000000751_dist_attn_cross_gqa_kvrep_htp_b1_sq512_skv2048_d1024_hq8_dh128_v7x_i8_bf16_1_alg».proof.Proof.Bridge2
import proofs.«900750_g7700000000000751_dist_attn_cross_gqa_kvrep_htp_b1_sq512_skv2048_d1024_hq8_dh128_v7x_i8_bf16_1_alg».proof.Proof.LoadValues
import proofs.«900750_g7700000000000751_dist_attn_cross_gqa_kvrep_htp_b1_sq512_skv2048_d1024_hq8_dh128_v7x_i8_bf16_1_alg».proof.Proof.WritesHead

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [∀ e, Nonempty (Elt F e)]
variable (m : (ℓ : Loc nD τ sig) → Buf (Elt F) ℓ)

theorem hv_l1_val (c : Dev nD) (f8 : Vec F S3x64x1024 .bf16) (g3 : Vec F S1x512x1024 .f32)
    (L8 : List (View.Piece (Elt F) S3x64x1024 .bf16)) (Lout : List (View.Piece (Elt F) S1x512x1024 .f32))
    (inbA : ∀ a, (k0_off7 c 1#32) a + S1x64x1024.size a ≤ S1x512x1024.size a)
    (inbB : ∀ a, (k0_off5 c 2#32) a + S1x64x1024.size a ≤ S1x512x1024.size a)
    (w : Vec F S1x64x1024 .f32) (hw : w = Pc m c (sh 6 c)) :
    lstageM.view.readAt (Elt F) (rect3 1).toLoadRect
      (lstageM.view.writes (Elt F) f8
        ((⟨rect3 1, k0_pay22
            (outM.view.readAt (Elt F) (Rect.unit (s := S1x512x1024) (k0_off7 c 1#32) S1x64x1024.size inbA).toLoadRect
              (outM.view.writes (Elt F) g3 ((⟨Rect.unit (s := S1x512x1024) (k0_off5 c 2#32) S1x64x1024.size inbB, w⟩ : View.Piece (Elt F) S1x512x1024 .f32) :: Lout)))
            (llandM.view.readAt (Elt F) (rect3 0).toLoadRect (llandBuf (Pc m) c))⟩ : View.Piece (Elt F) S3x64x1024 .bf16) :: L8))
      = lst (Pc m) 1 c := by
  rw [readAt_writes_head, out_readAt_here (sh 6 c) (off7_at1 c) (off5_at2 c), read_lland0 (Pc m) c, hw]
  rfl

theorem hv_l2_val (c : Dev nD) (f8 : Vec F S3x64x1024 .bf16) (g3 : Vec F S1x512x1024 .f32)
    (L8 : List (View.Piece (Elt F) S3x64x1024 .bf16)) (Lout : List (View.Piece (Elt F) S1x512x1024 .f32))
    (inbA : ∀ a, (k0_off7 c 2#32) a + S1x64x1024.size a ≤ S1x512x1024.size a)
    (inbB : ∀ a, (k0_off5 c 1#32) a + S1x64x1024.size a ≤ S1x512x1024.size a)
    (w : Vec F S1x64x1024 .f32) (hw : w = Pc m c (sh 7 c)) :
    lstageM.view.readAt (Elt F) (rect3 2).toLoadRect
      (lstageM.view.writes (Elt F) f8
        ((⟨rect3 2, k0_pay31
            (outM.view.readAt (Elt F) (Rect.unit (s := S1x512x1024) (k0_off7 c 2#32) S1x64x1024.size inbA).toLoadRect
              (outM.view.writes (Elt F) g3 ((⟨Rect.unit (s := S1x512x1024) (k0_off5 c 1#32) S1x64x1024.size inbB, w⟩ : View.Piece (Elt F) S1x512x1024 .f32) :: Lout)))
            (llandM.view.readAt (Elt F) (rect3 1).toLoadRect (llandBuf (Pc m) c))⟩ : View.Piece (Elt F) S3x64x1024 .bf16) :: L8))
      = lst (Pc m) 2 c := by
  rw [readAt_writes_head, out_readAt_here (sh 7 c) (off7_at2 c) (off5_at1 c), read_lland1 (Pc m) c, hw]
  rfl

end Cert.KernelIdeal.Hand

end
-- ==== Proof.Bridge3R.lean ====
import proofs.«900750_g7700000000000751_dist_attn_cross_gqa_kvrep_htp_b1_sq512_skv2048_d1024_hq8_dh128_v7x_i8_bf16_1_alg».proof.Proof.Bridge2
import proofs.«900750_g7700000000000751_dist_attn_cross_gqa_kvrep_htp_b1_sq512_skv2048_d1024_hq8_dh128_v7x_i8_bf16_1_alg».proof.Proof.LoadValues

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

section Stages
variable [∀ e, Nonempty (Elt F e)] (m : (ℓ : Loc nD τ sig) → Buf (Elt F) ℓ)
variable (c : Dev nD) (f0 : Vec F S2x2x2048x128 .f32) (g0 : Vec F S1x512x1024 .f32) (g1 g2 : Vec F S1024x1024 .f32)
  (e0 : g0 = xA m c) (e1 : g1 = wqA m c) (e2 : g2 = woA m c)
  (X : Vec F S2x2x2048x128 .f32) (hX : X = kvOf c (kA m c) (vA m c) f0)
include e0 e1 e2 hX

theorem r3_rows_skip (g3 : Vec F S1x512x1024 .f32) (L : List (View.Piece (Elt F) S1x512x1024 .f32))
    (inbRead : ∀ a, (k0_off6 c 3#32) a + S1x64x1024.size a ≤ S1x512x1024.size a)
    (inbStore : ∀ a, (k0_off3 c 1#32) a + S1x64x1024.size a ≤ S1x512x1024.size a)
    (inbq : ∀ a, (k0_off2 c 1#32) a + S64x1024.size a ≤ S512x1024.size a)
    (wSkip : Vec F S1x64x1024 .f32) (inbSkip : ∀ a, (k0_off9 c) a + S1x64x1024.size a ≤ S1x512x1024.size a) :
    View.readAt (Elt F) outM.view (Rect.unit (s := S1x512x1024) (k0_off6 c 3#32) S1x64x1024.size inbRead).toLoadRect
        (outM.view.writes (Elt F) g3
          ((⟨Rect.unit (s := S1x512x1024) (k0_off9 c) S1x64x1024.size inbSkip, wSkip⟩ : View.Piece (Elt F) S1x512x1024 .f32) ::
            (⟨Rect.unit (s := S1x512x1024) (k0_off3 c 1#32) S1x64x1024.size inbStore,
                    k0_pay34 (k0_pay32 (qLd g0 g1 (k0_off2 c 1#32) inbq) (kvLd X ![0, 0, 0, 0] inb_S2x2x2048x128_S1x1x2048x128_0_0_0_0) (kvLd X ![1, 0, 0, 0] inb_S2x2x2048x128_S1x1x2048x128_1_0_0_0)) (k0_pay33 (qLd g0 g1 (k0_off2 c 1#32) inbq)) (kvLd X ![0, 1, 0, 0] inb_S2x2x2048x128_S1x1x2048x128_0_1_0_0) (kvLd X ![1, 1, 0, 0] inb_S2x2x2048x128_S1x1x2048x128_1_1_0_0) (woLd g2)⟩ : View.Piece (Elt F) S1x512x1024 .f32) :: L))
      = Pc m c (sh 1 c) := by
  rw [out_readAt_skip (sh 1 c) c (off6_at3 c) (off9_row c) (sh_ne 1 (by decide) c).symm,
    out_readAt_here (sh 1 c) (off6_at3 c) (off3_at1 c)]
  exact cut7_val m c f0 g0 g1 g2 e0 e1 e2 X hX (sh 1 c) (off2_at1 c) _

omit e0 e1 e2 hX in

theorem r3_stage (P : Dev nD → Dev nD → Vec F S1x64x1024 .f32)
    (fS : Vec F S4x64x1024 .bf16) (LS : List (View.Piece (Elt F) S4x64x1024 .bf16))
    (inbS : ∀ a, (![3, 0, 0] : Fin 3 → Nat) a + S1x64x1024.size a ≤ S4x64x1024.size a)
    (a : Vec F S1x64x1024 .f32) (b : Vec F S1x64x1024 .bf16) (ha : a = P c (sh 1 c)) (hb : b = rst2 P (sh 7 c)) :
    rstageM.view.readAt (Elt F) (rect4 3).toLoadRect
        (rstageM.view.writes (Elt F) fS
          ((⟨Rect.unit (s := S4x64x1024) ![3, 0, 0] S1x64x1024.size inbS, k0_pay39 a b⟩ :
            View.Piece (Elt F) S4x64x1024 .bf16) :: LS))
      = rst P 3 c := by
  subst ha hb
  exact readAt_writes_hit rstageM.view fS (rect4 3) (rst3 P c) LS [] (fun _ hp => absurd hp List.not_mem_nil)

theorem hv_r3_skip_val (P : Dev nD → Dev nD → Vec F S1x64x1024 .f32) (hP : P = Pc m)
    (g3 : Vec F S1x512x1024 .f32) (L : List (View.Piece (Elt F) S1x512x1024 .f32))
    (fS : Vec F S4x64x1024 .bf16) (LS : List (View.Piece (Elt F) S4x64x1024 .bf16))
    (inbS : ∀ a, (![3, 0, 0] : Fin 3 → Nat) a + S1x64x1024.size a ≤ S4x64x1024.size a)
    (inbRead : ∀ a, (k0_off6 c 3#32) a + S1x64x1024.size a ≤ S1x512x1024.size a)
    (inbStore : ∀ a, (k0_off3 c 1#32) a + S1x64x1024.size a ≤ S1x512x1024.size a)
    (inbq : ∀ a, (k0_off2 c 1#32) a + S64x1024.size a ≤ S512x1024.size a)
    (wSkip : Vec F S1x64x1024 .f32) (inbSkip : ∀ a, (k0_off9 c) a + S1x64x1024.size a ≤ S1x512x1024.size a)
    (inbLand : ∀ a, (![2, 0, 0] : Fin 3 → Nat) a + S1x64x1024.size a ≤ S4x64x1024.size a)
    (FS : Vec F S4x64x1024 .bf16)
    (hFS : FS = rstageM.view.writes (Elt F) fS
      ((⟨Rect.unit (s := S4x64x1024) ![3, 0, 0] S1x64x1024.size inbS,
          k0_pay39
            (View.readAt (Elt F) outM.view (Rect.unit (s := S1x512x1024) (k0_off6 c 3#32) S1x64x1024.size inbRead).toLoadRect
              (outM.view.writes (Elt F) g3
                ((⟨Rect.unit (s := S1x512x1024) (k0_off9 c) S1x64x1024.size inbSkip, wSkip⟩ : View.Piece (Elt F) S1x512x1024 .f32) ::
                  (⟨Rect.unit (s := S1x512x1024) (k0_off3 c 1#32) S1x64x1024.size inbStore,
                    k0_pay34 (k0_pay32 (qLd g0 g1 (k0_off2 c 1#32) inbq) (kvLd X ![0, 0, 0, 0] inb_S2x2x2048x128_S1x1x2048x128_0_0_0_0) (kvLd X ![1, 0, 0, 0] inb_S2x2x2048x128_S1x1x2048x128_1_0_0_0)) (k0_pay33 (qLd g0 g1 (k0_off2 c 1#32) inbq)) (kvLd X ![0, 1, 0, 0] inb_S2x2x2048x128_S1x1x2048x128_0_1_0_0) (kvLd X ![1, 1, 0, 0] inb_S2x2x2048x128_S1x1x2048x128_1_1_0_0) (woLd g2)⟩ : View.Piece (Elt F) S1x512x1024 .f32) :: L)))
            (View.readAt (Elt F) rlandM.view (Rect.unit (s := S4x64x1024) ![2, 0, 0] S1x64x1024.size inbLand).toLoadRect (rlandBuf P c))⟩ :
        View.Piece (Elt F) S4x64x1024 .bf16) :: LS)) :
    rstageM.view.readAt (Elt F) (rect4 3).toLoadRect FS = rst P 3 c := by
  subst hFS hP
  exact r3_stage (F := F) c (Pc m) fS LS inbS _ _
    (r3_rows_skip m c f0 g0 g1 g2 e0 e1 e2 X hX g3 L inbRead inbStore inbq wSkip inbSkip)
    (read_rland2 (Pc m) c)

end Stages

end Cert.KernelIdeal.Hand

end
-- ==== Proof.Body.lean ====
import proofs.«900750_g7700000000000751_dist_attn_cross_gqa_kvrep_htp_b1_sq512_skv2048_d1024_hq8_dh128_v7x_i8_bf16_1_alg».proof.Proof.Iface
import proofs.«900750_g7700000000000751_dist_attn_cross_gqa_kvrep_htp_b1_sq512_skv2048_d1024_hq8_dh128_v7x_i8_bf16_1_alg».proof.Proof.SlotSplit
import proofs.«900750_g7700000000000751_dist_attn_cross_gqa_kvrep_htp_b1_sq512_skv2048_d1024_hq8_dh128_v7x_i8_bf16_1_alg».proof.Proof.SendRules
import proofs.«900750_g7700000000000751_dist_attn_cross_gqa_kvrep_htp_b1_sq512_skv2048_d1024_hq8_dh128_v7x_i8_bf16_1_alg».proof.Proof.WaitRules
import proofs.«900750_g7700000000000751_dist_attn_cross_gqa_kvrep_htp_b1_sq512_skv2048_d1024_hq8_dh128_v7x_i8_bf16_1_alg».proof.Proof.InvProj
import proofs.«900750_g7700000000000751_dist_attn_cross_gqa_kvrep_htp_b1_sq512_skv2048_d1024_hq8_dh128_v7x_i8_bf16_1_alg».proof.Proof.PostIntro
import proofs.«900750_g7700000000000751_dist_attn_cross_gqa_kvrep_htp_b1_sq512_skv2048_d1024_hq8_dh128_v7x_i8_bf16_1_alg».proof.Proof.Finish
import proofs.«900750_g7700000000000751_dist_attn_cross_gqa_kvrep_htp_b1_sq512_skv2048_d1024_hq8_dh128_v7x_i8_bf16_1_alg».proof.Proof.Pt
import proofs.«900750_g7700000000000751_dist_attn_cross_gqa_kvrep_htp_b1_sq512_skv2048_d1024_hq8_dh128_v7x_i8_bf16_1_alg».proof.Proof.Partial
import proofs.«900750_g7700000000000751_dist_attn_cross_gqa_kvrep_htp_b1_sq512_skv2048_d1024_hq8_dh128_v7x_i8_bf16_1_alg».proof.Proof.BodyLemmas
import proofs.«900750_g7700000000000751_dist_attn_cross_gqa_kvrep_htp_b1_sq512_skv2048_d1024_hq8_dh128_v7x_i8_bf16_1_alg».proof.Proof.LoadValues
import proofs.«900750_g7700000000000751_dist_attn_cross_gqa_kvrep_htp_b1_sq512_skv2048_d1024_hq8_dh128_v7x_i8_bf16_1_alg».proof.Proof.WritesHead
import proofs.«900750_g7700000000000751_dist_attn_cross_gqa_kvrep_htp_b1_sq512_skv2048_d1024_hq8_dh128_v7x_i8_bf16_1_alg».proof.Proof.GatValues
import proofs.«900750_g7700000000000751_dist_attn_cross_gqa_kvrep_htp_b1_sq512_skv2048_d1024_hq8_dh128_v7x_i8_bf16_1_alg».proof.Proof.EndValues
import proofs.«900750_g7700000000000751_dist_attn_cross_gqa_kvrep_htp_b1_sq512_skv2048_d1024_hq8_dh128_v7x_i8_bf16_1_alg».proof.Proof.OutFinal
import proofs.«900750_g7700000000000751_dist_attn_cross_gqa_kvrep_htp_b1_sq512_skv2048_d1024_hq8_dh128_v7x_i8_bf16_1_alg».proof.Proof.Bridge
import proofs.«900750_g7700000000000751_dist_attn_cross_gqa_kvrep_htp_b1_sq512_skv2048_d1024_hq8_dh128_v7x_i8_bf16_1_alg».proof.Proof.Bridge2
import proofs.«900750_g7700000000000751_dist_attn_cross_gqa_kvrep_htp_b1_sq512_skv2048_d1024_hq8_dh128_v7x_i8_bf16_1_alg».proof.Proof.Bridge3
import proofs.«900750_g7700000000000751_dist_attn_cross_gqa_kvrep_htp_b1_sq512_skv2048_d1024_hq8_dh128_v7x_i8_bf16_1_alg».proof.Proof.Bridge3L
import proofs.«900750_g7700000000000751_dist_attn_cross_gqa_kvrep_htp_b1_sq512_skv2048_d1024_hq8_dh128_v7x_i8_bf16_1_alg».proof.Proof.Bridge3R

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 8000000 in
theorem sound_body_at (P : Dev nD → Dev nD → Vec F S1x64x1024 .f32) (hP : P = Pc m) : SoundBody m P := by
  intro K c Kt
  unfold bodyPre ghost creds scratch11 locals0 kvPts
  iintro ⟨⟨⟨⟨#HI, ⟨HA0, HA1, HA2, HA3, HA4, HA5, HA6, HA7, HA8, HA9, HA10, HA11, HA12, HA13, HA14, HA15, HA16, HA17, HA18, HA19, HA20, HA21, HA22, HA23, HA24, HA25, HA26, HA27, HA28⟩, ⟨#HR0, #HR1, #HR2, #HR3, #HR4, #HR5, #HR6, #HR7, #HR8, #HR9, #HR10, #HR11, #HR12, #HR13, #HR14, #HR15, #HR16, #HR17, #HR18, #HR19, #HR20, #HR21, #HR22, #HR23, #HR24, #HR25, #HR26, #HR27, #HR28, #HR29, #HR30, #HR31, #HR32, #HR33, #HR34, #HR35, #HR36, #HR37, #HR38, #HR39, #HR40, #HR41, #HR42, #HR43, #HR44⟩, HT0, HT1, HT2, HT3, HT4, HT5, HT6, HT7, HT8, HT9, HT10, HT11, HT12, HT13, HT14, HT15, HT16, HT17, HT18, HT19, HT20, HT21, HT22, HT23, HT24, HT25, HT26, HT27, HT28, HT29⟩,
      ⟨HC0, HC1, HC2, HC3, HC4, HC5, HC6, HC7, HC8, HC9, HC10, HC11, HC12, HC13, HC14⟩, #Hlev, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, ⟨Hs4, Hs5, Hs6, Hs7⟩, ⟨Hk, Hv⟩⟩,
      Ho, ⟨%d0, %g0, %hg0, Hx⟩, ⟨%d1, %g1, %hg1, Hwq⟩, ⟨%d2, %g2, %hg2, Hwo⟩, ⟨%d3, %g3, %hg3, Hout⟩⟩, Hkont⟩
  have e0 : g0 = xA m c := hg0.trans ((before_in0 m P c t₀ d0).trans (iblk0_eq m c t₀))
  have e1 : g1 = wqA m c := hg1.trans ((before_in1 m P c t₀ d1).trans (iblk1_eq m c t₀))
  have e2 : g2 = woA m c := hg2.trans ((before_in2 m P c t₀ d2).trans (iblk2_eq m c t₀))
  unfold Dat.owesAt Pipeline.owesWithin
  icases Ho with ⟨%W, %hW, HO⟩
  rw [show (dats m P 0 c).owed t₀.castSucc = owe 0 c from rfl]

  ihave Hx := (Entails.of_eq (show (_ : sProp 𝕄) = pt c xM g0 from rfl)) $$ Hx
  ihave Hwq := (Entails.of_eq (show (_ : sProp 𝕄) = pt c wqM g1 from rfl)) $$ Hwq
  ihave Hwo := (Entails.of_eq (show (_ : sProp 𝕄) = pt c woM g2 from rfl)) $$ Hwo
  ihave Hout := (Entails.of_eq (show (_ : sProp 𝕄) = pt c outM g3 from rfl)) $$ Hout
  ihave Hk := (Entails.of_eq (show (_ : sProp 𝕄) = pt c kM (m ((c : Thread nD τ).loc main_arg3)) from rfl)) $$ Hk
  ihave Hv := (Entails.of_eq (show (_ : sProp 𝕄) = pt c vM (m ((c : Thread nD τ).loc main_arg4)) from rfl)) $$ Hv
  ihave H0 := (Entails.of_eq (show (_ : sProp 𝕄) = pt c kvM f0 from rfl)) $$ H0
  ihave H1 := (Entails.of_eq (show (_ : sProp 𝕄) = pt c wqbM f1 from rfl)) $$ H1
  ihave H2 := (Entails.of_eq (show (_ : sProp 𝕄) = pt c wobM f2 from rfl)) $$ H2
  ihave H3 := (Entails.of_eq (show (_ : sProp 𝕄) = pt c kvbM f3 from rfl)) $$ H3
  ihave H4 := (Entails.of_eq (show (_ : sProp 𝕄) = pt c qM f4 from rfl)) $$ H4
  ihave H6 := (Entails.of_eq (show (_ : sProp 𝕄) = pt c rstageM f6 from rfl)) $$ H6
  ihave H8 := (Entails.of_eq (show (_ : sProp 𝕄) = pt c lstageM f8 from rfl)) $$ H8
  ihave H9 := (Entails.of_eq (show (_ : sProp 𝕄) = pt c ownM f9 from rfl)) $$ H9

  ihave H5' := (Entails.of_eq (rland_split (F := F) c f5)) $$ H5
  ihave H7' := (Entails.of_eq (lland_split (F := F) c f7)) $$ H7
  ihave H10' := (Entails.of_eq (agland_split (F := F) c f10)) $$ H10
  icases H5' with ⟨H5a, H5b, H5c, H5d⟩
  icases H7' with ⟨H7a, H7b, H7c⟩
  icases H10' with ⟨H10a, H10b, H10c, H10d, H10e, H10f, H10g⟩
  ihave H5a := (Entails.of_eq (show rlandPt 0 c f5 = ((slot4 rlandM 0).view.loc (c : Thread nD τ) ↦[(slot4 rlandM 0).view.set]{fullShare} f5 : sProp 𝕄) from rfl)) $$ H5a
  ihave H5b := (Entails.of_eq (show rlandPt 1 c f5 = ((slot4 rlandM 1).view.loc (c : Thread nD τ) ↦[(slot4 rlandM 1).view.set]{fullShare} f5 : sProp 𝕄) from rfl)) $$ H5b
  ihave H5c := (Entails.of_eq (show rlandPt 2 c f5 = ((slot4 rlandM 2).view.loc (c : Thread nD τ) ↦[(slot4 rlandM 2).view.set]{fullShare} f5 : sProp 𝕄) from rfl)) $$ H5c
  ihave H5d := (Entails.of_eq (show rlandPt 3 c f5 = ((slot4 rlandM 3).view.loc (c : Thread nD τ) ↦[(slot4 rlandM 3).view.set]{fullShare} f5 : sProp 𝕄) from rfl)) $$ H5d
  ihave H7a := (Entails.of_eq (show llandPt 0 c f7 = ((slot3 llandM 0).view.loc (c : Thread nD τ) ↦[(slot3 llandM 0).view.set]{fullShare} f7 : sProp 𝕄) from rfl)) $$ H7a
  ihave H7b := (Entails.of_eq (show llandPt 1 c f7 = ((slot3 llandM 1).view.loc (c : Thread nD τ) ↦[(slot3 llandM 1).view.set]{fullShare} f7 : sProp 𝕄) from rfl)) $$ H7b
  ihave H7c := (Entails.of_eq (show llandPt 2 c f7 = ((slot3 llandM 2).view.loc (c : Thread nD τ) ↦[(slot3 llandM 2).view.set]{fullShare} f7 : sProp 𝕄) from rfl)) $$ H7c
  ihave H10a := (Entails.of_eq (show aglandPt 0 c f10 = ((slot7 aglandM 0).view.loc (c : Thread nD τ) ↦[(slot7 aglandM 0).view.set]{fullShare} f10 : sProp 𝕄) from rfl)) $$ H10a
  ihave H10b := (Entails.of_eq (show aglandPt 1 c f10 = ((slot7 aglandM 1).view.loc (c : Thread nD τ) ↦[(slot7 aglandM 1).view.set]{fullShare} f10 : sProp 𝕄) from rfl)) $$ H10b
  ihave H10c := (Entails.of_eq (show aglandPt 2 c f10 = ((slot7 aglandM 2).view.loc (c : Thread nD τ) ↦[(slot7 aglandM 2).view.set]{fullShare} f10 : sProp 𝕄) from rfl)) $$ H10c
  ihave H10d := (Entails.of_eq (show aglandPt 3 c f10 = ((slot7 aglandM 3).view.loc (c : Thread nD τ) ↦[(slot7 aglandM 3).view.set]{fullShare} f10 : sProp 𝕄) from rfl)) $$ H10d
  ihave H10e := (Entails.of_eq (show aglandPt 4 c f10 = ((slot7 aglandM 4).view.loc (c : Thread nD τ) ↦[(slot7 aglandM 4).view.set]{fullShare} f10 : sProp 𝕄) from rfl)) $$ H10e
  ihave H10f := (Entails.of_eq (show aglandPt 5 c f10 = ((slot7 aglandM 5).view.loc (c : Thread nD τ) ↦[(slot7 aglandM 5).view.set]{fullShare} f10 : sProp 𝕄) from rfl)) $$ H10f
  ihave H10g := (Entails.of_eq (show aglandPt 6 c f10 = ((slot7 aglandM 6).view.loc (c : Thread nD τ) ↦[(slot7 aglandM 6).view.set]{fullShare} f10 : sProp 𝕄) from rfl)) $$ H10g

  set_option sl_exec.dmaWindow true in
  sl_exec_parts

  ihave #HIbl := (inv_barL P K c) $$ HI
  ihave #HIbr := (inv_barR P K c) $$ HI
  ihave #HIb := (inv_bar P K c) $$ HI
  iapply (wp_sigL P c _ (dev1_eq c) _ (by decide) (owe 1 c) W) $$ [HO HT0 H5a H5b H5c H5d H10a H10b H10c H10d]
  · isplitr; · iexact HIbl
    isplitl [HO]; · iexact HO
    isplitl [HT0]; · iexact HT0
    isplitl [H5a H5b H5c H5d H10a H10b H10c H10d]
    · isplitl [H5a]; · iexists _; iexact H5a
      isplitl [H5b]; · iexists _; iexact H5b
      isplitl [H5c]; · iexists _; iexact H5c
      isplitl [H5d]; · iexists _; iexact H5d
      isplitl [H10a]; · iexists _; iexact H10a
      isplitl [H10b]; · iexists _; iexact H10b
      isplitl [H10c]; · iexists _; iexact H10c
      iexists _; iexact H10d
    · iexact HR29
  iintro HO
  set_option sl_exec.dmaWindow true in
  sl_exec_parts

  iapply (wp_sigR P c _ (dev2_eq c) _ (by decide) (owe 2 c) W) $$ [HO HT1 H7a H7b H7c H10g H10f H10e]
  · isplitr; · iexact HIbr
    isplitl [HO]; · iexact HO
    isplitl [HT1]; · iexact HT1
    isplitl [H7a H7b H7c H10g H10f H10e]
    · isplitl [H7a]; · iexists _; iexact H7a
      isplitl [H7b]; · iexists _; iexact H7b
      isplitl [H7c]; · iexists _; iexact H7c
      isplitl [H10g]; · iexists _; iexact H10g
      isplitl [H10f]; · iexists _; iexact H10f
      iexists _; iexact H10e
    · iexact HR30
  iintro HO
  set_option sl_exec.dmaWindow true in
  sl_exec_parts

  iapply (wp_barwait P c _ (by decide) (owe 2 c) W) $$ [HC0 HO HA0]
  · isplitr; · iexact HIb
    isplitl [HC0]; · iexact HC0
    isplitl [HO]; · iexact HO
    isplitr; · iapply (mayWait_bar c); iexact Hlev
    iexact HA0
  iintro ⟨HO, HA0, #HRb1, ⟨⟨%fl0, Hl0⟩, ⟨%fl1, Hl1⟩, ⟨%fl2, Hl2⟩, ⟨%fa6, Ha6⟩, ⟨%fa5, Ha5⟩, ⟨%fa4, Ha4⟩⟩, ⟨%fr0, Hr0⟩, ⟨%fr1, Hr1⟩, ⟨%fr2, Hr2⟩, ⟨%fr3, Hr3⟩, ⟨%fa0, Ha0⟩, ⟨%fa1, Ha1⟩, ⟨%fa2, Ha2⟩, ⟨%fa3, Ha3⟩⟩
  have hmwL4 := mayWait_dma0 (F := F) c (dq 4) (by decide) 2
  have hmwL5 := mayWait_dma0 (F := F) c (dq 5) (by decide) 2
  have hmwL6 := mayWait_dma0 (F := F) c (dq 6) (by decide) 2
  have hmwL7 := mayWait_dma0 (F := F) c (dq 7) (by decide) 2
  set_option sl_exec.dmaWindow true in
  sl_exec_parts

  ihave H6' := (rstage_open (F := F) c _) $$ H6
  icases H6' with ⟨%F6, %hF6, H6a, H6b, H6c, H6d⟩
  have hv_r0 : (rstageM : Memref sig .tc .vmem S4x64x1024 .bf16).view.readAt (Elt F) (rect4 0).toLoadRect F6 = rst P 0 c := by
    rw [hF6, hP]; sl_unfold_run_names
    refine (readAt_writes_hit rstageM.view f6 (rect4 0) _ [] [] (fun _ hp => absurd hp List.not_mem_nil)).trans ?_
    show k0_pay12 _ = k0_pay12 (Pc m c (sh 4 c))
    refine congrArg k0_pay12 ?_
    rw [out_readAt_skip (sh 4 c) (sh 5 c) (off6_at0 c) (off5_at3 c) (sh_ne_sh 5 4 c (by decide)), out_readAt_here (sh 4 c) (off6_at0 c) (off3_at4 c)]
    exact cut1_val m c f0 g0 g1 g2 e0 e1 e2 _ rfl (sh 4 c) (off2_at4 c) _
  have hfs_r0 := rstage_agree0 P c F6 hv_r0
  iapply (wp_send_with P c _ (sh 1 c) (dev3_eq c) 8 12 (by decide) (by decide) (by decide) (by decide) (slot4 rstageM 0) (slot4 rlandM 0) (sem4 cc0_scratch12 0) (sem4 cc0_scratch13 0) (by decide) (by decide) (fullShare) (rstageBuf P c) _ rfl (hpay_rsend0 P c) (hpay_rrecv0 P c) F6 hfs_r0 fr0 _ (owe 3 c)) $$ [H6a Hr0 Ha5 Ha4 HO HT2 HT3]
  · isplitr; · iapply (inv_own8 P K c); iexact HI
    isplitr; · iapply (inv_r0 P K c); iexact HI
    isplitl [H6a]; · iexact H6a
    isplitl [Hr0 Ha5 Ha4]
    · isplitl [Hr0]; · iexact Hr0
      isplitl [Ha5]; · iapply (agP_of (F := F) (sh 7 c) 5 fa5); iexact Ha5
      iapply (agP_of (F := F) (sh 7 c) 4 fa4); iexact Ha4
    isplitl [HO]; · iexact HO
    isplitl [HT2]; · iexact HT2
    isplitr; · iexact HR1
    isplitl [HT3]; · iexact HT3
    iexact HR31
  iintro ⟨HCs8, HO⟩
  set_option sl_exec.dmaWindow true in
  sl_exec_parts

  ihave H8' := (lstage_open (F := F) c _) $$ H8
  icases H8' with ⟨%F8, %hF8, H8a, H8b, H8c⟩
  have hv_l0 : (lstageM : Memref sig .tc .vmem S3x64x1024 .bf16).view.readAt (Elt F) (rect3 0).toLoadRect F8 = lst P 0 c := by
    rw [hF8, hP]; sl_unfold_run_names
    refine (readAt_writes_hit lstageM.view f8 (rect3 0) _ [] [] (fun _ hp => absurd hp List.not_mem_nil)).trans ?_
    show k0_pay13 _ = k0_pay13 (Pc m c (sh 5 c))
    refine congrArg k0_pay13 ?_
    rw [out_readAt_here (sh 5 c) (off7_at0 c) (off5_at3 c)]
    exact cut2_val m c f0 g0 g1 g2 e0 e1 e2 _ rfl (sh 5 c) (off4_at3 c) _
  have hfs_l0 := lstage_agree0 P c F8 hv_l0
  iapply (wp_send_with P c _ (sh 7 c) (dev4_eq c) 16 19 (by decide) (by decide) (by decide) (by decide) (slot3 lstageM 0) (slot3 llandM 0) (sem3 cc0_scratch14 0) (sem3 cc0_scratch15 0) (by decide) (by decide) (fullShare) (lstageBuf P c) _ rfl (hpay_lsend0 P c) (hpay_lrecv0 P c) F8 hfs_l0 fl0 _ (owe 4 c)) $$ [H8a Hl0 Ha1 Ha2 Ha3 HO HT4 HT5]
  · isplitr; · iapply (inv_own16 P K c); iexact HI
    isplitr; · iapply (inv_l0 P K c); iexact HI
    isplitl [H8a]; · iexact H8a
    isplitl [Hl0 Ha1 Ha2 Ha3]
    · isplitl [Hl0]; · iexact Hl0
      isplitl [Ha1]; · iapply (agP_of (F := F) (sh 1 c) 1 fa1); iexact Ha1
      isplitl [Ha2]; · iapply (agP_of (F := F) (sh 1 c) 2 fa2); iexact Ha2
      iapply (agP_of (F := F) (sh 1 c) 3 fa3); iexact Ha3
    isplitl [HO]; · iexact HO
    isplitl [HT4]; · iexact HT4
    isplitr; · iexact HR9
    isplitl [HT5]; · iexact HT5
    iexact HR35
  iintro ⟨HCs16, HO⟩
  set_option sl_exec.dmaWindow true in
  sl_exec_parts

  have hmw := mayWait_dma0 (F := F) c (dq 16) (by decide) 4
  iapply (wp_wait_cell P c 16 (by decide) (by decide) (sem3 cc0_scratch14 0) (by decide) (payload_lsend0 P c false) (by rfl) (owe 4 c) _) $$ [HCs16 HO HA9]
  · isplitr; · iapply (inv_own16 P K c); iexact HI
    isplitl [HCs16]; · iexact HCs16
    isplitl [HO]; · iexact HO
    isplitr; · iapply hmw; iexact Hlev
    iexact HA9
  clear hmw
  iintro ⟨HO, HA9, #HR9n, H8a⟩
  ihave H8a := (Entails.of_eq (pointsTo_congr (fun i hi => (hfs_l0 i hi).symm))) $$ H8a
  ihave H8 := (lstage_close (F := F) c F8) $$ [H8a H8b H8c]
  · isplitl [H8a]; · iexact H8a
    isplitl [H8b]; · iexact H8b
    iexact H8c
  subst hF8
  set_option sl_exec.dmaWindow true in
  sl_exec_parts

  have hmw := mayWait_lrecv0 (F := F) c
  iapply (wp_wait_cell P c 19 (by decide) (by decide) (sem3 cc0_scratch15 0) (by decide) (payload_lrecv0 P c false) (by rfl) (owe 4 c) _) $$ [HC5 HO HA12]
  · isplitr; · iapply (inv_own19 P K c); iexact HI
    isplitl [HC5]; · iexact HC5
    isplitl [HO]; · iexact HO
    isplitr; · iapply hmw; iexact Hlev
    iexact HA12
  clear hmw
  iintro ⟨HO, HA12, #HR12n, Hll0, ⟨%fd1, Hd1⟩, ⟨%fb2, Hb2⟩, ⟨%fb3, Hb3⟩⟩
  set_option sl_exec.dmaWindow true in
  sl_exec_parts

  have hmw := mayWait_dma0 (F := F) c (dq 8) (by decide) 4
  iapply (wp_wait_cell P c 8 (by decide) (by decide) (sem4 cc0_scratch12 0) (by decide) (payload_rsend0 P c false) (by rfl) (owe 4 c) _) $$ [HCs8 HO HA1]
  · isplitr; · iapply (inv_own8 P K c); iexact HI
    isplitl [HCs8]; · iexact HCs8
    isplitl [HO]; · iexact HO
    isplitr; · iapply hmw; iexact Hlev
    iexact HA1
  clear hmw
  iintro ⟨HO, HA1, #HR1n, H6a⟩
  ihave H6a := (Entails.of_eq (pointsTo_congr (fun i hi => (hfs_r0 i hi).symm))) $$ H6a
  ihave H6 := (rstage_close (F := F) c F6) $$ [H6a H6b H6c H6d]
  · isplitl [H6a]; · iexact H6a
    isplitl [H6b]; · iexact H6b
    isplitl [H6c]; · iexact H6c
    iexact H6d
  subst hF6
  set_option sl_exec.dmaWindow true in
  sl_exec_parts

  have hmw := mayWait_rrecv0 (F := F) c
  iapply (wp_wait_cell P c 12 (by decide) (by decide) (sem4 cc0_scratch13 0) (by decide) (payload_rrecv0 P c false) (by rfl) (owe 4 c) _) $$ [HC1 HO HA5]
  · isplitr; · iapply (inv_own12 P K c); iexact HI
    isplitl [HC1]; · iexact HC1
    isplitl [HO]; · iexact HO
    isplitr; · iapply hmw; iexact Hlev
    iexact HA5
  clear hmw
  iintro ⟨HO, HA5, #HR5n, Hrl0, ⟨%fd5, Hd5⟩, ⟨%fc4, Hc4⟩⟩
  set_option sl_exec.dmaWindow true in
  sl_exec_parts

  ihave H6' := (rstage_open (F := F) c _) $$ H6
  icases H6' with ⟨%F6, %hF6, H6a, H6b, H6c, H6d⟩
  have hv_r1 : (rstageM : Memref sig .tc .vmem S4x64x1024 .bf16).view.readAt (Elt F) (rect4 1).toLoadRect F6 = rst P 1 c := hv_r1_val m c f0 g0 g1 g2 e0 e1 e2 _ rfl P hP _ _ _ _ _ _ _ _ _ _ _ F6 hF6
  have hfs_r1 := rstage_agree1 P c F6 hv_r1
  iapply (wp_send_with P c _ (sh 1 c) (dev5_eq c) 9 13 (by decide) (by decide) (by decide) (by decide) (slot4 rstageM 1) (slot4 rlandM 1) (sem4 cc0_scratch12 1) (sem4 cc0_scratch13 1) (by decide) (by decide) (fullShare) (rstageBuf P c) _ rfl (hpay_rsend1 P c) (hpay_rrecv1 P c) F6 hfs_r1 fr1 _ (owe 5 c)) $$ [H6b Hr1 Hc4 HO HT6 HT7]
  · isplitr; · iapply (inv_own9 P K c); iexact HI
    isplitr; · iapply (inv_r1 P K c); iexact HI
    isplitl [H6b]; · iexact H6b
    isplitl [Hr1 Hc4]
    · isplitl [Hr1]; · iexact Hr1
      iapply (agP_of (F := F) (sh 6 c) 4 fc4); iexact Hc4
    isplitl [HO]; · iexact HO
    isplitl [HT6]; · iexact HT6
    isplitr; · iexact HR2
    isplitl [HT7]; · iexact HT7
    iexact HR32
  iintro ⟨HCs9, HO⟩
  set_option sl_exec.dmaWindow true in
  sl_exec_parts

  ihave H8' := (lstage_open (F := F) c _) $$ H8
  icases H8' with ⟨%F8, %hF8, H8a, H8b, H8c⟩
  have hv_l1 : (lstageM : Memref sig .tc .vmem S3x64x1024 .bf16).view.readAt (Elt F) (rect3 1).toLoadRect F8 = lst P 1 c := by
    rw [hF8, hP]
    exact hv_l1_val m c f8 g3 _ _ _ _ _ (cut4_val m c f0 g0 g1 g2 e0 e1 e2 _ rfl (sh 6 c) (off4_at2 c) _)
  have hfs_l1 := lstage_agree1 P c F8 hv_l1
  iapply (wp_send_with P c _ (sh 7 c) (dev6_eq c) 17 20 (by decide) (by decide) (by decide) (by decide) (slot3 lstageM 1) (slot3 llandM 1) (sem3 cc0_scratch14 1) (sem3 cc0_scratch15 1) (by decide) (by decide) (fullShare) (lstageBuf P c) _ rfl (hpay_lsend1 P c) (hpay_lrecv1 P c) F8 hfs_l1 fl1 _ (owe 6 c)) $$ [H8b Hl1 Hb2 Hb3 HO HT8 HT9]
  · isplitr; · iapply (inv_own17 P K c); iexact HI
    isplitr; · iapply (inv_l1 P K c); iexact HI
    isplitl [H8b]; · iexact H8b
    isplitl [Hl1 Hb2 Hb3]
    · isplitl [Hl1]; · iexact Hl1
      isplitl [Hb2]; · iapply (agP_of (F := F) (sh 2 c) 2 fb2); iexact Hb2
      iapply (agP_of (F := F) (sh 2 c) 3 fb3); iexact Hb3
    isplitl [HO]; · iexact HO
    isplitl [HT8]; · iexact HT8
    isplitr; · iexact HR10
    isplitl [HT9]; · iexact HT9
    iexact HR36
  iintro ⟨HCs17, HO⟩
  set_option sl_exec.dmaWindow true in
  sl_exec_parts

  have hmw := mayWait_dma0 (F := F) c (dq 17) (by decide) 6
  iapply (wp_wait_cell P c 17 (by decide) (by decide) (sem3 cc0_scratch14 1) (by decide) (payload_lsend1 P c false) (by rfl) (owe 6 c) _) $$ [HCs17 HO HA10]
  · isplitr; · iapply (inv_own17 P K c); iexact HI
    isplitl [HCs17]; · iexact HCs17
    isplitl [HO]; · iexact HO
    isplitr; · iapply hmw; iexact Hlev
    iexact HA10
  clear hmw
  iintro ⟨HO, HA10, #HR10n, H8b⟩
  ihave H8b := (Entails.of_eq (pointsTo_congr (fun i hi => (hfs_l1 i hi).symm))) $$ H8b
  ihave H8 := (lstage_close (F := F) c F8) $$ [H8a H8b H8c]
  · isplitl [H8a]; · iexact H8a
    isplitl [H8b]; · iexact H8b
    iexact H8c
  subst hF8
  set_option sl_exec.dmaWindow true in
  sl_exec_parts

  have hmw := mayWait_lrecv1 (F := F) c
  iapply (wp_wait_cell P c 20 (by decide) (by decide) (sem3 cc0_scratch15 1) (by decide) (payload_lrecv1 P c false) (by rfl) (owe 6 c) _) $$ [HC6 HO HA13]
  · isplitr; · iapply (inv_own20 P K c); iexact HI
    isplitl [HC6]; · iexact HC6
    isplitl [HO]; · iexact HO
    isplitr; · iapply hmw; iexact Hlev
    iexact HA13
  clear hmw
  iintro ⟨HO, HA13, #HR13n, Hll1, ⟨%fd2, Hd2⟩, ⟨%fe3, He3⟩⟩
  set_option sl_exec.dmaWindow true in
  sl_exec_parts

  have hmw := mayWait_dma0 (F := F) c (dq 9) (by decide) 6
  iapply (wp_wait_cell P c 9 (by decide) (by decide) (sem4 cc0_scratch12 1) (by decide) (payload_rsend1 P c false) (by rfl) (owe 6 c) _) $$ [HCs9 HO HA2]
  · isplitr; · iapply (inv_own9 P K c); iexact HI
    isplitl [HCs9]; · iexact HCs9
    isplitl [HO]; · iexact HO
    isplitr; · iapply hmw; iexact Hlev
    iexact HA2
  clear hmw
  iintro ⟨HO, HA2, #HR2n, H6b⟩
  ihave H6b := (Entails.of_eq (pointsTo_congr (fun i hi => (hfs_r1 i hi).symm))) $$ H6b
  ihave H6 := (rstage_close (F := F) c F6) $$ [H6a H6b H6c H6d]
  · isplitl [H6a]; · iexact H6a
    isplitl [H6b]; · iexact H6b
    isplitl [H6c]; · iexact H6c
    iexact H6d
  subst hF6
  set_option sl_exec.dmaWindow true in
  sl_exec_parts

  have hmw := mayWait_rrecv1 (F := F) c
  iapply (wp_wait_cell P c 13 (by decide) (by decide) (sem4 cc0_scratch13 1) (by decide) (payload_rrecv1 P c false) (by rfl) (owe 6 c) _) $$ [HC2 HO HA6]
  · isplitr; · iapply (inv_own13 P K c); iexact HI
    isplitl [HC2]; · iexact HC2
    isplitl [HO]; · iexact HO
    isplitr; · iapply hmw; iexact Hlev
    iexact HA6
  clear hmw
  iintro ⟨HO, HA6, #HR6n, Hrl1, ⟨%fd4, Hd4⟩⟩
  set_option sl_exec.dmaWindow true in
  sl_exec_parts

  ihave H6' := (rstage_open (F := F) c _) $$ H6
  icases H6' with ⟨%F6, %hF6, H6a, H6b, H6c, H6d⟩
  have hv_r2 : (rstageM : Memref sig .tc .vmem S4x64x1024 .bf16).view.readAt (Elt F) (rect4 2).toLoadRect F6 = rst P 2 c := hv_r2_val m c f0 g0 g1 g2 e0 e1 e2 _ rfl P hP _ _ _ _ _ _ _ _ _ _ _ F6 hF6
  have hfs_r2 := rstage_agree2 P c F6 hv_r2
  iapply (wp_send P c _ (sh 1 c) (dev7_eq c) 10 14 (by decide) (by decide) (by decide) (by decide) (slot4 rstageM 2) (slot4 rlandM 2) (sem4 cc0_scratch12 2) (sem4 cc0_scratch13 2) (by decide) (by decide) (fullShare) (rstageBuf P c) rfl (hpay_rsend2 P c) (hpay_rrecv2 P c) F6 hfs_r2 fr2 _ (owe 7 c)) $$ [H6c Hr2 HO HT10 HT11]
  · isplitr; · iapply (inv_own10 P K c); iexact HI
    isplitr; · iapply (inv_r2 P K c); iexact HI
    isplitl [H6c]; · iexact H6c
    isplitl [Hr2]; · iexact Hr2
    isplitl [HO]; · iexact HO
    isplitl [HT10]; · iexact HT10
    isplitr; · iexact HR3
    isplitl [HT11]; · iexact HT11
    iexact HR33
  iintro ⟨HCs10, HO⟩
  set_option sl_exec.dmaWindow true in
  sl_exec_parts

  ihave H8' := (lstage_open (F := F) c _) $$ H8
  icases H8' with ⟨%F8, %hF8, H8a, H8b, H8c⟩
  have hv_l2 : (lstageM : Memref sig .tc .vmem S3x64x1024 .bf16).view.readAt (Elt F) (rect3 2).toLoadRect F8 = lst P 2 c := by
    rw [hF8, hP]
    exact hv_l2_val m c f8 g3 _ _ _ _ _ (cut6_val m c f0 g0 g1 g2 e0 e1 e2 _ rfl (sh 7 c) (off4_at1 c) _)
  have hfs_l2 := lstage_agree2 P c F8 hv_l2
  iapply (wp_send_with P c _ (sh 7 c) (dev8_eq c) 18 21 (by decide) (by decide) (by decide) (by decide) (slot3 lstageM 2) (slot3 llandM 2) (sem3 cc0_scratch14 2) (sem3 cc0_scratch15 2) (by decide) (by decide) (fullShare) (lstageBuf P c) _ rfl (hpay_lsend2 P c) (hpay_lrecv2 P c) F8 hfs_l2 fl2 _ (owe 8 c)) $$ [H8c Hl2 He3 HO HT12 HT13]
  · isplitr; · iapply (inv_own18 P K c); iexact HI
    isplitr; · iapply (inv_l2 P K c); iexact HI
    isplitl [H8c]; · iexact H8c
    isplitl [Hl2 He3]
    · isplitl [Hl2]; · iexact Hl2
      iapply (agP_of (F := F) (sh 3 c) 3 fe3); iexact He3
    isplitl [HO]; · iexact HO
    isplitl [HT12]; · iexact HT12
    isplitr; · iexact HR11
    isplitl [HT13]; · iexact HT13
    iexact HR37
  iintro ⟨HCs18, HO⟩
  set_option sl_exec.dmaWindow true in
  sl_exec_parts

  have hmw := mayWait_dma0 (F := F) c (dq 18) (by decide) 8
  iapply (wp_wait_cell P c 18 (by decide) (by decide) (sem3 cc0_scratch14 2) (by decide) (payload_lsend2 P c false) (by rfl) (owe 8 c) _) $$ [HCs18 HO HA11]
  · isplitr; · iapply (inv_own18 P K c); iexact HI
    isplitl [HCs18]; · iexact HCs18
    isplitl [HO]; · iexact HO
    isplitr; · iapply hmw; iexact Hlev
    iexact HA11
  clear hmw
  iintro ⟨HO, HA11, #HR11n, H8c⟩
  ihave H8c := (Entails.of_eq (pointsTo_congr (fun i hi => (hfs_l2 i hi).symm))) $$ H8c
  ihave H8 := (lstage_close (F := F) c F8) $$ [H8a H8b H8c]
  · isplitl [H8a]; · iexact H8a
    isplitl [H8b]; · iexact H8b
    iexact H8c
  subst hF8
  set_option sl_exec.dmaWindow true in
  sl_exec_parts

  have hmw := mayWait_lrecv2 (F := F) c
  iapply (wp_wait_cell P c 21 (by decide) (by decide) (sem3 cc0_scratch15 2) (by decide) (payload_lrecv2 P c false) (by rfl) (owe 8 c) _) $$ [HC7 HO HA14]
  · isplitr; · iapply (inv_own21 P K c); iexact HI
    isplitl [HC7]; · iexact HC7
    isplitl [HO]; · iexact HO
    isplitr; · iapply hmw; iexact Hlev
    iexact HA14
  clear hmw
  iintro ⟨HO, HA14, #HR14n, Hll2, ⟨%fd3, Hd3⟩⟩
  set_option sl_exec.dmaWindow true in
  sl_exec_parts

  have hmw := mayWait_dma0 (F := F) c (dq 10) (by decide) 8
  iapply (wp_wait_cell P c 10 (by decide) (by decide) (sem4 cc0_scratch12 2) (by decide) (payload_rsend2 P c false) (by rfl) (owe 8 c) _) $$ [HCs10 HO HA3]
  · isplitr; · iapply (inv_own10 P K c); iexact HI
    isplitl [HCs10]; · iexact HCs10
    isplitl [HO]; · iexact HO
    isplitr; · iapply hmw; iexact Hlev
    iexact HA3
  clear hmw
  iintro ⟨HO, HA3, #HR3n, H6c⟩
  ihave H6c := (Entails.of_eq (pointsTo_congr (fun i hi => (hfs_r2 i hi).symm))) $$ H6c
  ihave H6 := (rstage_close (F := F) c F6) $$ [H6a H6b H6c H6d]
  · isplitl [H6a]; · iexact H6a
    isplitl [H6b]; · iexact H6b
    isplitl [H6c]; · iexact H6c
    iexact H6d
  subst hF6
  set_option sl_exec.dmaWindow true in
  sl_exec_parts

  have hmw := mayWait_rrecv2 (F := F) c
  iapply (wp_wait_cell P c 14 (by decide) (by decide) (sem4 cc0_scratch13 2) (by decide) (payload_rrecv2 P c false) (by rfl) (owe 8 c) _) $$ [HC3 HO HA7]
  · isplitr; · iapply (inv_own14 P K c); iexact HI
    isplitl [HC3]; · iexact HC3
    isplitl [HO]; · iexact HO
    isplitr; · iapply hmw; iexact Hlev
    iexact HA7
  clear hmw
  iintro ⟨HO, HA7, #HR7n, Hrl2⟩
  set_option sl_exec.dmaWindow true in
  sl_exec_parts

  ihave H6' := (rstage_open (F := F) c _) $$ H6
  icases H6' with ⟨%F6, %hF6, H6a, H6b, H6c, H6d⟩
  have hv_r3 : (rstageM : Memref sig .tc .vmem S4x64x1024 .bf16).view.readAt (Elt F) (rect4 3).toLoadRect F6 = rst P 3 c := hv_r3_skip_val m c f0 g0 g1 g2 e0 e1 e2 _ rfl P hP _ _ _ _ _ _ _ _ _ _ _ F6 hF6
  have hfs_r3 := rstage_agree3 P c F6 hv_r3
  iapply (wp_send P c _ (sh 1 c) (dev9_eq c) 11 15 (by decide) (by decide) (by decide) (by decide) (slot4 rstageM 3) (slot4 rlandM 3) (sem4 cc0_scratch12 3) (sem4 cc0_scratch13 3) (by decide) (by decide) (fullShare) (rstageBuf P c) rfl (hpay_rsend3 P c) (hpay_rrecv3 P c) F6 hfs_r3 fr3 _ (owe 9 c)) $$ [H6d Hr3 HO HT14 HT15]
  · isplitr; · iapply (inv_own11 P K c); iexact HI
    isplitr; · iapply (inv_r3 P K c); iexact HI
    isplitl [H6d]; · iexact H6d
    isplitl [Hr3]; · iexact Hr3
    isplitl [HO]; · iexact HO
    isplitl [HT14]; · iexact HT14
    isplitr; · iexact HR4
    isplitl [HT15]; · iexact HT15
    iexact HR34
  iintro ⟨HCs11, HO⟩
  set_option sl_exec.dmaWindow true in
  sl_exec_parts

  have hmw := mayWait_dma0 (F := F) c (dq 11) (by decide) 9
  iapply (wp_wait_cell P c 11 (by decide) (by decide) (sem4 cc0_scratch12 3) (by decide) (payload_rsend3 P c false) (by rfl) (owe 9 c) _) $$ [HCs11 HO HA4]
  · isplitr; · iapply (inv_own11 P K c); iexact HI
    isplitl [HCs11]; · iexact HCs11
    isplitl [HO]; · iexact HO
    isplitr; · iapply hmw; iexact Hlev
    iexact HA4
  clear hmw
  iintro ⟨HO, HA4, #HR4n, H6d⟩
  ihave H6d := (Entails.of_eq (pointsTo_congr (fun i hi => (hfs_r3 i hi).symm))) $$ H6d
  ihave H6 := (rstage_close (F := F) c F6) $$ [H6a H6b H6c H6d]
  · isplitl [H6a]; · iexact H6a
    isplitl [H6b]; · iexact H6b
    isplitl [H6c]; · iexact H6c
    iexact H6d
  subst hF6
  set_option sl_exec.dmaWindow true in
  sl_exec_parts

  have hmw := mayWait_rrecv3 (F := F) c
  iapply (wp_wait_cell P c 15 (by decide) (by decide) (sem4 cc0_scratch13 3) (by decide) (payload_rrecv3 P c false) (by rfl) (owe 9 c) _) $$ [HC4 HO HA8]
  · isplitr; · iapply (inv_own15 P K c); iexact HI
    isplitl [HC4]; · iexact HC4
    isplitl [HO]; · iexact HO
    isplitr; · iapply hmw; iexact Hlev
    iexact HA8
  clear hmw
  iintro ⟨HO, HA8, #HR8n, Hrl3⟩
  set_option sl_exec.dmaWindow true in
  sl_exec_parts

  ihave H9' := (own_open (F := F) c _) $$ H9
  icases H9' with ⟨%F9, %hF9, H9r, H9s0, H9s1, H9s2, H9s3, H9s4, H9s5, H9s6⟩
  have hv829 : sound_body_at.sl.v829 m c f0 g0 g1 g2 = k0_pay40 (P c c) := by
    rw [hP]; sl_unfold_run_names
    refine congrArg (fun x => shapeCast S64x1024 x shapeCasts_S1x64x1024_S64x1024) ?_
    rw [View.readCov_cons_toLoadRect]
    exact cut8_val m c f0 g0 g1 g2 e0 e1 e2 _ rfl c (off8_row c) _
  have hv846 : sound_body_at.sl.v846 m P c f0 g0 g1 g2 = red P c := by
    delta sound_body_at.sl.v846 sound_body_at.sl.Hout_9
    rw [View.readCov_cons_toLoadRect, hv829]; exact red_read P c (P c c) rfl
  have hv_own : F9 = own P c := hF9.trans (own_store P c f9 _ hv846)
  have hfs_own : ∀ i ∈ (ownM : Memref sig .tc .vmem S64x1024 .bf16).view.set, F9 i = own P c i := fun i _ => congrFun hv_own i

  iapply (wp_send P c _ (sh 1 c) (dev10_eq c) 22 29 (by decide) (by decide) (by decide) (by decide) (ownM) (slot7 aglandM 0) (sem7 cc0_scratch16 0) (sem7 cc0_scratch17 0) (by decide) (by decide) (agShare 0) (own P c) rfl (hpay_agsend0 P c) (hpay_agrecv0 P c) F9 hfs_own fa0 _ (owe 10 c)) $$ [H9s0 Ha0 HO HT16 HT17]
  · isplitr; · iapply (inv_own22 P K c); iexact HI
    isplitr; · iapply (inv_ag0 P K c); iexact HI
    isplitl [H9s0]; · iexact H9s0
    isplitl [Ha0]; · iexact Ha0
    isplitl [HO]; · iexact HO
    isplitl [HT16]; · iexact HT16
    isplitr; · iexact HR15
    isplitl [HT17]; · iexact HT17
    iexact HR38
  iintro ⟨HCs22, HO⟩
  set_option sl_exec.dmaWindow true in
  sl_exec_parts

  iapply (wp_send P c _ (sh 2 c) (dev11_eq c) 23 30 (by decide) (by decide) (by decide) (by decide) (ownM) (slot7 aglandM 1) (sem7 cc0_scratch16 1) (sem7 cc0_scratch17 1) (by decide) (by decide) (agShare 1) (own P c) rfl (hpay_agsend1 P c) (hpay_agrecv1 P c) F9 hfs_own fd1 _ (owe 11 c)) $$ [H9s1 Hd1 HO HT18 HT19]
  · isplitr; · iapply (inv_own23 P K c); iexact HI
    isplitr; · iapply (inv_ag1 P K c); iexact HI
    isplitl [H9s1]; · iexact H9s1
    isplitl [Hd1]; · iexact Hd1
    isplitl [HO]; · iexact HO
    isplitl [HT18]; · iexact HT18
    isplitr; · iexact HR16
    isplitl [HT19]; · iexact HT19
    iexact HR39
  iintro ⟨HCs23, HO⟩
  set_option sl_exec.dmaWindow true in
  sl_exec_parts

  iapply (wp_send P c _ (sh 3 c) (dev12_eq c) 24 31 (by decide) (by decide) (by decide) (by decide) (ownM) (slot7 aglandM 2) (sem7 cc0_scratch16 2) (sem7 cc0_scratch17 2) (by decide) (by decide) (agShare 2) (own P c) rfl (hpay_agsend2 P c) (hpay_agrecv2 P c) F9 hfs_own fd2 _ (owe 12 c)) $$ [H9s2 Hd2 HO HT20 HT21]
  · isplitr; · iapply (inv_own24 P K c); iexact HI
    isplitr; · iapply (inv_ag2 P K c); iexact HI
    isplitl [H9s2]; · iexact H9s2
    isplitl [Hd2]; · iexact Hd2
    isplitl [HO]; · iexact HO
    isplitl [HT20]; · iexact HT20
    isplitr; · iexact HR17
    isplitl [HT21]; · iexact HT21
    iexact HR40
  iintro ⟨HCs24, HO⟩
  set_option sl_exec.dmaWindow true in
  sl_exec_parts

  iapply (wp_send P c _ (sh 4 c) (dev13_eq c) 25 32 (by decide) (by decide) (by decide) (by decide) (ownM) (slot7 aglandM 3) (sem7 cc0_scratch16 3) (sem7 cc0_scratch17 3) (by decide) (by decide) (agShare 3) (own P c) rfl (hpay_agsend3 P c) (hpay_agrecv3 P c) F9 hfs_own fd3 _ (owe 13 c)) $$ [H9s3 Hd3 HO HT22 HT23]
  · isplitr; · iapply (inv_own25 P K c); iexact HI
    isplitr; · iapply (inv_ag3 P K c); iexact HI
    isplitl [H9s3]; · iexact H9s3
    isplitl [Hd3]; · iexact Hd3
    isplitl [HO]; · iexact HO
    isplitl [HT22]; · iexact HT22
    isplitr; · iexact HR18
    isplitl [HT23]; · iexact HT23
    iexact HR41
  iintro ⟨HCs25, HO⟩
  set_option sl_exec.dmaWindow true in
  sl_exec_parts

  iapply (wp_send P c _ (sh 5 c) (dev14_eq c) 26 33 (by decide) (by decide) (by decide) (by decide) (ownM) (slot7 aglandM 4) (sem7 cc0_scratch16 4) (sem7 cc0_scratch17 4) (by decide) (by decide) (agShare 4) (own P c) rfl (hpay_agsend4 P c) (hpay_agrecv4 P c) F9 hfs_own fd4 _ (owe 14 c)) $$ [H9s4 Hd4 HO HT24 HT25]
  · isplitr; · iapply (inv_own26 P K c); iexact HI
    isplitr; · iapply (inv_ag4 P K c); iexact HI
    isplitl [H9s4]; · iexact H9s4
    isplitl [Hd4]; · iexact Hd4
    isplitl [HO]; · iexact HO
    isplitl [HT24]; · iexact HT24
    isplitr; · iexact HR19
    isplitl [HT25]; · iexact HT25
    iexact HR42
  iintro ⟨HCs26, HO⟩
  set_option sl_exec.dmaWindow true in
  sl_exec_parts

  iapply (wp_send P c _ (sh 6 c) (dev15_eq c) 27 34 (by decide) (by decide) (by decide) (by decide) (ownM) (slot7 aglandM 5) (sem7 cc0_scratch16 5) (sem7 cc0_scratch17 5) (by decide) (by decide) (agShare 5) (own P c) rfl (hpay_agsend5 P c) (hpay_agrecv5 P c) F9 hfs_own fd5 _ (owe 15 c)) $$ [H9s5 Hd5 HO HT26 HT27]
  · isplitr; · iapply (inv_own27 P K c); iexact HI
    isplitr; · iapply (inv_ag5 P K c); iexact HI
    isplitl [H9s5]; · iexact H9s5
    isplitl [Hd5]; · iexact Hd5
    isplitl [HO]; · iexact HO
    isplitl [HT26]; · iexact HT26
    isplitr; · iexact HR20
    isplitl [HT27]; · iexact HT27
    iexact HR43
  iintro ⟨HCs27, HO⟩
  set_option sl_exec.dmaWindow true in
  sl_exec_parts

  iapply (wp_send P c _ (sh 7 c) (dev16_eq c) 28 35 (by decide) (by decide) (by decide) (by decide) (ownM) (slot7 aglandM 6) (sem7 cc0_scratch16 6) (sem7 cc0_scratch17 6) (by decide) (by decide) (agShare 6) (own P c) rfl (hpay_agsend6 P c) (hpay_agrecv6 P c) F9 hfs_own fa6 _ (owe 16 c)) $$ [H9s6 Ha6 HO HT28 HT29]
  · isplitr; · iapply (inv_own28 P K c); iexact HI
    isplitr; · iapply (inv_ag6 P K c); iexact HI
    isplitl [H9s6]; · iexact H9s6
    isplitl [Ha6]; · iexact Ha6
    isplitl [HO]; · iexact HO
    isplitl [HT28]; · iexact HT28
    isplitr; · iexact HR21
    isplitl [HT29]; · iexact HT29
    iexact HR44
  iintro ⟨HCs28, HO⟩
  set_option sl_exec.dmaWindow true in
  sl_exec_parts

  have hmw := mayWait_owe16 (F := F) c (.dma (dq 22))
  iapply (wp_wait_cell P c 22 (by decide) (by decide) (sem7 cc0_scratch16 0) (by decide) (payload_agsend0 P c false) (by rfl) (owe 16 c) _) $$ [HCs22 HO HA15]
  · isplitr; · iapply (inv_own22 P K c); iexact HI
    isplitl [HCs22]; · iexact HCs22
    isplitl [HO]; · iexact HO
    isplitr; · iapply hmw; iexact Hlev
    iexact HA15
  clear hmw
  iintro ⟨HO, HA15, #HR15n, H9s0⟩
  ihave H9s0 := (Entails.of_eq (pointsTo_congr (fun i hi => (hfs_own i hi).symm))) $$ H9s0
  set_option sl_exec.dmaWindow true in
  sl_exec_parts

  have hmw := mayWait_owe16 (F := F) c (.dma (dq 29))
  iapply (wp_wait_cell P c 29 (by decide) (by decide) (sem7 cc0_scratch17 0) (by decide) (payload_agrecv0 P c false) (by rfl) (owe 16 c) _) $$ [HC8 HO HA22]
  · isplitr; · iapply (inv_own29 P K c); iexact HI
    isplitl [HC8]; · iexact HC8
    isplitl [HO]; · iexact HO
    isplitr; · iapply hmw; iexact Hlev
    iexact HA22
  clear hmw
  iintro ⟨HO, HA22, #HR22n, Hag0⟩
  set_option sl_exec.dmaWindow true in
  sl_exec_parts

  have hmw := mayWait_owe16 (F := F) c (.dma (dq 23))
  iapply (wp_wait_cell P c 23 (by decide) (by decide) (sem7 cc0_scratch16 1) (by decide) (payload_agsend1 P c false) (by rfl) (owe 16 c) _) $$ [HCs23 HO HA16]
  · isplitr; · iapply (inv_own23 P K c); iexact HI
    isplitl [HCs23]; · iexact HCs23
    isplitl [HO]; · iexact HO
    isplitr; · iapply hmw; iexact Hlev
    iexact HA16
  clear hmw
  iintro ⟨HO, HA16, #HR16n, H9s1⟩
  ihave H9s1 := (Entails.of_eq (pointsTo_congr (fun i hi => (hfs_own i hi).symm))) $$ H9s1
  set_option sl_exec.dmaWindow true in
  sl_exec_parts

  have hmw := mayWait_owe16 (F := F) c (.dma (dq 30))
  iapply (wp_wait_cell P c 30 (by decide) (by decide) (sem7 cc0_scratch17 1) (by decide) (payload_agrecv1 P c false) (by rfl) (owe 16 c) _) $$ [HC9 HO HA23]
  · isplitr; · iapply (inv_own30 P K c); iexact HI
    isplitl [HC9]; · iexact HC9
    isplitl [HO]; · iexact HO
    isplitr; · iapply hmw; iexact Hlev
    iexact HA23
  clear hmw
  iintro ⟨HO, HA23, #HR23n, Hag1⟩
  set_option sl_exec.dmaWindow true in
  sl_exec_parts

  have hmw := mayWait_owe16 (F := F) c (.dma (dq 24))
  iapply (wp_wait_cell P c 24 (by decide) (by decide) (sem7 cc0_scratch16 2) (by decide) (payload_agsend2 P c false) (by rfl) (owe 16 c) _) $$ [HCs24 HO HA17]
  · isplitr; · iapply (inv_own24 P K c); iexact HI
    isplitl [HCs24]; · iexact HCs24
    isplitl [HO]; · iexact HO
    isplitr; · iapply hmw; iexact Hlev
    iexact HA17
  clear hmw
  iintro ⟨HO, HA17, #HR17n, H9s2⟩
  ihave H9s2 := (Entails.of_eq (pointsTo_congr (fun i hi => (hfs_own i hi).symm))) $$ H9s2
  set_option sl_exec.dmaWindow true in
  sl_exec_parts

  have hmw := mayWait_owe16 (F := F) c (.dma (dq 31))
  iapply (wp_wait_cell P c 31 (by decide) (by decide) (sem7 cc0_scratch17 2) (by decide) (payload_agrecv2 P c false) (by rfl) (owe 16 c) _) $$ [HC10 HO HA24]
  · isplitr; · iapply (inv_own31 P K c); iexact HI
    isplitl [HC10]; · iexact HC10
    isplitl [HO]; · iexact HO
    isplitr; · iapply hmw; iexact Hlev
    iexact HA24
  clear hmw
  iintro ⟨HO, HA24, #HR24n, Hag2⟩
  set_option sl_exec.dmaWindow true in
  sl_exec_parts

  have hmw := mayWait_owe16 (F := F) c (.dma (dq 25))
  iapply (wp_wait_cell P c 25 (by decide) (by decide) (sem7 cc0_scratch16 3) (by decide) (payload_agsend3 P c false) (by rfl) (owe 16 c) _) $$ [HCs25 HO HA18]
  · isplitr; · iapply (inv_own25 P K c); iexact HI
    isplitl [HCs25]; · iexact HCs25
    isplitl [HO]; · iexact HO
    isplitr; · iapply hmw; iexact Hlev
    iexact HA18
  clear hmw
  iintro ⟨HO, HA18, #HR18n, H9s3⟩
  ihave H9s3 := (Entails.of_eq (pointsTo_congr (fun i hi => (hfs_own i hi).symm))) $$ H9s3
  set_option sl_exec.dmaWindow true in
  sl_exec_parts

  have hmw := mayWait_owe16 (F := F) c (.dma (dq 32))
  iapply (wp_wait_cell P c 32 (by decide) (by decide) (sem7 cc0_scratch17 3) (by decide) (payload_agrecv3 P c false) (by rfl) (owe 16 c) _) $$ [HC11 HO HA25]
  · isplitr; · iapply (inv_own32 P K c); iexact HI
    isplitl [HC11]; · iexact HC11
    isplitl [HO]; · iexact HO
    isplitr; · iapply hmw; iexact Hlev
    iexact HA25
  clear hmw
  iintro ⟨HO, HA25, #HR25n, Hag3⟩
  set_option sl_exec.dmaWindow true in
  sl_exec_parts

  have hmw := mayWait_owe16 (F := F) c (.dma (dq 26))
  iapply (wp_wait_cell P c 26 (by decide) (by decide) (sem7 cc0_scratch16 4) (by decide) (payload_agsend4 P c false) (by rfl) (owe 16 c) _) $$ [HCs26 HO HA19]
  · isplitr; · iapply (inv_own26 P K c); iexact HI
    isplitl [HCs26]; · iexact HCs26
    isplitl [HO]; · iexact HO
    isplitr; · iapply hmw; iexact Hlev
    iexact HA19
  clear hmw
  iintro ⟨HO, HA19, #HR19n, H9s4⟩
  ihave H9s4 := (Entails.of_eq (pointsTo_congr (fun i hi => (hfs_own i hi).symm))) $$ H9s4
  set_option sl_exec.dmaWindow true in
  sl_exec_parts

  have hmw := mayWait_owe16 (F := F) c (.dma (dq 33))
  iapply (wp_wait_cell P c 33 (by decide) (by decide) (sem7 cc0_scratch17 4) (by decide) (payload_agrecv4 P c false) (by rfl) (owe 16 c) _) $$ [HC12 HO HA26]
  · isplitr; · iapply (inv_own33 P K c); iexact HI
    isplitl [HC12]; · iexact HC12
    isplitl [HO]; · iexact HO
    isplitr; · iapply hmw; iexact Hlev
    iexact HA26
  clear hmw
  iintro ⟨HO, HA26, #HR26n, Hag4⟩
  set_option sl_exec.dmaWindow true in
  sl_exec_parts

  have hmw := mayWait_owe16 (F := F) c (.dma (dq 27))
  iapply (wp_wait_cell P c 27 (by decide) (by decide) (sem7 cc0_scratch16 5) (by decide) (payload_agsend5 P c false) (by rfl) (owe 16 c) _) $$ [HCs27 HO HA20]
  · isplitr; · iapply (inv_own27 P K c); iexact HI
    isplitl [HCs27]; · iexact HCs27
    isplitl [HO]; · iexact HO
    isplitr; · iapply hmw; iexact Hlev
    iexact HA20
  clear hmw
  iintro ⟨HO, HA20, #HR20n, H9s5⟩
  ihave H9s5 := (Entails.of_eq (pointsTo_congr (fun i hi => (hfs_own i hi).symm))) $$ H9s5
  set_option sl_exec.dmaWindow true in
  sl_exec_parts

  have hmw := mayWait_owe16 (F := F) c (.dma (dq 34))
  iapply (wp_wait_cell P c 34 (by decide) (by decide) (sem7 cc0_scratch17 5) (by decide) (payload_agrecv5 P c false) (by rfl) (owe 16 c) _) $$ [HC13 HO HA27]
  · isplitr; · iapply (inv_own34 P K c); iexact HI
    isplitl [HC13]; · iexact HC13
    isplitl [HO]; · iexact HO
    isplitr; · iapply hmw; iexact Hlev
    iexact HA27
  clear hmw
  iintro ⟨HO, HA27, #HR27n, Hag5⟩
  set_option sl_exec.dmaWindow true in
  sl_exec_parts

  have hmw := mayWait_owe16 (F := F) c (.dma (dq 28))
  iapply (wp_wait_cell P c 28 (by decide) (by decide) (sem7 cc0_scratch16 6) (by decide) (payload_agsend6 P c false) (by rfl) (owe 16 c) _) $$ [HCs28 HO HA21]
  · isplitr; · iapply (inv_own28 P K c); iexact HI
    isplitl [HCs28]; · iexact HCs28
    isplitl [HO]; · iexact HO
    isplitr; · iapply hmw; iexact Hlev
    iexact HA21
  clear hmw
  iintro ⟨HO, HA21, #HR21n, H9s6⟩
  ihave H9s6 := (Entails.of_eq (pointsTo_congr (fun i hi => (hfs_own i hi).symm))) $$ H9s6
  set_option sl_exec.dmaWindow true in
  sl_exec_parts

  have hmw := mayWait_owe16 (F := F) c (.dma (dq 35))
  iapply (wp_wait_cell P c 35 (by decide) (by decide) (sem7 cc0_scratch17 6) (by decide) (payload_agrecv6 P c false) (by rfl) (owe 16 c) _) $$ [HC14 HO HA28]
  · isplitr; · iapply (inv_own35 P K c); iexact HI
    isplitl [HC14]; · iexact HC14
    isplitl [HO]; · iexact HO
    isplitr; · iapply hmw; iexact Hlev
    iexact HA28
  clear hmw
  iintro ⟨HO, HA28, #HR28n, Hag6⟩
  set_option sl_exec.dmaWindow true in
  sl_exec_parts

  ihave H9 := (own_close (F := F) c F9) $$ [H9r H9s0 H9s1 H9s2 H9s3 H9s4 H9s5 H9s6]
  · isplitl [H9r]; · iexact H9r
    isplitl [H9s0]; · iexact H9s0
    isplitl [H9s1]; · iexact H9s1
    isplitl [H9s2]; · iexact H9s2
    isplitl [H9s3]; · iexact H9s3
    isplitl [H9s4]; · iexact H9s4
    isplitl [H9s5]; · iexact H9s5
    iexact H9s6

  rw [gat_read6 P c, gat_read5 P c, gat_read4 P c, gat_read1 P c, gat_read0 P c,
    show sound_body_at.sl.r_26 P c = gat P 3 c from gat_read3 P c,
    show k0_pay46 (sound_body_at.sl.r_25 P c) = gat P 2 c from gat_read2 P c]
  delta sound_body_at.sl.Hout_9
  have hred : k0_pay41 (sound_body_at.sl.v829 m c f0 g0 g1 g2)
      (rlandM.view.readAt (Elt F) (rect4 3).toLoadRect (rlandBuf P c)) (llandM.view.readAt (Elt F) (rect3 2).toLoadRect (llandBuf P c)) = red P c := by
    rw [hv829]; exact red_read P c (P c c) rfl
  rw [hred]
  delta sound_body_at.sl.Hout_7
  delta sound_body_at.sl.Hout_5
  first | delta sound_body_at.sl.Hout_3 | skip
  first | delta sound_body_at.sl.Hout_2 | skip
  first | delta sound_body_at.sl.Hout_1 | skip
  ihave Hout := (Entails.of_eq (congrArg (fun X => (pt (F := F) c outM X : sProp 𝕄))
    (out_final P c g3 _ _ _ _ _ _ _ _ _ _ _ _ _ _ _ _ _ _ _ _ _ _ _ _))) $$ Hout

  ihave Hrl0 := (Entails.of_eq (show ((slot4 rlandM 0).view.loc (c : Thread nD τ) ↦[(slot4 rlandM 0).view.set]{fullShare} rlandBuf P c : sProp 𝕄) = rlandPt 0 c (rlandBuf P c) from rfl)) $$ Hrl0
  ihave Hrl1 := (Entails.of_eq (show ((slot4 rlandM 1).view.loc (c : Thread nD τ) ↦[(slot4 rlandM 1).view.set]{fullShare} rlandBuf P c : sProp 𝕄) = rlandPt 1 c (rlandBuf P c) from rfl)) $$ Hrl1
  ihave Hrl2 := (Entails.of_eq (show ((slot4 rlandM 2).view.loc (c : Thread nD τ) ↦[(slot4 rlandM 2).view.set]{fullShare} rlandBuf P c : sProp 𝕄) = rlandPt 2 c (rlandBuf P c) from rfl)) $$ Hrl2
  ihave Hrl3 := (Entails.of_eq (show ((slot4 rlandM 3).view.loc (c : Thread nD τ) ↦[(slot4 rlandM 3).view.set]{fullShare} rlandBuf P c : sProp 𝕄) = rlandPt 3 c (rlandBuf P c) from rfl)) $$ Hrl3
  ihave Hll0 := (Entails.of_eq (show ((slot3 llandM 0).view.loc (c : Thread nD τ) ↦[(slot3 llandM 0).view.set]{fullShare} llandBuf P c : sProp 𝕄) = llandPt 0 c (llandBuf P c) from rfl)) $$ Hll0
  ihave Hll1 := (Entails.of_eq (show ((slot3 llandM 1).view.loc (c : Thread nD τ) ↦[(slot3 llandM 1).view.set]{fullShare} llandBuf P c : sProp 𝕄) = llandPt 1 c (llandBuf P c) from rfl)) $$ Hll1
  ihave Hll2 := (Entails.of_eq (show ((slot3 llandM 2).view.loc (c : Thread nD τ) ↦[(slot3 llandM 2).view.set]{fullShare} llandBuf P c : sProp 𝕄) = llandPt 2 c (llandBuf P c) from rfl)) $$ Hll2
  ihave Hag0 := (Entails.of_eq (show ((slot7 aglandM 0).view.loc (c : Thread nD τ) ↦[(slot7 aglandM 0).view.set]{fullShare} aglandBuf P c : sProp 𝕄) = aglandPt 0 c (aglandBuf P c) from rfl)) $$ Hag0
  ihave Hag1 := (Entails.of_eq (show ((slot7 aglandM 1).view.loc (c : Thread nD τ) ↦[(slot7 aglandM 1).view.set]{fullShare} aglandBuf P c : sProp 𝕄) = aglandPt 1 c (aglandBuf P c) from rfl)) $$ Hag1
  ihave Hag2 := (Entails.of_eq (show ((slot7 aglandM 2).view.loc (c : Thread nD τ) ↦[(slot7 aglandM 2).view.set]{fullShare} aglandBuf P c : sProp 𝕄) = aglandPt 2 c (aglandBuf P c) from rfl)) $$ Hag2
  ihave Hag3 := (Entails.of_eq (show ((slot7 aglandM 3).view.loc (c : Thread nD τ) ↦[(slot7 aglandM 3).view.set]{fullShare} aglandBuf P c : sProp 𝕄) = aglandPt 3 c (aglandBuf P c) from rfl)) $$ Hag3
  ihave Hag4 := (Entails.of_eq (show ((slot7 aglandM 4).view.loc (c : Thread nD τ) ↦[(slot7 aglandM 4).view.set]{fullShare} aglandBuf P c : sProp 𝕄) = aglandPt 4 c (aglandBuf P c) from rfl)) $$ Hag4
  ihave Hag5 := (Entails.of_eq (show ((slot7 aglandM 5).view.loc (c : Thread nD τ) ↦[(slot7 aglandM 5).view.set]{fullShare} aglandBuf P c : sProp 𝕄) = aglandPt 5 c (aglandBuf P c) from rfl)) $$ Hag5
  ihave Hag6 := (Entails.of_eq (show ((slot7 aglandM 6).view.loc (c : Thread nD τ) ↦[(slot7 aglandM 6).view.set]{fullShare} aglandBuf P c : sProp 𝕄) = aglandPt 6 c (aglandBuf P c) from rfl)) $$ Hag6

  imod (finish m P K c _ _ _ _ _ _ _ _ _ g0 g1 g2 d0 d1 d2 hg0 hg1 hg2) $$ [HA1 HA2 HA3 HA4 HA5 HA6 HA7 HA8 HA9 HA10 HA11 HA12 HA13 HA14 HA15 HA16 HA17 HA18 HA19 HA20 HA21 HA22 HA23 HA24 HA25 HA26 HA27 HA28 Hs4 Hs5 Hs6 Hs7 H0 H1 H2 H3 H4 Hrl0 Hrl1 Hrl2 Hrl3 H6 Hll0 Hll1 Hll2 H8 H9 Hag0 Hag1 Hag2 Hag3 Hag4 Hag5 Hag6 Hk Hv HO Hx Hwq Hwo Hout] with Hpost
  · isplitr; · iexact HI
    isplitl [HA1 HA2 HA3 HA4 HA5 HA6 HA7 HA8 HA9 HA10 HA11 HA12 HA13 HA14 HA15 HA16 HA17 HA18 HA19 HA20 HA21 HA22 HA23 HA24 HA25 HA26 HA27 HA28]
    · unfold at1
      isplitl [HA1]; · iexact HA1
      isplitl [HA2]; · iexact HA2
      isplitl [HA3]; · iexact HA3
      isplitl [HA4]; · iexact HA4
      isplitl [HA5]; · iexact HA5
      isplitl [HA6]; · iexact HA6
      isplitl [HA7]; · iexact HA7
      isplitl [HA8]; · iexact HA8
      isplitl [HA9]; · iexact HA9
      isplitl [HA10]; · iexact HA10
      isplitl [HA11]; · iexact HA11
      isplitl [HA12]; · iexact HA12
      isplitl [HA13]; · iexact HA13
      isplitl [HA14]; · iexact HA14
      isplitl [HA15]; · iexact HA15
      isplitl [HA16]; · iexact HA16
      isplitl [HA17]; · iexact HA17
      isplitl [HA18]; · iexact HA18
      isplitl [HA19]; · iexact HA19
      isplitl [HA20]; · iexact HA20
      isplitl [HA21]; · iexact HA21
      isplitl [HA22]; · iexact HA22
      isplitl [HA23]; · iexact HA23
      isplitl [HA24]; · iexact HA24
      isplitl [HA25]; · iexact HA25
      isplitl [HA26]; · iexact HA26
      isplitl [HA27]; · iexact HA27
      iexact HA28
    isplitl [Hs4 Hs5 Hs6 Hs7]
    · unfold locals0
      isplitl [Hs4]; · iexact Hs4
      isplitl [Hs5]; · iexact Hs5
      isplitl [Hs6]; · iexact Hs6
      iexact Hs7
    isplitl [H0]; · iexact H0
    isplitl [H1]; · iexact H1
    isplitl [H2]; · iexact H2
    isplitl [H3]; · iexact H3
    isplitl [H4]; · iexact H4
    isplitl [Hrl0 Hrl1 Hrl2 Hrl3]
    · isplitl [Hrl0]; · iexact Hrl0
      isplitl [Hrl1]; · iexact Hrl1
      isplitl [Hrl2]; · iexact Hrl2
      iexact Hrl3
    isplitl [H6]; · iexact H6
    isplitl [Hll0 Hll1 Hll2]
    · isplitl [Hll0]; · iexact Hll0
      isplitl [Hll1]; · iexact Hll1
      iexact Hll2
    isplitl [H8]; · iexact H8
    isplitl [H9]; · iexact H9
    isplitl [Hag0 Hag1 Hag2 Hag3 Hag4 Hag5 Hag6]
    · isplitl [Hag0]; · iexact Hag0
      isplitl [Hag1]; · iexact Hag1
      isplitl [Hag2]; · iexact Hag2
      isplitl [Hag3]; · iexact Hag3
      isplitl [Hag4]; · iexact Hag4
      isplitl [Hag5]; · iexact Hag5
      iexact Hag6
    isplitl [Hk]; · iexact Hk
    isplitl [Hv]; · iexact Hv
    isplitl [HO]; · iexact HO
    isplitl [Hx]; · iexact Hx
    isplitl [Hwq]; · iexact Hwq
    isplitl [Hwo]; · iexact Hwo
    iexact Hout
  rw [wp_ret]
  imodintro
  iapply Hkont
  iexact Hpost

theorem sound_body : SoundBody m (Pc m) := sound_body_at m (Pc m) rfl

end Cert.KernelIdeal.Hand

end
-- ==== Proof.ChunkLayout.lean ====
import proofs.«900750_g7700000000000751_dist_attn_cross_gqa_kvrep_htp_b1_sq512_skv2048_d1024_hq8_dh128_v7x_i8_bf16_1_alg».proof.Proof.Gen.KernelIdeal
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx

variable {α : Type}

theorem regroup_apply (X : S64x512.Idx → α) (p : Fin 256) (d : Fin 128) (r : Fin 64) (c : Fin 512)
    (hr : r.val = p.val % 64) (hc : c.val = p.val / 64 * 128 + d.val) :
    shapeCast S256x128
        (transpose S4x64x128 [1, 0, 2] (shapeCast S64x4x128 X shapeCasts_S64x512_S64x4x128)
          transposes_S64x4x128_p1_0_2_S4x64x128)
        shapeCasts_S4x64x128_S256x128 (ix2 p d)
      = X (ix2 r c) := by
  have hp := p.isLt
  have hd := d.isLt
  let a : Fin 4 := ⟨p.val / 64, by omega⟩
  refine (shapeCast_apply _ shapeCasts_S4x64x128_S256x128 (ix2 p d) (ix3 a r d) ?_).trans ?_
  · rw [Shape.rowMajor_val_three, Shape.rowMajor_val_two]
    show (p.val / 64 * 64 + r.val) * 128 + d.val = p.val * 128 + d.val
    omega
  refine (transpose_apply [1, 0, 2] _ transposes_S64x4x128_p1_0_2_S4x64x128 (ix3 a r d) (ix3 r a d)
    fun b => match b with | ⟨0, _⟩ => rfl | ⟨1, _⟩ => rfl | ⟨2, _⟩ => rfl).trans ?_
  refine shapeCast_apply X shapeCasts_S64x512_S64x4x128 (ix3 r a d) (ix2 r c) ?_
  rw [Shape.rowMajor_val_three, Shape.rowMajor_val_two]
  show r.val * 512 + c.val = (r.val * 4 + p.val / 64) * 128 + d.val
  omega

theorem ungroup_apply (Y : S256x128.Idx → α) (r : Fin 64) (c : Fin 512) (p : Fin 256) (d : Fin 128)
    (hp : p.val = c.val / 128 * 64 + r.val) (hd : d.val = c.val % 128) :
    shapeCast S64x512
        (transpose S64x4x128 [1, 0, 2] (shapeCast S4x64x128 Y shapeCasts_S256x128_S4x64x128)
          transposes_S4x64x128_p1_0_2_S64x4x128)
        shapeCasts_S64x4x128_S64x512 (ix2 r c)
      = Y (ix2 p d) := by
  have hc := c.isLt
  have hr := r.isLt
  let a : Fin 4 := ⟨c.val / 128, by omega⟩
  refine (shapeCast_apply _ shapeCasts_S64x4x128_S64x512 (ix2 r c) (ix3 r a d) ?_).trans ?_
  · rw [Shape.rowMajor_val_three, Shape.rowMajor_val_two]
    show (r.val * 4 + c.val / 128) * 128 + d.val = r.val * 512 + c.val
    omega
  refine (transpose_apply [1, 0, 2] _ transposes_S4x64x128_p1_0_2_S64x4x128 (ix3 r a d) (ix3 a r d)
    fun b => match b with | ⟨0, _⟩ => rfl | ⟨1, _⟩ => rfl | ⟨2, _⟩ => rfl).trans ?_
  refine shapeCast_apply Y shapeCasts_S256x128_S4x64x128 (ix3 a r d) (ix2 p d) ?_
  rw [Shape.rowMajor_val_three, Shape.rowMajor_val_two]
  show p.val * 128 + d.val = (c.val / 128 * 64 + r.val) * 128 + d.val
  omega

theorem kvcast_apply (x : S1x1x2048x128.Idx → α) (j : Fin 2048) (d : Fin 128) :
    shapeCast S2048x128 x shapeCasts_S1x1x2048x128_S2048x128 (ix2 j d) = x (ix4 (0 : Fin 1) (0 : Fin 1) j d) := by
  refine shapeCast_apply x shapeCasts_S1x1x2048x128_S2048x128 (ix2 j d) (ix4 (0 : Fin 1) (0 : Fin 1) j d) ?_
  rw [Shape.rowMajor_val_four, Shape.rowMajor_val_two]
  show ((0 * 1 + 0) * 2048 + j.val) * 128 + d.val = j.val * 128 + d.val
  omega

theorem col_apply (x : S256.Idx → α) (p : Fin 256) (u : Fin 1) :
    shapeCast S256x1 x shapeCasts_S256_S256x1 (ix2 p u) = x (ix1 p) := by
  refine shapeCast_apply x shapeCasts_S256_S256x1 (ix2 p u) (ix1 p) ?_
  have hu : u.val = 0 := by omega
  rw [Shape.rowMajor_val_one, Shape.rowMajor_val_two]
  show p.val = p.val * 1 + u.val
  omega

theorem bcol_apply (x : S256x1.Idx → α) (p : Fin 256) (d : Fin 128) :
    broadcastTo S256x128 x broadcasts_S256x1_S256x128 (ix2 p d) = x (ix2 p (0 : Fin 1)) := by
  refine broadcastTo_apply x broadcasts_S256x1_S256x128 (ix2 p d) (ix2 p (0 : Fin 1)) fun ax => ?_
  match ax with
  | ⟨0, _⟩ => rfl
  | ⟨1, _⟩ => rfl

theorem joined_left_apply (x₁ x₂ : S64x512.Idx → α) (r : Fin 64) (l : Fin 1024) (c : Fin 512) (hc : c.val = l.val) :
    concatenate S64x1024 1 [⟨S64x512, x₁⟩, ⟨S64x512, x₂⟩] concatenates_S64x512_S64x512_S64x1024_d1 (ix2 r l)
      = x₁ (ix2 r c) := by
  refine concatenate_pair_apply_left 1 x₁ x₂ concatenates_S64x512_S64x512_S64x1024_d1 (ix2 r l) rfl (ix2 r c) fun b => ?_
  match b with
  | ⟨0, _⟩ => rfl
  | ⟨1, _⟩ => exact hc

theorem joined_right_apply (x₁ x₂ : S64x512.Idx → α) (r : Fin 64) (l : Fin 1024) (c : Fin 512)
    (hc : c.val + 512 = l.val) :
    concatenate S64x1024 1 [⟨S64x512, x₁⟩, ⟨S64x512, x₂⟩] concatenates_S64x512_S64x512_S64x1024_d1 (ix2 r l)
      = x₂ (ix2 r c) := by
  refine concatenate_pair_apply_right 1 x₁ x₂ concatenates_S64x512_S64x512_S64x1024_d1 (ix2 r l) rfl rfl (ix2 r c)
    (fun b hb => ?_) hc
  match b with
  | ⟨0, _⟩ => rfl
  | ⟨1, _⟩ => exact absurd rfl hb

end Cert.KernelIdeal.Hand

end
-- ==== Proof.ChunkQs.lean ====
import proofs.«900750_g7700000000000751_dist_attn_cross_gqa_kvrep_htp_b1_sq512_skv2048_d1024_hq8_dh128_v7x_i8_bf16_1_alg».proof.Proof.Chunk
import proofs.«900750_g7700000000000751_dist_attn_cross_gqa_kvrep_htp_b1_sq512_skv2048_d1024_hq8_dh128_v7x_i8_bf16_1_alg».proof.Proof.ChunkLayout

noncomputable section

namespace Cert.KernelIdeal.Hand

open Cert.KernelIdeal Cert.KernelIdeal.Gen Idealize.ShloMosaic Idealize.ShloMosaic.TcCoe Idealize.ShloMosaic.ValueIdx

variable {F : FTy → Type} [FloatOps F]

theorem qs0_apply (qb : Vec F S64x1024 .bf16) (p : Fin 256) (e : Fin 128) (r : Fin 64) (l : Fin 1024)
    (hr : r.val = p.val % 64) (hl : l.val = 0 + p.val / 64 * 128 + e.val) :
    qs0 qb (ix2 p e) = qb (ix2 r l) := by
  have hp := p.isLt
  have he := e.isLt
  let c : Fin 512 := ⟨p.val / 64 * 128 + e.val, by omega⟩
  show shapeCast S256x128
      (transpose S4x64x128 [1, 0, 2]
        (shapeCast S64x4x128 (extractStridedSlice S64x512 ![0, 0] qb slices_S64x1024_o0_0_S64x512)
          shapeCasts_S64x512_S64x4x128)
        transposes_S64x4x128_p1_0_2_S4x64x128)
      shapeCasts_S4x64x128_S256x128 (ix2 p e) = _
  rw [regroup_apply _ p e r c hr rfl]
  exact slice2_axis1_apply 0 qb slices_S64x1024_o0_0_S64x512 r c l
    (by show l.val = 0 + (p.val / 64 * 128 + e.val); omega)

theorem qs1_apply (qb : Vec F S64x1024 .bf16) (p : Fin 256) (e : Fin 128) (r : Fin 64) (l : Fin 1024)
    (hr : r.val = p.val % 64) (hl : l.val = 512 + p.val / 64 * 128 + e.val) :
    qs1 qb (ix2 p e) = qb (ix2 r l) := by
  have hp := p.isLt
  have he := e.isLt
  let c : Fin 512 := ⟨p.val / 64 * 128 + e.val, by omega⟩
  show shapeCast S256x128
      (transpose S4x64x128 [1, 0, 2]
        (shapeCast S64x4x128 (extractStridedSlice S64x512 ![0, 512] qb slices_S64x1024_o0_512_S64x512)
          shapeCasts_S64x512_S64x4x128)
        transposes_S64x4x128_p1_0_2_S4x64x128)
      shapeCasts_S4x64x128_S256x128 (ix2 p e) = _
  rw [regroup_apply _ p e r c hr rfl]
  exact slice2_axis1_apply 512 qb slices_S64x1024_o0_512_S64x512 r c l
    (by show l.val = 512 + (p.val / 64 * 128 + e.val); omega)

end Cert.KernelIdeal.Hand

end
-- ==== Proof.ChunkMat.lean ====
import proofs.«900750_g7700000000000751_dist_attn_cross_gqa_kvrep_htp_b1_sq512_skv2048_d1024_hq8_dh128_v7x_i8_bf16_1_alg».proof.Proof.Gen.KernelIdeal
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

theorem coe_sum {ι : Type} [Fintype ι] (f : ι → ℝ) : (∑ i, ((f i : ℝ) : EReal)) = ((∑ i, f i : ℝ) : EReal) := by
  classical
  refine Finset.induction_on (Finset.univ : Finset ι) ?_ ?_
  · simp
  · intro a s ha ih
    rw [Finset.sum_insert ha, Finset.sum_insert ha, ih, EReal.coe_add]

theorem coe_sum_mul {ι : Type} [Fintype ι] (f g : ι → ℝ) :
    (∑ i, ((f i : ℝ) : EReal) * ((g i : ℝ) : EReal)) = ((∑ i, f i * g i : ℝ) : EReal) := by
  rw [← coe_sum]
  exact Finset.sum_congr rfl fun i _ => (EReal.coe_mul _ _).symm

theorem lhs_qk_0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem lhs_qk_1 (i : S256x2048.Idx) (q : dot_S256x128_S2048x128_S256x2048_1_1_0_0_n_n.contr.Idx) :
    (dot_S256x128_S2048x128_S256x2048_1_1_0_0_n_n.lhsIdx i q 1).val = (q ⟨0, by decide⟩).val :=
  dot_S256x128_S2048x128_S256x2048_1_1_0_0_n_n.lhsIdx_val_of_single rfl i q
theorem rhs_qk_0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem rhs_qk_1 (i : S256x2048.Idx) (q : dot_S256x128_S2048x128_S256x2048_1_1_0_0_n_n.contr.Idx) :
    (dot_S256x128_S2048x128_S256x2048_1_1_0_0_n_n.rhsIdx i q 1).val = (q ⟨0, by decide⟩).val :=
  dot_S256x128_S2048x128_S256x2048_1_1_0_0_n_n.rhsIdx_val_of_single rfl i q

theorem lhs_pv_0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem lhs_pv_1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
theorem rhs_pv_1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl
theorem rhs_pv_0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q

theorem lhs_wo_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem lhs_wo_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
theorem rhs_wo_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl
theorem rhs_wo_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q

theorem mm_qk (a : FVec Ideal S256x128 .bf16) (b : FVec Ideal S2048x128 .bf16) (p : Fin 256) (c : Fin 2048) :
    matmul dot_S256x128_S2048x128_S256x2048_1_1_0_0_n_n none a b (constant (F := Ideal) S256x2048 .f32 0x00000000#32) (ix2 p c)
      = ∑ k : Fin 128, a (ix2 p k) * b (ix2 c k) := by
  simp only [matmul]
  rw [Ideal.matmul_constant_zero_apply, ← Equiv.sum_comp (ValueIdx.contrEquiv1 dot_S256x128_S2048x128_S256x2048_1_1_0_0_n_n 128 rfl rfl).symm]
  refine Finset.sum_congr rfl fun k _ => ?_
  have hk := ValueIdx.contrEquiv1_symm_val dot_S256x128_S2048x128_S256x2048_1_1_0_0_n_n 128 rfl rfl k
  have el : dot_S256x128_S2048x128_S256x2048_1_1_0_0_n_n.lhsIdx (ix2 p c) ((ValueIdx.contrEquiv1 dot_S256x128_S2048x128_S256x2048_1_1_0_0_n_n 128 rfl rfl).symm k) = ix2 p k := funext fun ax => Fin.ext (by
    match ax with
    | ⟨0, _⟩ => exact lhs_qk_0 _ _
    | ⟨1, _⟩ => exact (lhs_qk_1 _ _).trans hk)
  have er : dot_S256x128_S2048x128_S256x2048_1_1_0_0_n_n.rhsIdx (ix2 p c) ((ValueIdx.contrEquiv1 dot_S256x128_S2048x128_S256x2048_1_1_0_0_n_n 128 rfl rfl).symm k) = ix2 c k := funext fun ax => Fin.ext (by
    match ax with
    | ⟨0, _⟩ => exact rhs_qk_0 _ _
    | ⟨1, _⟩ => exact (rhs_qk_1 _ _).trans hk)
  rw [el, er]

theorem mm_pv (a : FVec Ideal S256x2048 .bf16) (b : FVec Ideal S2048x128 .bf16) (p : Fin 256) (c : Fin 128) :
    matmul dot_S256x2048_S2048x128_S256x128_1_0_0_1_n_n none a b (constant (F := Ideal) S256x128 .f32 0x00000000#32) (ix2 p c)
      = ∑ k : Fin 2048, a (ix2 p k) * b (ix2 k c) := by
  simp only [matmul]
  rw [Ideal.matmul_constant_zero_apply, ← Equiv.sum_comp (ValueIdx.contrEquiv1 dot_S256x2048_S2048x128_S256x128_1_0_0_1_n_n 2048 rfl rfl).symm]
  refine Finset.sum_congr rfl fun k _ => ?_
  have hk := ValueIdx.contrEquiv1_symm_val dot_S256x2048_S2048x128_S256x128_1_0_0_1_n_n 2048 rfl rfl k
  have el : dot_S256x2048_S2048x128_S256x128_1_0_0_1_n_n.lhsIdx (ix2 p c) ((ValueIdx.contrEquiv1 dot_S256x2048_S2048x128_S256x128_1_0_0_1_n_n 2048 rfl rfl).symm k) = ix2 p k := funext fun ax => Fin.ext (by
    match ax with
    | ⟨0, _⟩ => exact lhs_pv_0 _ _
    | ⟨1, _⟩ => exact (lhs_pv_1 _ _).trans hk)
  have er : dot_S256x2048_S2048x128_S256x128_1_0_0_1_n_n.rhsIdx (ix2 p c) ((ValueIdx.contrEquiv1 dot_S256x2048_S2048x128_S256x128_1_0_0_1_n_n 2048 rfl rfl).symm k) = ix2 k c := funext fun ax => Fin.ext (by
    match ax with
    | ⟨0, _⟩ => exact (rhs_pv_0 _ _).trans hk
    | ⟨1, _⟩ => exact rhs_pv_1 _ _)
  rw [el, er]

theorem mm_wo (a : FVec Ideal S64x1024 .bf16) (b : FVec Ideal S1024x1024 .bf16) (p : Fin 64) (c : Fin 1024) :
    matmul dot_S64x1024_S1024x1024_S64x1024_1_0_0_1_n_n none a b (constant (F := Ideal) S64x1024 .f32 0x00000000#32) (ix2 p c)
      = ∑ k : Fin 1024, a (ix2 p k) * b (ix2 k c) := by
  simp only [matmul]
  rw [Ideal.matmul_constant_zero_apply, ← Equiv.sum_comp (ValueIdx.contrEquiv1 dot_S64x1024_S1024x1024_S64x1024_1_0_0_1_n_n 1024 rfl rfl).symm]
  refine Finset.sum_congr rfl fun k _ => ?_
  have hk := ValueIdx.contrEquiv1_symm_val dot_S64x1024_S1024x1024_S64x1024_1_0_0_1_n_n 1024 rfl rfl k
  have el : dot_S64x1024_S1024x1024_S64x1024_1_0_0_1_n_n.lhsIdx (ix2 p c) ((ValueIdx.contrEquiv1 dot_S64x1024_S1024x1024_S64x1024_1_0_0_1_n_n 1024 rfl rfl).symm k) = ix2 p k := funext fun ax => Fin.ext (by
    match ax with
    | ⟨0, _⟩ => exact lhs_wo_0 _ _
    | ⟨1, _⟩ => exact (lhs_wo_1 _ _).trans hk)
  have er : dot_S64x1024_S1024x1024_S64x1024_1_0_0_1_n_n.rhsIdx (ix2 p c) ((ValueIdx.contrEquiv1 dot_S64x1024_S1024x1024_S64x1024_1_0_0_1_n_n 1024 rfl rfl).symm k) = ix2 k c := funext fun ax => Fin.ext (by
    match ax with
    | ⟨0, _⟩ => exact (rhs_wo_0 _ _).trans hk
    | ⟨1, _⟩ => exact rhs_wo_1 _ _)
  rw [el, er]

end Cert.KernelIdeal.Hand

end
-- ==== Proof.Spec.lean ====
import Idealize.ShloMosaic.PureOps.Ideal

noncomputable section

namespace Cert.Spec

open Idealize.ShloMosaic

def scE : EReal := Ideal.ofBits .f32 0x3DB504F3#32

def scR : ℝ := scE.toReal

def hd (n : Fin 8192) : Fin 64 := ⟨n.val / 128, by have := n.isLt; omega⟩

def dd (n : Fin 8192) : Fin 128 := ⟨n.val % 128, Nat.mod_lt _ (by decide)⟩

def col (h : Fin 64) (d : Fin 128) : Fin 8192 := ⟨h.val * 128 + d.val, by have := h.isLt; have := d.isLt; omega⟩

def kvh (h : Fin 64) : Fin 16 := ⟨h.val / 4, by have := h.isLt; omega⟩

def q (x : Fin 512 → Fin 1024 → ℝ) (wq : Fin 1024 → Fin 8192 → ℝ) (i : Fin 512) (n : Fin 8192) : ℝ :=
  ∑ t : Fin 1024, x i t * wq t n

def score (sc : ℝ) (x : Fin 512 → Fin 1024 → ℝ) (wq : Fin 1024 → Fin 8192 → ℝ) (k : Fin 2048 → Fin 16 → Fin 128 → ℝ)
    (h : Fin 64) (i : Fin 512) (j : Fin 2048) : ℝ :=
  (∑ d : Fin 128, q x wq i (col h d) * k j (kvh h) d) * sc

def attn (sc : ℝ) (x : Fin 512 → Fin 1024 → ℝ) (wq : Fin 1024 → Fin 8192 → ℝ) (k v : Fin 2048 → Fin 16 → Fin 128 → ℝ)
    (i : Fin 512) (n : Fin 8192) : ℝ :=
  (∑ j : Fin 2048, Real.exp (score sc x wq k (hd n) i j) * v j (kvh (hd n)) (dd n))
    / (∑ j : Fin 2048, Real.exp (score sc x wq k (hd n) i j))

def out (sc : ℝ) (x : Fin 512 → Fin 1024 → ℝ) (wq : Fin 1024 → Fin 8192 → ℝ) (wo : Fin 8192 → Fin 1024 → ℝ)
    (k v : Fin 2048 → Fin 16 → Fin 128 → ℝ) (i : Fin 512) (c : Fin 1024) : ℝ :=
  ∑ n : Fin 8192, attn sc x wq k v i n * wo n c

theorem denom_pos (f : Fin 2048 → ℝ) : 0 < ∑ j : Fin 2048, Real.exp (f j) :=
  Finset.sum_pos (fun j _ => Real.exp_pos _) ⟨⟨0, by decide⟩, Finset.mem_univ _⟩

end Cert.Spec

end
-- ==== Proof.SpecLocal.lean ====
import proofs.«900750_g7700000000000751_dist_attn_cross_gqa_kvrep_htp_b1_sq512_skv2048_d1024_hq8_dh128_v7x_i8_bf16_1_alg».proof.Proof.Spec

noncomputable section

namespace Cert.Spec

def lscore (qb : Fin 64 → Fin 1024 → ℝ) (kk : Fin 2 → Fin 2048 → Fin 128 → ℝ) (r : Fin 64) (l : Fin 1024)
    (j : Fin 2048) : ℝ :=
  ∑ d : Fin 128, qb r ⟨l.val / 128 * 128 + d.val, by have := l.isLt; have := d.isLt; omega⟩
    * kk ⟨l.val / 512, by have := l.isLt; omega⟩ j d

def lattn (qb : Fin 64 → Fin 1024 → ℝ) (kk vv : Fin 2 → Fin 2048 → Fin 128 → ℝ) (r : Fin 64) (l : Fin 1024) : ℝ :=
  (∑ j : Fin 2048, Real.exp (lscore qb kk r l j)
      * vv ⟨l.val / 512, by have := l.isLt; omega⟩ j ⟨l.val % 128, Nat.mod_lt _ (by decide)⟩)
    / (∑ j : Fin 2048, Real.exp (lscore qb kk r l j))

def lout (qb : Fin 64 → Fin 1024 → ℝ) (kk vv : Fin 2 → Fin 2048 → Fin 128 → ℝ) (wo : Fin 1024 → Fin 1024 → ℝ)
    (r : Fin 64) (n : Fin 1024) : ℝ :=
  ∑ l : Fin 1024, lattn qb kk vv r l * wo l n

end Cert.Spec

end
-- ==== Proof.CoreSpec.lean ====
import proofs.«900750_g7700000000000751_dist_attn_cross_gqa_kvrep_htp_b1_sq512_skv2048_d1024_hq8_dh128_v7x_i8_bf16_1_alg».proof.Proof.SpecLocal

noncomputable section

namespace Cert.Spec

def scoreR (Q : Fin 256 → Fin 128 → ℝ) (K : Fin 2048 → Fin 128 → ℝ) (p : Fin 256) (j : Fin 2048) : ℝ :=
  ∑ e : Fin 128, Q p e * K j e

def normR (Q : Fin 256 → Fin 128 → ℝ) (K : Fin 2048 → Fin 128 → ℝ) (p : Fin 256) : ℝ :=
  ∑ j : Fin 2048, Real.exp (scoreR Q K p j)

def coreR (Q : Fin 256 → Fin 128 → ℝ) (K V : Fin 2048 → Fin 128 → ℝ) (p : Fin 256) (d : Fin 128) : ℝ :=
  (∑ j : Fin 2048, Real.exp (scoreR Q K p j) * V j d) / normR Q K p

theorem normR_pos (Q : Fin 256 → Fin 128 → ℝ) (K : Fin 2048 → Fin 128 → ℝ) (p : Fin 256) : 0 < normR Q K p :=
  denom_pos _

def gatherQ (qb : Fin 64 → Fin 1024 → ℝ) (o : ℕ) (ho : o + 512 ≤ 1024) (p : Fin 256) (e : Fin 128) : ℝ :=
  qb ⟨p.val % 64, Nat.mod_lt _ (by decide)⟩
    ⟨o + p.val / 64 * 128 + e.val, by have := p.isLt; have := e.isLt; omega⟩

theorem coreR_eq_lattn (qb : Fin 64 → Fin 1024 → ℝ) (kk vv : Fin 2 → Fin 2048 → Fin 128 → ℝ) (g : Fin 2) (o : ℕ)
    (ho : o + 512 ≤ 1024) (hog : o = 512 * g.val) (r : Fin 64) (l : Fin 1024) (p : Fin 256) (d : Fin 128)
    (hg : l.val / 512 = g.val) (hp : p.val = l.val % 512 / 128 * 64 + r.val) (hd : d.val = l.val % 128) :
    coreR (gatherQ qb o ho) (kk g) (vv g) p d = lattn qb kk vv r l := by
  have hl := l.isLt
  have hr := r.isLt
  have eg : (⟨l.val / 512, by omega⟩ : Fin 2) = g := Fin.ext hg
  have ed : (⟨l.val % 128, Nat.mod_lt _ (by decide)⟩ : Fin 128) = d := Fin.ext hd.symm
  have hs : ∀ j : Fin 2048, scoreR (gatherQ qb o ho) (kk g) p j = lscore qb kk r l j := by
    intro j
    unfold scoreR lscore gatherQ
    rw [eg]
    refine Finset.sum_congr rfl fun e _ => ?_
    have e1 : (⟨p.val % 64, Nat.mod_lt _ (by decide)⟩ : Fin 64) = r := Fin.ext (by show p.val % 64 = r.val; omega)
    have e2 : (⟨o + p.val / 64 * 128 + e.val, by have := p.isLt; have := e.isLt; omega⟩ : Fin 1024)
        = ⟨l.val / 128 * 128 + e.val, by have := e.isLt; omega⟩ :=
      Fin.ext (by show o + p.val / 64 * 128 + e.val = l.val / 128 * 128 + e.val; omega)
    rw [e1, e2]
  unfold coreR normR lattn
  rw [eg, ed]
  simp only [hs]

end Cert.Spec

end
-- ==== Proof.ChunkCore.lean ====
import proofs.«900750_g7700000000000751_dist_attn_cross_gqa_kvrep_htp_b1_sq512_skv2048_d1024_hq8_dh128_v7x_i8_bf16_1_alg».proof.Proof.Chunk
import proofs.«900750_g7700000000000751_dist_attn_cross_gqa_kvrep_htp_b1_sq512_skv2048_d1024_hq8_dh128_v7x_i8_bf16_1_alg».proof.Proof.ChunkMat
import proofs.«900750_g7700000000000751_dist_attn_cross_gqa_kvrep_htp_b1_sq512_skv2048_d1024_hq8_dh128_v7x_i8_bf16_1_alg».proof.Proof.ChunkLayout
import proofs.«900750_g7700000000000751_dist_attn_cross_gqa_kvrep_htp_b1_sq512_skv2048_d1024_hq8_dh128_v7x_i8_bf16_1_alg».proof.Proof.CoreSpec
import Idealize.ShloMosaic.Lib.IdealHost

noncomputable section

namespace Cert.KernelIdeal.Hand

open Cert.KernelIdeal Cert.KernelIdeal.Gen Idealize.ShloMosaic Idealize.ShloMosaic.TcCoe Idealize.ShloMosaic.ValueIdx

section Stages
variable {F : FTy → Type} [FloatOps F]

def scoresF (qs : FVec F S256x128 .bf16) (k : Vec F S1x1x2048x128 .bf16) : FVec F S256x2048 .f32 :=
  matmul dot_S256x128_S2048x128_S256x2048_1_1_0_0_n_n none qs
    (shapeCast S2048x128 k shapeCasts_S1x1x2048x128_S2048x128) (constant S256x2048 .f32 0x00000000#32)

def expF (qs : FVec F S256x128 .bf16) (k : Vec F S1x1x2048x128 .bf16) : FVec F S256x2048 .f32 := exp (scoresF qs k)

def rowsumF (qs : FVec F S256x128 .bf16) (k : Vec F S1x1x2048x128 .bf16) : FVec F S256 .f32 :=
  multiReduction .add [1] S256 (expF qs k) 0x00000000#32 reduces_S256x2048_S256 (.inl rfl) rfl

def pvF (qs : FVec F S256x128 .bf16) (k v : Vec F S1x1x2048x128 .bf16) : FVec F S256x128 .f32 :=
  matmul dot_S256x2048_S2048x128_S256x128_1_0_0_1_n_n none (truncf .bf16 (expF qs k) bitsLt_bf16_f32)
    (shapeCast S2048x128 v shapeCasts_S1x1x2048x128_S2048x128) (constant S256x128 .f32 0x00000000#32)

def recipF (qs : FVec F S256x128 .bf16) (k : Vec F S1x1x2048x128 .bf16) : FVec F S256x1 .f32 :=
  divf (broadcast S256x1 (Scalar.ofBits .f32 0x3F800000#32)) (shapeCast S256x1 (rowsumF qs k) shapeCasts_S256_S256x1)

def scaledF (qs : FVec F S256x128 .bf16) (k v : Vec F S1x1x2048x128 .bf16) : FVec F S256x128 .f32 :=
  mulf (pvF qs k v) (broadcastTo S256x128 (recipF qs k) broadcasts_S256x1_S256x128)

theorem core_eq (qs : FVec F S256x128 .bf16) (k v : Vec F S1x1x2048x128 .bf16) :
    core qs k v = truncf .bf16
      (shapeCast S64x512
        (transpose S64x4x128 [1, 0, 2] (shapeCast S4x64x128 (scaledF qs k v) shapeCasts_S256x128_S4x64x128)
          transposes_S4x64x128_p1_0_2_S64x4x128)
        shapeCasts_S64x4x128_S64x512) bitsLt_bf16_f32 := rfl

end Stages

section Values
variable (qs : FVec Ideal S256x128 .bf16) (k v : Vec Ideal S1x1x2048x128 .bf16)
  (Q : Fin 256 → Fin 128 → ℝ) (K V : Fin 2048 → Fin 128 → ℝ)
  (hq : ∀ p d, qs (ix2 p d) = ((Q p d : ℝ) : EReal))
  (hk : ∀ j d, k (ix4 (0 : Fin 1) (0 : Fin 1) j d) = ((K j d : ℝ) : EReal))
  (hv : ∀ j d, v (ix4 (0 : Fin 1) (0 : Fin 1) j d) = ((V j d : ℝ) : EReal))

include hq hk in
theorem scores_apply (p : Fin 256) (j : Fin 2048) :
    scoresF (F := Ideal) qs k (ix2 p j) = ((Cert.Spec.scoreR Q K p j : ℝ) : EReal) := by
  unfold scoresF Cert.Spec.scoreR
  refine (mm_qk qs _ p j).trans ?_
  rw [← coe_sum_mul]
  refine Finset.sum_congr rfl fun e _ => ?_
  rw [hq, kvcast_apply, hk]

include hq hk in
theorem exp_apply (p : Fin 256) (j : Fin 2048) :
    expF (F := Ideal) qs k (ix2 p j) = ((Real.exp (Cert.Spec.scoreR Q K p j) : ℝ) : EReal) := by
  show Ideal.exp (scoresF (F := Ideal) qs k (ix2 p j)) = _
  rw [scores_apply qs k Q K hq hk p j]
  rfl

include hq hk in
theorem rowsum_apply (p : Fin 256) :
    rowsumF (F := Ideal) qs k (ix1 p) = ((Cert.Spec.normR Q K p : ℝ) : EReal) := by
  unfold rowsumF Cert.Spec.normR
  refine (Ideal.multiReduction_add_single (expF (F := Ideal) qs k) 0x00000000#32 reduces_S256x2048_S256
    (.inl rfl) rfl (ix1 p)).trans ?_
  show ∑ j : Fin 2048, expF (F := Ideal) qs k (reduces_S256x2048_S256.lift (ix1 p) j) = _
  rw [← coe_sum]
  refine Finset.sum_congr rfl fun j _ => ?_
  have e : reduces_S256x2048_S256.lift (ix1 p) j = ix2 p j := funext fun ax => Fin.ext (by
    match ax with
    | ⟨0, _⟩ => rfl
    | ⟨1, _⟩ => rfl)
  rw [e, exp_apply qs k Q K hq hk p j]

include hq hk hv in
theorem pv_apply (p : Fin 256) (d : Fin 128) :
    pvF (F := Ideal) qs k v (ix2 p d) = ((∑ j : Fin 2048, Real.exp (Cert.Spec.scoreR Q K p j) * V j d : ℝ) : EReal) := by
  unfold pvF
  refine (mm_pv _ _ p d).trans ?_
  rw [← coe_sum_mul]
  refine Finset.sum_congr rfl fun j _ => ?_
  rw [kvcast_apply, hv]
  show expF (F := Ideal) qs k (ix2 p j) * _ = _
  rw [exp_apply qs k Q K hq hk p j]

include hq hk in
theorem recip_apply (p : Fin 256) :
    recipF (F := Ideal) qs k (ix2 p (0 : Fin 1)) = ((1 / Cert.Spec.normR Q K p : ℝ) : EReal) := by
  unfold recipF
  show Ideal.div (Ideal.ofBits .f32 0x3F800000#32) (shapeCast S256x1 (rowsumF (F := Ideal) qs k) shapeCasts_S256_S256x1 (ix2 p (0 : Fin 1))) = _
  rw [col_apply, rowsum_apply qs k Q K hq hk p, Ideal.ofBits_one_f32, Ideal.div_coe (Cert.Spec.normR_pos Q K p).ne', one_mul]

include hq hk hv in
theorem scaled_apply (p : Fin 256) (d : Fin 128) :
    scaledF (F := Ideal) qs k v (ix2 p d) = ((Cert.Spec.coreR Q K V p d : ℝ) : EReal) := by
  unfold scaledF Cert.Spec.coreR
  show pvF (F := Ideal) qs k v (ix2 p d) * broadcastTo S256x128 (recipF (F := Ideal) qs k) broadcasts_S256x1_S256x128 (ix2 p d) = _
  rw [bcol_apply, pv_apply qs k v Q K V hq hk hv p d, recip_apply qs k Q K hq hk p, ← EReal.coe_mul, mul_one_div]

include hq hk hv in

theorem core_apply (r : Fin 64) (c : Fin 512) (p : Fin 256) (d : Fin 128)
    (hp : p.val = c.val / 128 * 64 + r.val) (hd : d.val = c.val % 128) :
    core (F := Ideal) qs k v (ix2 r c) = ((Cert.Spec.coreR Q K V p d : ℝ) : EReal) := by
  rw [core_eq]
  show shapeCast S64x512
      (transpose S64x4x128 [1, 0, 2] (shapeCast S4x64x128 (scaledF (F := Ideal) qs k v) shapeCasts_S256x128_S4x64x128)
        transposes_S4x64x128_p1_0_2_S64x4x128)
      shapeCasts_S64x4x128_S64x512 (ix2 r c) = _
  rw [ungroup_apply _ r c p d hp hd, scaled_apply qs k v Q K V hq hk hv p d]

end Values

end Cert.KernelIdeal.Hand

end
-- ==== Proof.ChunkValue.lean ====
import proofs.«900750_g7700000000000751_dist_attn_cross_gqa_kvrep_htp_b1_sq512_skv2048_d1024_hq8_dh128_v7x_i8_bf16_1_alg».proof.Proof.ChunkQs
import proofs.«900750_g7700000000000751_dist_attn_cross_gqa_kvrep_htp_b1_sq512_skv2048_d1024_hq8_dh128_v7x_i8_bf16_1_alg».proof.Proof.ChunkCore

noncomputable section

namespace Cert.KernelIdeal.Hand

open Cert.KernelIdeal Cert.KernelIdeal.Gen Idealize.ShloMosaic Idealize.ShloMosaic.TcCoe Idealize.ShloMosaic.ValueIdx

section
variable (qb : Vec Ideal S64x1024 .bf16) (k0 v0 k1 v1 : Vec Ideal S1x1x2048x128 .bf16)
  (wo : Vec Ideal S1024x1024 .bf16)
  (qbr : Fin 64 → Fin 1024 → ℝ) (kk vv : Fin 2 → Fin 2048 → Fin 128 → ℝ) (wor : Fin 1024 → Fin 1024 → ℝ)
  (hq : ∀ r l, qb (ix2 r l) = ((qbr r l : ℝ) : EReal))
  (hk0 : ∀ j d, k0 (ix4 0 0 j d) = ((kk 0 j d : ℝ) : EReal))
  (hv0 : ∀ j d, v0 (ix4 0 0 j d) = ((vv 0 j d : ℝ) : EReal))
  (hk1 : ∀ j d, k1 (ix4 0 0 j d) = ((kk 1 j d : ℝ) : EReal))
  (hv1 : ∀ j d, v1 (ix4 0 0 j d) = ((vv 1 j d : ℝ) : EReal))
  (hwo : ∀ l n, wo (ix2 l n) = ((wor l n : ℝ) : EReal))

include hq in

theorem qs0_value (p : Fin 256) (e : Fin 128) :
    qs0 qb (ix2 p e) = ((Cert.Spec.gatherQ qbr 0 (by decide) p e : ℝ) : EReal) := by
  unfold Cert.Spec.gatherQ
  exact (qs0_apply qb p e _ _ (by rfl) (by rfl)).trans (hq _ _)

include hq in

theorem qs1_value (p : Fin 256) (e : Fin 128) :
    qs1 qb (ix2 p e) = ((Cert.Spec.gatherQ qbr 512 (by decide) p e : ℝ) : EReal) := by
  unfold Cert.Spec.gatherQ
  exact (qs1_apply qb p e _ _ (by rfl) (by rfl)).trans (hq _ _)

include hq hk0 hv0 hk1 hv1 in

theorem joined_value (r : Fin 64) (l : Fin 1024) :
    joined (core (qs0 qb) k0 v0) (core (qs1 qb) k1 v1) (ix2 r l)
      = ((Cert.Spec.lattn qbr kk vv r l : ℝ) : EReal) := by
  have hl := l.isLt
  have hr := r.isLt
  unfold joined
  by_cases h : l.val < 512
  · let c : Fin 512 := ⟨l.val, h⟩
    let p : Fin 256 := ⟨l.val / 128 * 64 + r.val, by omega⟩
    let d : Fin 128 := ⟨l.val % 128, Nat.mod_lt _ (by decide)⟩
    rw [joined_left_apply _ _ r l c rfl,
      core_apply (qs0 qb) k0 v0 (Cert.Spec.gatherQ qbr 0 (by decide)) (kk 0) (vv 0) (qs0_value qb qbr hq) hk0 hv0
        r c p d rfl rfl,
      Cert.Spec.coreR_eq_lattn qbr kk vv 0 0 (by decide) (by decide) r l p d
        (by show l.val / 512 = 0; omega)
        (by show l.val / 128 * 64 + r.val = l.val % 512 / 128 * 64 + r.val; omega) rfl]
  · let c : Fin 512 := ⟨l.val - 512, by omega⟩
    let p : Fin 256 := ⟨(l.val - 512) / 128 * 64 + r.val, by omega⟩
    let d : Fin 128 := ⟨(l.val - 512) % 128, Nat.mod_lt _ (by decide)⟩
    rw [joined_right_apply _ _ r l c (by show l.val - 512 + 512 = l.val; omega),
      core_apply (qs1 qb) k1 v1 (Cert.Spec.gatherQ qbr 512 (by decide)) (kk 1) (vv 1) (qs1_value qb qbr hq) hk1 hv1
        r c p d rfl rfl,
      Cert.Spec.coreR_eq_lattn qbr kk vv 1 512 (by decide) (by decide) r l p d
        (by show l.val / 512 = 1; omega)
        (by show (l.val - 512) / 128 * 64 + r.val = l.val % 512 / 128 * 64 + r.val; omega)
        (by show (l.val - 512) % 128 = l.val % 128; omega)]

include hq hk0 hv0 hk1 hv1 hwo in

theorem chunkF_value (r : Fin 64) (n : Fin 1024) :
    chunkF (F := Ideal) qb k0 v0 k1 v1 wo (ix3 0 r n) = ((Cert.Spec.lout qbr kk vv wor r n : ℝ) : EReal) := by
  rw [chunkF_eq]
  show shapeCast S1x64x1024
      (matmul dot_S64x1024_S1024x1024_S64x1024_1_0_0_1_n_n none
        (joined (core (qs0 qb) k0 v0) (core (qs1 qb) k1 v1)) wo
        (constant (F := Ideal) S64x1024 .f32 0x00000000#32))
      shapeCasts_S64x1024_S1x64x1024 (ix3 (0 : Fin 1) r n) = _
  rw [shapeCast_ab_1ab_apply, mm_wo]
  unfold Cert.Spec.lout
  rw [← coe_sum_mul]
  refine Finset.sum_congr rfl fun l _ => ?_
  rw [joined_value qb k0 v0 k1 v1 qbr kk vv hq hk0 hv0 hk1 hv1 r l, hwo]

end

end Cert.KernelIdeal.Hand

end
-- ==== Proof.ScaleLit.lean ====
import proofs.«900750_g7700000000000751_dist_attn_cross_gqa_kvrep_htp_b1_sq512_skv2048_d1024_hq8_dh128_v7x_i8_bf16_1_alg».proof.Proof.Spec

noncomputable section

namespace Cert.Proof.RefValue

open Idealize.ShloMosaic

theorem scE_eq : Cert.Spec.scE = (((11863283 : ℝ) * (2 : ℝ) ^ (-27 : Int) : ℝ) : EReal) := by
  simp [Cert.Spec.scE, Ideal.ofBits, Ideal.ieee, -EReal.coe_mul]

theorem scE_coe : Cert.Spec.scE = ((Cert.Spec.scR : ℝ) : EReal) := by
  unfold Cert.Spec.scR
  rw [scE_eq, EReal.toReal_coe]

theorem negInf_eq : Ideal.ofBits .f32 0xFF800000#32 = (⊥ : EReal) := by
  simp [Ideal.ofBits, Ideal.ieee]

end Cert.Proof.RefValue

end
-- ==== Proof.PayValues.lean ====
import proofs.«900750_g7700000000000751_dist_attn_cross_gqa_kvrep_htp_b1_sq512_skv2048_d1024_hq8_dh128_v7x_i8_bf16_1_alg».proof.Proof.Gen.KernelIdeal.Skeleton
import proofs.«900750_g7700000000000751_dist_attn_cross_gqa_kvrep_htp_b1_sq512_skv2048_d1024_hq8_dh128_v7x_i8_bf16_1_alg».proof.Proof.ChunkMat
import proofs.«900750_g7700000000000751_dist_attn_cross_gqa_kvrep_htp_b1_sq512_skv2048_d1024_hq8_dh128_v7x_i8_bf16_1_alg».proof.Proof.ScaleLit
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx

theorem pay2_apply (w : Vec Ideal S1024x1024 .f32) (i : S1024x1024.Idx) : k0_pay2 (F := Ideal) w i = w i := by
  unfold k0_pay2
  simp only [shapeCast_self]
  rfl

theorem pay3_apply (w : Vec Ideal S1024x1024 .f32) (i : S1024x1024.Idx) : k0_pay3 (F := Ideal) w i = w i := by
  unfold k0_pay3
  simp only [shapeCast_self]
  rfl

theorem pay4_apply (w : Vec Ideal S2x2x2048x128 .f32) (i : S2x2x2048x128.Idx) : k0_pay4 (F := Ideal) w i = w i := by
  unfold k0_pay4
  simp only [shapeCast_self]
  rfl

theorem lhs_xq_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_xq_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_xq_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem rhs_xq_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem mm_xq (a : FVec Ideal S512x1024 .bf16) (b : FVec Ideal S1024x1024 .bf16) (p : Fin 512) (c : Fin 1024) :
    matmul dot_S512x1024_S1024x1024_S512x1024_1_0_0_1_n_n none a b (constant (F := Ideal) S512x1024 .f32 0x00000000#32) (ix2 p c)
      = ∑ k : Fin 1024, a (ix2 p k) * b (ix2 k c) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p c) ((ValueIdx.contrEquiv1 dot_S512x1024_S1024x1024_S512x1024_1_0_0_1_n_n 1024 rfl rfl).symm k) = ix2 p k := funext fun ax => Fin.ext (by
    match ax with
    | ⟨0, _⟩ => exact lhs_xq_0 _ _
    | ⟨1, _⟩ => exact (lhs_xq_1 _ _).trans hk)
  have er : dot_S512x1024_S1024x1024_S512x1024_1_0_0_1_n_n.rhsIdx (ix2 p c) ((ValueIdx.contrEquiv1 dot_S512x1024_S1024x1024_S512x1024_1_0_0_1_n_n 1024 rfl rfl).symm k) = ix2 k c := funext fun ax => Fin.ext (by
    match ax with
    | ⟨0, _⟩ => exact (rhs_xq_0 _ _).trans hk
    | ⟨1, _⟩ => exact rhs_xq_1 _ _)
  rw [el, er]

theorem pay5_value (x : Vec Ideal S1x512x1024 .f32) (wqb : Vec Ideal S1024x1024 .bf16)
    (xr : Fin 512 → Fin 1024 → ℝ) (wr : Fin 1024 → Fin 1024 → ℝ)
    (hx : ∀ i t, x (ix3 0 i t) = ((xr i t : ℝ) : EReal)) (hw : ∀ t l, wqb (ix2 t l) = ((wr t l : ℝ) : EReal))
    (i : Fin 512) (l : Fin 1024) :
    k0_pay5 (F := Ideal) x wqb (ix2 i l) = (((∑ t : Fin 1024, xr i t * wr t l) * Cert.Spec.scR : ℝ) : EReal) := by
  have hmm : matmul (φ₁ := .bf16) (φ₂ := .bf16) dot_S512x1024_S1024x1024_S512x1024_1_0_0_1_n_n none
      (truncf .bf16 (shapeCast S512x1024 x shapeCasts_S1x512x1024_S512x1024) bitsLt_bf16_f32 : FVec Ideal S512x1024 .bf16)
      (wqb : FVec Ideal S1024x1024 .bf16)
      (constant (F := Ideal) S512x1024 .f32 0x00000000#32) (ix2 i l)
        = ((∑ t : Fin 1024, xr i t * wr t l : ℝ) : EReal) := by
    rw [mm_xq, ← coe_sum_mul]
    refine Finset.sum_congr rfl fun t _ => ?_
    rw [hw]
    exact congrArg (· * ((wr t l : ℝ) : EReal)) ((shapeCast_1ab_ab_apply x shapeCasts_S1x512x1024_S512x1024 i t).trans (hx i t))
  unfold k0_pay5
  simp only [shapeCast_self]
  refine Eq.trans (b := ((∑ t : Fin 1024, xr i t * wr t l : ℝ) : EReal) * Cert.Spec.scE) ?_ ?_
  · exact congrArg (· * Cert.Spec.scE) hmm
  · rw [Cert.Proof.RefValue.scE_coe, EReal.coe_mul]

end Cert.KernelIdeal.Hand

end
-- ==== Proof.SumSplit.lean ====
import proofs.«900750_g7700000000000751_dist_attn_cross_gqa_kvrep_htp_b1_sq512_skv2048_d1024_hq8_dh128_v7x_i8_bf16_1_alg».proof.Proof.Spec
import Mathlib.Algebra.BigOperators.Fin

noncomputable section

namespace Cert.Spec

def dcol (c : Fin 8) (l : Fin 1024) : Fin 8192 :=
  ⟨1024 * c.val + l.val, by have := c.isLt; have := l.isLt; omega⟩

theorem sum_cols (f : Fin 8192 → ℝ) : ∑ n : Fin 8192, f n = ∑ c : Fin 8, ∑ l : Fin 1024, f (dcol c l) := by
  have he : ∀ (c : Fin 8) (l : Fin 1024), (finProdFinEquiv (c, l) : Fin (8 * 1024)) = dcol c l :=
    fun c l => Fin.ext (by rw [finProdFinEquiv_apply_val]; simp only [dcol]; omega)
  rw [← Finset.sum_product']
  refine (Fintype.sum_equiv (finProdFinEquiv (m := 8) (n := 1024)) (fun p => f (dcol p.1 p.2)) f ?_).symm
  intro p
  rw [← he]

theorem hd_dcol (c : Fin 8) (l : Fin 1024) : (hd (dcol c l)).val = 8 * c.val + l.val / 128 := by
  have := c.isLt; have := l.isLt
  simp only [hd, dcol]
  omega

theorem dd_dcol (c : Fin 8) (l : Fin 1024) : (dd (dcol c l)).val = l.val % 128 := by
  have := c.isLt; have := l.isLt
  simp only [dd, dcol]
  omega

theorem kvh_hd_dcol (c : Fin 8) (l : Fin 1024) : (kvh (hd (dcol c l))).val = 2 * c.val + l.val / 512 := by
  have := c.isLt; have := l.isLt
  simp only [kvh, hd, dcol]
  omega

end Cert.Spec

end
-- ==== Proof.PartialSum.lean ====
import proofs.«900750_g7700000000000751_dist_attn_cross_gqa_kvrep_htp_b1_sq512_skv2048_d1024_hq8_dh128_v7x_i8_bf16_1_alg».proof.Proof.SpecLocal
import proofs.«900750_g7700000000000751_dist_attn_cross_gqa_kvrep_htp_b1_sq512_skv2048_d1024_hq8_dh128_v7x_i8_bf16_1_alg».proof.Proof.SumSplit

noncomputable section

namespace Cert.Spec

def partialR (sc : ℝ) (x : Fin 512 → Fin 1024 → ℝ) (wq : Fin 1024 → Fin 8192 → ℝ) (wo : Fin 8192 → Fin 1024 → ℝ)
    (k v : Fin 2048 → Fin 16 → Fin 128 → ℝ) (e : Fin 8) (i : Fin 512) (n : Fin 1024) : ℝ :=
  ∑ l : Fin 1024, attn sc x wq k v i (dcol e l) * wo (dcol e l) n

theorem sum_partial (sc : ℝ) (x : Fin 512 → Fin 1024 → ℝ) (wq : Fin 1024 → Fin 8192 → ℝ)
    (wo : Fin 8192 → Fin 1024 → ℝ) (k v : Fin 2048 → Fin 16 → Fin 128 → ℝ) (i : Fin 512) (n : Fin 1024) :
    ∑ e : Fin 8, partialR sc x wq wo k v e i n = out sc x wq wo k v i n := by
  unfold partialR out
  exact (sum_cols fun m => attn sc x wq k v i m * wo m n).symm

def rowOf (j : Fin 8) (r : Fin 64) : Fin 512 := ⟨64 * j.val + r.val, by have := j.isLt; have := r.isLt; omega⟩

def kvOf (e : Fin 8) (g : Fin 2) : Fin 16 := ⟨2 * e.val + g.val, by have := e.isLt; have := g.isLt; omega⟩

def qbrOf (sc : ℝ) (x : Fin 512 → Fin 1024 → ℝ) (wq : Fin 1024 → Fin 8192 → ℝ) (e j : Fin 8) :
    Fin 64 → Fin 1024 → ℝ := fun r l => q x wq (rowOf j r) (dcol e l) * sc

def kvSel (k : Fin 2048 → Fin 16 → Fin 128 → ℝ) (e : Fin 8) : Fin 2 → Fin 2048 → Fin 128 → ℝ :=
  fun g jj d => k jj (kvOf e g) d

def wolOf (wo : Fin 8192 → Fin 1024 → ℝ) (e : Fin 8) : Fin 1024 → Fin 1024 → ℝ := fun l n => wo (dcol e l) n

section Link
variable (sc : ℝ) (x : Fin 512 → Fin 1024 → ℝ) (wq : Fin 1024 → Fin 8192 → ℝ) (wo : Fin 8192 → Fin 1024 → ℝ)
  (k v : Fin 2048 → Fin 16 → Fin 128 → ℝ) (e j : Fin 8)

theorem col_hd_dcol (l : Fin 1024) (d : Fin 128) :
    col (hd (dcol e l)) d = dcol e ⟨l.val / 128 * 128 + d.val, by have := l.isLt; have := d.isLt; omega⟩ := by
  apply Fin.ext
  have h := hd_dcol e l
  show (hd (dcol e l)).val * 128 + d.val = 1024 * e.val + (l.val / 128 * 128 + d.val)
  omega

theorem kvh_hd_dcol' (l : Fin 1024) :
    kvh (hd (dcol e l)) = kvOf e ⟨l.val / 512, by have := l.isLt; omega⟩ :=
  Fin.ext (kvh_hd_dcol e l)

theorem dd_dcol' (l : Fin 1024) : dd (dcol e l) = ⟨l.val % 128, Nat.mod_lt _ (by decide)⟩ :=
  Fin.ext (dd_dcol e l)

theorem lscore_eq (r : Fin 64) (l : Fin 1024) (jj : Fin 2048) :
    lscore (qbrOf sc x wq e j) (kvSel k e) r l jj = score sc x wq k (hd (dcol e l)) (rowOf j r) jj := by
  unfold lscore score qbrOf kvSel
  rw [Finset.sum_mul]
  refine Finset.sum_congr rfl fun d _ => ?_
  rw [col_hd_dcol, kvh_hd_dcol', mul_right_comm]

theorem lattn_eq (r : Fin 64) (l : Fin 1024) :
    lattn (qbrOf sc x wq e j) (kvSel k e) (kvSel v e) r l = attn sc x wq k v (rowOf j r) (dcol e l) := by
  unfold lattn attn
  simp only [lscore_eq]
  unfold kvSel
  rw [kvh_hd_dcol', dd_dcol']

theorem lout_eq_partial (r : Fin 64) (n : Fin 1024) :
    lout (qbrOf sc x wq e j) (kvSel k e) (kvSel v e) (wolOf wo e) r n = partialR sc x wq wo k v e (rowOf j r) n := by
  unfold lout partialR wolOf
  refine Finset.sum_congr rfl fun l _ => ?_
  rw [lattn_eq]

end Link

end Cert.Spec

end
-- ==== Proof.RingValue.lean ====
import proofs.«900750_g7700000000000751_dist_attn_cross_gqa_kvrep_htp_b1_sq512_skv2048_d1024_hq8_dh128_v7x_i8_bf16_1_alg».proof.Proof.Contents
import Idealize.ShloMosaic.Lib.ValueIdx
import Idealize.ShloMosaic.Lib.Pipeline.Value
import Idealize.ShloMosaic.Lib.ValueLayout
import Mathlib.Algebra.BigOperators.Fin
import Mathlib.Tactic.IntervalCases

noncomputable section

namespace Cert.KernelIdeal.Hand

open Cert.KernelIdeal Cert.KernelIdeal.Gen
open Idealize.ShloMosaic Idealize.ShloMosaic.TcCoe Idealize.ShloMosaic.ValueIdx

theorem sh_comp (j k m : ℕ) (h : (j + k) % 8 = m % 8) (c : Dev nD) : sh j (sh k c) = sh m c := by
  apply Fin.ext
  show ((c.val + k) % 8 + j) % 8 = (c.val + m) % 8
  omega

theorem sh_comp0 (j k : ℕ) (h : (j + k) % 8 = 0) (c : Dev nD) : sh j (sh k c) = c := by
  apply Fin.ext
  have hc : c.val < 8 := c.isLt
  show ((c.val + k) % 8 + j) % 8 = c.val
  omega

theorem sum_ring (f : Fin 8 → ℝ) (c : Dev nD) :
    ∑ e : Fin 8, f e
      = f c + f (sh 1 c) + f (sh 2 c) + f (sh 3 c) + f (sh 4 c) + f (sh 5 c) + f (sh 6 c) + f (sh 7 c) := by
  have h0 : (c : Fin 8) + 0 = c := add_zero c
  have h1 : (c : Fin 8) + 1 = sh 1 c := Fin.ext (Fin.val_add c 1)
  have h2 : (c : Fin 8) + 2 = sh 2 c := Fin.ext (Fin.val_add c 2)
  have h3 : (c : Fin 8) + 3 = sh 3 c := Fin.ext (Fin.val_add c 3)
  have h4 : (c : Fin 8) + 4 = sh 4 c := Fin.ext (Fin.val_add c 4)
  have h5 : (c : Fin 8) + 5 = sh 5 c := Fin.ext (Fin.val_add c 5)
  have h6 : (c : Fin 8) + 6 = sh 6 c := Fin.ext (Fin.val_add c 6)
  have h7 : (c : Fin 8) + 7 = sh 7 c := Fin.ext (Fin.val_add c 7)
  rw [← Equiv.sum_comp (Equiv.addLeft (c : Fin 8)) f, Fin.sum_univ_eight]
  simp only [Equiv.coe_addLeft]
  rw [h0, h1, h2, h3, h4, h5, h6, h7]

section Casts
variable {α : Type}

theorem cast3to2 (x : S1x64x1024.Idx → α) (r : Fin 64) (n : Fin 1024) :
    shapeCast S64x1024 x shapeCasts_S1x64x1024_S64x1024 (ix2 r n) = x (ix3 (0 : Fin 1) r n) :=
  shapeCast_1ab_ab_apply x _ r n

theorem cast2to3 (x : S64x1024.Idx → α) (r : Fin 64) (n : Fin 1024) :
    shapeCast S1x64x1024 x shapeCasts_S64x1024_S1x64x1024 (ix3 (0 : Fin 1) r n) = x (ix2 r n) :=
  shapeCast_ab_1ab_apply x _ 0 r n

end Casts

theorem pay12_apply (v : Vec Ideal S1x64x1024 .f32) (r : Fin 64) (n : Fin 1024) :
    k0_pay12 v (ix3 (0 : Fin 1) r n) = v (ix3 (0 : Fin 1) r n) := by
  show shapeCast S1x64x1024
      (truncf (F := Ideal) .bf16 (shapeCast S64x1024 v shapeCasts_S1x64x1024_S64x1024) bitsLt_bf16_f32)
      shapeCasts_S64x1024_S1x64x1024 (ix3 (0 : Fin 1) r n) = _
  rw [cast2to3, truncf_apply, cast3to2]

theorem pay13_apply (v : Vec Ideal S1x64x1024 .f32) (r : Fin 64) (n : Fin 1024) :
    k0_pay13 v (ix3 (0 : Fin 1) r n) = v (ix3 (0 : Fin 1) r n) := by
  show shapeCast S1x64x1024
      (truncf (F := Ideal) .bf16 (shapeCast S64x1024 v shapeCasts_S1x64x1024_S64x1024) bitsLt_bf16_f32)
      shapeCasts_S64x1024_S1x64x1024 (ix3 (0 : Fin 1) r n) = _
  rw [cast2to3, truncf_apply, cast3to2]

theorem pay21_apply (a : Vec Ideal S1x64x1024 .f32) (b : Vec Ideal S1x64x1024 .bf16) (r : Fin 64) (n : Fin 1024) :
    k0_pay21 a b (ix3 (0 : Fin 1) r n) = a (ix3 (0 : Fin 1) r n) + b (ix3 (0 : Fin 1) r n) := by
  show shapeCast S1x64x1024
      (truncf (F := Ideal) .bf16
        (addf (shapeCast S64x1024 a shapeCasts_S1x64x1024_S64x1024)
          (extf (F := Ideal) .f32 (shapeCast S64x1024 b shapeCasts_S1x64x1024_S64x1024) bitsLt_bf16_f32))
        bitsLt_bf16_f32)
      shapeCasts_S64x1024_S1x64x1024 (ix3 (0 : Fin 1) r n) = _
  rw [cast2to3, truncf_apply, addf_apply, extf_apply, cast3to2, cast3to2]

theorem pay22_apply (a : Vec Ideal S1x64x1024 .f32) (b : Vec Ideal S1x64x1024 .bf16) (r : Fin 64) (n : Fin 1024) :
    k0_pay22 a b (ix3 (0 : Fin 1) r n) = a (ix3 (0 : Fin 1) r n) + b (ix3 (0 : Fin 1) r n) := by
  show shapeCast S1x64x1024
      (truncf (F := Ideal) .bf16
        (addf (shapeCast S64x1024 a shapeCasts_S1x64x1024_S64x1024)
          (extf (F := Ideal) .f32 (shapeCast S64x1024 b shapeCasts_S1x64x1024_S64x1024) bitsLt_bf16_f32))
        bitsLt_bf16_f32)
      shapeCasts_S64x1024_S1x64x1024 (ix3 (0 : Fin 1) r n) = _
  rw [cast2to3, truncf_apply, addf_apply, extf_apply, cast3to2, cast3to2]

theorem pay30_apply (a : Vec Ideal S1x64x1024 .f32) (b : Vec Ideal S1x64x1024 .bf16) (r : Fin 64) (n : Fin 1024) :
    k0_pay30 a b (ix3 (0 : Fin 1) r n) = a (ix3 (0 : Fin 1) r n) + b (ix3 (0 : Fin 1) r n) := by
  show shapeCast S1x64x1024
      (truncf (F := Ideal) .bf16
        (addf (shapeCast S64x1024 a shapeCasts_S1x64x1024_S64x1024)
          (extf (F := Ideal) .f32 (shapeCast S64x1024 b shapeCasts_S1x64x1024_S64x1024) bitsLt_bf16_f32))
        bitsLt_bf16_f32)
      shapeCasts_S64x1024_S1x64x1024 (ix3 (0 : Fin 1) r n) = _
  rw [cast2to3, truncf_apply, addf_apply, extf_apply, cast3to2, cast3to2]

theorem pay31_apply (a : Vec Ideal S1x64x1024 .f32) (b : Vec Ideal S1x64x1024 .bf16) (r : Fin 64) (n : Fin 1024) :
    k0_pay31 a b (ix3 (0 : Fin 1) r n) = a (ix3 (0 : Fin 1) r n) + b (ix3 (0 : Fin 1) r n) := by
  show shapeCast S1x64x1024
      (truncf (F := Ideal) .bf16
        (addf (shapeCast S64x1024 a shapeCasts_S1x64x1024_S64x1024)
          (extf (F := Ideal) .f32 (shapeCast S64x1024 b shapeCasts_S1x64x1024_S64x1024) bitsLt_bf16_f32))
        bitsLt_bf16_f32)
      shapeCasts_S64x1024_S1x64x1024 (ix3 (0 : Fin 1) r n) = _
  rw [cast2to3, truncf_apply, addf_apply, extf_apply, cast3to2, cast3to2]

theorem pay39_apply (a : Vec Ideal S1x64x1024 .f32) (b : Vec Ideal S1x64x1024 .bf16) (r : Fin 64) (n : Fin 1024) :
    k0_pay39 a b (ix3 (0 : Fin 1) r n) = a (ix3 (0 : Fin 1) r n) + b (ix3 (0 : Fin 1) r n) := by
  show shapeCast S1x64x1024
      (truncf (F := Ideal) .bf16
        (addf (shapeCast S64x1024 a shapeCasts_S1x64x1024_S64x1024)
          (extf (F := Ideal) .f32 (shapeCast S64x1024 b shapeCasts_S1x64x1024_S64x1024) bitsLt_bf16_f32))
        bitsLt_bf16_f32)
      shapeCasts_S64x1024_S1x64x1024 (ix3 (0 : Fin 1) r n) = _
  rw [cast2to3, truncf_apply, addf_apply, extf_apply, cast3to2, cast3to2]

theorem pay41_40_apply (p : Vec Ideal S1x64x1024 .f32) (a b : Vec Ideal S1x64x1024 .bf16) (r : Fin 64) (n : Fin 1024) :
    k0_pay41 (k0_pay40 p) a b (ix3 (0 : Fin 1) r n)
      = p (ix3 (0 : Fin 1) r n) + (a (ix3 (0 : Fin 1) r n) + b (ix3 (0 : Fin 1) r n)) := by
  show shapeCast S1x64x1024
      (addf (shapeCast S64x1024 p shapeCasts_S1x64x1024_S64x1024)
        (addf (extf (F := Ideal) .f32 (shapeCast S64x1024 a shapeCasts_S1x64x1024_S64x1024) bitsLt_bf16_f32)
          (extf (F := Ideal) .f32 (shapeCast S64x1024 b shapeCasts_S1x64x1024_S64x1024) bitsLt_bf16_f32)))
      shapeCasts_S64x1024_S1x64x1024 (ix3 (0 : Fin 1) r n) = _
  rw [cast2to3, addf_apply, addf_apply, extf_apply, extf_apply, cast3to2, cast3to2, cast3to2]

theorem pay42_apply (v : Vec Ideal S1x64x1024 .f32) (r : Fin 64) (n : Fin 1024) :
    k0_pay42 v (ix2 r n) = v (ix3 (0 : Fin 1) r n) := by
  show shapeCast S64x1024
      (truncf (F := Ideal) .bf16 (shapeCast S64x1024 v shapeCasts_S1x64x1024_S64x1024) bitsLt_bf16_f32)
      shapeCasts_S64x1024_S64x1024 (ix2 r n) = _
  rw [shapeCast_self, truncf_apply, cast3to2]

theorem pay43_apply (v : Vec Ideal S1x64x1024 .bf16) (r : Fin 64) (n : Fin 1024) :
    k0_pay43 v (ix3 (0 : Fin 1) r n) = v (ix3 (0 : Fin 1) r n) := by
  show shapeCast S1x64x1024
      (extf (F := Ideal) .f32 (shapeCast S64x1024 v shapeCasts_S1x64x1024_S64x1024) bitsLt_bf16_f32)
      shapeCasts_S64x1024_S1x64x1024 (ix3 (0 : Fin 1) r n) = _
  rw [cast2to3, extf_apply, cast3to2]

theorem pay44_apply (v : Vec Ideal S1x64x1024 .bf16) (r : Fin 64) (n : Fin 1024) :
    k0_pay44 v (ix3 (0 : Fin 1) r n) = v (ix3 (0 : Fin 1) r n) := by
  show shapeCast S1x64x1024
      (extf (F := Ideal) .f32 (shapeCast S64x1024 v shapeCasts_S1x64x1024_S64x1024) bitsLt_bf16_f32)
      shapeCasts_S64x1024_S1x64x1024 (ix3 (0 : Fin 1) r n) = _
  rw [cast2to3, extf_apply, cast3to2]

theorem pay47_apply (v : Vec Ideal S1x64x1024 .bf16) (r : Fin 64) (n : Fin 1024) :
    k0_pay47 v (ix3 (0 : Fin 1) r n) = v (ix3 (0 : Fin 1) r n) := by
  show shapeCast S1x64x1024
      (extf (F := Ideal) .f32 (shapeCast S64x1024 v shapeCasts_S1x64x1024_S64x1024) bitsLt_bf16_f32)
      shapeCasts_S64x1024_S1x64x1024 (ix3 (0 : Fin 1) r n) = _
  rw [cast2to3, extf_apply, cast3to2]

theorem pay48_apply (v : Vec Ideal S1x64x1024 .bf16) (r : Fin 64) (n : Fin 1024) :
    k0_pay48 v (ix3 (0 : Fin 1) r n) = v (ix3 (0 : Fin 1) r n) := by
  show shapeCast S1x64x1024
      (extf (F := Ideal) .f32 (shapeCast S64x1024 v shapeCasts_S1x64x1024_S64x1024) bitsLt_bf16_f32)
      shapeCasts_S64x1024_S1x64x1024 (ix3 (0 : Fin 1) r n) = _
  rw [cast2to3, extf_apply, cast3to2]

theorem pay49_apply (v : Vec Ideal S1x64x1024 .bf16) (r : Fin 64) (n : Fin 1024) :
    k0_pay49 v (ix3 (0 : Fin 1) r n) = v (ix3 (0 : Fin 1) r n) := by
  show shapeCast S1x64x1024
      (extf (F := Ideal) .f32 (shapeCast S64x1024 v shapeCasts_S1x64x1024_S64x1024) bitsLt_bf16_f32)
      shapeCasts_S64x1024_S1x64x1024 (ix3 (0 : Fin 1) r n) = _
  rw [cast2to3, extf_apply, cast3to2]

theorem pay1_apply (v : Vec Ideal S1x64x1024 .bf16) (r : Fin 64) (n : Fin 1024) :
    k0_pay1 v (ix3 (0 : Fin 1) r n) = v (ix3 (0 : Fin 1) r n) := by
  show shapeCast S1x64x1024
      (extf (F := Ideal) .f32 (shapeCast S64x1024 v shapeCasts_S1x64x1024_S64x1024) bitsLt_bf16_f32)
      shapeCasts_S64x1024_S1x64x1024 (ix3 (0 : Fin 1) r n) = _
  rw [cast2to3, extf_apply, cast3to2]

theorem pay46_45_apply (v : Vec Ideal S1x64x1024 .bf16) (r : Fin 64) (n : Fin 1024) :
    k0_pay46 (k0_pay45 v) (ix3 (0 : Fin 1) r n) = v (ix3 (0 : Fin 1) r n) := by
  show shapeCast S1x64x1024
      (extf (F := Ideal) .f32 (shapeCast S64x1024 v shapeCasts_S1x64x1024_S64x1024) bitsLt_bf16_f32)
      shapeCasts_S64x1024_S1x64x1024 (ix3 (0 : Fin 1) r n) = _
  rw [cast2to3, extf_apply, cast3to2]

section Reals
variable (pr : Fin 8 → Fin 8 → Fin 64 → Fin 1024 → ℝ)

def rR0 (c : Dev nD) (r : Fin 64) (n : Fin 1024) : ℝ := pr c (sh 4 c) r n
def rR1 (c : Dev nD) (r : Fin 64) (n : Fin 1024) : ℝ := pr c (sh 3 c) r n + rR0 pr (sh 7 c) r n
def rR2 (c : Dev nD) (r : Fin 64) (n : Fin 1024) : ℝ := pr c (sh 2 c) r n + rR1 pr (sh 7 c) r n
def rR3 (c : Dev nD) (r : Fin 64) (n : Fin 1024) : ℝ := pr c (sh 1 c) r n + rR2 pr (sh 7 c) r n
def lR0 (c : Dev nD) (r : Fin 64) (n : Fin 1024) : ℝ := pr c (sh 5 c) r n
def lR1 (c : Dev nD) (r : Fin 64) (n : Fin 1024) : ℝ := pr c (sh 6 c) r n + lR0 pr (sh 1 c) r n
def lR2 (c : Dev nD) (r : Fin 64) (n : Fin 1024) : ℝ := pr c (sh 7 c) r n + lR1 pr (sh 1 c) r n

theorem rR1_eq (c : Dev nD) (r : Fin 64) (n : Fin 1024) :
    rR1 pr c r n = pr c (sh 3 c) r n + pr (sh 7 c) (sh 3 c) r n := by
  unfold rR1 rR0
  rw [sh_comp 4 7 3 (by decide) c]

theorem rR2_eq (c : Dev nD) (r : Fin 64) (n : Fin 1024) :
    rR2 pr c r n = pr c (sh 2 c) r n + (pr (sh 7 c) (sh 2 c) r n + pr (sh 6 c) (sh 2 c) r n) := by
  unfold rR2
  rw [rR1_eq, sh_comp 3 7 2 (by decide) c, sh_comp 7 7 6 (by decide) c]

theorem rR3_eq (c : Dev nD) (r : Fin 64) (n : Fin 1024) :
    rR3 pr c r n = pr c (sh 1 c) r n
      + (pr (sh 7 c) (sh 1 c) r n + (pr (sh 6 c) (sh 1 c) r n + pr (sh 5 c) (sh 1 c) r n)) := by
  unfold rR3
  rw [rR2_eq, sh_comp 2 7 1 (by decide) c, sh_comp 7 7 6 (by decide) c, sh_comp 6 7 5 (by decide) c]

theorem lR1_eq (c : Dev nD) (r : Fin 64) (n : Fin 1024) :
    lR1 pr c r n = pr c (sh 6 c) r n + pr (sh 1 c) (sh 6 c) r n := by
  unfold lR1 lR0
  rw [sh_comp 5 1 6 (by decide) c]

theorem lR2_eq (c : Dev nD) (r : Fin 64) (n : Fin 1024) :
    lR2 pr c r n = pr c (sh 7 c) r n + (pr (sh 1 c) (sh 7 c) r n + pr (sh 2 c) (sh 7 c) r n) := by
  unfold lR2
  rw [lR1_eq, sh_comp 6 1 7 (by decide) c, sh_comp 1 1 2 (by decide) c]

theorem redR_sum (c : Dev nD) (r : Fin 64) (n : Fin 1024) :
    pr c c r n + (rR3 pr (sh 7 c) r n + lR2 pr (sh 1 c) r n) = ∑ e : Fin 8, pr e c r n := by
  rw [rR3_eq, lR2_eq, sh_comp0 1 7 (by decide) c, sh_comp0 7 1 (by decide) c,
    sh_comp 7 7 6 (by decide) c, sh_comp 6 7 5 (by decide) c, sh_comp 5 7 4 (by decide) c,
    sh_comp 1 1 2 (by decide) c, sh_comp 2 1 3 (by decide) c, sum_ring (fun e => pr e c r n) c]
  ring

end Reals

section Values
variable (P : Dev nD → Dev nD → Vec Ideal S1x64x1024 .f32) (pr : Fin 8 → Fin 8 → Fin 64 → Fin 1024 → ℝ)
  (hP : ∀ e j r n, P e j (ix3 0 r n) = ((pr e j r n : ℝ) : EReal))

include hP

theorem rst0_value (c : Dev nD) (r : Fin 64) (n : Fin 1024) :
    rst0 P c (ix3 (0 : Fin 1) r n) = ((rR0 pr c r n : ℝ) : EReal) := by
  unfold rst0 rR0
  rw [pay12_apply, hP]

theorem rst1_value (c : Dev nD) (r : Fin 64) (n : Fin 1024) :
    rst1 P c (ix3 (0 : Fin 1) r n) = ((rR1 pr c r n : ℝ) : EReal) := by
  unfold rst1 rR1
  rw [pay21_apply, hP, rst0_value P pr hP, ← EReal.coe_add]

theorem rst2_value (c : Dev nD) (r : Fin 64) (n : Fin 1024) :
    rst2 P c (ix3 (0 : Fin 1) r n) = ((rR2 pr c r n : ℝ) : EReal) := by
  unfold rst2 rR2
  rw [pay30_apply, hP, rst1_value P pr hP, ← EReal.coe_add]

theorem rst3_value (c : Dev nD) (r : Fin 64) (n : Fin 1024) :
    rst3 P c (ix3 (0 : Fin 1) r n) = ((rR3 pr c r n : ℝ) : EReal) := by
  unfold rst3 rR3
  rw [pay39_apply, hP, rst2_value P pr hP, ← EReal.coe_add]

theorem lst0_value (c : Dev nD) (r : Fin 64) (n : Fin 1024) :
    lst0 P c (ix3 (0 : Fin 1) r n) = ((lR0 pr c r n : ℝ) : EReal) := by
  unfold lst0 lR0
  rw [pay13_apply, hP]

theorem lst1_value (c : Dev nD) (r : Fin 64) (n : Fin 1024) :
    lst1 P c (ix3 (0 : Fin 1) r n) = ((lR1 pr c r n : ℝ) : EReal) := by
  unfold lst1 lR1
  rw [pay22_apply, hP, lst0_value P pr hP, ← EReal.coe_add]

theorem lst2_value (c : Dev nD) (r : Fin 64) (n : Fin 1024) :
    lst2 P c (ix3 (0 : Fin 1) r n) = ((lR2 pr c r n : ℝ) : EReal) := by
  unfold lst2 lR2
  rw [pay31_apply, hP, lst1_value P pr hP, ← EReal.coe_add]

theorem red_value (c : Dev nD) (r : Fin 64) (n : Fin 1024) :
    red P c (ix3 (0 : Fin 1) r n) = ((∑ e : Fin 8, pr e c r n : ℝ) : EReal) := by
  unfold red
  rw [pay41_40_apply, hP, rst3_value P pr hP, lst2_value P pr hP, ← EReal.coe_add, ← EReal.coe_add, redR_sum]

theorem own_value (c : Dev nD) (r : Fin 64) (n : Fin 1024) :
    own P c (ix2 r n) = ((∑ e : Fin 8, pr e c r n : ℝ) : EReal) := by
  unfold own
  rw [pay42_apply, red_value P pr hP]

theorem ownL_value (c : Dev nD) (r : Fin 64) (n : Fin 1024) :
    ownL P c (ix3 (0 : Fin 1) r n) = ((∑ e : Fin 8, pr e c r n : ℝ) : EReal) := by
  unfold ownL
  rw [cast2to3, own_value P pr hP]

theorem gat0_value (c : Dev nD) (r : Fin 64) (n : Fin 1024) :
    gat P 0 c (ix3 (0 : Fin 1) r n) = ((∑ e : Fin 8, pr e (sh 7 c) r n : ℝ) : EReal) := by
  show k0_pay43 (ownL P (sh 7 c)) (ix3 (0 : Fin 1) r n) = _
  rw [pay43_apply, ownL_value P pr hP]

theorem gat1_value (c : Dev nD) (r : Fin 64) (n : Fin 1024) :
    gat P 1 c (ix3 (0 : Fin 1) r n) = ((∑ e : Fin 8, pr e (sh 6 c) r n : ℝ) : EReal) := by
  show k0_pay44 (ownL P (sh 6 c)) (ix3 (0 : Fin 1) r n) = _
  rw [pay44_apply, ownL_value P pr hP]

theorem gat2_value (c : Dev nD) (r : Fin 64) (n : Fin 1024) :
    gat P 2 c (ix3 (0 : Fin 1) r n) = ((∑ e : Fin 8, pr e (sh 5 c) r n : ℝ) : EReal) := by
  show k0_pay46 (k0_pay45 (ownL P (sh 5 c))) (ix3 (0 : Fin 1) r n) = _
  rw [pay46_45_apply, ownL_value P pr hP]

theorem gat3_value (c : Dev nD) (r : Fin 64) (n : Fin 1024) :
    gat P 3 c (ix3 (0 : Fin 1) r n) = ((∑ e : Fin 8, pr e (sh 4 c) r n : ℝ) : EReal) := by
  show k0_pay47 (ownL P (sh 4 c)) (ix3 (0 : Fin 1) r n) = _
  rw [pay47_apply, ownL_value P pr hP]

theorem gat4_value (c : Dev nD) (r : Fin 64) (n : Fin 1024) :
    gat P 4 c (ix3 (0 : Fin 1) r n) = ((∑ e : Fin 8, pr e (sh 3 c) r n : ℝ) : EReal) := by
  show k0_pay48 (ownL P (sh 3 c)) (ix3 (0 : Fin 1) r n) = _
  rw [pay48_apply, ownL_value P pr hP]

theorem gat5_value (c : Dev nD) (r : Fin 64) (n : Fin 1024) :
    gat P 5 c (ix3 (0 : Fin 1) r n) = ((∑ e : Fin 8, pr e (sh 2 c) r n : ℝ) : EReal) := by
  show k0_pay49 (ownL P (sh 2 c)) (ix3 (0 : Fin 1) r n) = _
  rw [pay49_apply, ownL_value P pr hP]

theorem gat6_value (c : Dev nD) (r : Fin 64) (n : Fin 1024) :
    gat P 6 c (ix3 (0 : Fin 1) r n) = ((∑ e : Fin 8, pr e (sh 1 c) r n : ℝ) : EReal) := by
  show k0_pay1 (ownL P (sh 1 c)) (ix3 (0 : Fin 1) r n) = _
  rw [pay1_apply, ownL_value P pr hP]

theorem finBlk_value (c j : Dev nD) (r : Fin 64) (n : Fin 1024) :
    finBlk P c j (ix3 (0 : Fin 1) r n) = ((∑ e : Fin 8, pr e j r n : ℝ) : EReal) := by
  have hc : c.val < 8 := c.isLt
  have hj : j.val < 8 := j.isLt
  unfold finBlk
  have hlt : (c.val + 8 - j.val) % 8 < 8 := Nat.mod_lt _ (by decide)
  generalize hm : (c.val + 8 - j.val) % 8 = m at hlt
  interval_cases m
  · obtain rfl : j = c := Fin.ext (by omega)
    exact red_value P pr hP j r n
  · obtain rfl : j = sh 7 c := Fin.ext (by show j.val = (c.val + 7) % 8; omega)
    exact gat0_value P pr hP c r n
  · obtain rfl : j = sh 6 c := Fin.ext (by show j.val = (c.val + 6) % 8; omega)
    exact gat1_value P pr hP c r n
  · obtain rfl : j = sh 5 c := Fin.ext (by show j.val = (c.val + 5) % 8; omega)
    exact gat2_value P pr hP c r n
  · obtain rfl : j = sh 4 c := Fin.ext (by show j.val = (c.val + 4) % 8; omega)
    exact gat3_value P pr hP c r n
  · obtain rfl : j = sh 3 c := Fin.ext (by show j.val = (c.val + 3) % 8; omega)
    exact gat4_value P pr hP c r n
  · obtain rfl : j = sh 2 c := Fin.ext (by show j.val = (c.val + 2) % 8; omega)
    exact gat5_value P pr hP c r n
  · obtain rfl : j = sh 1 c := Fin.ext (by show j.val = (c.val + 1) % 8; omega)
    exact gat6_value P pr hP c r n

theorem outFin_value (c : Dev nD) (i : Fin 512) (n : Fin 1024) :
    outFin P c (ix3 (0 : Fin 1) i n)
      = ((∑ e : Fin 8, pr e ⟨i.val / 64, Nat.div_lt_of_lt_mul i.isLt⟩ ⟨i.val % 64, Nat.mod_lt _ (by decide)⟩ n : ℝ)
          : EReal) :=
  finBlk_value P pr hP c ⟨i.val / 64, Nat.div_lt_of_lt_mul i.isLt⟩ ⟨i.val % 64, Nat.mod_lt _ (by decide)⟩ n

end Values

end Cert.KernelIdeal.Hand

end
-- ==== Proof.Inputs.lean ====
import proofs.«900750_g7700000000000751_dist_attn_cross_gqa_kvrep_htp_b1_sq512_skv2048_d1024_hq8_dh128_v7x_i8_bf16_1_alg».proof.Defs
import proofs.«900750_g7700000000000751_dist_attn_cross_gqa_kvrep_htp_b1_sq512_skv2048_d1024_hq8_dh128_v7x_i8_bf16_1_alg».proof.Proof.Gen.Pre_finite_inputs_Kernel
import proofs.«900750_g7700000000000751_dist_attn_cross_gqa_kvrep_htp_b1_sq512_skv2048_d1024_hq8_dh128_v7x_i8_bf16_1_alg».proof.Proof.SumSplit
import Idealize.ShloMosaic.Lib.Layout
import Idealize.ShloMosaic.Lib.ReduceAll
import Idealize.ShloMosaic.Lib.ValueIdx

noncomputable section

namespace Cert.Proof.Inputs

open Idealize.ShloMosaic Idealize.SL.Sem Idealize.ShloMosaic.ValueIdx

theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

instance : Subsingleton Cert.Pre_finite_inputs_Kernel.S_.Idx := ⟨fun a b => funext fun d => d.elim0⟩

theorem all_real {S : Shape} {axes : List (Fin S.rank)} (A : FVec Ideal S .f32)
    (bc : Cert.Pre_finite_inputs_Kernel.S_.BroadcastsInDim S (![] : Fin 0 → Fin S.rank))
    (red : S.ReducesTo axes Cert.Pre_finite_inputs_Kernel.S_) (hu : 0 < Cert.Pre_finite_inputs_Kernel.S_.numel)
    (e : Host.reduce IntOp.andi
        (cmpf .olt (Host.absf A) (broadcastInDim S ![] bc (constant (F := Ideal) Cert.Pre_finite_inputs_Kernel.S_ .f32 0x7F800000#32)))
        (constantI Cert.Pre_finite_inputs_Kernel.S_ 1 1#1) red hu ix0 = 1#1) (i : S.Idx) :
    ∃ r : ℝ, A i = (r : EReal) := by
  have hi := Host.reduce_andi_all _ _ red hu ix0 e i
  exact real_of_abs_lt_top (A i) hi

theorem real_of_fn (A0 : FVec Ideal Cert.Pre_finite_inputs_Kernel.S1x512x1024 .f32)
    (A1 A2 : FVec Ideal Cert.Pre_finite_inputs_Kernel.S1024x1024 .f32)
    (A3 A4 : FVec Ideal Cert.Pre_finite_inputs_Kernel.S1x2048x16x128 .f32)
    (h : Cert.Pre_finite_inputs_Kernel.fn (F := Ideal) A0 A1 A2 A3 A4 = fun _ => 1#1) :
    (∀ i, ∃ r : ℝ, A0 i = (r : EReal)) ∧ (∀ i, ∃ r : ℝ, A1 i = (r : EReal)) ∧ (∀ i, ∃ r : ℝ, A2 i = (r : EReal))
      ∧ (∀ i, ∃ r : ℝ, A3 i = (r : EReal)) ∧ (∀ i, ∃ r : ℝ, A4 i = (r : EReal)) := by
  have h0 := congrFun h ix0
  dsimp only [Cert.Pre_finite_inputs_Kernel.fn, Cert.Pre_finite_inputs_Kernel.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real A0 _ _ _ e0, all_real A1 _ _ _ e1, all_real A2 _ _ _ e2, all_real A3 _ _ _ e3, all_real A4 _ _ _ e4⟩

theorem finite_of_pre {m : (ℓ : Loc Cert.KernelIdeal.nD Cert.KernelIdeal.τ Cert.KernelIdeal.sig) → Buf (Elt Ideal) ℓ}
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  real_of_fn _ _ _ _ _ (h c)

theorem wq_block_apply (X : (⟨⟨2, ![1024, 8192]⟩, .f32⟩ : BufTy).Contents (Elt Ideal)) (c : Fin 8) (t l : Fin 1024) :
    (Layout.block ⟨2, ![1024, 1024]⟩ ⟨2, ![1024, 8192]⟩ 1 8 c X) (ix2 t l) = X (ix2 t (Cert.Spec.dcol c l)) := by
  rw [Layout.block_apply]
  refine congrArg X (funext fun a => Fin.ext ?_)
  match a with
  | ⟨0, _⟩ => rfl
  | ⟨1, _⟩ => show c.val * 1024 + l.val = 1024 * c.val + l.val; omega

theorem wo_block_apply (X : (⟨⟨2, ![8192, 1024]⟩, .f32⟩ : BufTy).Contents (Elt Ideal)) (c : Fin 8) (l n : Fin 1024) :
    (Layout.block ⟨2, ![1024, 1024]⟩ ⟨2, ![8192, 1024]⟩ 0 8 c X) (ix2 l n) = X (ix2 (Cert.Spec.dcol c l) n) := by
  rw [Layout.block_apply]
  refine congrArg X (funext fun a => Fin.ext ?_)
  match a with
  | ⟨0, _⟩ => show c.val * 1024 + l.val = 1024 * c.val + l.val; omega
  | ⟨1, _⟩ => rfl

def devOf (n : Fin 8192) : Fin 8 := ⟨n.val / 1024, by have := n.isLt; omega⟩
def locOf (n : Fin 8192) : Fin 1024 := ⟨n.val % 1024, Nat.mod_lt _ (by decide)⟩

theorem dcol_div_mod (n : Fin 8192) : Cert.Spec.dcol (devOf n) (locOf n) = n :=
  Fin.ext (by simp only [Cert.Spec.dcol, devOf, locOf]; omega)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

abbrev dX (c : Dev Cert.KernelIdeal.nD) : (⟨Cert.KernelIdeal.S1x512x1024, .f32⟩ : BufTy).Contents (Elt Ideal) :=
  m ((c.tc : Thread Cert.KernelIdeal.nD Cert.KernelIdeal.τ).loc Cert.KernelIdeal.main_arg0)
abbrev dWQ (c : Dev Cert.KernelIdeal.nD) : (⟨Cert.KernelIdeal.S1024x1024, .f32⟩ : BufTy).Contents (Elt Ideal) :=
  m ((c.tc : Thread Cert.KernelIdeal.nD Cert.KernelIdeal.τ).loc Cert.KernelIdeal.main_arg1)
abbrev dWO (c : Dev Cert.KernelIdeal.nD) : (⟨Cert.KernelIdeal.S1024x1024, .f32⟩ : BufTy).Contents (Elt Ideal) :=
  m ((c.tc : Thread Cert.KernelIdeal.nD Cert.KernelIdeal.τ).loc Cert.KernelIdeal.main_arg2)
abbrev dK (c : Dev Cert.KernelIdeal.nD) : (⟨Cert.KernelIdeal.S1x2048x16x128, .f32⟩ : BufTy).Contents (Elt Ideal) :=
  m ((c.tc : Thread Cert.KernelIdeal.nD Cert.KernelIdeal.τ).loc Cert.KernelIdeal.main_arg3)
abbrev dV (c : Dev Cert.KernelIdeal.nD) : (⟨Cert.KernelIdeal.S1x2048x16x128, .f32⟩ : BufTy).Contents (Elt Ideal) :=
  m ((c.tc : Thread Cert.KernelIdeal.nD Cert.KernelIdeal.τ).loc Cert.KernelIdeal.main_arg4)

abbrev wX : (⟨Cert.ReferenceIdeal.S1x512x1024, .f32⟩ : BufTy).Contents (Elt Ideal) :=
  m' (((0 : Dev Cert.ReferenceIdeal.nD).tc : Thread Cert.ReferenceIdeal.nD Cert.ReferenceIdeal.τ).loc Cert.ReferenceIdeal.main_arg0)
abbrev wWQ : (⟨Cert.ReferenceIdeal.S1024x8192, .f32⟩ : BufTy).Contents (Elt Ideal) :=
  m' (((0 : Dev Cert.ReferenceIdeal.nD).tc : Thread Cert.ReferenceIdeal.nD Cert.ReferenceIdeal.τ).loc Cert.ReferenceIdeal.main_arg1)
abbrev wWO : (⟨Cert.ReferenceIdeal.S8192x1024, .f32⟩ : BufTy).Contents (Elt Ideal) :=
  m' (((0 : Dev Cert.ReferenceIdeal.nD).tc : Thread Cert.ReferenceIdeal.nD Cert.ReferenceIdeal.τ).loc Cert.ReferenceIdeal.main_arg2)
abbrev wK : (⟨Cert.ReferenceIdeal.S1x2048x16x128, .f32⟩ : BufTy).Contents (Elt Ideal) :=
  m' (((0 : Dev Cert.ReferenceIdeal.nD).tc : Thread Cert.ReferenceIdeal.nD Cert.ReferenceIdeal.τ).loc Cert.ReferenceIdeal.main_arg3)
abbrev wV : (⟨Cert.ReferenceIdeal.S1x2048x16x128, .f32⟩ : BufTy).Contents (Elt Ideal) :=
  m' (((0 : Dev Cert.ReferenceIdeal.nD).tc : Thread Cert.ReferenceIdeal.nD Cert.ReferenceIdeal.τ).loc Cert.ReferenceIdeal.main_arg4)

abbrev Agree : Prop :=
  ∀ c : Dev Cert.KernelIdeal.nD,
    dX m c = wX m'
    ∧ dWQ m c = Layout.block ⟨2, ![1024, 1024]⟩ ⟨2, ![1024, 8192]⟩ 1 8 c (wWQ m')
    ∧ dWO m c = Layout.block ⟨2, ![1024, 1024]⟩ ⟨2, ![8192, 1024]⟩ 0 8 c (wWO m')
    ∧ dK m c = wK m'
    ∧ dV m c = wV m'

def xr : Fin 512 → Fin 1024 → ℝ := fun i t => (wX m' (ix3 0 i t)).toReal
def wqr : Fin 1024 → Fin 8192 → ℝ := fun t n => (wWQ m' (ix2 t n)).toReal
def wor : Fin 8192 → Fin 1024 → ℝ := fun n c => (wWO m' (ix2 n c)).toReal
def kr : Fin 2048 → Fin 16 → Fin 128 → ℝ := fun j g d => (wK m' (ix4 0 j g d)).toReal
def vr : Fin 2048 → Fin 16 → Fin 128 → ℝ := fun j g d => (wV m' (ix4 0 j g d)).toReal

variable {m m'} (hpre : Cert.Pre_KernelIdeal m) (hag : Agree m m')
include hpre hag

theorem x_real (i : Fin 512) (t : Fin 1024) : wX m' (ix3 0 i t) = ((xr m' i t : ℝ) : EReal) := by
  obtain ⟨r, hr⟩ := (finite_of_pre hpre 0).1 (ix3 0 i t)
  have hr' : wX m' (ix3 0 i t) = (r : EReal) := (congrFun (hag 0).1 (ix3 0 i t)).symm.trans hr
  unfold xr; rw [hr', EReal.toReal_coe]

theorem wq_real (t : Fin 1024) (n : Fin 8192) : wWQ m' (ix2 t n) = ((wqr m' t n : ℝ) : EReal) := by
  obtain ⟨r, hr⟩ := (finite_of_pre hpre (devOf n)).2.1
    (ix2 t (locOf n))
  have hb := congrFun (hag (devOf n)).2.1
    (ix2 t (locOf n))
  rw [wq_block_apply, dcol_div_mod] at hb
  have hr' : wWQ m' (ix2 t n) = (r : EReal) := hb.symm.trans hr
  unfold wqr; rw [hr', EReal.toReal_coe]

theorem wo_real (n : Fin 8192) (c : Fin 1024) : wWO m' (ix2 n c) = ((wor m' n c : ℝ) : EReal) := by
  obtain ⟨r, hr⟩ := (finite_of_pre hpre (devOf n)).2.2.1
    (ix2 (locOf n) c)
  have hb := congrFun (hag (devOf n)).2.2.1
    (ix2 (locOf n) c)
  rw [wo_block_apply, dcol_div_mod] at hb
  have hr' : wWO m' (ix2 n c) = (r : EReal) := hb.symm.trans hr
  unfold wor; rw [hr', EReal.toReal_coe]

theorem k_real (j : Fin 2048) (g : Fin 16) (d : Fin 128) : wK m' (ix4 0 j g d) = ((kr m' j g d : ℝ) : EReal) := by
  obtain ⟨r, hr⟩ := (finite_of_pre hpre 0).2.2.2.1 (ix4 0 j g d)
  have hr' : wK m' (ix4 0 j g d) = (r : EReal) := (congrFun (hag 0).2.2.2.1 (ix4 0 j g d)).symm.trans hr
  unfold kr; rw [hr', EReal.toReal_coe]

theorem v_real (j : Fin 2048) (g : Fin 16) (d : Fin 128) : wV m' (ix4 0 j g d) = ((vr m' j g d : ℝ) : EReal) := by
  obtain ⟨r, hr⟩ := (finite_of_pre hpre 0).2.2.2.2 (ix4 0 j g d)
  have hr' : wV m' (ix4 0 j g d) = (r : EReal) := (congrFun (hag 0).2.2.2.2 (ix4 0 j g d)).symm.trans hr
  unfold vr; rw [hr', EReal.toReal_coe]

theorem dev_x (c : Dev Cert.KernelIdeal.nD) (i : Fin 512) (t : Fin 1024) : dX m c (ix3 0 i t) = ((xr m' i t : ℝ) : EReal) :=
  (congrFun (hag c).1 (ix3 0 i t)).trans (x_real hpre hag i t)

theorem dev_wq (c : Dev Cert.KernelIdeal.nD) (t l : Fin 1024) :
    dWQ m c (ix2 t l) = ((wqr m' t (Cert.Spec.dcol c l) : ℝ) : EReal) := by
  have hb := congrFun (hag c).2.1 (ix2 t l)
  rw [wq_block_apply] at hb
  exact hb.trans (wq_real hpre hag t _)

theorem dev_wo (c : Dev Cert.KernelIdeal.nD) (l n : Fin 1024) :
    dWO m c (ix2 l n) = ((wor m' (Cert.Spec.dcol c l) n : ℝ) : EReal) := by
  have hb := congrFun (hag c).2.2.1 (ix2 l n)
  rw [wo_block_apply] at hb
  exact hb.trans (wo_real hpre hag _ n)

theorem dev_k (c : Dev Cert.KernelIdeal.nD) (j : Fin 2048) (g : Fin 16) (d : Fin 128) :
    dK m c (ix4 0 j g d) = ((kr m' j g d : ℝ) : EReal) :=
  (congrFun (hag c).2.2.2.1 (ix4 0 j g d)).trans (k_real hpre hag j g d)

theorem dev_v (c : Dev Cert.KernelIdeal.nD) (j : Fin 2048) (g : Fin 16) (d : Fin 128) :
    dV m c (ix4 0 j g d) = ((vr m' j g d : ℝ) : EReal) :=
  (congrFun (hag c).2.2.2.2 (ix4 0 j g d)).trans (v_real hpre hag j g d)

end

end Cert.Proof.Inputs

end
-- ==== Proof.DevValue.lean ====
import proofs.«900750_g7700000000000751_dist_attn_cross_gqa_kvrep_htp_b1_sq512_skv2048_d1024_hq8_dh128_v7x_i8_bf16_1_alg».proof.Proof.Partial
import proofs.«900750_g7700000000000751_dist_attn_cross_gqa_kvrep_htp_b1_sq512_skv2048_d1024_hq8_dh128_v7x_i8_bf16_1_alg».proof.Proof.ChunkValue
import proofs.«900750_g7700000000000751_dist_attn_cross_gqa_kvrep_htp_b1_sq512_skv2048_d1024_hq8_dh128_v7x_i8_bf16_1_alg».proof.Proof.PayValues
import proofs.«900750_g7700000000000751_dist_attn_cross_gqa_kvrep_htp_b1_sq512_skv2048_d1024_hq8_dh128_v7x_i8_bf16_1_alg».proof.Proof.PartialSum
import proofs.«900750_g7700000000000751_dist_attn_cross_gqa_kvrep_htp_b1_sq512_skv2048_d1024_hq8_dh128_v7x_i8_bf16_1_alg».proof.Proof.RingValue
import proofs.«900750_g7700000000000751_dist_attn_cross_gqa_kvrep_htp_b1_sq512_skv2048_d1024_hq8_dh128_v7x_i8_bf16_1_alg».proof.Proof.Inputs

noncomputable section

namespace Cert.KernelIdeal.Hand

open Cert.KernelIdeal Cert.KernelIdeal.Gen
open Idealize.ShloMosaic Idealize.ShloMosaic.TcCoe Idealize.ShloMosaic.ValueIdx
open Cert.Proof.Inputs

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  (hpre : Cert.Pre_KernelIdeal m) (hag : Agree m m')

include hpre hag

theorem wqb_value (e : Dev nD) (t l : Fin 1024) :
    wqb m e (ix2 t l) = ((wqr m' t (Cert.Spec.dcol e l) : ℝ) : EReal) := by
  unfold wqb
  rw [pay2_apply]
  exact dev_wq hpre hag e t l

theorem wob_value (e : Dev nD) (l n : Fin 1024) :
    wob m e (ix2 l n) = ((Cert.Spec.wolOf (wor m') e l n : ℝ) : EReal) := by
  unfold wob Cert.Spec.wolOf
  rw [pay3_apply]
  exact dev_wo hpre hag e l n

theorem qrows_value (e j : Dev nD) (r : Fin 64) (l : Fin 1024) :
    qrows m e j (ix2 r l) = ((Cert.Spec.qbrOf Cert.Spec.scR (xr m') (wqr m') e j r l : ℝ) : EReal) := by
  show k0_pay5 (F := Ideal) (xA m e) (wqb m e) (ix2 (Cert.Spec.rowOf j r) l) = _
  rw [pay5_value (xA m e) (wqb m e) (xr m') (fun t l => wqr m' t (Cert.Spec.dcol e l))
    (dev_x hpre hag e) (wqb_value hpre hag e) (Cert.Spec.rowOf j r) l]
  rfl

theorem kblk_value (e : Dev nD) (h : Fin 2) (jj : Fin 2048) (d : Fin 128) :
    kvblk m e 0 h (ix4 0 0 jj d) = ((Cert.Spec.kvSel (kr m') e h jj d : ℝ) : EReal) := by
  show k0_pay4 (F := Ideal) (kvv m e) (ix4 (0 : Fin 2) h jj d) = _
  rw [pay4_apply]
  exact dev_k hpre hag e jj (Cert.Spec.kvOf e h) d

theorem vblk_value (e : Dev nD) (h : Fin 2) (jj : Fin 2048) (d : Fin 128) :
    kvblk m e 1 h (ix4 0 0 jj d) = ((Cert.Spec.kvSel (vr m') e h jj d : ℝ) : EReal) := by
  show k0_pay4 (F := Ideal) (kvv m e) (ix4 (1 : Fin 2) h jj d) = _
  rw [pay4_apply]
  exact dev_v hpre hag e jj (Cert.Spec.kvOf e h) d

theorem Pc_value (e j : Dev nD) (r : Fin 64) (n : Fin 1024) :
    Pc m e j (ix3 0 r n)
      = ((Cert.Spec.partialR Cert.Spec.scR (xr m') (wqr m') (wor m') (kr m') (vr m') e (Cert.Spec.rowOf j r) n : ℝ)
          : EReal) := by
  unfold Pc
  rw [chunkF_value (qrows m e j) (kvblk m e 0 0) (kvblk m e 1 0) (kvblk m e 0 1) (kvblk m e 1 1) (wob m e)
    (Cert.Spec.qbrOf Cert.Spec.scR (xr m') (wqr m') e j) (Cert.Spec.kvSel (kr m') e) (Cert.Spec.kvSel (vr m') e)
    (Cert.Spec.wolOf (wor m') e)
    (qrows_value hpre hag e j) (kblk_value hpre hag e 0) (vblk_value hpre hag e 0)
    (kblk_value hpre hag e 1) (vblk_value hpre hag e 1) (wob_value hpre hag e) r n,
    Cert.Spec.lout_eq_partial]

theorem kernel_out (c : Dev nD) :
    outFin (Pc m) c
      = fun idx : Cert.KernelIdeal.S1x512x1024.Idx =>
          ((Cert.Spec.out Cert.Spec.scR (xr m') (wqr m') (wor m') (kr m') (vr m')
            ⟨(idx 1).val, (idx 1).isLt⟩ ⟨(idx 2).val, (idx 2).isLt⟩ : ℝ) : EReal) := by
  funext idx
  obtain ⟨a, i, n, rfl⟩ : ∃ (a : Fin 1) (i : Fin 512) (n : Fin 1024), idx = ix3 a i n :=
    ⟨idx 0, idx 1, idx 2, eq_ix3 idx⟩
  obtain rfl : a = 0 := Subsingleton.elim _ _
  rw [outFin_value (Pc m)
    (fun e j r n => Cert.Spec.partialR Cert.Spec.scR (xr m') (wqr m') (wor m') (kr m') (vr m') e (Cert.Spec.rowOf j r) n)
    (Pc_value hpre hag) c i n]
  have hrow : Cert.Spec.rowOf ⟨i.val / 64, Nat.div_lt_of_lt_mul i.isLt⟩ ⟨i.val % 64, Nat.mod_lt _ (by decide)⟩ = i :=
    Fin.ext (by show 64 * (i.val / 64) + i.val % 64 = i.val; omega)
  show ((∑ e : Fin 8, Cert.Spec.partialR Cert.Spec.scR (xr m') (wqr m') (wor m') (kr m') (vr m') e
      (Cert.Spec.rowOf ⟨i.val / 64, Nat.div_lt_of_lt_mul i.isLt⟩ ⟨i.val % 64, Nat.mod_lt _ (by decide)⟩) n : ℝ) : EReal)
    = ((Cert.Spec.out Cert.Spec.scR (xr m') (wqr m') (wor m') (kr m') (vr m') i n : ℝ) : EReal)
  rw [hrow, Cert.Spec.sum_partial]

end

end Cert.KernelIdeal.Hand

end
-- ==== Proof.Online.lean ====
import proofs.«900750_g7700000000000751_dist_attn_cross_gqa_kvrep_htp_b1_sq512_skv2048_d1024_hq8_dh128_v7x_i8_bf16_1_alg».proof.Proof.Spec

noncomputable section

namespace Cert.Online

open Cert.Spec

variable (sc : ℝ) (x : Fin 512 → Fin 1024 → ℝ) (wq : Fin 1024 → Fin 8192 → ℝ) (wo : Fin 8192 → Fin 1024 → ℝ)
  (k v : Fin 2048 → Fin 16 → Fin 128 → ℝ)

def pos (b : Fin 2) (jj : Fin 1024) : Fin 2048 := ⟨1024 * b.val + jj.val, by have := b.isLt; have := jj.isLt; omega⟩

def sB (b : Fin 2) (h : Fin 64) (i : Fin 512) (jj : Fin 1024) : ℝ := score sc x wq k h i (pos b jj)

def mB (b : Fin 2) (h : Fin 64) (i : Fin 512) : ℝ :=
  Finset.univ.sup' ⟨(⟨0, by decide⟩ : Fin 1024), Finset.mem_univ _⟩ (sB sc x wq k b h i)

def M (h : Fin 64) (i : Fin 512) : ℝ := max (mB sc x wq k 0 h i) (mB sc x wq k 1 h i)

def l0 (h : Fin 64) (i : Fin 512) : ℝ := ∑ jj : Fin 1024, Real.exp (sB sc x wq k 0 h i jj - mB sc x wq k 0 h i)
def o0 (h : Fin 64) (i : Fin 512) (d : Fin 128) : ℝ :=
  ∑ jj : Fin 1024, Real.exp (sB sc x wq k 0 h i jj - mB sc x wq k 0 h i) * v (pos 0 jj) (kvh h) d

def l1 (h : Fin 64) (i : Fin 512) : ℝ :=
  l0 sc x wq k h i * Real.exp (mB sc x wq k 0 h i - M sc x wq k h i)
    + ∑ jj : Fin 1024, Real.exp (sB sc x wq k 1 h i jj - M sc x wq k h i)
def o1 (h : Fin 64) (i : Fin 512) (d : Fin 128) : ℝ :=
  o0 sc x wq k v h i d * Real.exp (mB sc x wq k 0 h i - M sc x wq k h i)
    + ∑ jj : Fin 1024, Real.exp (sB sc x wq k 1 h i jj - M sc x wq k h i) * v (pos 1 jj) (kvh h) d

def attn (i : Fin 512) (n : Fin 8192) : ℝ := o1 sc x wq k v (hd n) i (dd n) / l1 sc x wq k (hd n) i
def out (i : Fin 512) (c : Fin 1024) : ℝ := ∑ n : Fin 8192, attn sc x wq k v i n * wo n c

end Cert.Online

end
-- ==== Proof.RefValueBase.lean ====
import Idealize.ShloMosaic.PureOps.Ideal

noncomputable section

namespace Cert.Proof.RefValue

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem fold_max_coe {n : Nat} (H : (Finset.univ : Finset (Fin n)).Nonempty) (f : Fin n → ℝ) :
    (Finset.univ : Finset (Fin n)).fold max (⊥ : EReal) (fun k => ((f k : ℝ) : EReal))
      = ((Finset.univ.sup' H f : ℝ) : EReal) := by
  apply le_antisymm
  · exact (Finset.fold_max_le _).2 ⟨bot_le, fun x _ => EReal.coe_le_coe_iff.2 (Finset.le_sup' f (Finset.mem_univ x))⟩
  · obtain ⟨x, hx, hxe⟩ := Finset.exists_mem_eq_sup' H f
    exact (Finset.le_fold_max _).2 (Or.inr ⟨x, hx, by rw [hxe]⟩)

end Cert.Proof.RefValue

end
-- ==== Proof.RefValueQKV.lean ====
import proofs.«900750_g7700000000000751_dist_attn_cross_gqa_kvrep_htp_b1_sq512_skv2048_d1024_hq8_dh128_v7x_i8_bf16_1_alg».proof.Proof.Gen.ReferenceIdeal.Read
import proofs.«900750_g7700000000000751_dist_attn_cross_gqa_kvrep_htp_b1_sq512_skv2048_d1024_hq8_dh128_v7x_i8_bf16_1_alg».proof.Proof.Online
import proofs.«900750_g7700000000000751_dist_attn_cross_gqa_kvrep_htp_b1_sq512_skv2048_d1024_hq8_dh128_v7x_i8_bf16_1_alg».proof.Proof.RefValueBase

noncomputable section

namespace Cert.Proof.RefValue

open Cert.ReferenceIdeal Cert.ReferenceIdeal.Gen Idealize.ShloMosaic Idealize.ShloMosaic.ValueIdx
open Cert.ReferenceIdeal.Read Cert.Spec Cert.Online

theorem idx_v1 (i : Fin 512) (h : Fin 64) (d : Fin 128) :
    idx_main_v1 (ix4 (0 : Fin 1) i h d) = ix3 (0 : Fin 1) i (col h d) := by
  have hi := i.isLt; have hh := h.isLt; have hd := d.isLt
  funext a
  match a with
  | ⟨0, _⟩ => rfl
  | ⟨1, _⟩ => exact Fin.ext (by
      show (((0 * 512 + i.val) * 64 + h.val) * 128 + d.val) / 8192 % 512 = i.val; omega)
  | ⟨2, _⟩ => exact Fin.ext (by
      show (((0 * 512 + i.val) * 64 + h.val) * 128 + d.val) % 8192 = h.val * 128 + d.val; omega)

theorem lidx_v0 (i : Fin 512) (n : Fin 8192) (t : Fin 1024) :
    lidx_main_v0 (ix3 (0 : Fin 1) i n) t = ix3 (0 : Fin 1) i t := by
  funext a; match a with | ⟨0, _⟩ => rfl | ⟨1, _⟩ => rfl | ⟨2, _⟩ => rfl

theorem ridx_v0 (i : Fin 512) (n : Fin 8192) (t : Fin 1024) :
    ridx_main_v0 (ix3 (0 : Fin 1) i n) t = ix2 t n := by
  funext a; match a with | ⟨0, _⟩ => rfl | ⟨1, _⟩ => rfl

section
variable (X : (⟨S1x512x1024, .f32⟩ : BufTy).Contents (Elt Ideal)) (WQ : (⟨S1024x8192, .f32⟩ : BufTy).Contents (Elt Ideal))
  (K V : (⟨S1x2048x16x128, .f32⟩ : BufTy).Contents (Elt Ideal))
  (xr : Fin 512 → Fin 1024 → ℝ) (wqr : Fin 1024 → Fin 8192 → ℝ) (kr vr : Fin 2048 → Fin 16 → Fin 128 → ℝ)

theorem q_read (hx : ∀ i t, X (ix3 0 i t) = ((xr i t : ℝ) : EReal)) (hwq : ∀ t n, WQ (ix2 t n) = ((wqr t n : ℝ) : EReal))
    (i : Fin 512) (h : Fin 64) (d : Fin 128) :
    val_main_v1 (F := Ideal) X WQ (ix4 0 i h d) = ((q xr wqr i (col h d) : ℝ) : EReal) := by
  rw [val_main_v1_apply, idx_v1, val_main_v0_apply]
  unfold Cert.Spec.q
  rw [coe_sum]
  refine Finset.sum_congr rfl fun t _ => ?_
  rw [lidx_v0, ridx_v0, hx, hwq, EReal.coe_mul]

theorem idx_v3 (j : Fin 2048) (h : Fin 64) (d : Fin 128) :
    idx_main_v2 (idx_main_v3 (ix4 (0 : Fin 1) j h d)) = ix4 (0 : Fin 1) j (kvh h) d := by
  have hj := j.isLt; have hh := h.isLt; have hd := d.isLt
  funext a
  match a with
  | ⟨0, _⟩ => rfl
  | ⟨1, _⟩ => exact Fin.ext (by
      show (((0 * 2048 + j.val) * 64 + h.val) * 128 + d.val) / 8192 % 2048 = j.val; omega)
  | ⟨2, _⟩ => exact Fin.ext (by
      show (((0 * 2048 + j.val) * 64 + h.val) * 128 + d.val) / 512 % 16 = h.val / 4; omega)
  | ⟨3, _⟩ => exact Fin.ext (by
      show (((0 * 2048 + j.val) * 64 + h.val) * 128 + d.val) % 128 = d.val; omega)

theorem idx_v5 (j : Fin 2048) (h : Fin 64) (d : Fin 128) :
    idx_main_v4 (idx_main_v5 (ix4 (0 : Fin 1) j h d)) = ix4 (0 : Fin 1) j (kvh h) d := idx_v3 j h d

theorem krep_read (j : Fin 2048) (h : Fin 64) (d : Fin 128) :
    val_main_v3 (F := Ideal) K (ix4 0 j h d) = K (ix4 0 j (kvh h) d) := by
  rw [val_main_v3_apply, val_main_v2_apply, idx_v3]

theorem vrep_read (j : Fin 2048) (h : Fin 64) (d : Fin 128) :
    val_main_v5 (F := Ideal) V (ix4 0 j h d) = V (ix4 0 j (kvh h) d) := by
  rw [val_main_v5_apply, val_main_v4_apply, idx_v5]

theorem idx_v9 (jj : Fin 1024) (h : Fin 64) (d : Fin 128) :
    idx_main_v9 (ix4 (0 : Fin 1) jj h d) = ix4 (0 : Fin 1) (pos 0 jj) h d := by
  funext a
  match a with
  | ⟨0, _⟩ => rfl
  | ⟨1, _⟩ => exact Fin.ext (by show jj.val = 1024 * 0 + jj.val; omega)
  | ⟨2, _⟩ => rfl
  | ⟨3, _⟩ => rfl

theorem idx_v32 (jj : Fin 1024) (h : Fin 64) (d : Fin 128) :
    idx_main_v32 (ix4 (0 : Fin 1) jj h d) = ix4 (0 : Fin 1) (pos 1 jj) h d := by
  funext a
  match a with
  | ⟨0, _⟩ => rfl
  | ⟨1, _⟩ => exact Fin.ext (by show 1024 + jj.val = 1024 * 1 + jj.val; omega)
  | ⟨2, _⟩ => rfl
  | ⟨3, _⟩ => rfl

theorem idx_v10 (jj : Fin 1024) (h : Fin 64) (d : Fin 128) :
    idx_main_v10 (ix4 (0 : Fin 1) jj h d) = ix4 (0 : Fin 1) (pos 0 jj) h d := idx_v9 jj h d

theorem idx_v33 (jj : Fin 1024) (h : Fin 64) (d : Fin 128) :
    idx_main_v33 (ix4 (0 : Fin 1) jj h d) = ix4 (0 : Fin 1) (pos 1 jj) h d := idx_v32 jj h d

theorem k0_read (hk : ∀ j g d, K (ix4 0 j g d) = ((kr j g d : ℝ) : EReal)) (jj : Fin 1024) (h : Fin 64) (d : Fin 128) :
    val_main_v9 (F := Ideal) K (ix4 0 jj h d) = ((kr (pos 0 jj) (kvh h) d : ℝ) : EReal) := by
  rw [val_main_v9_apply, idx_v9, krep_read, hk]

theorem k1_read (hk : ∀ j g d, K (ix4 0 j g d) = ((kr j g d : ℝ) : EReal)) (jj : Fin 1024) (h : Fin 64) (d : Fin 128) :
    val_main_v32 (F := Ideal) K (ix4 0 jj h d) = ((kr (pos 1 jj) (kvh h) d : ℝ) : EReal) := by
  rw [val_main_v32_apply, idx_v32, krep_read, hk]

theorem v0_read (hv : ∀ j g d, V (ix4 0 j g d) = ((vr j g d : ℝ) : EReal)) (jj : Fin 1024) (h : Fin 64) (d : Fin 128) :
    val_main_v10 (F := Ideal) V (ix4 0 jj h d) = ((vr (pos 0 jj) (kvh h) d : ℝ) : EReal) := by
  rw [val_main_v10_apply, idx_v10, vrep_read, hv]

theorem v1_read (hv : ∀ j g d, V (ix4 0 j g d) = ((vr j g d : ℝ) : EReal)) (jj : Fin 1024) (h : Fin 64) (d : Fin 128) :
    val_main_v33 (F := Ideal) V (ix4 0 jj h d) = ((vr (pos 1 jj) (kvh h) d : ℝ) : EReal) := by
  rw [val_main_v33_apply, idx_v33, vrep_read, hv]

end

end Cert.Proof.RefValue

end
-- ==== Proof.RefValueMax.lean ====
import proofs.«900750_g7700000000000751_dist_attn_cross_gqa_kvrep_htp_b1_sq512_skv2048_d1024_hq8_dh128_v7x_i8_bf16_1_alg».proof.Proof.RefValueQKV
import proofs.«900750_g7700000000000751_dist_attn_cross_gqa_kvrep_htp_b1_sq512_skv2048_d1024_hq8_dh128_v7x_i8_bf16_1_alg».proof.Proof.ScaleLit

noncomputable section

namespace Cert.Proof.RefValue

open Cert.ReferenceIdeal Cert.ReferenceIdeal.Gen Idealize.ShloMosaic Idealize.ShloMosaic.ValueIdx
open Cert.ReferenceIdeal.Read Cert.Spec Cert.Online

theorem lidx_v11 (h : Fin 64) (i : Fin 512) (jj : Fin 1024) (k : Fin 128) :
    lidx_main_v11 (ix4 (0 : Fin 1) h i jj) k = ix4 (0 : Fin 1) i h k := by
  funext a; match a with | ⟨0, _⟩ => rfl | ⟨1, _⟩ => rfl | ⟨2, _⟩ => rfl | ⟨3, _⟩ => rfl

theorem ridx_v11 (h : Fin 64) (i : Fin 512) (jj : Fin 1024) (k : Fin 128) :
    ridx_main_v11 (ix4 (0 : Fin 1) h i jj) k = ix4 (0 : Fin 1) jj h k := by
  funext a; match a with | ⟨0, _⟩ => rfl | ⟨1, _⟩ => rfl | ⟨2, _⟩ => rfl | ⟨3, _⟩ => rfl

theorem lidx_v34 (h : Fin 64) (i : Fin 512) (jj : Fin 1024) (k : Fin 128) :
    lidx_main_v34 (ix4 (0 : Fin 1) h i jj) k = ix4 (0 : Fin 1) i h k := lidx_v11 h i jj k

theorem ridx_v34 (h : Fin 64) (i : Fin 512) (jj : Fin 1024) (k : Fin 128) :
    ridx_main_v34 (ix4 (0 : Fin 1) h i jj) k = ix4 (0 : Fin 1) jj h k := ridx_v11 h i jj k

theorem scale0_read (j : S1x64x512x1024.Idx) : val_main_v12 (F := Ideal) j = ((scR : ℝ) : EReal) := by
  rw [val_main_v12_apply, val_main_cst_2_apply]
  exact scE_coe

theorem scale1_read (j : S1x64x512x1024.Idx) : val_main_v35 (F := Ideal) j = ((scR : ℝ) : EReal) := by
  rw [val_main_v35_apply, val_main_cst_5_apply]
  exact scE_coe

section
variable (X : (⟨S1x512x1024, .f32⟩ : BufTy).Contents (Elt Ideal)) (WQ : (⟨S1024x8192, .f32⟩ : BufTy).Contents (Elt Ideal))
  (K V : (⟨S1x2048x16x128, .f32⟩ : BufTy).Contents (Elt Ideal))
  (xr : Fin 512 → Fin 1024 → ℝ) (wqr : Fin 1024 → Fin 8192 → ℝ) (kr vr : Fin 2048 → Fin 16 → Fin 128 → ℝ)

theorem s0_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) (jj : Fin 1024) :
    val_main_v13 (F := Ideal) X WQ K (ix4 0 h i jj) = ((sB scR xr wqr kr 0 h i jj : ℝ) : EReal) := by
  rw [val_main_v13_apply, val_main_v11_apply, scale0_read]
  unfold Cert.Online.sB Cert.Spec.score
  rw [Ideal.mulf_def, EReal.coe_mul, coe_sum]
  congr 1
  refine Finset.sum_congr rfl fun k _ => ?_
  rw [lidx_v11, ridx_v11, q_read X WQ xr wqr hx hwq, k0_read K kr hk, EReal.coe_mul]

theorem s1_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) (jj : Fin 1024) :
    val_main_v36 (F := Ideal) X WQ K (ix4 0 h i jj) = ((sB scR xr wqr kr 1 h i jj : ℝ) : EReal) := by
  rw [val_main_v36_apply, val_main_v34_apply, scale1_read]
  unfold Cert.Online.sB Cert.Spec.score
  rw [Ideal.mulf_def, EReal.coe_mul, coe_sum]
  congr 1
  refine Finset.sum_congr rfl fun k _ => ?_
  rw [lidx_v34, ridx_v34, q_read X WQ xr wqr hx hwq, k1_read K kr hk, EReal.coe_mul]

end

theorem red_S : S1x64x512x1024.Reduces [3] S1x64x512 := by decide

theorem lift_S (h : Fin 64) (i : Fin 512) (k : Fin (S1x64x512x1024.size 3)) :
    red_S.lift (ix3 (0 : Fin 1) h i) k = ix4 (0 : Fin 1) h i (⟨k.val, k.isLt⟩ : Fin 1024) := by
  funext c; apply Fin.ext
  match c with
  | ⟨0, _⟩ => rfl
  | ⟨1, _⟩ => rfl
  | ⟨2, _⟩ => rfl
  | ⟨3, _⟩ => rfl

theorem max_read (Y : (⟨S1x64x512x1024, .f32⟩ : BufTy).Contents (Elt Ideal)) (init : (⟨S_, .f32⟩ : BufTy).Contents (Elt Ideal))
    (hinit : ∀ j, init j = (⊥ : EReal)) (f : Fin 64 → Fin 512 → Fin 1024 → ℝ)
    (hY : ∀ h i jj, Y (ix4 0 h i jj) = ((f h i jj : ℝ) : EReal)) (h : Fin 64) (i : Fin 512) :
    Host.reduce (FloatOps.maximumf (F := Ideal) (φ := .f32)) Y init reducesTo_S1x64x512x1024_S1x64x512_d3 h_S_ (ix3 0 h i)
      = ((Finset.univ.sup' ⟨(⟨0, by decide⟩ : Fin 1024), Finset.mem_univ _⟩ (f h i) : ℝ) : EReal) := by
  refine (Host.reduce_eq_fold_single (FloatOps.maximumf (F := Ideal) (φ := .f32)) Y init reducesTo_S1x64x512x1024_S1x64x512_d3 red_S h_S_
    (ix3 0 h i)).trans ?_
  have hf : (Y ∘ red_S.lift (ix3 0 h i)) = fun k : Fin 1024 => ((f h i k : ℝ) : EReal) :=
    funext fun k => by
      show Y (red_S.lift (ix3 0 h i) k) = _
      rw [lift_S]; exact hY h i _
  rw [hinit]
  refine Eq.trans ?_ (fold_max_coe _ (f h i))
  exact congrArg (fun g => Finset.fold max (⊥ : EReal) g (Finset.univ : Finset (Fin 1024))) hf

theorem idx_v15 (h : Fin 64) (i : Fin 512) : idx_main_v15 (ix4 (0 : Fin 1) h i (0 : Fin 1)) = ix3 (0 : Fin 1) h i := by
  funext a; match a with | ⟨0, _⟩ => rfl | ⟨1, _⟩ => rfl | ⟨2, _⟩ => rfl

theorem idx_v38 (h : Fin 64) (i : Fin 512) : idx_main_v38 (ix4 (0 : Fin 1) h i (0 : Fin 1)) = ix3 (0 : Fin 1) h i := idx_v15 h i

section
variable (X : (⟨S1x512x1024, .f32⟩ : BufTy).Contents (Elt Ideal)) (WQ : (⟨S1024x8192, .f32⟩ : BufTy).Contents (Elt Ideal))
  (K V : (⟨S1x2048x16x128, .f32⟩ : BufTy).Contents (Elt Ideal))
  (xr : Fin 512 → Fin 1024 → ℝ) (wqr : Fin 1024 → Fin 8192 → ℝ) (kr vr : Fin 2048 → Fin 16 → Fin 128 → ℝ)

theorem m0_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) :
    val_main_v14 (F := Ideal) X WQ K (ix3 0 h i) = ((mB scR xr wqr kr 0 h i : ℝ) : EReal) :=
  max_read (val_main_v13 (F := Ideal) X WQ K) (val_main_cst_3 (F := Ideal)) (fun _ => negInf_eq)
    (fun h i jj => sB scR xr wqr kr 0 h i jj) (s0_read X WQ K xr wqr kr hx hwq hk) h i

theorem m1_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) :
    val_main_v37 (F := Ideal) X WQ K (ix3 0 h i) = ((mB scR xr wqr kr 1 h i : ℝ) : EReal) :=
  max_read (val_main_v36 (F := Ideal) X WQ K) (val_main_cst_6 (F := Ideal)) (fun _ => negInf_eq)
    (fun h i jj => sB scR xr wqr kr 1 h i jj) (s1_read X WQ K xr wqr kr hx hwq hk) h i

theorem run0_read (j : S1x64x512x1.Idx) : val_main_v7 (F := Ideal) j = (⊥ : EReal) := by
  rw [val_main_v7_apply, val_main_cst_0_apply]
  exact negInf_eq

theorem rm0_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) :
    val_main_v16 (F := Ideal) X WQ K (ix4 0 h i 0) = ((mB scR xr wqr kr 0 h i : ℝ) : EReal) := by
  rw [val_main_v16_apply, run0_read, val_main_v15_apply, idx_v15, m0_read X WQ K xr wqr kr hx hwq hk, Ideal.maximumf_def]
  exact max_eq_right bot_le

theorem rm1_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) :
    val_main_v39 (F := Ideal) X WQ K (ix4 0 h i 0) = ((M scR xr wqr kr h i : ℝ) : EReal) := by
  rw [val_main_v39_apply, rm0_read X WQ K xr wqr kr hx hwq hk, val_main_v38_apply, idx_v38,
    m1_read X WQ K xr wqr kr hx hwq hk, Ideal.maximumf_def]
  unfold Cert.Online.M
  exact (Monotone.map_max EReal.coe_strictMono.monotone).symm

end

end Cert.Proof.RefValue

end
-- ==== Proof.RefValueBlk0.lean ====
import proofs.«900750_g7700000000000751_dist_attn_cross_gqa_kvrep_htp_b1_sq512_skv2048_d1024_hq8_dh128_v7x_i8_bf16_1_alg».proof.Proof.RefValueMax

noncomputable section

namespace Cert.Proof.RefValue

open Cert.ReferenceIdeal Cert.ReferenceIdeal.Gen Idealize.ShloMosaic Idealize.ShloMosaic.ValueIdx
open Cert.ReferenceIdeal.Read Cert.Spec Cert.Online

theorem idx_v19 (h : Fin 64) (i : Fin 512) (jj : Fin 1024) :
    idx_main_v19 (ix4 (0 : Fin 1) h i jj) = ix4 (0 : Fin 1) h i (0 : Fin 1) := by
  funext a; match a with | ⟨0, _⟩ => rfl | ⟨1, _⟩ => rfl | ⟨2, _⟩ => rfl | ⟨3, _⟩ => rfl

theorem idx_v23 (h : Fin 64) (i : Fin 512) (k : Fin 1024) :
    idx_main_v23 (ix3 (0 : Fin 1) h i) k = ix4 (0 : Fin 1) h i k := by
  funext a; match a with | ⟨0, _⟩ => rfl | ⟨1, _⟩ => rfl | ⟨2, _⟩ => rfl | ⟨3, _⟩ => rfl

theorem idx_v24 (h : Fin 64) (i : Fin 512) : idx_main_v24 (ix4 (0 : Fin 1) h i (0 : Fin 1)) = ix3 (0 : Fin 1) h i := by
  funext a; match a with | ⟨0, _⟩ => rfl | ⟨1, _⟩ => rfl | ⟨2, _⟩ => rfl

theorem idx_v26 (i : Fin 512) (h : Fin 64) :
    idx_main_v26 (ix4 (0 : Fin 1) i h (0 : Fin 1)) = ix4 (0 : Fin 1) h i (0 : Fin 1) := by
  funext a; match a with | ⟨0, _⟩ => rfl | ⟨1, _⟩ => rfl | ⟨2, _⟩ => rfl | ⟨3, _⟩ => rfl

theorem idx_v27 (i : Fin 512) (h : Fin 64) (d : Fin 128) :
    idx_main_v27 (ix4 (0 : Fin 1) i h d) = ix4 (0 : Fin 1) i h (0 : Fin 1) := by
  funext a; match a with | ⟨0, _⟩ => rfl | ⟨1, _⟩ => rfl | ⟨2, _⟩ => rfl | ⟨3, _⟩ => rfl

theorem lidx_v29 (h : Fin 64) (d : Fin 128) (i : Fin 512) (k : Fin 1024) :
    lidx_main_v29 (ix4 (0 : Fin 1) h d i) k = ix4 (0 : Fin 1) k h d := by
  funext a; match a with | ⟨0, _⟩ => rfl | ⟨1, _⟩ => rfl | ⟨2, _⟩ => rfl | ⟨3, _⟩ => rfl

theorem ridx_v29 (h : Fin 64) (d : Fin 128) (i : Fin 512) (k : Fin 1024) :
    ridx_main_v29 (ix4 (0 : Fin 1) h d i) k = ix4 (0 : Fin 1) h i k := by
  funext a; match a with | ⟨0, _⟩ => rfl | ⟨1, _⟩ => rfl | ⟨2, _⟩ => rfl | ⟨3, _⟩ => rfl

theorem idx_v30 (i : Fin 512) (h : Fin 64) (d : Fin 128) :
    idx_main_v30 (ix4 (0 : Fin 1) i h d) = ix4 (0 : Fin 1) h d i := by
  funext a; match a with | ⟨0, _⟩ => rfl | ⟨1, _⟩ => rfl | ⟨2, _⟩ => rfl | ⟨3, _⟩ => rfl

theorem l_init_read (j : S1x64x512x1.Idx) : val_main_v8 (F := Ideal) j = (0 : EReal) := by
  rw [val_main_v8_apply, val_main_cst_1_apply]
  exact Ideal.ofBits_zero_f32

theorem o_init_read (j : S1x512x64x128.Idx) : val_main_v6 (F := Ideal) j = (0 : EReal) := by
  rw [val_main_v6_apply, val_main_cst_apply]
  exact Ideal.ofBits_zero_f32

section
variable (X : (⟨S1x512x1024, .f32⟩ : BufTy).Contents (Elt Ideal)) (WQ : (⟨S1024x8192, .f32⟩ : BufTy).Contents (Elt Ideal))
  (K V : (⟨S1x2048x16x128, .f32⟩ : BufTy).Contents (Elt Ideal))
  (xr : Fin 512 → Fin 1024 → ℝ) (wqr : Fin 1024 → Fin 8192 → ℝ) (kr vr : Fin 2048 → Fin 16 → Fin 128 → ℝ)

theorem alpha0_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) :
    val_main_v18 (F := Ideal) X WQ K (ix4 0 h i 0) = (0 : EReal) := by
  rw [val_main_v18_apply, val_main_v17_apply, run0_read, rm0_read X WQ K xr wqr kr hx hwq hk, Ideal.hostUnary_exp_def,
    Ideal.subf_def, EReal.bot_sub, Ideal.exp_bot]

theorem p0_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) (jj : Fin 1024) :
    val_main_v21 (F := Ideal) X WQ K (ix4 0 h i jj)
      = ((Real.exp (sB scR xr wqr kr 0 h i jj - mB scR xr wqr kr 0 h i) : ℝ) : EReal) := by
  rw [val_main_v21_apply, val_main_v20_apply, s0_read X WQ K xr wqr kr hx hwq hk, val_main_v19_apply, idx_v19,
    rm0_read X WQ K xr wqr kr hx hwq hk, Ideal.hostUnary_exp_def, Ideal.subf_def, ← EReal.coe_sub, Ideal.exp_coe]

theorem l0_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) :
    val_main_v25 (F := Ideal) X WQ K (ix4 0 h i 0) = ((l0 scR xr wqr kr h i : ℝ) : EReal) := by
  rw [val_main_v25_apply, val_main_v22_apply, l_init_read, alpha0_read X WQ K xr wqr kr hx hwq hk, val_main_v24_apply, idx_v24,
    val_main_v23_apply, val_main_cst_4_apply, Ideal.ofBits_def, Ideal.ofBits_zero_f32, Ideal.addf_def, Ideal.mulf_def,
    mul_zero, zero_add, zero_add]
  unfold Cert.Online.l0
  rw [coe_sum]
  refine Finset.sum_congr rfl fun k _ => ?_
  rw [idx_v23, p0_read X WQ K xr wqr kr hx hwq hk]

theorem o0_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (hv : ∀ j g d, V (ix4 0 j g d) = ((vr j g d : ℝ) : EReal)) (i : Fin 512) (h : Fin 64) (d : Fin 128) :
    val_main_v31 (F := Ideal) X WQ K V (ix4 0 i h d) = ((o0 scR xr wqr kr vr h i d : ℝ) : EReal) := by
  rw [val_main_v31_apply, val_main_v28_apply, o_init_read, val_main_v27_apply, idx_v27, val_main_v26_apply, idx_v26,
    alpha0_read X WQ K xr wqr kr hx hwq hk, val_main_v30_apply, idx_v30, val_main_v29_apply, Ideal.addf_def, Ideal.mulf_def,
    mul_zero, zero_add]
  unfold Cert.Online.o0
  rw [coe_sum]
  refine Finset.sum_congr rfl fun k _ => ?_
  rw [lidx_v29, ridx_v29, v0_read V vr hv, p0_read X WQ K xr wqr kr hx hwq hk, ← EReal.coe_mul, mul_comm]

end

end Cert.Proof.RefValue

end
-- ==== Proof.RefValueBlk1.lean ====
import proofs.«900750_g7700000000000751_dist_attn_cross_gqa_kvrep_htp_b1_sq512_skv2048_d1024_hq8_dh128_v7x_i8_bf16_1_alg».proof.Proof.RefValueBlk0

noncomputable section

namespace Cert.Proof.RefValue

open Cert.ReferenceIdeal Cert.ReferenceIdeal.Gen Idealize.ShloMosaic Idealize.ShloMosaic.ValueIdx
open Cert.ReferenceIdeal.Read Cert.Spec Cert.Online

theorem idx_v42 (h : Fin 64) (i : Fin 512) (jj : Fin 1024) :
    idx_main_v42 (ix4 (0 : Fin 1) h i jj) = ix4 (0 : Fin 1) h i (0 : Fin 1) := idx_v19 h i jj

theorem idx_v46 (h : Fin 64) (i : Fin 512) (k : Fin 1024) :
    idx_main_v46 (ix3 (0 : Fin 1) h i) k = ix4 (0 : Fin 1) h i k := idx_v23 h i k

theorem idx_v47 (h : Fin 64) (i : Fin 512) : idx_main_v47 (ix4 (0 : Fin 1) h i (0 : Fin 1)) = ix3 (0 : Fin 1) h i := idx_v24 h i

theorem idx_v49 (i : Fin 512) (h : Fin 64) :
    idx_main_v49 (ix4 (0 : Fin 1) i h (0 : Fin 1)) = ix4 (0 : Fin 1) h i (0 : Fin 1) := idx_v26 i h

theorem idx_v50 (i : Fin 512) (h : Fin 64) (d : Fin 128) :
    idx_main_v50 (ix4 (0 : Fin 1) i h d) = ix4 (0 : Fin 1) i h (0 : Fin 1) := idx_v27 i h d

theorem lidx_v52 (h : Fin 64) (d : Fin 128) (i : Fin 512) (k : Fin 1024) :
    lidx_main_v52 (ix4 (0 : Fin 1) h d i) k = ix4 (0 : Fin 1) k h d := lidx_v29 h d i k

theorem ridx_v52 (h : Fin 64) (d : Fin 128) (i : Fin 512) (k : Fin 1024) :
    ridx_main_v52 (ix4 (0 : Fin 1) h d i) k = ix4 (0 : Fin 1) h i k := ridx_v29 h d i k

theorem idx_v53 (i : Fin 512) (h : Fin 64) (d : Fin 128) :
    idx_main_v53 (ix4 (0 : Fin 1) i h d) = ix4 (0 : Fin 1) h d i := idx_v30 i h d

section
variable (X : (⟨S1x512x1024, .f32⟩ : BufTy).Contents (Elt Ideal)) (WQ : (⟨S1024x8192, .f32⟩ : BufTy).Contents (Elt Ideal))
  (K V : (⟨S1x2048x16x128, .f32⟩ : BufTy).Contents (Elt Ideal))
  (xr : Fin 512 → Fin 1024 → ℝ) (wqr : Fin 1024 → Fin 8192 → ℝ) (kr vr : Fin 2048 → Fin 16 → Fin 128 → ℝ)

theorem alpha1_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) :
    val_main_v41 (F := Ideal) X WQ K (ix4 0 h i 0)
      = ((Real.exp (mB scR xr wqr kr 0 h i - M scR xr wqr kr h i) : ℝ) : EReal) := by
  rw [val_main_v41_apply, val_main_v40_apply, rm0_read X WQ K xr wqr kr hx hwq hk, rm1_read X WQ K xr wqr kr hx hwq hk,
    Ideal.hostUnary_exp_def, Ideal.subf_def, ← EReal.coe_sub, Ideal.exp_coe]

theorem p1_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) (jj : Fin 1024) :
    val_main_v44 (F := Ideal) X WQ K (ix4 0 h i jj)
      = ((Real.exp (sB scR xr wqr kr 1 h i jj - M scR xr wqr kr h i) : ℝ) : EReal) := by
  rw [val_main_v44_apply, val_main_v43_apply, s1_read X WQ K xr wqr kr hx hwq hk, val_main_v42_apply, idx_v42,
    rm1_read X WQ K xr wqr kr hx hwq hk, Ideal.hostUnary_exp_def, Ideal.subf_def, ← EReal.coe_sub, Ideal.exp_coe]

theorem l1_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (h : Fin 64) (i : Fin 512) :
    val_main_v48 (F := Ideal) X WQ K (ix4 0 h i 0) = ((l1 scR xr wqr kr h i : ℝ) : EReal) := by
  rw [val_main_v48_apply, val_main_v45_apply, l0_read X WQ K xr wqr kr hx hwq hk, alpha1_read X WQ K xr wqr kr hx hwq hk,
    val_main_v47_apply, idx_v47, val_main_v46_apply, val_main_cst_7_apply, Ideal.ofBits_def, Ideal.ofBits_zero_f32,
    Ideal.addf_def, Ideal.mulf_def, zero_add]
  unfold Cert.Online.l1
  rw [EReal.coe_add, EReal.coe_mul, coe_sum]
  congr 1
  refine Finset.sum_congr rfl fun k _ => ?_
  rw [idx_v46, p1_read X WQ K xr wqr kr hx hwq hk]

theorem o1_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (hv : ∀ j g d, V (ix4 0 j g d) = ((vr j g d : ℝ) : EReal)) (i : Fin 512) (h : Fin 64) (d : Fin 128) :
    val_main_v54 (F := Ideal) X WQ K V (ix4 0 i h d) = ((o1 scR xr wqr kr vr h i d : ℝ) : EReal) := by
  rw [val_main_v54_apply, val_main_v51_apply, o0_read X WQ K V xr wqr kr vr hx hwq hk hv, val_main_v50_apply, idx_v50,
    val_main_v49_apply, idx_v49, alpha1_read X WQ K xr wqr kr hx hwq hk, val_main_v53_apply, idx_v53, val_main_v52_apply,
    Ideal.addf_def, Ideal.mulf_def]
  unfold Cert.Online.o1
  rw [EReal.coe_add, EReal.coe_mul, coe_sum]
  congr 1
  refine Finset.sum_congr rfl fun k _ => ?_
  rw [lidx_v52, ridx_v52, v1_read V vr hv, p1_read X WQ K xr wqr kr hx hwq hk, ← EReal.coe_mul, mul_comm]

end

end Cert.Proof.RefValue

end
-- ==== Proof.RefValue.lean ====
import proofs.«900750_g7700000000000751_dist_attn_cross_gqa_kvrep_htp_b1_sq512_skv2048_d1024_hq8_dh128_v7x_i8_bf16_1_alg».proof.Proof.RefValueBlk1

noncomputable section

namespace Cert.Proof.RefValue

open Cert.ReferenceIdeal Cert.ReferenceIdeal.Gen Idealize.ShloMosaic Idealize.ShloMosaic.ValueIdx
open Cert.ReferenceIdeal.Read Cert.Spec Cert.Online

theorem idx_v55 (i : Fin 512) (h : Fin 64) :
    idx_main_v55 (ix4 (0 : Fin 1) i h (0 : Fin 1)) = ix4 (0 : Fin 1) h i (0 : Fin 1) := idx_v26 i h

theorem idx_v56 (i : Fin 512) (h : Fin 64) (d : Fin 128) :
    idx_main_v56 (ix4 (0 : Fin 1) i h d) = ix4 (0 : Fin 1) i h (0 : Fin 1) := idx_v27 i h d

theorem idx_v58 (i : Fin 512) (n : Fin 8192) :
    idx_main_v58 (ix3 (0 : Fin 1) i n) = ix4 (0 : Fin 1) i (hd n) (dd n) := by
  have hi := i.isLt; have hn := n.isLt
  funext a
  match a with
  | ⟨0, _⟩ => rfl
  | ⟨1, _⟩ => exact Fin.ext (by show ((0 * 512 + i.val) * 8192 + n.val) / 8192 % 512 = i.val; omega)
  | ⟨2, _⟩ => exact Fin.ext (by show ((0 * 512 + i.val) * 8192 + n.val) / 128 % 64 = n.val / 128; omega)
  | ⟨3, _⟩ => exact Fin.ext (by show ((0 * 512 + i.val) * 8192 + n.val) % 128 = n.val % 128; omega)

theorem lidx_v59 (i : Fin 512) (c : Fin 1024) (n : Fin 8192) :
    lidx_main_v59 (ix3 (0 : Fin 1) i c) n = ix3 (0 : Fin 1) i n := by
  funext a; match a with | ⟨0, _⟩ => rfl | ⟨1, _⟩ => rfl | ⟨2, _⟩ => rfl

theorem ridx_v59 (i : Fin 512) (c : Fin 1024) (n : Fin 8192) :
    ridx_main_v59 (ix3 (0 : Fin 1) i c) n = ix2 n c := by
  funext a; match a with | ⟨0, _⟩ => rfl | ⟨1, _⟩ => rfl

theorem l1_pos (sc : ℝ) (x : Fin 512 → Fin 1024 → ℝ) (wq : Fin 1024 → Fin 8192 → ℝ) (k : Fin 2048 → Fin 16 → Fin 128 → ℝ)
    (h : Fin 64) (i : Fin 512) : 0 < l1 sc x wq k h i := by
  unfold Cert.Online.l1 Cert.Online.l0
  exact add_pos_of_nonneg_of_pos
    (mul_nonneg (Finset.sum_nonneg fun _ _ => (Real.exp_pos _).le) (Real.exp_pos _).le)
    (Finset.sum_pos (fun _ _ => Real.exp_pos _) ⟨(⟨0, by decide⟩ : Fin 1024), Finset.mem_univ _⟩)

section
variable (X : (⟨S1x512x1024, .f32⟩ : BufTy).Contents (Elt Ideal)) (WQ : (⟨S1024x8192, .f32⟩ : BufTy).Contents (Elt Ideal))
  (K V : (⟨S1x2048x16x128, .f32⟩ : BufTy).Contents (Elt Ideal))
  (xr : Fin 512 → Fin 1024 → ℝ) (wqr : Fin 1024 → Fin 8192 → ℝ) (kr vr : Fin 2048 → Fin 16 → Fin 128 → ℝ)

theorem quot_read (hx : ∀ i t, X (ix3 0 i t) = ((xr i t : ℝ) : EReal)) (hwq : ∀ t n, WQ (ix2 t n) = ((wqr t n : ℝ) : EReal))
    (hk : ∀ j g d, K (ix4 0 j g d) = ((kr j g d : ℝ) : EReal)) (hv : ∀ j g d, V (ix4 0 j g d) = ((vr j g d : ℝ) : EReal)) (i : Fin 512) (h : Fin 64) (d : Fin 128) :
    val_main_v57 (F := Ideal) X WQ K V (ix4 0 i h d)
      = ((o1 scR xr wqr kr vr h i d / l1 scR xr wqr kr h i : ℝ) : EReal) := by
  rw [val_main_v57_apply, o1_read X WQ K V xr wqr kr vr hx hwq hk hv, val_main_v56_apply, idx_v56, val_main_v55_apply, idx_v55,
    l1_read X WQ K xr wqr kr hx hwq hk, Ideal.hostDivf_def, Ideal.div_coe (l1_pos scR xr wqr kr h i).ne', ← EReal.coe_mul,
    mul_one_div]

end

open Cert.ReferenceIdeal Cert.ReferenceIdeal.Gen Idealize.ShloMosaic Idealize.ShloMosaic.ValueIdx in

theorem ref_out
    (X : (⟨S1x512x1024, .f32⟩ : BufTy).Contents (Elt Ideal)) (WQ : (⟨S1024x8192, .f32⟩ : BufTy).Contents (Elt Ideal))
    (WO : (⟨S8192x1024, .f32⟩ : BufTy).Contents (Elt Ideal)) (K V : (⟨S1x2048x16x128, .f32⟩ : BufTy).Contents (Elt Ideal))
    (xr : Fin 512 → Fin 1024 → ℝ) (wqr : Fin 1024 → Fin 8192 → ℝ) (wor : Fin 8192 → Fin 1024 → ℝ) (kr vr : Fin 2048 → Fin 16 → Fin 128 → ℝ)
    (hx : ∀ i t, X (ix3 0 i t) = ((xr i t : ℝ) : EReal)) (hwq : ∀ t n, WQ (ix2 t n) = ((wqr t n : ℝ) : EReal))
    (hwo : ∀ n c, WO (ix2 n c) = ((wor n c : ℝ) : EReal))
    (hk : ∀ j g d, K (ix4 0 j g d) = ((kr j g d : ℝ) : EReal)) (hv : ∀ j g d, V (ix4 0 j g d) = ((vr j g d : ℝ) : EReal))
    (i : Fin 512) (c : Fin 1024) :
    Cert.ReferenceIdeal.Read.val_main_v59 X WQ WO K V (ix3 0 i c) = ((Cert.Online.out Cert.Spec.scR xr wqr wor kr vr i c : ℝ) : EReal) := by
  rw [val_main_v59_apply]
  unfold Cert.Online.out
  rw [coe_sum]
  refine Finset.sum_congr rfl fun n _ => ?_
  rw [lidx_v59, ridx_v59, val_main_v58_apply, idx_v58, quot_read X WQ K V xr wqr kr vr hx hwq hk hv, hwo, ← EReal.coe_mul]
  rfl

end Cert.Proof.RefValue

end
-- ==== Proof.OnlineEq.lean ====
import proofs.«900750_g7700000000000751_dist_attn_cross_gqa_kvrep_htp_b1_sq512_skv2048_d1024_hq8_dh128_v7x_i8_bf16_1_alg».proof.Proof.Online
import Mathlib.Algebra.BigOperators.Fin
import Mathlib.Analysis.SpecialFunctions.Exp

noncomputable section

namespace Cert.Online

open Cert.Spec

theorem sum_blocks (f : Fin 2048 → ℝ) :
    ∑ j : Fin 2048, f j = ∑ jj : Fin 1024, f (pos 0 jj) + ∑ jj : Fin 1024, f (pos 1 jj) := by
  have h0 : ∀ jj : Fin 1024, (Fin.castAdd 1024 jj : Fin (1024 + 1024)) = pos 0 jj :=
    fun jj => Fin.ext (by simp [pos])
  have h1 : ∀ jj : Fin 1024, (Fin.natAdd 1024 jj : Fin (1024 + 1024)) = pos 1 jj :=
    fun jj => Fin.ext (by simp [pos, Nat.add_comm])
  have h := Fin.sum_univ_add (a := 1024) (b := 1024) f
  simp only [h0, h1] at h
  exact h

theorem exp_shift (s m M : ℝ) : Real.exp (s - m) * Real.exp (m - M) = Real.exp s * Real.exp (-M) := by
  rw [← Real.exp_add, ← Real.exp_add]
  congr 1
  ring

theorem exp_rel (s M : ℝ) : Real.exp (s - M) = Real.exp s * Real.exp (-M) := by
  rw [← Real.exp_add, sub_eq_add_neg]

section
variable (sc : ℝ) (x : Fin 512 → Fin 1024 → ℝ) (wq : Fin 1024 → Fin 8192 → ℝ) (wo : Fin 8192 → Fin 1024 → ℝ)
  (k v : Fin 2048 → Fin 16 → Fin 128 → ℝ)

theorem l1_eq (h : Fin 64) (i : Fin 512) :
    l1 sc x wq k h i
      = (∑ j : Fin 2048, Real.exp (score sc x wq k h i j)) * Real.exp (- M sc x wq k h i) := by
  unfold l1 l0 sB
  rw [sum_blocks, add_mul, Finset.sum_mul, Finset.sum_mul, Finset.sum_mul]
  congr 1
  · exact Finset.sum_congr rfl (fun jj _ => exp_shift _ _ _)
  · exact Finset.sum_congr rfl (fun jj _ => exp_rel _ _)

theorem o1_eq (h : Fin 64) (i : Fin 512) (d : Fin 128) :
    o1 sc x wq k v h i d
      = (∑ j : Fin 2048, Real.exp (score sc x wq k h i j) * v j (kvh h) d) * Real.exp (- M sc x wq k h i) := by
  unfold o1 o0 sB
  rw [sum_blocks, add_mul, Finset.sum_mul, Finset.sum_mul, Finset.sum_mul]
  congr 1
  · refine Finset.sum_congr rfl (fun jj _ => ?_)
    rw [mul_right_comm, exp_shift, mul_right_comm]
  · refine Finset.sum_congr rfl (fun jj _ => ?_)
    rw [exp_rel, mul_right_comm]

end

theorem l1_pos (sc : ℝ) (x : Fin 512 → Fin 1024 → ℝ) (wq : Fin 1024 → Fin 8192 → ℝ)
    (k : Fin 2048 → Fin 16 → Fin 128 → ℝ) (h : Fin 64) (i : Fin 512) : 0 < l1 sc x wq k h i := by
  rw [l1_eq]
  exact mul_pos (denom_pos _) (Real.exp_pos _)

theorem attn_eq (sc : ℝ) (x : Fin 512 → Fin 1024 → ℝ) (wq : Fin 1024 → Fin 8192 → ℝ)
    (k v : Fin 2048 → Fin 16 → Fin 128 → ℝ) (i : Fin 512) (n : Fin 8192) :
    Cert.Online.attn sc x wq k v i n = Cert.Spec.attn sc x wq k v i n := by
  unfold Cert.Online.attn Cert.Spec.attn
  rw [o1_eq, l1_eq]
  exact mul_div_mul_right _ _ (Real.exp_pos _).ne'

theorem out_eq (sc : ℝ) (x : Fin 512 → Fin 1024 → ℝ) (wq : Fin 1024 → Fin 8192 → ℝ)
    (wo : Fin 8192 → Fin 1024 → ℝ) (k v : Fin 2048 → Fin 16 → Fin 128 → ℝ) (i : Fin 512) (c : Fin 1024) :
    Cert.Online.out sc x wq wo k v i c = Cert.Spec.out sc x wq wo k v i c := by
  unfold Cert.Online.out Cert.Spec.out
  exact Finset.sum_congr rfl (fun n _ => by rw [attn_eq])

end Cert.Online

end
-- ==== Proof.RefFinal.lean ====
import proofs.«900750_g7700000000000751_dist_attn_cross_gqa_kvrep_htp_b1_sq512_skv2048_d1024_hq8_dh128_v7x_i8_bf16_1_alg».proof.Proof.RefValue
import proofs.«900750_g7700000000000751_dist_attn_cross_gqa_kvrep_htp_b1_sq512_skv2048_d1024_hq8_dh128_v7x_i8_bf16_1_alg».proof.Proof.OnlineEq
import proofs.«900750_g7700000000000751_dist_attn_cross_gqa_kvrep_htp_b1_sq512_skv2048_d1024_hq8_dh128_v7x_i8_bf16_1_alg».proof.Proof.Inputs

noncomputable section

namespace Cert.Proof.RefValue

open Idealize.ShloMosaic Idealize.SL.Sem Idealize.ShloMosaic.ValueIdx Cert.Proof.Inputs

theorem ref_final {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hpre : Cert.Pre_KernelIdeal m) (hag : Agree m m') :
    Cert.ReferenceIdeal.Value.res_main_v59 (F := Ideal) m' (0 : Dev Cert.ReferenceIdeal.nD)
      = fun idx : Cert.ReferenceIdeal.S1x512x1024.Idx =>
          ((Cert.Spec.out Cert.Spec.scR (xr m') (wqr m') (wor m') (kr m') (vr m')
            ⟨(idx 1).val, (idx 1).isLt⟩ ⟨(idx 2).val, (idx 2).isLt⟩ : ℝ) : EReal) := by
  rw [Cert.ReferenceIdeal.Read.val_main_v59_eq]
  funext idx
  obtain ⟨a, i, c, rfl⟩ : ∃ (a : Fin 1) (i : Fin 512) (c : Fin 1024), idx = ix3 a i c := ⟨idx 0, idx 1, idx 2, eq_ix3 idx⟩
  obtain rfl : a = 0 := Subsingleton.elim _ _
  exact (ref_out (wX m') (wWQ m') (wWO m') (wK m') (wV m') (xr m') (wqr m') (wor m') (kr m') (vr m')
    (x_real hpre hag) (wq_real hpre hag) (wo_real hpre hag) (k_real hpre hag) (v_real hpre hag) i c).trans
    (congrArg (fun r : ℝ => (r : EReal)) (Cert.Online.out_eq Cert.Spec.scR (xr m') (wqr m') (wor m') (kr m') (vr m') i c))

end Cert.Proof.RefValue

end
-- ==== Proof.RefFrame.lean ====
import proofs.«900750_g7700000000000751_dist_attn_cross_gqa_kvrep_htp_b1_sq512_skv2048_d1024_hq8_dh128_v7x_i8_bf16_1_alg».proof.Defs
import proofs.«900750_g7700000000000751_dist_attn_cross_gqa_kvrep_htp_b1_sq512_skv2048_d1024_hq8_dh128_v7x_i8_bf16_1_alg».proof.Proof.Gen.ReferenceIdeal
import proofs.«900750_g7700000000000751_dist_attn_cross_gqa_kvrep_htp_b1_sq512_skv2048_d1024_hq8_dh128_v7x_i8_bf16_1_alg».proof.Proof.Gen.ReferenceIdeal.Run
import proofs.«900750_g7700000000000751_dist_attn_cross_gqa_kvrep_htp_b1_sq512_skv2048_d1024_hq8_dh128_v7x_i8_bf16_1_alg».proof.Proof.Gen.ReferenceIdeal.Read
import proofs.«900750_g7700000000000751_dist_attn_cross_gqa_kvrep_htp_b1_sq512_skv2048_d1024_hq8_dh128_v7x_i8_bf16_1_alg».proof.Proof.Gen.Pre_finite_inputs_ReferenceIdeal

noncomputable section

namespace Cert.Proof.RefFrame

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Claims.lean ====
import proofs.«900750_g7700000000000751_dist_attn_cross_gqa_kvrep_htp_b1_sq512_skv2048_d1024_hq8_dh128_v7x_i8_bf16_1_alg».proof.Defs
import proofs.«900750_g7700000000000751_dist_attn_cross_gqa_kvrep_htp_b1_sq512_skv2048_d1024_hq8_dh128_v7x_i8_bf16_1_alg».proof.Proof.LaunchK
import proofs.«900750_g7700000000000751_dist_attn_cross_gqa_kvrep_htp_b1_sq512_skv2048_d1024_hq8_dh128_v7x_i8_bf16_1_alg».proof.Proof.Body
import proofs.«900750_g7700000000000751_dist_attn_cross_gqa_kvrep_htp_b1_sq512_skv2048_d1024_hq8_dh128_v7x_i8_bf16_1_alg».proof.Proof.DevValue
import proofs.«900750_g7700000000000751_dist_attn_cross_gqa_kvrep_htp_b1_sq512_skv2048_d1024_hq8_dh128_v7x_i8_bf16_1_alg».proof.Proof.RefFinal
import proofs.«900750_g7700000000000751_dist_attn_cross_gqa_kvrep_htp_b1_sq512_skv2048_d1024_hq8_dh128_v7x_i8_bf16_1_alg».proof.Proof.RefFrame
import proofs.«900750_g7700000000000751_dist_attn_cross_gqa_kvrep_htp_b1_sq512_skv2048_d1024_hq8_dh128_v7x_i8_bf16_1_alg».proof.Proof.Gen.Kernel

noncomputable section

namespace Cert.Proof.Claims

open Idealize.ShloMosaic Idealize.SL.Sem Cert.KernelIdeal.Hand

-- The idealization rewrote no operation: the two printed body tables are one term, label by label.
theorem defs₀_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl
  | ⟨_ + 1, h⟩, _ => exact absurd h (by omega)

theorem defs_eq {F : FTy → Type} [FloatOps F] : Cert.Kernel.defs (F := F) = Cert.KernelIdeal.defs (F := F) := by
  unfold Cert.Kernel.defs Cert.KernelIdeal.defs
  rw [defs₀_eq]
  rfl

-- The run holds at every float instance; each frame is that run with the result's value dropped.
theorem frame_p : Cert.frame_Kernel := fun m ρ _ => by
  rw [defs_eq]
  exact (θ_run Cert.KernelIdeal.defs _ _).mono (fun _ h c => (h c).2) (run_main (F := Bits) m ρ (Pc m) (sound_body m))

theorem frame_pi : Cert.frame_KernelIdeal := fun m ρ _ =>
  (θ_run Cert.KernelIdeal.defs _ _).mono (fun _ h c => (h c).2) (run_main (F := Ideal) m ρ (Pc m) (sound_body m))

theorem preserves : Cert.preserves_Kernel_KernelIdeal := trivial

-- Every device ends with the array the one-device reference ends with.
theorem algebraic : Cert.algebraic_KernelIdeal_ReferenceIdeal := fun m ρ m' ρ' hpre hag =>
  ⟨Cert.ReferenceIdeal.Value.res_main_v59 (F := Ideal) m' 0,
    (θ_run Cert.KernelIdeal.defs _ _).mono
      (fun _ h c => ⟨((h c).1).trans ((kernel_out hpre hag c).trans (Cert.Proof.RefValue.ref_final hpre hag).symm), (h c).2⟩)
      (run_main m ρ (Pc m) (sound_body m)),
    (θ_run Cert.ReferenceIdeal.defs _ _).mono (fun _ h => h 0) (Cert.ReferenceIdeal.Value.run (F := Ideal) m' ρ')⟩

end Cert.Proof.Claims

end
-- ==== Proof.lean ====
/-
  Eight devices each hold one eighth of the query and output weights. Device c computes, for each of the eight
  64-row chunks, the product of its heads' attention output with its rows of the output weights; the eight
  partial products of a chunk are summed along the ring from both sides, device c finishes chunk c, and every
  finished chunk is sent to all. A sum over all columns is the sum over the devices of their own columns' sums,
  and over the reals the reference's running maximum cancels from the softmax quotient, so every device ends
  with the reference's result.
-/
import proofs.«900750_g7700000000000751_dist_attn_cross_gqa_kvrep_htp_b1_sq512_skv2048_d1024_hq8_dh128_v7x_i8_bf16_1_alg».proof.Defs
import proofs.«900750_g7700000000000751_dist_attn_cross_gqa_kvrep_htp_b1_sq512_skv2048_d1024_hq8_dh128_v7x_i8_bf16_1_alg».proof.Proof.Claims

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, Claims.frame_p, Claims.frame_pi, RefFrame.frame_ri, Claims.preserves, Claims.algebraic⟩

end Cert.Proof
